-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v679) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S262144x24x9 : Shape := ⟨3, ![262144, 24, 9]⟩
abbrev S262144x24x3 : Shape := ⟨3, ![262144, 24, 3]⟩
abbrev S6x288 : Shape := ⟨2, ![6, 288]⟩
abbrev S6 : Shape := ⟨1, ![6]⟩
abbrev S24x19x19 : Shape := ⟨3, ![24, 19, 19]⟩
abbrev S24x19 : Shape := ⟨2, ![24, 19]⟩
abbrev S24x6x19 : Shape := ⟨3, ![24, 6, 19]⟩
abbrev S24x6 : Shape := ⟨2, ![24, 6]⟩
abbrev S_ : Shape := ⟨0, ![]⟩

class Facts : Prop where
  bcast_S_S262144x24x9 : S_.BroadcastsInDim S262144x24x9 (![] : Fin 0 → Fin S262144x24x9.rank)
  reducesTo_S262144x24x9_S_d0_1_2 : S262144x24x9.ReducesTo [0, 1, 2] S_
  h_S_ : 0 < S_.numel
  bcast_S_S262144x24x3 : S_.BroadcastsInDim S262144x24x3 (![] : Fin 0 → Fin S262144x24x3.rank)
  reducesTo_S262144x24x3_S_d0_1_2 : S262144x24x3.ReducesTo [0, 1, 2] S_
  bcast_S_S6x288 : S_.BroadcastsInDim S6x288 (![] : Fin 0 → Fin S6x288.rank)
  reducesTo_S6x288_S_d0_1 : S6x288.ReducesTo [0, 1] S_
  bcast_S_S6 : S_.BroadcastsInDim S6 (![] : Fin 0 → Fin S6.rank)
  reducesTo_S6_S_d0 : S6.ReducesTo [0] S_
  bcast_S_S24x19x19 : S_.BroadcastsInDim S24x19x19 (![] : Fin 0 → Fin S24x19x19.rank)
  reducesTo_S24x19x19_S_d0_1_2 : S24x19x19.ReducesTo [0, 1, 2] S_
  bcast_S_S24x19 : S_.BroadcastsInDim S24x19 (![] : Fin 0 → Fin S24x19.rank)
  reducesTo_S24x19_S_d0_1 : S24x19.ReducesTo [0, 1] S_
  bcast_S_S24x6x19 : S_.BroadcastsInDim S24x6x19 (![] : Fin 0 → Fin S24x6x19.rank)
  reducesTo_S24x6x19_S_d0_1_2 : S24x6x19.ReducesTo [0, 1, 2] S_
  bcast_S_S24x6 : S_.BroadcastsInDim S24x6 (![] : Fin 0 → Fin S24x6.rank)
  reducesTo_S24x6_S_d0_1 : S24x6.ReducesTo [0, 1] S_

variable [Facts]

def fn_part2 {F : FTy → Type} [FloatOps F] (main_arg7 : FVec F S24x6 .f32) (main_v33 : IVec S_ 1) : IVec S_ 1 :=
  let main_v34 : FVec F S24x6 .f32 := Host.absf main_arg7
  let main_cst_12 : FVec F S_ .f32 := constant S_ .f32 0x7F800000#32
  let main_v35 : FVec F S24x6 .f32 := broadcastInDim S24x6 ![] bcast_S_S24x6 main_cst_12
  let main_v36 : IVec S24x6 1 := cmpf .olt main_v34 main_v35
  let main_c_13 : IVec S_ 1 := constantI S_ 1 1#1
  let main_v37 : IVec S_ 1 := (fun x v => Host.reduce IntOp.andi x v reducesTo_S24x6_S_d0_1 h_S_) main_v36 main_c_13
  let main_v38 : IVec S_ 1 := andi main_v33 main_v37
  main_v38

def fn_part1 {F : FTy → Type} [FloatOps F] (main_arg4 : FVec F S24x19x19 .f32) (main_arg5 : FVec F S24x19 .f32) (main_arg6 : FVec F S24x6x19 .f32) (main_arg7 : FVec F S24x6 .f32) (main_v13 : IVec S_ 1) (main_v16 : IVec S6 1) : IVec S_ 1 :=
  let main_c_5 : IVec S_ 1 := constantI S_ 1 1#1
  let main_v17 : IVec S_ 1 := (fun x v => Host.reduce IntOp.andi x v reducesTo_S6_S_d0 h_S_) main_v16 main_c_5
  let main_v18 : IVec S_ 1 := andi main_v13 main_v17
  let main_v19 : FVec F S24x19x19 .f32 := Host.absf main_arg4
  let main_cst_6 : FVec F S_ .f32 := constant S_ .f32 0x7F800000#32
  let main_v20 : FVec F S24x19x19 .f32 := broadcastInDim S24x19x19 ![] bcast_S_S24x19x19 main_cst_6
  let main_v21 : IVec S24x19x19 1 := cmpf .olt main_v19 main_v20
  let main_c_7 : IVec S_ 1 := constantI S_ 1 1#1
  let main_v22 : IVec S_ 1 := (fun x v => Host.reduce IntOp.andi x v reducesTo_S24x19x19_S_d0_1_2 h_S_) main_v21 main_c_7
  let main_v23 : IVec S_ 1 := andi main_v18 main_v22
  let main_v24 : FVec F S24x19 .f32 := Host.absf main_arg5
  let main_cst_8 : FVec F S_ .f32 := constant S_ .f32 0x7F800000#32
  let main_v25 : FVec F S24x19 .f32 := broadcastInDim S24x19 ![] bcast_S_S24x19 main_cst_8
  let main_v26 : IVec S24x19 1 := cmpf .olt main_v24 main_v25
  let main_c_9 : IVec S_ 1 := constantI S_ 1 1#1
  let main_v27 : IVec S_ 1 := (fun x v => Host.reduce IntOp.andi x v reducesTo_S24x19_S_d0_1 h_S_) main_v26 main_c_9
  let main_v28 : IVec S_ 1 := andi main_v23 main_v27
  let main_v29 : FVec F S24x6x19 .f32 := Host.absf main_arg6
  let main_cst_10 : FVec F S_ .f32 := constant S_ .f32 0x7F800000#32
  let main_v30 : FVec F S24x6x19 .f32 := broadcastInDim S24x6x19 ![] bcast_S_S24x6x19 main_cst_10
  let main_v31 : IVec S24x6x19 1 := cmpf .olt main_v29 main_v30
  let main_c_11 : IVec S_ 1 := constantI S_ 1 1#1
  let main_v32 : IVec S_ 1 := (fun x v => Host.reduce IntOp.andi x v reducesTo_S24x6x19_S_d0_1_2 h_S_) main_v31 main_c_11
  let main_v33 : IVec S_ 1 := andi main_v28 main_v32
  fn_part2 (F := F) main_arg7 main_v33

def fn {F : FTy → Type} [FloatOps F] (main_arg0 : FVec F S262144x24x9 .f32) (main_arg1 : FVec F S262144x24x3 .f32) (main_arg2 : FVec F S6x288 .f32) (main_arg3 : FVec F S6 .f32) (main_arg4 : FVec F S24x19x19 .f32) (main_arg5 : FVec F S24x19 .f32) (main_arg6 : FVec F S24x6x19 .f32) (main_arg7 : FVec F S24x6 .f32) : IVec S_ 1 :=
  let main_v0 : FVec F S262144x24x9 .f32 := Host.absf main_arg0
  let main_cst : FVec F S_ .f32 := constant S_ .f32 0x7F800000#32
  let main_v1 : FVec F S262144x24x9 .f32 := broadcastInDim S262144x24x9 ![] bcast_S_S262144x24x9 main_cst
  let main_v2 : IVec S262144x24x9 1 := cmpf .olt main_v0 main_v1
  let main_c : IVec S_ 1 := constantI S_ 1 1#1
  let main_v3 : IVec S_ 1 := (fun x v => Host.reduce IntOp.andi x v reducesTo_S262144x24x9_S_d0_1_2 h_S_) main_v2 main_c
  let main_v4 : FVec F S262144x24x3 .f32 := Host.absf main_arg1
  let main_cst_0 : FVec F S_ .f32 := constant S_ .f32 0x7F800000#32
  let main_v5 : FVec F S262144x24x3 .f32 := broadcastInDim S262144x24x3 ![] bcast_S_S262144x24x3 main_cst_0
  let main_v6 : IVec S262144x24x3 1 := cmpf .olt main_v4 main_v5
  let main_c_1 : IVec S_ 1 := constantI S_ 1 1#1
  let main_v7 : IVec S_ 1 := (fun x v => Host.reduce IntOp.andi x v reducesTo_S262144x24x3_S_d0_1_2 h_S_) main_v6 main_c_1
  let main_v8 : IVec S_ 1 := andi main_v3 main_v7
  let main_v9 : FVec F S6x288 .f32 := Host.absf main_arg2
  let main_cst_2 : FVec F S_ .f32 := constant S_ .f32 0x7F800000#32
  let main_v10 : FVec F S6x288 .f32 := broadcastInDim S6x288 ![] bcast_S_S6x288 main_cst_2
  let main_v11 : IVec S6x288 1 := cmpf .olt main_v9 main_v10
  let main_c_3 : IVec S_ 1 := constantI S_ 1 1#1
  let main_v12 : IVec S_ 1 := (fun x v => Host.reduce IntOp.andi x v reducesTo_S6x288_S_d0_1 h_S_) main_v11 main_c_3
  let main_v13 : IVec S_ 1 := andi main_v8 main_v12
  let main_v14 : FVec F S6 .f32 := Host.absf main_arg3
  let main_cst_4 : FVec F S_ .f32 := constant S_ .f32 0x7F800000#32
  let main_v15 : FVec F S6 .f32 := broadcastInDim S6 ![] bcast_S_S6 main_cst_4
  let main_v16 : IVec S6 1 := cmpf .olt main_v14 main_v15
  fn_part1 (F := F) main_arg4 main_arg5 main_arg6 main_arg7 main_v13 main_v16
-- ==== Kernel.lean ====
abbrev S262144x24x9 : Shape := ⟨3, ![262144, 24, 9]⟩
abbrev S262144x24x3 : Shape := ⟨3, ![262144, 24, 3]⟩
abbrev S6x288 : Shape := ⟨2, ![6, 288]⟩
abbrev S6 : Shape := ⟨1, ![6]⟩
abbrev S24x19x19 : Shape := ⟨3, ![24, 19, 19]⟩
abbrev S24x19 : Shape := ⟨2, ![24, 19]⟩
abbrev S24x6x19 : Shape := ⟨3, ![24, 6, 19]⟩
abbrev S24x6 : Shape := ⟨2, ![24, 6]⟩
abbrev S262144x216 : Shape := ⟨2, ![262144, 216]⟩
abbrev S262144x72 : Shape := ⟨2, ![262144, 72]⟩
abbrev S262144x144 : Shape := ⟨2, ![262144, 144]⟩
abbrev S4096x216 : Shape := ⟨2, ![4096, 216]⟩
abbrev S4096x72 : Shape := ⟨2, ![4096, 72]⟩
abbrev S4096x144 : Shape := ⟨2, ![4096, 144]⟩
abbrev S4096x288 : Shape := ⟨2, ![4096, 288]⟩
abbrev S288x6 : Shape := ⟨2, ![288, 6]⟩
abbrev S4096x6 : Shape := ⟨2, ![4096, 6]⟩
abbrev S1x6 : Shape := ⟨2, ![1, 6]⟩
abbrev S4096x9 : Shape := ⟨2, ![4096, 9]⟩
abbrev S4096x3 : Shape := ⟨2, ![4096, 3]⟩
abbrev S4096 : Shape := ⟨1, ![4096]⟩
abbrev S4096x1 : Shape := ⟨2, ![4096, 1]⟩
abbrev S4096x19 : Shape := ⟨2, ![4096, 19]⟩
abbrev S1x19x19 : Shape := ⟨3, ![1, 19, 19]⟩
abbrev S19x19 : Shape := ⟨2, ![19, 19]⟩
abbrev S1x19 : Shape := ⟨2, ![1, 19]⟩
abbrev S19 : Shape := ⟨1, ![19]⟩
abbrev S1x6x19 : Shape := ⟨3, ![1, 6, 19]⟩
abbrev S6x19 : Shape := ⟨2, ![6, 19]⟩
abbrev S19x6 : Shape := ⟨2, ![19, 6]⟩

abbrev nBuf : Space → Nat
  | .hbm => 11
  | .vmem => 12
  | .smem => 0
  | _ => 0

abbrev bufTy : (tb : Table) → Fin (tcTables nBuf tb) → BufTy
  | .hbm, ⟨0, _⟩ => ⟨S262144x24x9, .f32⟩
  | .hbm, ⟨1, _⟩ => ⟨S262144x24x3, .f32⟩
  | .hbm, ⟨2, _⟩ => ⟨S6x288, .f32⟩
  | .hbm, ⟨3, _⟩ => ⟨S6, .f32⟩
  | .hbm, ⟨4, _⟩ => ⟨S24x19x19, .f32⟩
  | .hbm, ⟨5, _⟩ => ⟨S24x19, .f32⟩
  | .hbm, ⟨6, _⟩ => ⟨S24x6x19, .f32⟩
  | .hbm, ⟨7, _⟩ => ⟨S24x6, .f32⟩
  | .hbm, ⟨8, _⟩ => ⟨S262144x216, .f32⟩
  | .hbm, ⟨9, _⟩ => ⟨S262144x72, .f32⟩
  | .hbm, ⟨10, _⟩ => ⟨S262144x144, .f32⟩
  | .local _ .vmem, ⟨0, _⟩ => ⟨S4096x216, .f32⟩
  | .local _ .vmem, ⟨1, _⟩ => ⟨S4096x216, .f32⟩
  | .local _ .vmem, ⟨2, _⟩ => ⟨S4096x72, .f32⟩
  | .local _ .vmem, ⟨3, _⟩ => ⟨S4096x72, .f32⟩
  | .local _ .vmem, ⟨4, _⟩ => ⟨S6x288, .f32⟩
  | .local _ .vmem, ⟨5, _⟩ => ⟨S6, .f32⟩
  | .local _ .vmem, ⟨6, _⟩ => ⟨S24x19x19, .f32⟩
  | .local _ .vmem, ⟨7, _⟩ => ⟨S24x19, .f32⟩
  | .local _ .vmem, ⟨8, _⟩ => ⟨S24x6x19, .f32⟩
  | .local _ .vmem, ⟨9, _⟩ => ⟨S24x6, .f32⟩
  | .local _ .vmem, ⟨10, _⟩ => ⟨S4096x144, .f32⟩
  | .local _ .vmem, ⟨11, _⟩ => ⟨S4096x144, .f32⟩
  | _, _ => ⟨S262144x24x9, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x216 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x72 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S6x288 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S6 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S24x19x19 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S24x19 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S24x6x19 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S24x6 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S4096x144 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  shapeCasts_S262144x24x9_S262144x216 : S262144x24x9.ShapeCasts S262144x216
  shapeCasts_S262144x24x3_S262144x72 : S262144x24x3.ShapeCasts S262144x72
  inb_S4096x216_S4096x216_0_0 : ∀ a, (![0, 0] : Fin 2 → Nat) a + S4096x216.size a ≤ S4096x216.size a
  h_S4096x216 : 0 < S4096x216.numel
  shapeCasts_S4096x216_S4096x216 : S4096x216.ShapeCasts S4096x216
  inb_S4096x72_S4096x72_0_0 : ∀ a, (![0, 0] : Fin 2 → Nat) a + S4096x72.size a ≤ S4096x72.size a
  h_S4096x72 : 0 < S4096x72.numel
  shapeCasts_S4096x72_S4096x72 : S4096x72.ShapeCasts S4096x72
  inb_S6x288_S6x288_0_0 : ∀ a, (![0, 0] : Fin 2 → Nat) a + S6x288.size a ≤ S6x288.size a
  h_S6x288 : 0 < S6x288.numel
  bitsLt_bf16_f32 : FTy.bits .bf16 < FTy.bits .f32
  inb_S6_S6_0 : ∀ a, (![0] : Fin 1 → Nat) a + S6.size a ≤ S6.size a
  h_S6 : 0 < S6.numel
  inb_S24x19x19_S24x19x19_0_0_0 : ∀ a, (![0, 0, 0] : Fin 3 → Nat) a + S24x19x19.size a ≤ S24x19x19.size a
  h_S24x19x19 : 0 < S24x19x19.numel
  inb_S24x19_S24x19_0_0 : ∀ a, (![0, 0] : Fin 2 → Nat) a + S24x19.size a ≤ S24x19.size a
  h_S24x19 : 0 < S24x19.numel
  inb_S24x6x19_S24x6x19_0_0_0 : ∀ a, (![0, 0, 0] : Fin 3 → Nat) a + S24x6x19.size a ≤ S24x6x19.size a
  h_S24x6x19 : 0 < S24x6x19.numel
  inb_S24x6_S24x6_0_0 : ∀ a, (![0, 0] : Fin 2 → Nat) a + S24x6.size a ≤ S24x6.size a
  h_S24x6 : 0 < S24x6.numel
  concatenates_S4096x216_S4096x72_S4096x288_d1 : Shape.Concatenates [S4096x216, S4096x72] S4096x288 1
  transposes_S6x288_p1_0_S288x6 : S6x288.Transposes [1, 0] S288x6
  shapeCasts_S6_S1x6 : S6.ShapeCasts S1x6
  broadcasts_S1x6_S4096x6 : S1x6.Broadcasts S4096x6
  slices_S4096x216_o0_0_S4096x9 : S4096x216.Slices ![0, 0] S4096x9
  slices_S4096x72_o0_0_S4096x3 : S4096x72.Slices ![0, 0] S4096x3
  reduces_S4096x3_S4096 : S4096x3.Reduces [1] S4096
  shapeCasts_S4096_S4096x1 : S4096.ShapeCasts S4096x1
  concatenates_S4096x9_S4096x3_S4096x1_S4096x6_S4096x19_d1 : Shape.Concatenates [S4096x9, S4096x3, S4096x1, S4096x6] S4096x19 1
  slices_S24x19x19_o0_0_0_S1x19x19 : S24x19x19.Slices ![0, 0, 0] S1x19x19
  shapeCasts_S1x19x19_S19x19 : S1x19x19.ShapeCasts S19x19
  slices_S24x19_o0_0_S1x19 : S24x19.Slices ![0, 0] S1x19
  shapeCasts_S1x19_S19 : S1x19.ShapeCasts S19
  transposes_S19x19_p1_0_S19x19 : S19x19.Transposes [1, 0] S19x19
  shapeCasts_S19_S1x19 : S19.ShapeCasts S1x19
  broadcasts_S1x19_S4096x19 : S1x19.Broadcasts S4096x19
  slices_S24x6x19_o0_0_0_S1x6x19 : S24x6x19.Slices ![0, 0, 0] S1x6x19
  shapeCasts_S1x6x19_S6x19 : S1x6x19.ShapeCasts S6x19
  slices_S24x6_o0_0_S1x6 : S24x6.Slices ![0, 0] S1x6
  shapeCasts_S1x6_S6 : S1x6.ShapeCasts S6
  transposes_S6x19_p1_0_S19x6 : S6x19.Transposes [1, 0] S19x6
  inb_S4096x144_S4096x6_0_0 : ∀ a, (![0, 0] : Fin 2 → Nat) a + S4096x6.size a ≤ S4096x144.size a
  h_S4096x6 : 0 < S4096x6.numel
  slices_S4096x216_o0_9_S4096x9 : S4096x216.Slices ![0, 9] S4096x9
  slices_S4096x72_o0_3_S4096x3 : S4096x72.Slices ![0, 3] S4096x3
  shapeCasts_S4096x6_S4096x6 : S4096x6.ShapeCasts S4096x6
  slices_S24x19x19_o1_0_0_S1x19x19 : S24x19x19.Slices ![1, 0, 0] S1x19x19
  slices_S24x19_o1_0_S1x19 : S24x19.Slices ![1, 0] S1x19
  slices_S24x6x19_o1_0_0_S1x6x19 : S24x6x19.Slices ![1, 0, 0] S1x6x19
  slices_S24x6_o1_0_S1x6 : S24x6.Slices ![1, 0] S1x6
  inb_S4096x144_S4096x6_0_6 : ∀ a, (![0, 6] : Fin 2 → Nat) a + S4096x6.size a ≤ S4096x144.size a
  slices_S4096x216_o0_18_S4096x9 : S4096x216.Slices ![0, 18] S4096x9
  slices_S4096x72_o0_6_S4096x3 : S4096x72.Slices ![0, 6] S4096x3
  slices_S24x19x19_o2_0_0_S1x19x19 : S24x19x19.Slices ![2, 0, 0] S1x19x19
  slices_S24x19_o2_0_S1x19 : S24x19.Slices ![2, 0] S1x19
  slices_S24x6x19_o2_0_0_S1x6x19 : S24x6x19.Slices ![2, 0, 0] S1x6x19
  slices_S24x6_o2_0_S1x6 : S24x6.Slices ![2, 0] S1x6
  inb_S4096x144_S4096x6_0_12 : ∀ a, (![0, 12] : Fin 2 → Nat) a + S4096x6.size a ≤ S4096x144.size a
  slices_S4096x216_o0_27_S4096x9 : S4096x216.Slices ![0, 27] S4096x9
  slices_S4096x72_o0_9_S4096x3 : S4096x72.Slices ![0, 9] S4096x3
  slices_S24x19x19_o3_0_0_S1x19x19 : S24x19x19.Slices ![3, 0, 0] S1x19x19
  slices_S24x19_o3_0_S1x19 : S24x19.Slices ![3, 0] S1x19
  slices_S24x6x19_o3_0_0_S1x6x19 : S24x6x19.Slices ![3, 0, 0] S1x6x19
  slices_S24x6_o3_0_S1x6 : S24x6.Slices ![3, 0] S1x6
  inb_S4096x144_S4096x6_0_18 : ∀ a, (![0, 18] : Fin 2 → Nat) a + S4096x6.size a ≤ S4096x144.size a
  slices_S4096x216_o0_36_S4096x9 : S4096x216.Slices ![0, 36] S4096x9
  slices_S4096x72_o0_12_S4096x3 : S4096x72.Slices ![0, 12] S4096x3
  slices_S24x19x19_o4_0_0_S1x19x19 : S24x19x19.Slices ![4, 0, 0] S1x19x19
  slices_S24x19_o4_0_S1x19 : S24x19.Slices ![4, 0] S1x19
  slices_S24x6x19_o4_0_0_S1x6x19 : S24x6x19.Slices ![4, 0, 0] S1x6x19
  slices_S24x6_o4_0_S1x6 : S24x6.Slices ![4, 0] S1x6
  inb_S4096x144_S4096x6_0_24 : ∀ a, (![0, 24] : Fin 2 → Nat) a + S4096x6.size a ≤ S4096x144.size a
  slices_S4096x216_o0_45_S4096x9 : S4096x216.Slices ![0, 45] S4096x9
  slices_S4096x72_o0_15_S4096x3 : S4096x72.Slices ![0, 15] S4096x3
  slices_S24x19x19_o5_0_0_S1x19x19 : S24x19x19.Slices ![5, 0, 0] S1x19x19
  slices_S24x19_o5_0_S1x19 : S24x19.Slices ![5, 0] S1x19
  slices_S24x6x19_o5_0_0_S1x6x19 : S24x6x19.Slices ![5, 0, 0] S1x6x19
  slices_S24x6_o5_0_S1x6 : S24x6.Slices ![5, 0] S1x6
  inb_S4096x144_S4096x6_0_30 : ∀ a, (![0, 30] : Fin 2 → Nat) a + S4096x6.size a ≤ S4096x144.size a
  slices_S4096x216_o0_54_S4096x9 : S4096x216.Slices ![0, 54] S4096x9
  slices_S4096x72_o0_18_S4096x3 : S4096x72.Slices ![0, 18] S4096x3
  slices_S24x19x19_o6_0_0_S1x19x19 : S24x19x19.Slices ![6, 0, 0] S1x19x19
  slices_S24x19_o6_0_S1x19 : S24x19.Slices ![6, 0] S1x19
  slices_S24x6x19_o6_0_0_S1x6x19 : S24x6x19.Slices ![6, 0, 0] S1x6x19
  slices_S24x6_o6_0_S1x6 : S24x6.Slices ![6, 0] S1x6
  inb_S4096x144_S4096x6_0_36 : ∀ a, (![0, 36] : Fin 2 → Nat) a + S4096x6.size a ≤ S4096x144.size a
  slices_S4096x216_o0_63_S4096x9 : S4096x216.Slices ![0, 63] S4096x9
  slices_S4096x72_o0_21_S4096x3 : S4096x72.Slices ![0, 21] S4096x3
  slices_S24x19x19_o7_0_0_S1x19x19 : S24x19x19.Slices ![7, 0, 0] S1x19x19
  slices_S24x19_o7_0_S1x19 : S24x19.Slices ![7, 0] S1x19
  slices_S24x6x19_o7_0_0_S1x6x19 : S24x6x19.Slices ![7, 0, 0] S1x6x19
  slices_S24x6_o7_0_S1x6 : S24x6.Slices ![7, 0] S1x6
  inb_S4096x144_S4096x6_0_42 : ∀ a, (![0, 42] : Fin 2 → Nat) a + S4096x6.size a ≤ S4096x144.size a
  slices_S4096x216_o0_72_S4096x9 : S4096x216.Slices ![0, 72] S4096x9
  slices_S4096x72_o0_24_S4096x3 : S4096x72.Slices ![0, 24] S4096x3
  slices_S24x19x19_o8_0_0_S1x19x19 : S24x19x19.Slices ![8, 0, 0] S1x19x19
  slices_S24x19_o8_0_S1x19 : S24x19.Slices ![8, 0] S1x19
  slices_S24x6x19_o8_0_0_S1x6x19 : S24x6x19.Slices ![8, 0, 0] S1x6x19
  slices_S24x6_o8_0_S1x6 : S24x6.Slices ![8, 0] S1x6
  inb_S4096x144_S4096x6_0_48 : ∀ a, (![0, 48] : Fin 2 → Nat) a + S4096x6.size a ≤ S4096x144.size a
  slices_S4096x216_o0_81_S4096x9 : S4096x216.Slices ![0, 81] S4096x9
  slices_S4096x72_o0_27_S4096x3 : S4096x72.Slices ![0, 27] S4096x3
  slices_S24x19x19_o9_0_0_S1x19x19 : S24x19x19.Slices ![9, 0, 0] S1x19x19
  slices_S24x19_o9_0_S1x19 : S24x19.Slices ![9, 0] S1x19
  slices_S24x6x19_o9_0_0_S1x6x19 : S24x6x19.Slices ![9, 0, 0] S1x6x19
  slices_S24x6_o9_0_S1x6 : S24x6.Slices ![9, 0] S1x6
  inb_S4096x144_S4096x6_0_54 : ∀ a, (![0, 54] : Fin 2 → Nat) a + S4096x6.size a ≤ S4096x144.size a
  slices_S4096x216_o0_90_S4096x9 : S4096x216.Slices ![0, 90] S4096x9
  slices_S4096x72_o0_30_S4096x3 : S4096x72.Slices ![0, 30] S4096x3
  slices_S24x19x19_o10_0_0_S1x19x19 : S24x19x19.Slices ![10, 0, 0] S1x19x19
  slices_S24x19_o10_0_S1x19 : S24x19.Slices ![10, 0] S1x19
  slices_S24x6x19_o10_0_0_S1x6x19 : S24x6x19.Slices ![10, 0, 0] S1x6x19
  slices_S24x6_o10_0_S1x6 : S24x6.Slices ![10, 0] S1x6
  inb_S4096x144_S4096x6_0_60 : ∀ a, (![0, 60] : Fin 2 → Nat) a + S4096x6.size a ≤ S4096x144.size a
  slices_S4096x216_o0_99_S4096x9 : S4096x216.Slices ![0, 99] S4096x9
  slices_S4096x72_o0_33_S4096x3 : S4096x72.Slices ![0, 33] S4096x3
  slices_S24x19x19_o11_0_0_S1x19x19 : S24x19x19.Slices ![11, 0, 0] S1x19x19
  slices_S24x19_o11_0_S1x19 : S24x19.Slices ![11, 0] S1x19
  slices_S24x6x19_o11_0_0_S1x6x19 : S24x6x19.Slices ![11, 0, 0] S1x6x19
  slices_S24x6_o11_0_S1x6 : S24x6.Slices ![11, 0] S1x6
  inb_S4096x144_S4096x6_0_66 : ∀ a, (![0, 66] : Fin 2 → Nat) a + S4096x6.size a ≤ S4096x144.size a
  slices_S4096x216_o0_108_S4096x9 : S4096x216.Slices ![0, 108] S4096x9
  slices_S4096x72_o0_36_S4096x3 : S4096x72.Slices ![0, 36] S4096x3
  slices_S24x19x19_o12_0_0_S1x19x19 : S24x19x19.Slices ![12, 0, 0] S1x19x19
  slices_S24x19_o12_0_S1x19 : S24x19.Slices ![12, 0] S1x19
  slices_S24x6x19_o12_0_0_S1x6x19 : S24x6x19.Slices ![12, 0, 0] S1x6x19
  slices_S24x6_o12_0_S1x6 : S24x6.Slices ![12, 0] S1x6
  inb_S4096x144_S4096x6_0_72 : ∀ a, (![0, 72] : Fin 2 → Nat) a + S4096x6.size a ≤ S4096x144.size a
  slices_S4096x216_o0_117_S4096x9 : S4096x216.Slices ![0, 117] S4096x9
  slices_S4096x72_o0_39_S4096x3 : S4096x72.Slices ![0, 39] S4096x3
  slices_S24x19x19_o13_0_0_S1x19x19 : S24x19x19.Slices ![13, 0, 0] S1x19x19
  slices_S24x19_o13_0_S1x19 : S24x19.Slices ![13, 0] S1x19
  slices_S24x6x19_o13_0_0_S1x6x19 : S24x6x19.Slices ![13, 0, 0] S1x6x19
  slices_S24x6_o13_0_S1x6 : S24x6.Slices ![13, 0] S1x6
  inb_S4096x144_S4096x6_0_78 : ∀ a, (![0, 78] : Fin 2 → Nat) a + S4096x6.size a ≤ S4096x144.size a
  slices_S4096x216_o0_126_S4096x9 : S4096x216.Slices ![0, 126] S4096x9
  slices_S4096x72_o0_42_S4096x3 : S4096x72.Slices ![0, 42] S4096x3
  slices_S24x19x19_o14_0_0_S1x19x19 : S24x19x19.Slices ![14, 0, 0] S1x19x19
  slices_S24x19_o14_0_S1x19 : S24x19.Slices ![14, 0] S1x19
  slices_S24x6x19_o14_0_0_S1x6x19 : S24x6x19.Slices ![14, 0, 0] S1x6x19
  slices_S24x6_o14_0_S1x6 : S24x6.Slices ![14, 0] S1x6
  inb_S4096x144_S4096x6_0_84 : ∀ a, (![0, 84] : Fin 2 → Nat) a + S4096x6.size a ≤ S4096x144.size a
  slices_S4096x216_o0_135_S4096x9 : S4096x216.Slices ![0, 135] S4096x9
  slices_S4096x72_o0_45_S4096x3 : S4096x72.Slices ![0, 45] S4096x3
  slices_S24x19x19_o15_0_0_S1x19x19 : S24x19x19.Slices ![15, 0, 0] S1x19x19
  slices_S24x19_o15_0_S1x19 : S24x19.Slices ![15, 0] S1x19
  slices_S24x6x19_o15_0_0_S1x6x19 : S24x6x19.Slices ![15, 0, 0] S1x6x19
  slices_S24x6_o15_0_S1x6 : S24x6.Slices ![15, 0] S1x6
  inb_S4096x144_S4096x6_0_90 : ∀ a, (![0, 90] : Fin 2 → Nat) a + S4096x6.size a ≤ S4096x144.size a
  slices_S4096x216_o0_144_S4096x9 : S4096x216.Slices ![0, 144] S4096x9
  slices_S4096x72_o0_48_S4096x3 : S4096x72.Slices ![0, 48] S4096x3
  slices_S24x19x19_o16_0_0_S1x19x19 : S24x19x19.Slices ![16, 0, 0] S1x19x19
  slices_S24x19_o16_0_S1x19 : S24x19.Slices ![16, 0] S1x19
  slices_S24x6x19_o16_0_0_S1x6x19 : S24x6x19.Slices ![16, 0, 0] S1x6x19
  slices_S24x6_o16_0_S1x6 : S24x6.Slices ![16, 0] S1x6
  inb_S4096x144_S4096x6_0_96 : ∀ a, (![0, 96] : Fin 2 → Nat) a + S4096x6.size a ≤ S4096x144.size a
  slices_S4096x216_o0_153_S4096x9 : S4096x216.Slices ![0, 153] S4096x9
  slices_S4096x72_o0_51_S4096x3 : S4096x72.Slices ![0, 51] S4096x3
  slices_S24x19x19_o17_0_0_S1x19x19 : S24x19x19.Slices ![17, 0, 0] S1x19x19
  slices_S24x19_o17_0_S1x19 : S24x19.Slices ![17, 0] S1x19
  slices_S24x6x19_o17_0_0_S1x6x19 : S24x6x19.Slices ![17, 0, 0] S1x6x19
  slices_S24x6_o17_0_S1x6 : S24x6.Slices ![17, 0] S1x6
  inb_S4096x144_S4096x6_0_102 : ∀ a, (![0, 102] : Fin 2 → Nat) a + S4096x6.size a ≤ S4096x144.size a
  slices_S4096x216_o0_162_S4096x9 : S4096x216.Slices ![0, 162] S4096x9
  slices_S4096x72_o0_54_S4096x3 : S4096x72.Slices ![0, 54] S4096x3
  slices_S24x19x19_o18_0_0_S1x19x19 : S24x19x19.Slices ![18, 0, 0] S1x19x19
  slices_S24x19_o18_0_S1x19 : S24x19.Slices ![18, 0] S1x19
  slices_S24x6x19_o18_0_0_S1x6x19 : S24x6x19.Slices ![18, 0, 0] S1x6x19
  slices_S24x6_o18_0_S1x6 : S24x6.Slices ![18, 0] S1x6
  inb_S4096x144_S4096x6_0_108 : ∀ a, (![0, 108] : Fin 2 → Nat) a + S4096x6.size a ≤ S4096x144.size a
  slices_S4096x216_o0_171_S4096x9 : S4096x216.Slices ![0, 171] S4096x9
  slices_S4096x72_o0_57_S4096x3 : S4096x72.Slices ![0, 57] S4096x3
  slices_S24x19x19_o19_0_0_S1x19x19 : S24x19x19.Slices ![19, 0, 0] S1x19x19
  slices_S24x19_o19_0_S1x19 : S24x19.Slices ![19, 0] S1x19
  slices_S24x6x19_o19_0_0_S1x6x19 : S24x6x19.Slices ![19, 0, 0] S1x6x19
  slices_S24x6_o19_0_S1x6 : S24x6.Slices ![19, 0] S1x6
  inb_S4096x144_S4096x6_0_114 : ∀ a, (![0, 114] : Fin 2 → Nat) a + S4096x6.size a ≤ S4096x144.size a
  slices_S4096x216_o0_180_S4096x9 : S4096x216.Slices ![0, 180] S4096x9
  slices_S4096x72_o0_60_S4096x3 : S4096x72.Slices ![0, 60] S4096x3
  slices_S24x19x19_o20_0_0_S1x19x19 : S24x19x19.Slices ![20, 0, 0] S1x19x19
  slices_S24x19_o20_0_S1x19 : S24x19.Slices ![20, 0] S1x19
  slices_S24x6x19_o20_0_0_S1x6x19 : S24x6x19.Slices ![20, 0, 0] S1x6x19
  slices_S24x6_o20_0_S1x6 : S24x6.Slices ![20, 0] S1x6
  inb_S4096x144_S4096x6_0_120 : ∀ a, (![0, 120] : Fin 2 → Nat) a + S4096x6.size a ≤ S4096x144.size a
  slices_S4096x216_o0_189_S4096x9 : S4096x216.Slices ![0, 189] S4096x9
  slices_S4096x72_o0_63_S4096x3 : S4096x72.Slices ![0, 63] S4096x3
  slices_S24x19x19_o21_0_0_S1x19x19 : S24x19x19.Slices ![21, 0, 0] S1x19x19
  slices_S24x19_o21_0_S1x19 : S24x19.Slices ![21, 0] S1x19
  slices_S24x6x19_o21_0_0_S1x6x19 : S24x6x19.Slices ![21, 0, 0] S1x6x19
  slices_S24x6_o21_0_S1x6 : S24x6.Slices ![21, 0] S1x6
  inb_S4096x144_S4096x6_0_126 : ∀ a, (![0, 126] : Fin 2 → Nat) a + S4096x6.size a ≤ S4096x144.size a
  slices_S4096x216_o0_198_S4096x9 : S4096x216.Slices ![0, 198] S4096x9
  slices_S4096x72_o0_66_S4096x3 : S4096x72.Slices ![0, 66] S4096x3
  slices_S24x19x19_o22_0_0_S1x19x19 : S24x19x19.Slices ![22, 0, 0] S1x19x19
  slices_S24x19_o22_0_S1x19 : S24x19.Slices ![22, 0] S1x19
  slices_S24x6x19_o22_0_0_S1x6x19 : S24x6x19.Slices ![22, 0, 0] S1x6x19
  slices_S24x6_o22_0_S1x6 : S24x6.Slices ![22, 0] S1x6
  inb_S4096x144_S4096x6_0_132 : ∀ a, (![0, 132] : Fin 2 → Nat) a + S4096x6.size a ≤ S4096x144.size a
  slices_S4096x216_o0_207_S4096x9 : S4096x216.Slices ![0, 207] S4096x9
  slices_S4096x72_o0_69_S4096x3 : S4096x72.Slices ![0, 69] S4096x3
  slices_S24x19x19_o23_0_0_S1x19x19 : S24x19x19.Slices ![23, 0, 0] S1x19x19
  slices_S24x19_o23_0_S1x19 : S24x19.Slices ![23, 0] S1x19
  slices_S24x6x19_o23_0_0_S1x6x19 : S24x6x19.Slices ![23, 0, 0] S1x6x19
  slices_S24x6_o23_0_S1x6 : S24x6.Slices ![23, 0] S1x6
  inb_S4096x144_S4096x6_0_138 : ∀ a, (![0, 138] : Fin 2 → Nat) a + S4096x6.size a ≤ S4096x144.size a
  dot_S4096x288_S288x6_S4096x6_1_0_0_1_n_n_wf : DotDims.WF S4096x288 S288x6 S4096x6 [1] [0] [0] [1] [] []
  dot_S4096x19_S19x19_S4096x19_1_0_0_1_n_n_wf : DotDims.WF S4096x19 S19x19 S4096x19 [1] [0] [0] [1] [] []
  dot_S4096x19_S19x6_S4096x6_1_0_0_1_n_n_wf : DotDims.WF S4096x19 S19x6 S4096x6 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x216.size a ≤ S262144x216.size a
  hwx0_0 : ∀ i : grid0.Coords, EltTy.bits .f32 = 32 ∨ (Rect.block (s := S262144x216) S4096x216.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x72.size a ≤ S262144x72.size a
  hwx0_1 : ∀ i : grid0.Coords, EltTy.bits .f32 = 32 ∨ (Rect.block (s := S262144x72) S4096x72.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S6x288.size a ≤ S6x288.size a
  hwx0_2 : ∀ i : grid0.Coords, EltTy.bits .f32 = 32 ∨ (Rect.block (s := S6x288) S6x288.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S6.size a ≤ S6.size a
  hwx0_3 : ∀ i : grid0.Coords, EltTy.bits .f32 = 32 ∨ (Rect.block (s := S6) S6.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S24x19x19.size a ≤ S24x19x19.size a
  hwx0_4 : ∀ i : grid0.Coords, EltTy.bits .f32 = 32 ∨ (Rect.block (s := S24x19x19) S24x19x19.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S24x19.size a ≤ S24x19.size a
  hwx0_5 : ∀ i : grid0.Coords, EltTy.bits .f32 = 32 ∨ (Rect.block (s := S24x19) S24x19.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S24x6x19.size a ≤ S24x6x19.size a
  hwx0_6 : ∀ i : grid0.Coords, EltTy.bits .f32 = 32 ∨ (Rect.block (s := S24x6x19) S24x6x19.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S24x6.size a ≤ S24x6.size a
  hwx0_7 : ∀ i : grid0.Coords, EltTy.bits .f32 = 32 ∨ (Rect.block (s := S24x6) S24x6.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S4096x144.size a ≤ S262144x144.size a
  hwx0_8 : ∀ i : grid0.Coords, EltTy.bits .f32 = 32 ∨ (Rect.block (s := S262144x144) S4096x144.size (cc0_transform_8 i) (hinb0_8 i)).WholeWords (EltTy.packing .f32)

variable [Facts₀]

def dot_S4096x288_S288x6_S4096x6_1_0_0_1_n_n : DotDims S4096x288 S288x6 S4096x6 where
  lhsContracting := [1]
  rhsContracting := [0]
  lhsNonContracting := [0]
  rhsNonContracting := [1]
  lhsBatch := []
  rhsBatch := []
  wf := dot_S4096x288_S288x6_S4096x6_1_0_0_1_n_n_wf
def dot_S4096x19_S19x19_S4096x19_1_0_0_1_n_n : DotDims S4096x19 S19x19 S4096x19 where
  lhsContracting := [1]
  rhsContracting := [0]
  lhsNonContracting := [0]
  rhsNonContracting := [1]
  lhsBatch := []
  rhsBatch := []
  wf := dot_S4096x19_S19x19_S4096x19_1_0_0_1_n_n_wf
def dot_S4096x19_S19x6_S4096x6_1_0_0_1_n_n : DotDims S4096x19 S19x6 S4096x6 where
  lhsContracting := [1]
  rhsContracting := [0]
  lhsNonContracting := [0]
  rhsNonContracting := [1]
  lhsBatch := []
  rhsBatch := []
  wf := dot_S4096x19_S19x6_S4096x6_1_0_0_1_n_n_wf

abbrev win0_0 : Pipeline.Window sig grid0 :=
  Pipeline.Window.ofSpec (Memref.whole main_v0) S4096x216.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S4096x72.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S6x288.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S6.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S24x19x19.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S24x19.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S24x6x19.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S24x6.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v2) S4096x144.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S262144x24x9 : Shape := ⟨3, ![262144, 24, 9]⟩
abbrev S262144x24x3 : Shape := ⟨3, ![262144, 24, 3]⟩
abbrev S6x288 : Shape := ⟨2, ![6, 288]⟩
abbrev S6 : Shape := ⟨1, ![6]⟩
abbrev S24x19x19 : Shape := ⟨3, ![24, 19, 19]⟩
abbrev S24x19 : Shape := ⟨2, ![24, 19]⟩
abbrev S24x6x19 : Shape := ⟨3, ![24, 6, 19]⟩
abbrev S24x6 : Shape := ⟨2, ![24, 6]⟩
abbrev S262144x216 : Shape := ⟨2, ![262144, 216]⟩
abbrev S262144x72 : Shape := ⟨2, ![262144, 72]⟩
abbrev S262144x288 : Shape := ⟨2, ![262144, 288]⟩
abbrev S288x6 : Shape := ⟨2, ![288, 6]⟩
abbrev S262144x6 : Shape := ⟨2, ![262144, 6]⟩
abbrev S1x6 : Shape := ⟨2, ![1, 6]⟩
abbrev S262144x1x9 : Shape := ⟨3, ![262144, 1, 9]⟩
abbrev S262144x9 : Shape := ⟨2, ![262144, 9]⟩
abbrev S262144x1x3 : Shape := ⟨3, ![262144, 1, 3]⟩
abbrev S262144x3 : Shape := ⟨2, ![262144, 3]⟩
abbrev S_ : Shape := ⟨0, ![]⟩
abbrev S262144 : Shape := ⟨1, ![262144]⟩
abbrev S262144x1 : Shape := ⟨2, ![262144, 1]⟩
abbrev S262144x19 : Shape := ⟨2, ![262144, 19]⟩
abbrev S1x19x19 : Shape := ⟨3, ![1, 19, 19]⟩
abbrev S19x19 : Shape := ⟨2, ![19, 19]⟩
abbrev S1x19 : Shape := ⟨2, ![1, 19]⟩
abbrev S19 : Shape := ⟨1, ![19]⟩
abbrev S1x6x19 : Shape := ⟨3, ![1, 6, 19]⟩
abbrev S6x19 : Shape := ⟨2, ![6, 19]⟩
abbrev S19x6 : Shape := ⟨2, ![19, 6]⟩
abbrev S262144x96 : Shape := ⟨2, ![262144, 96]⟩
abbrev S262144x48 : Shape := ⟨2, ![262144, 48]⟩
abbrev S262144x144 : Shape := ⟨2, ![262144, 144]⟩

abbrev nBuf : Space → Nat
  | .hbm => 832
  | .vmem => 0
  | .smem => 0
  | _ => 0

abbrev hbmTy0_0 (i : Nat) : BufTy := match i % 128 with
  | 0 => ⟨S262144x24x9, .f32⟩
  | 1 => ⟨S262144x24x3, .f32⟩
  | 2 => ⟨S6x288, .f32⟩
  | 3 => ⟨S6, .f32⟩
  | 4 => ⟨S24x19x19, .f32⟩
  | 5 => ⟨S24x19, .f32⟩
  | 6 => ⟨S24x6x19, .f32⟩
  | 7 => ⟨S24x6, .f32⟩
  | 8 => ⟨S262144x216, .f32⟩
  | 9 => ⟨S262144x72, .f32⟩
  | 10 => ⟨S262144x288, .f32⟩
  | 11 => ⟨S288x6, .f32⟩
  | 12 => ⟨S262144x6, .f32⟩
  | 13 => ⟨S1x6, .f32⟩
  | 14 => ⟨S262144x6, .f32⟩
  | 15 => ⟨S262144x6, .f32⟩
  | 16 => ⟨S262144x1x9, .f32⟩
  | 17 => ⟨S262144x9, .f32⟩
  | 18 => ⟨S262144x1x3, .f32⟩
  | 19 => ⟨S262144x3, .f32⟩
  | 20 => ⟨S262144x3, .f32⟩
  | 21 => ⟨S_, .f32⟩
  | 22 => ⟨S262144, .f32⟩
  | 23 => ⟨S262144x1, .f32⟩
  | 24 => ⟨S262144x1, .f32⟩
  | 25 => ⟨S262144x19, .f32⟩
  | 26 => ⟨S1x19x19, .f32⟩
  | 27 => ⟨S19x19, .f32⟩
  | 28 => ⟨S19x19, .f32⟩
  | 29 => ⟨S262144x19, .f32⟩
  | 30 => ⟨S1x19, .f32⟩
  | 31 => ⟨S19, .f32⟩
  | 32 => ⟨S1x19, .f32⟩
  | 33 => ⟨S262144x19, .f32⟩
  | 34 => ⟨S262144x19, .f32⟩
  | 35 => ⟨S_, .f32⟩
  | 36 => ⟨S262144x19, .f32⟩
  | 37 => ⟨S262144x19, .f32⟩
  | 38 => ⟨S1x6x19, .f32⟩
  | 39 => ⟨S6x19, .f32⟩
  | 40 => ⟨S19x6, .f32⟩
  | 41 => ⟨S262144x6, .f32⟩
  | 42 => ⟨S1x6, .f32⟩
  | 43 => ⟨S6, .f32⟩
  | 44 => ⟨S1x6, .f32⟩
  | 45 => ⟨S262144x6, .f32⟩
  | 46 => ⟨S262144x6, .f32⟩
  | 47 => ⟨S262144x1x9, .f32⟩
  | 48 => ⟨S262144x9, .f32⟩
  | 49 => ⟨S262144x1x3, .f32⟩
  | 50 => ⟨S262144x3, .f32⟩
  | 51 => ⟨S262144x1x3, .f32⟩
  | 52 => ⟨S262144x3, .f32⟩
  | 53 => ⟨S262144x3, .f32⟩
  | 54 => ⟨S262144x3, .f32⟩
  | 55 => ⟨S_, .f32⟩
  | 56 => ⟨S262144, .f32⟩
  | 57 => ⟨S262144x1, .f32⟩
  | 58 => ⟨S262144x1, .f32⟩
  | 59 => ⟨S262144x19, .f32⟩
  | 60 => ⟨S1x19x19, .f32⟩
  | 61 => ⟨S19x19, .f32⟩
  | 62 => ⟨S19x19, .f32⟩
  | 63 => ⟨S262144x19, .f32⟩
  | 64 => ⟨S1x19, .f32⟩
  | 65 => ⟨S19, .f32⟩
  | 66 => ⟨S1x19, .f32⟩
  | 67 => ⟨S262144x19, .f32⟩
  | 68 => ⟨S262144x19, .f32⟩
  | 69 => ⟨S_, .f32⟩
  | 70 => ⟨S262144x19, .f32⟩
  | 71 => ⟨S262144x19, .f32⟩
  | 72 => ⟨S1x6x19, .f32⟩
  | 73 => ⟨S6x19, .f32⟩
  | 74 => ⟨S19x6, .f32⟩
  | 75 => ⟨S262144x6, .f32⟩
  | 76 => ⟨S1x6, .f32⟩
  | 77 => ⟨S6, .f32⟩
  | 78 => ⟨S1x6, .f32⟩
  | 79 => ⟨S262144x6, .f32⟩
  | 80 => ⟨S262144x6, .f32⟩
  | 81 => ⟨S262144x1x9, .f32⟩
  | 82 => ⟨S262144x9, .f32⟩
  | 83 => ⟨S262144x1x3, .f32⟩
  | 84 => ⟨S262144x3, .f32⟩
  | 85 => ⟨S262144x1x3, .f32⟩
  | 86 => ⟨S262144x3, .f32⟩
  | 87 => ⟨S262144x3, .f32⟩
  | 88 => ⟨S262144x3, .f32⟩
  | 89 => ⟨S_, .f32⟩
  | 90 => ⟨S262144, .f32⟩
  | 91 => ⟨S262144x1, .f32⟩
  | 92 => ⟨S262144x1, .f32⟩
  | 93 => ⟨S262144x19, .f32⟩
  | 94 => ⟨S1x19x19, .f32⟩
  | 95 => ⟨S19x19, .f32⟩
  | 96 => ⟨S19x19, .f32⟩
  | 97 => ⟨S262144x19, .f32⟩
  | 98 => ⟨S1x19, .f32⟩
  | 99 => ⟨S19, .f32⟩
  | 100 => ⟨S1x19, .f32⟩
  | 101 => ⟨S262144x19, .f32⟩
  | 102 => ⟨S262144x19, .f32⟩
  | 103 => ⟨S_, .f32⟩
  | 104 => ⟨S262144x19, .f32⟩
  | 105 => ⟨S262144x19, .f32⟩
  | 106 => ⟨S1x6x19, .f32⟩
  | 107 => ⟨S6x19, .f32⟩
  | 108 => ⟨S19x6, .f32⟩
  | 109 => ⟨S262144x6, .f32⟩
  | 110 => ⟨S1x6, .f32⟩
  | 111 => ⟨S6, .f32⟩
  | 112 => ⟨S1x6, .f32⟩
  | 113 => ⟨S262144x6, .f32⟩
  | 114 => ⟨S262144x6, .f32⟩
  | 115 => ⟨S262144x1x9, .f32⟩
  | 116 => ⟨S262144x9, .f32⟩
  | 117 => ⟨S262144x1x3, .f32⟩
  | 118 => ⟨S262144x3, .f32⟩
  | 119 => ⟨S262144x1x3, .f32⟩
  | 120 => ⟨S262144x3, .f32⟩
  | 121 => ⟨S262144x3, .f32⟩
  | 122 => ⟨S262144x3, .f32⟩
  | 123 => ⟨S_, .f32⟩
  | 124 => ⟨S262144, .f32⟩
  | 125 => ⟨S262144x1, .f32⟩
  | 126 => ⟨S262144x1, .f32⟩
  | 127 => ⟨S262144x19, .f32⟩
  | _ => ⟨S262144x24x9, .f32⟩

abbrev hbmTy0_1 (i : Nat) : BufTy := match i % 128 with
  | 0 => ⟨S1x19x19, .f32⟩
  | 1 => ⟨S19x19, .f32⟩
  | 2 => ⟨S19x19, .f32⟩
  | 3 => ⟨S262144x19, .f32⟩
  | 4 => ⟨S1x19, .f32⟩
  | 5 => ⟨S19, .f32⟩
  | 6 => ⟨S1x19, .f32⟩
  | 7 => ⟨S262144x19, .f32⟩
  | 8 => ⟨S262144x19, .f32⟩
  | 9 => ⟨S_, .f32⟩
  | 10 => ⟨S262144x19, .f32⟩
  | 11 => ⟨S262144x19, .f32⟩
  | 12 => ⟨S1x6x19, .f32⟩
  | 13 => ⟨S6x19, .f32⟩
  | 14 => ⟨S19x6, .f32⟩
  | 15 => ⟨S262144x6, .f32⟩
  | 16 => ⟨S1x6, .f32⟩
  | 17 => ⟨S6, .f32⟩
  | 18 => ⟨S1x6, .f32⟩
  | 19 => ⟨S262144x6, .f32⟩
  | 20 => ⟨S262144x6, .f32⟩
  | 21 => ⟨S262144x1x9, .f32⟩
  | 22 => ⟨S262144x9, .f32⟩
  | 23 => ⟨S262144x1x3, .f32⟩
  | 24 => ⟨S262144x3, .f32⟩
  | 25 => ⟨S262144x1x3, .f32⟩
  | 26 => ⟨S262144x3, .f32⟩
  | 27 => ⟨S262144x3, .f32⟩
  | 28 => ⟨S262144x3, .f32⟩
  | 29 => ⟨S_, .f32⟩
  | 30 => ⟨S262144, .f32⟩
  | 31 => ⟨S262144x1, .f32⟩
  | 32 => ⟨S262144x1, .f32⟩
  | 33 => ⟨S262144x19, .f32⟩
  | 34 => ⟨S1x19x19, .f32⟩
  | 35 => ⟨S19x19, .f32⟩
  | 36 => ⟨S19x19, .f32⟩
  | 37 => ⟨S262144x19, .f32⟩
  | 38 => ⟨S1x19, .f32⟩
  | 39 => ⟨S19, .f32⟩
  | 40 => ⟨S1x19, .f32⟩
  | 41 => ⟨S262144x19, .f32⟩
  | 42 => ⟨S262144x19, .f32⟩
  | 43 => ⟨S_, .f32⟩
  | 44 => ⟨S262144x19, .f32⟩
  | 45 => ⟨S262144x19, .f32⟩
  | 46 => ⟨S1x6x19, .f32⟩
  | 47 => ⟨S6x19, .f32⟩
  | 48 => ⟨S19x6, .f32⟩
  | 49 => ⟨S262144x6, .f32⟩
  | 50 => ⟨S1x6, .f32⟩
  | 51 => ⟨S6, .f32⟩
  | 52 => ⟨S1x6, .f32⟩
  | 53 => ⟨S262144x6, .f32⟩
  | 54 => ⟨S262144x6, .f32⟩
  | 55 => ⟨S262144x1x9, .f32⟩
  | 56 => ⟨S262144x9, .f32⟩
  | 57 => ⟨S262144x1x3, .f32⟩
  | 58 => ⟨S262144x3, .f32⟩
  | 59 => ⟨S262144x1x3, .f32⟩
  | 60 => ⟨S262144x3, .f32⟩
  | 61 => ⟨S262144x3, .f32⟩
  | 62 => ⟨S262144x3, .f32⟩
  | 63 => ⟨S_, .f32⟩
  | 64 => ⟨S262144, .f32⟩
  | 65 => ⟨S262144x1, .f32⟩
  | 66 => ⟨S262144x1, .f32⟩
  | 67 => ⟨S262144x19, .f32⟩
  | 68 => ⟨S1x19x19, .f32⟩
  | 69 => ⟨S19x19, .f32⟩
  | 70 => ⟨S19x19, .f32⟩
  | 71 => ⟨S262144x19, .f32⟩
  | 72 => ⟨S1x19, .f32⟩
  | 73 => ⟨S19, .f32⟩
  | 74 => ⟨S1x19, .f32⟩
  | 75 => ⟨S262144x19, .f32⟩
  | 76 => ⟨S262144x19, .f32⟩
  | 77 => ⟨S_, .f32⟩
  | 78 => ⟨S262144x19, .f32⟩
  | 79 => ⟨S262144x19, .f32⟩
  | 80 => ⟨S1x6x19, .f32⟩
  | 81 => ⟨S6x19, .f32⟩
  | 82 => ⟨S19x6, .f32⟩
  | 83 => ⟨S262144x6, .f32⟩
  | 84 => ⟨S1x6, .f32⟩
  | 85 => ⟨S6, .f32⟩
  | 86 => ⟨S1x6, .f32⟩
  | 87 => ⟨S262144x6, .f32⟩
  | 88 => ⟨S262144x6, .f32⟩
  | 89 => ⟨S262144x1x9, .f32⟩
  | 90 => ⟨S262144x9, .f32⟩
  | 91 => ⟨S262144x1x3, .f32⟩
  | 92 => ⟨S262144x3, .f32⟩
  | 93 => ⟨S262144x1x3, .f32⟩
  | 94 => ⟨S262144x3, .f32⟩
  | 95 => ⟨S262144x3, .f32⟩
  | 96 => ⟨S262144x3, .f32⟩
  | 97 => ⟨S_, .f32⟩
  | 98 => ⟨S262144, .f32⟩
  | 99 => ⟨S262144x1, .f32⟩
  | 100 => ⟨S262144x1, .f32⟩
  | 101 => ⟨S262144x19, .f32⟩
  | 102 => ⟨S1x19x19, .f32⟩
  | 103 => ⟨S19x19, .f32⟩
  | 104 => ⟨S19x19, .f32⟩
  | 105 => ⟨S262144x19, .f32⟩
  | 106 => ⟨S1x19, .f32⟩
  | 107 => ⟨S19, .f32⟩
  | 108 => ⟨S1x19, .f32⟩
  | 109 => ⟨S262144x19, .f32⟩
  | 110 => ⟨S262144x19, .f32⟩
  | 111 => ⟨S_, .f32⟩
  | 112 => ⟨S262144x19, .f32⟩
  | 113 => ⟨S262144x19, .f32⟩
  | 114 => ⟨S1x6x19, .f32⟩
  | 115 => ⟨S6x19, .f32⟩
  | 116 => ⟨S19x6, .f32⟩
  | 117 => ⟨S262144x6, .f32⟩
  | 118 => ⟨S1x6, .f32⟩
  | 119 => ⟨S6, .f32⟩
  | 120 => ⟨S1x6, .f32⟩
  | 121 => ⟨S262144x6, .f32⟩
  | 122 => ⟨S262144x6, .f32⟩
  | 123 => ⟨S262144x1x9, .f32⟩
  | 124 => ⟨S262144x9, .f32⟩
  | 125 => ⟨S262144x1x3, .f32⟩
  | 126 => ⟨S262144x3, .f32⟩
  | 127 => ⟨S262144x1x3, .f32⟩
  | _ => ⟨S262144x24x9, .f32⟩

abbrev hbmTy0_2 (i : Nat) : BufTy := match i % 128 with
  | 0 => ⟨S262144x3, .f32⟩
  | 1 => ⟨S262144x3, .f32⟩
  | 2 => ⟨S262144x3, .f32⟩
  | 3 => ⟨S_, .f32⟩
  | 4 => ⟨S262144, .f32⟩
  | 5 => ⟨S262144x1, .f32⟩
  | 6 => ⟨S262144x1, .f32⟩
  | 7 => ⟨S262144x19, .f32⟩
  | 8 => ⟨S1x19x19, .f32⟩
  | 9 => ⟨S19x19, .f32⟩
  | 10 => ⟨S19x19, .f32⟩
  | 11 => ⟨S262144x19, .f32⟩
  | 12 => ⟨S1x19, .f32⟩
  | 13 => ⟨S19, .f32⟩
  | 14 => ⟨S1x19, .f32⟩
  | 15 => ⟨S262144x19, .f32⟩
  | 16 => ⟨S262144x19, .f32⟩
  | 17 => ⟨S_, .f32⟩
  | 18 => ⟨S262144x19, .f32⟩
  | 19 => ⟨S262144x19, .f32⟩
  | 20 => ⟨S1x6x19, .f32⟩
  | 21 => ⟨S6x19, .f32⟩
  | 22 => ⟨S19x6, .f32⟩
  | 23 => ⟨S262144x6, .f32⟩
  | 24 => ⟨S1x6, .f32⟩
  | 25 => ⟨S6, .f32⟩
  | 26 => ⟨S1x6, .f32⟩
  | 27 => ⟨S262144x6, .f32⟩
  | 28 => ⟨S262144x6, .f32⟩
  | 29 => ⟨S262144x1x9, .f32⟩
  | 30 => ⟨S262144x9, .f32⟩
  | 31 => ⟨S262144x1x3, .f32⟩
  | 32 => ⟨S262144x3, .f32⟩
  | 33 => ⟨S262144x1x3, .f32⟩
  | 34 => ⟨S262144x3, .f32⟩
  | 35 => ⟨S262144x3, .f32⟩
  | 36 => ⟨S262144x3, .f32⟩
  | 37 => ⟨S_, .f32⟩
  | 38 => ⟨S262144, .f32⟩
  | 39 => ⟨S262144x1, .f32⟩
  | 40 => ⟨S262144x1, .f32⟩
  | 41 => ⟨S262144x19, .f32⟩
  | 42 => ⟨S1x19x19, .f32⟩
  | 43 => ⟨S19x19, .f32⟩
  | 44 => ⟨S19x19, .f32⟩
  | 45 => ⟨S262144x19, .f32⟩
  | 46 => ⟨S1x19, .f32⟩
  | 47 => ⟨S19, .f32⟩
  | 48 => ⟨S1x19, .f32⟩
  | 49 => ⟨S262144x19, .f32⟩
  | 50 => ⟨S262144x19, .f32⟩
  | 51 => ⟨S_, .f32⟩
  | 52 => ⟨S262144x19, .f32⟩
  | 53 => ⟨S262144x19, .f32⟩
  | 54 => ⟨S1x6x19, .f32⟩
  | 55 => ⟨S6x19, .f32⟩
  | 56 => ⟨S19x6, .f32⟩
  | 57 => ⟨S262144x6, .f32⟩
  | 58 => ⟨S1x6, .f32⟩
  | 59 => ⟨S6, .f32⟩
  | 60 => ⟨S1x6, .f32⟩
  | 61 => ⟨S262144x6, .f32⟩
  | 62 => ⟨S262144x6, .f32⟩
  | 63 => ⟨S262144x1x9, .f32⟩
  | 64 => ⟨S262144x9, .f32⟩
  | 65 => ⟨S262144x1x3, .f32⟩
  | 66 => ⟨S262144x3, .f32⟩
  | 67 => ⟨S262144x1x3, .f32⟩
  | 68 => ⟨S262144x3, .f32⟩
  | 69 => ⟨S262144x3, .f32⟩
  | 70 => ⟨S262144x3, .f32⟩
  | 71 => ⟨S_, .f32⟩
  | 72 => ⟨S262144, .f32⟩
  | 73 => ⟨S262144x1, .f32⟩
  | 74 => ⟨S262144x1, .f32⟩
  | 75 => ⟨S262144x19, .f32⟩
  | 76 => ⟨S1x19x19, .f32⟩
  | 77 => ⟨S19x19, .f32⟩
  | 78 => ⟨S19x19, .f32⟩
  | 79 => ⟨S262144x19, .f32⟩
  | 80 => ⟨S1x19, .f32⟩
  | 81 => ⟨S19, .f32⟩
  | 82 => ⟨S1x19, .f32⟩
  | 83 => ⟨S262144x19, .f32⟩
  | 84 => ⟨S262144x19, .f32⟩
  | 85 => ⟨S_, .f32⟩
  | 86 => ⟨S262144x19, .f32⟩
  | 87 => ⟨S262144x19, .f32⟩
  | 88 => ⟨S1x6x19, .f32⟩
  | 89 => ⟨S6x19, .f32⟩
  | 90 => ⟨S19x6, .f32⟩
  | 91 => ⟨S262144x6, .f32⟩
  | 92 => ⟨S1x6, .f32⟩
  | 93 => ⟨S6, .f32⟩
  | 94 => ⟨S1x6, .f32⟩
  | 95 => ⟨S262144x6, .f32⟩
  | 96 => ⟨S262144x6, .f32⟩
  | 97 => ⟨S262144x1x9, .f32⟩
  | 98 => ⟨S262144x9, .f32⟩
  | 99 => ⟨S262144x1x3, .f32⟩
  | 100 => ⟨S262144x3, .f32⟩
  | 101 => ⟨S262144x1x3, .f32⟩
  | 102 => ⟨S262144x3, .f32⟩
  | 103 => ⟨S262144x3, .f32⟩
  | 104 => ⟨S262144x3, .f32⟩
  | 105 => ⟨S_, .f32⟩
  | 106 => ⟨S262144, .f32⟩
  | 107 => ⟨S262144x1, .f32⟩
  | 108 => ⟨S262144x1, .f32⟩
  | 109 => ⟨S262144x19, .f32⟩
  | 110 => ⟨S1x19x19, .f32⟩
  | 111 => ⟨S19x19, .f32⟩
  | 112 => ⟨S19x19, .f32⟩
  | 113 => ⟨S262144x19, .f32⟩
  | 114 => ⟨S1x19, .f32⟩
  | 115 => ⟨S19, .f32⟩
  | 116 => ⟨S1x19, .f32⟩
  | 117 => ⟨S262144x19, .f32⟩
  | 118 => ⟨S262144x19, .f32⟩
  | 119 => ⟨S_, .f32⟩
  | 120 => ⟨S262144x19, .f32⟩
  | 121 => ⟨S262144x19, .f32⟩
  | 122 => ⟨S1x6x19, .f32⟩
  | 123 => ⟨S6x19, .f32⟩
  | 124 => ⟨S19x6, .f32⟩
  | 125 => ⟨S262144x6, .f32⟩
  | 126 => ⟨S1x6, .f32⟩
  | 127 => ⟨S6, .f32⟩
  | _ => ⟨S262144x24x9, .f32⟩

abbrev hbmTy0_3 (i : Nat) : BufTy := match i % 128 with
  | 0 => ⟨S1x6, .f32⟩
  | 1 => ⟨S262144x6, .f32⟩
  | 2 => ⟨S262144x6, .f32⟩
  | 3 => ⟨S262144x1x9, .f32⟩
  | 4 => ⟨S262144x9, .f32⟩
  | 5 => ⟨S262144x1x3, .f32⟩
  | 6 => ⟨S262144x3, .f32⟩
  | 7 => ⟨S262144x1x3, .f32⟩
  | 8 => ⟨S262144x3, .f32⟩
  | 9 => ⟨S262144x3, .f32⟩
  | 10 => ⟨S262144x3, .f32⟩
  | 11 => ⟨S_, .f32⟩
  | 12 => ⟨S262144, .f32⟩
  | 13 => ⟨S262144x1, .f32⟩
  | 14 => ⟨S262144x1, .f32⟩
  | 15 => ⟨S262144x19, .f32⟩
  | 16 => ⟨S1x19x19, .f32⟩
  | 17 => ⟨S19x19, .f32⟩
  | 18 => ⟨S19x19, .f32⟩
  | 19 => ⟨S262144x19, .f32⟩
  | 20 => ⟨S1x19, .f32⟩
  | 21 => ⟨S19, .f32⟩
  | 22 => ⟨S1x19, .f32⟩
  | 23 => ⟨S262144x19, .f32⟩
  | 24 => ⟨S262144x19, .f32⟩
  | 25 => ⟨S_, .f32⟩
  | 26 => ⟨S262144x19, .f32⟩
  | 27 => ⟨S262144x19, .f32⟩
  | 28 => ⟨S1x6x19, .f32⟩
  | 29 => ⟨S6x19, .f32⟩
  | 30 => ⟨S19x6, .f32⟩
  | 31 => ⟨S262144x6, .f32⟩
  | 32 => ⟨S1x6, .f32⟩
  | 33 => ⟨S6, .f32⟩
  | 34 => ⟨S1x6, .f32⟩
  | 35 => ⟨S262144x6, .f32⟩
  | 36 => ⟨S262144x6, .f32⟩
  | 37 => ⟨S262144x1x9, .f32⟩
  | 38 => ⟨S262144x9, .f32⟩
  | 39 => ⟨S262144x1x3, .f32⟩
  | 40 => ⟨S262144x3, .f32⟩
  | 41 => ⟨S262144x1x3, .f32⟩
  | 42 => ⟨S262144x3, .f32⟩
  | 43 => ⟨S262144x3, .f32⟩
  | 44 => ⟨S262144x3, .f32⟩
  | 45 => ⟨S_, .f32⟩
  | 46 => ⟨S262144, .f32⟩
  | 47 => ⟨S262144x1, .f32⟩
  | 48 => ⟨S262144x1, .f32⟩
  | 49 => ⟨S262144x19, .f32⟩
  | 50 => ⟨S1x19x19, .f32⟩
  | 51 => ⟨S19x19, .f32⟩
  | 52 => ⟨S19x19, .f32⟩
  | 53 => ⟨S262144x19, .f32⟩
  | 54 => ⟨S1x19, .f32⟩
  | 55 => ⟨S19, .f32⟩
  | 56 => ⟨S1x19, .f32⟩
  | 57 => ⟨S262144x19, .f32⟩
  | 58 => ⟨S262144x19, .f32⟩
  | 59 => ⟨S_, .f32⟩
  | 60 => ⟨S262144x19, .f32⟩
  | 61 => ⟨S262144x19, .f32⟩
  | 62 => ⟨S1x6x19, .f32⟩
  | 63 => ⟨S6x19, .f32⟩
  | 64 => ⟨S19x6, .f32⟩
  | 65 => ⟨S262144x6, .f32⟩
  | 66 => ⟨S1x6, .f32⟩
  | 67 => ⟨S6, .f32⟩
  | 68 => ⟨S1x6, .f32⟩
  | 69 => ⟨S262144x6, .f32⟩
  | 70 => ⟨S262144x6, .f32⟩
  | 71 => ⟨S262144x1x9, .f32⟩
  | 72 => ⟨S262144x9, .f32⟩
  | 73 => ⟨S262144x1x3, .f32⟩
  | 74 => ⟨S262144x3, .f32⟩
  | 75 => ⟨S262144x1x3, .f32⟩
  | 76 => ⟨S262144x3, .f32⟩
  | 77 => ⟨S262144x3, .f32⟩
  | 78 => ⟨S262144x3, .f32⟩
  | 79 => ⟨S_, .f32⟩
  | 80 => ⟨S262144, .f32⟩
  | 81 => ⟨S262144x1, .f32⟩
  | 82 => ⟨S262144x1, .f32⟩
  | 83 => ⟨S262144x19, .f32⟩
  | 84 => ⟨S1x19x19, .f32⟩
  | 85 => ⟨S19x19, .f32⟩
  | 86 => ⟨S19x19, .f32⟩
  | 87 => ⟨S262144x19, .f32⟩
  | 88 => ⟨S1x19, .f32⟩
  | 89 => ⟨S19, .f32⟩
  | 90 => ⟨S1x19, .f32⟩
  | 91 => ⟨S262144x19, .f32⟩
  | 92 => ⟨S262144x19, .f32⟩
  | 93 => ⟨S_, .f32⟩
  | 94 => ⟨S262144x19, .f32⟩
  | 95 => ⟨S262144x19, .f32⟩
  | 96 => ⟨S1x6x19, .f32⟩
  | 97 => ⟨S6x19, .f32⟩
  | 98 => ⟨S19x6, .f32⟩
  | 99 => ⟨S262144x6, .f32⟩
  | 100 => ⟨S1x6, .f32⟩
  | 101 => ⟨S6, .f32⟩
  | 102 => ⟨S1x6, .f32⟩
  | 103 => ⟨S262144x6, .f32⟩
  | 104 => ⟨S262144x6, .f32⟩
  | 105 => ⟨S262144x1x9, .f32⟩
  | 106 => ⟨S262144x9, .f32⟩
  | 107 => ⟨S262144x1x3, .f32⟩
  | 108 => ⟨S262144x3, .f32⟩
  | 109 => ⟨S262144x1x3, .f32⟩
  | 110 => ⟨S262144x3, .f32⟩
  | 111 => ⟨S262144x3, .f32⟩
  | 112 => ⟨S262144x3, .f32⟩
  | 113 => ⟨S_, .f32⟩
  | 114 => ⟨S262144, .f32⟩
  | 115 => ⟨S262144x1, .f32⟩
  | 116 => ⟨S262144x1, .f32⟩
  | 117 => ⟨S262144x19, .f32⟩
  | 118 => ⟨S1x19x19, .f32⟩
  | 119 => ⟨S19x19, .f32⟩
  | 120 => ⟨S19x19, .f32⟩
  | 121 => ⟨S262144x19, .f32⟩
  | 122 => ⟨S1x19, .f32⟩
  | 123 => ⟨S19, .f32⟩
  | 124 => ⟨S1x19, .f32⟩
  | 125 => ⟨S262144x19, .f32⟩
  | 126 => ⟨S262144x19, .f32⟩
  | 127 => ⟨S_, .f32⟩
  | _ => ⟨S262144x24x9, .f32⟩

abbrev hbmTy0_4 (i : Nat) : BufTy := match i % 128 with
  | 0 => ⟨S262144x19, .f32⟩
  | 1 => ⟨S262144x19, .f32⟩
  | 2 => ⟨S1x6x19, .f32⟩
  | 3 => ⟨S6x19, .f32⟩
  | 4 => ⟨S19x6, .f32⟩
  | 5 => ⟨S262144x6, .f32⟩
  | 6 => ⟨S1x6, .f32⟩
  | 7 => ⟨S6, .f32⟩
  | 8 => ⟨S1x6, .f32⟩
  | 9 => ⟨S262144x6, .f32⟩
  | 10 => ⟨S262144x6, .f32⟩
  | 11 => ⟨S262144x1x9, .f32⟩
  | 12 => ⟨S262144x9, .f32⟩
  | 13 => ⟨S262144x1x3, .f32⟩
  | 14 => ⟨S262144x3, .f32⟩
  | 15 => ⟨S262144x1x3, .f32⟩
  | 16 => ⟨S262144x3, .f32⟩
  | 17 => ⟨S262144x3, .f32⟩
  | 18 => ⟨S262144x3, .f32⟩
  | 19 => ⟨S_, .f32⟩
  | 20 => ⟨S262144, .f32⟩
  | 21 => ⟨S262144x1, .f32⟩
  | 22 => ⟨S262144x1, .f32⟩
  | 23 => ⟨S262144x19, .f32⟩
  | 24 => ⟨S1x19x19, .f32⟩
  | 25 => ⟨S19x19, .f32⟩
  | 26 => ⟨S19x19, .f32⟩
  | 27 => ⟨S262144x19, .f32⟩
  | 28 => ⟨S1x19, .f32⟩
  | 29 => ⟨S19, .f32⟩
  | 30 => ⟨S1x19, .f32⟩
  | 31 => ⟨S262144x19, .f32⟩
  | 32 => ⟨S262144x19, .f32⟩
  | 33 => ⟨S_, .f32⟩
  | 34 => ⟨S262144x19, .f32⟩
  | 35 => ⟨S262144x19, .f32⟩
  | 36 => ⟨S1x6x19, .f32⟩
  | 37 => ⟨S6x19, .f32⟩
  | 38 => ⟨S19x6, .f32⟩
  | 39 => ⟨S262144x6, .f32⟩
  | 40 => ⟨S1x6, .f32⟩
  | 41 => ⟨S6, .f32⟩
  | 42 => ⟨S1x6, .f32⟩
  | 43 => ⟨S262144x6, .f32⟩
  | 44 => ⟨S262144x6, .f32⟩
  | 45 => ⟨S262144x1x9, .f32⟩
  | 46 => ⟨S262144x9, .f32⟩
  | 47 => ⟨S262144x1x3, .f32⟩
  | 48 => ⟨S262144x3, .f32⟩
  | 49 => ⟨S262144x1x3, .f32⟩
  | 50 => ⟨S262144x3, .f32⟩
  | 51 => ⟨S262144x3, .f32⟩
  | 52 => ⟨S262144x3, .f32⟩
  | 53 => ⟨S_, .f32⟩
  | 54 => ⟨S262144, .f32⟩
  | 55 => ⟨S262144x1, .f32⟩
  | 56 => ⟨S262144x1, .f32⟩
  | 57 => ⟨S262144x19, .f32⟩
  | 58 => ⟨S1x19x19, .f32⟩
  | 59 => ⟨S19x19, .f32⟩
  | 60 => ⟨S19x19, .f32⟩
  | 61 => ⟨S262144x19, .f32⟩
  | 62 => ⟨S1x19, .f32⟩
  | 63 => ⟨S19, .f32⟩
  | 64 => ⟨S1x19, .f32⟩
  | 65 => ⟨S262144x19, .f32⟩
  | 66 => ⟨S262144x19, .f32⟩
  | 67 => ⟨S_, .f32⟩
  | 68 => ⟨S262144x19, .f32⟩
  | 69 => ⟨S262144x19, .f32⟩
  | 70 => ⟨S1x6x19, .f32⟩
  | 71 => ⟨S6x19, .f32⟩
  | 72 => ⟨S19x6, .f32⟩
  | 73 => ⟨S262144x6, .f32⟩
  | 74 => ⟨S1x6, .f32⟩
  | 75 => ⟨S6, .f32⟩
  | 76 => ⟨S1x6, .f32⟩
  | 77 => ⟨S262144x6, .f32⟩
  | 78 => ⟨S262144x6, .f32⟩
  | 79 => ⟨S262144x1x9, .f32⟩
  | 80 => ⟨S262144x9, .f32⟩
  | 81 => ⟨S262144x1x3, .f32⟩
  | 82 => ⟨S262144x3, .f32⟩
  | 83 => ⟨S262144x1x3, .f32⟩
  | 84 => ⟨S262144x3, .f32⟩
  | 85 => ⟨S262144x3, .f32⟩
  | 86 => ⟨S262144x3, .f32⟩
  | 87 => ⟨S_, .f32⟩
  | 88 => ⟨S262144, .f32⟩
  | 89 => ⟨S262144x1, .f32⟩
  | 90 => ⟨S262144x1, .f32⟩
  | 91 => ⟨S262144x19, .f32⟩
  | 92 => ⟨S1x19x19, .f32⟩
  | 93 => ⟨S19x19, .f32⟩
  | 94 => ⟨S19x19, .f32⟩
  | 95 => ⟨S262144x19, .f32⟩
  | 96 => ⟨S1x19, .f32⟩
  | 97 => ⟨S19, .f32⟩
  | 98 => ⟨S1x19, .f32⟩
  | 99 => ⟨S262144x19, .f32⟩
  | 100 => ⟨S262144x19, .f32⟩
  | 101 => ⟨S_, .f32⟩
  | 102 => ⟨S262144x19, .f32⟩
  | 103 => ⟨S262144x19, .f32⟩
  | 104 => ⟨S1x6x19, .f32⟩
  | 105 => ⟨S6x19, .f32⟩
  | 106 => ⟨S19x6, .f32⟩
  | 107 => ⟨S262144x6, .f32⟩
  | 108 => ⟨S1x6, .f32⟩
  | 109 => ⟨S6, .f32⟩
  | 110 => ⟨S1x6, .f32⟩
  | 111 => ⟨S262144x6, .f32⟩
  | 112 => ⟨S262144x6, .f32⟩
  | 113 => ⟨S262144x1x9, .f32⟩
  | 114 => ⟨S262144x9, .f32⟩
  | 115 => ⟨S262144x1x3, .f32⟩
  | 116 => ⟨S262144x3, .f32⟩
  | 117 => ⟨S262144x1x3, .f32⟩
  | 118 => ⟨S262144x3, .f32⟩
  | 119 => ⟨S262144x3, .f32⟩
  | 120 => ⟨S262144x3, .f32⟩
  | 121 => ⟨S_, .f32⟩
  | 122 => ⟨S262144, .f32⟩
  | 123 => ⟨S262144x1, .f32⟩
  | 124 => ⟨S262144x1, .f32⟩
  | 125 => ⟨S262144x19, .f32⟩
  | 126 => ⟨S1x19x19, .f32⟩
  | 127 => ⟨S19x19, .f32⟩
  | _ => ⟨S262144x24x9, .f32⟩

abbrev hbmTy0_5 (i : Nat) : BufTy := match i % 128 with
  | 0 => ⟨S19x19, .f32⟩
  | 1 => ⟨S262144x19, .f32⟩
  | 2 => ⟨S1x19, .f32⟩
  | 3 => ⟨S19, .f32⟩
  | 4 => ⟨S1x19, .f32⟩
  | 5 => ⟨S262144x19, .f32⟩
  | 6 => ⟨S262144x19, .f32⟩
  | 7 => ⟨S_, .f32⟩
  | 8 => ⟨S262144x19, .f32⟩
  | 9 => ⟨S262144x19, .f32⟩
  | 10 => ⟨S1x6x19, .f32⟩
  | 11 => ⟨S6x19, .f32⟩
  | 12 => ⟨S19x6, .f32⟩
  | 13 => ⟨S262144x6, .f32⟩
  | 14 => ⟨S1x6, .f32⟩
  | 15 => ⟨S6, .f32⟩
  | 16 => ⟨S1x6, .f32⟩
  | 17 => ⟨S262144x6, .f32⟩
  | 18 => ⟨S262144x6, .f32⟩
  | 19 => ⟨S262144x1x9, .f32⟩
  | 20 => ⟨S262144x9, .f32⟩
  | 21 => ⟨S262144x1x3, .f32⟩
  | 22 => ⟨S262144x3, .f32⟩
  | 23 => ⟨S262144x1x3, .f32⟩
  | 24 => ⟨S262144x3, .f32⟩
  | 25 => ⟨S262144x3, .f32⟩
  | 26 => ⟨S262144x3, .f32⟩
  | 27 => ⟨S_, .f32⟩
  | 28 => ⟨S262144, .f32⟩
  | 29 => ⟨S262144x1, .f32⟩
  | 30 => ⟨S262144x1, .f32⟩
  | 31 => ⟨S262144x19, .f32⟩
  | 32 => ⟨S1x19x19, .f32⟩
  | 33 => ⟨S19x19, .f32⟩
  | 34 => ⟨S19x19, .f32⟩
  | 35 => ⟨S262144x19, .f32⟩
  | 36 => ⟨S1x19, .f32⟩
  | 37 => ⟨S19, .f32⟩
  | 38 => ⟨S1x19, .f32⟩
  | 39 => ⟨S262144x19, .f32⟩
  | 40 => ⟨S262144x19, .f32⟩
  | 41 => ⟨S_, .f32⟩
  | 42 => ⟨S262144x19, .f32⟩
  | 43 => ⟨S262144x19, .f32⟩
  | 44 => ⟨S1x6x19, .f32⟩
  | 45 => ⟨S6x19, .f32⟩
  | 46 => ⟨S19x6, .f32⟩
  | 47 => ⟨S262144x6, .f32⟩
  | 48 => ⟨S1x6, .f32⟩
  | 49 => ⟨S6, .f32⟩
  | 50 => ⟨S1x6, .f32⟩
  | 51 => ⟨S262144x6, .f32⟩
  | 52 => ⟨S262144x6, .f32⟩
  | 53 => ⟨S262144x1x9, .f32⟩
  | 54 => ⟨S262144x9, .f32⟩
  | 55 => ⟨S262144x1x3, .f32⟩
  | 56 => ⟨S262144x3, .f32⟩
  | 57 => ⟨S262144x1x3, .f32⟩
  | 58 => ⟨S262144x3, .f32⟩
  | 59 => ⟨S262144x3, .f32⟩
  | 60 => ⟨S262144x3, .f32⟩
  | 61 => ⟨S_, .f32⟩
  | 62 => ⟨S262144, .f32⟩
  | 63 => ⟨S262144x1, .f32⟩
  | 64 => ⟨S262144x1, .f32⟩
  | 65 => ⟨S262144x19, .f32⟩
  | 66 => ⟨S1x19x19, .f32⟩
  | 67 => ⟨S19x19, .f32⟩
  | 68 => ⟨S19x19, .f32⟩
  | 69 => ⟨S262144x19, .f32⟩
  | 70 => ⟨S1x19, .f32⟩
  | 71 => ⟨S19, .f32⟩
  | 72 => ⟨S1x19, .f32⟩
  | 73 => ⟨S262144x19, .f32⟩
  | 74 => ⟨S262144x19, .f32⟩
  | 75 => ⟨S_, .f32⟩
  | 76 => ⟨S262144x19, .f32⟩
  | 77 => ⟨S262144x19, .f32⟩
  | 78 => ⟨S1x6x19, .f32⟩
  | 79 => ⟨S6x19, .f32⟩
  | 80 => ⟨S19x6, .f32⟩
  | 81 => ⟨S262144x6, .f32⟩
  | 82 => ⟨S1x6, .f32⟩
  | 83 => ⟨S6, .f32⟩
  | 84 => ⟨S1x6, .f32⟩
  | 85 => ⟨S262144x6, .f32⟩
  | 86 => ⟨S262144x6, .f32⟩
  | 87 => ⟨S262144x1x9, .f32⟩
  | 88 => ⟨S262144x9, .f32⟩
  | 89 => ⟨S262144x1x3, .f32⟩
  | 90 => ⟨S262144x3, .f32⟩
  | 91 => ⟨S262144x1x3, .f32⟩
  | 92 => ⟨S262144x3, .f32⟩
  | 93 => ⟨S262144x3, .f32⟩
  | 94 => ⟨S262144x3, .f32⟩
  | 95 => ⟨S_, .f32⟩
  | 96 => ⟨S262144, .f32⟩
  | 97 => ⟨S262144x1, .f32⟩
  | 98 => ⟨S262144x1, .f32⟩
  | 99 => ⟨S262144x19, .f32⟩
  | 100 => ⟨S1x19x19, .f32⟩
  | 101 => ⟨S19x19, .f32⟩
  | 102 => ⟨S19x19, .f32⟩
  | 103 => ⟨S262144x19, .f32⟩
  | 104 => ⟨S1x19, .f32⟩
  | 105 => ⟨S19, .f32⟩
  | 106 => ⟨S1x19, .f32⟩
  | 107 => ⟨S262144x19, .f32⟩
  | 108 => ⟨S262144x19, .f32⟩
  | 109 => ⟨S_, .f32⟩
  | 110 => ⟨S262144x19, .f32⟩
  | 111 => ⟨S262144x19, .f32⟩
  | 112 => ⟨S1x6x19, .f32⟩
  | 113 => ⟨S6x19, .f32⟩
  | 114 => ⟨S19x6, .f32⟩
  | 115 => ⟨S262144x6, .f32⟩
  | 116 => ⟨S1x6, .f32⟩
  | 117 => ⟨S6, .f32⟩
  | 118 => ⟨S1x6, .f32⟩
  | 119 => ⟨S262144x6, .f32⟩
  | 120 => ⟨S262144x6, .f32⟩
  | 121 => ⟨S262144x1x9, .f32⟩
  | 122 => ⟨S262144x9, .f32⟩
  | 123 => ⟨S262144x1x3, .f32⟩
  | 124 => ⟨S262144x3, .f32⟩
  | 125 => ⟨S262144x1x3, .f32⟩
  | 126 => ⟨S262144x3, .f32⟩
  | 127 => ⟨S262144x3, .f32⟩
  | _ => ⟨S262144x24x9, .f32⟩

abbrev hbmTy0_6 (i : Nat) : BufTy := match i % 128 with
  | 0 => ⟨S262144x3, .f32⟩
  | 1 => ⟨S_, .f32⟩
  | 2 => ⟨S262144, .f32⟩
  | 3 => ⟨S262144x1, .f32⟩
  | 4 => ⟨S262144x1, .f32⟩
  | 5 => ⟨S262144x19, .f32⟩
  | 6 => ⟨S1x19x19, .f32⟩
  | 7 => ⟨S19x19, .f32⟩
  | 8 => ⟨S19x19, .f32⟩
  | 9 => ⟨S262144x19, .f32⟩
  | 10 => ⟨S1x19, .f32⟩
  | 11 => ⟨S19, .f32⟩
  | 12 => ⟨S1x19, .f32⟩
  | 13 => ⟨S262144x19, .f32⟩
  | 14 => ⟨S262144x19, .f32⟩
  | 15 => ⟨S_, .f32⟩
  | 16 => ⟨S262144x19, .f32⟩
  | 17 => ⟨S262144x19, .f32⟩
  | 18 => ⟨S1x6x19, .f32⟩
  | 19 => ⟨S6x19, .f32⟩
  | 20 => ⟨S19x6, .f32⟩
  | 21 => ⟨S262144x6, .f32⟩
  | 22 => ⟨S1x6, .f32⟩
  | 23 => ⟨S6, .f32⟩
  | 24 => ⟨S1x6, .f32⟩
  | 25 => ⟨S262144x6, .f32⟩
  | 26 => ⟨S262144x6, .f32⟩
  | 27 => ⟨S262144x1x9, .f32⟩
  | 28 => ⟨S262144x9, .f32⟩
  | 29 => ⟨S262144x1x3, .f32⟩
  | 30 => ⟨S262144x3, .f32⟩
  | 31 => ⟨S262144x1x3, .f32⟩
  | 32 => ⟨S262144x3, .f32⟩
  | 33 => ⟨S262144x3, .f32⟩
  | 34 => ⟨S262144x3, .f32⟩
  | 35 => ⟨S_, .f32⟩
  | 36 => ⟨S262144, .f32⟩
  | 37 => ⟨S262144x1, .f32⟩
  | 38 => ⟨S262144x1, .f32⟩
  | 39 => ⟨S262144x19, .f32⟩
  | 40 => ⟨S1x19x19, .f32⟩
  | 41 => ⟨S19x19, .f32⟩
  | 42 => ⟨S19x19, .f32⟩
  | 43 => ⟨S262144x19, .f32⟩
  | 44 => ⟨S1x19, .f32⟩
  | 45 => ⟨S19, .f32⟩
  | 46 => ⟨S1x19, .f32⟩
  | 47 => ⟨S262144x19, .f32⟩
  | 48 => ⟨S262144x19, .f32⟩
  | 49 => ⟨S_, .f32⟩
  | 50 => ⟨S262144x19, .f32⟩
  | 51 => ⟨S262144x19, .f32⟩
  | 52 => ⟨S1x6x19, .f32⟩
  | 53 => ⟨S6x19, .f32⟩
  | 54 => ⟨S19x6, .f32⟩
  | 55 => ⟨S262144x6, .f32⟩
  | 56 => ⟨S1x6, .f32⟩
  | 57 => ⟨S6, .f32⟩
  | 58 => ⟨S1x6, .f32⟩
  | 59 => ⟨S262144x6, .f32⟩
  | 60 => ⟨S262144x6, .f32⟩
  | 61 => ⟨S262144x96, .f32⟩
  | 62 => ⟨S262144x48, .f32⟩
  | 63 => ⟨S262144x144, .f32⟩
  | _ => ⟨S262144x24x9, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | _ => ⟨S262144x24x9, .f32⟩

abbrev bufTy : (tb : Table) → Fin (tcTables nBuf tb) → BufTy
  | .hbm, ⟨i, _⟩ => hbmTy i
  | _, _ => ⟨S262144x24x9, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_call0_v0 : Ref sig .tc := ⟨.hbm, 20, rfl⟩
abbrev main_call0_cst : Ref sig .tc := ⟨.hbm, 21, rfl⟩
abbrev main_call0_v1 : Ref sig .tc := ⟨.hbm, 22, rfl⟩
abbrev main_call0_v2 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_call1_cst : Ref sig .tc := ⟨.hbm, 35, rfl⟩
abbrev main_call1_v0 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_call2_v0 : Ref sig .tc := ⟨.hbm, 54, rfl⟩
abbrev main_call2_cst : Ref sig .tc := ⟨.hbm, 55, rfl⟩
abbrev main_call2_v1 : Ref sig .tc := ⟨.hbm, 56, rfl⟩
abbrev main_call2_v2 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_call3_cst : Ref sig .tc := ⟨.hbm, 69, rfl⟩
abbrev main_call3_v0 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_call4_v0 : Ref sig .tc := ⟨.hbm, 88, rfl⟩
abbrev main_call4_cst : Ref sig .tc := ⟨.hbm, 89, rfl⟩
abbrev main_call4_v1 : Ref sig .tc := ⟨.hbm, 90, rfl⟩
abbrev main_call4_v2 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_call5_cst : Ref sig .tc := ⟨.hbm, 103, rfl⟩
abbrev main_call5_v0 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩
abbrev main_v90 : Ref sig .tc := ⟨.hbm, 116, rfl⟩
abbrev main_v91 : Ref sig .tc := ⟨.hbm, 117, rfl⟩
abbrev main_v92 : Ref sig .tc := ⟨.hbm, 118, rfl⟩
abbrev main_v93 : Ref sig .tc := ⟨.hbm, 119, rfl⟩
abbrev main_v94 : Ref sig .tc := ⟨.hbm, 120, rfl⟩
abbrev main_v95 : Ref sig .tc := ⟨.hbm, 121, rfl⟩
abbrev main_call6_v0 : Ref sig .tc := ⟨.hbm, 122, rfl⟩
abbrev main_call6_cst : Ref sig .tc := ⟨.hbm, 123, rfl⟩
abbrev main_call6_v1 : Ref sig .tc := ⟨.hbm, 124, rfl⟩
abbrev main_call6_v2 : Ref sig .tc := ⟨.hbm, 125, rfl⟩
abbrev main_v96 : Ref sig .tc := ⟨.hbm, 126, rfl⟩
abbrev main_v97 : Ref sig .tc := ⟨.hbm, 127, rfl⟩
abbrev main_v98 : Ref sig .tc := ⟨.hbm, 128, rfl⟩
abbrev main_v99 : Ref sig .tc := ⟨.hbm, 129, rfl⟩
abbrev main_v100 : Ref sig .tc := ⟨.hbm, 130, rfl⟩
abbrev main_v101 : Ref sig .tc := ⟨.hbm, 131, rfl⟩
abbrev main_v102 : Ref sig .tc := ⟨.hbm, 132, rfl⟩
abbrev main_v103 : Ref sig .tc := ⟨.hbm, 133, rfl⟩
abbrev main_v104 : Ref sig .tc := ⟨.hbm, 134, rfl⟩
abbrev main_v105 : Ref sig .tc := ⟨.hbm, 135, rfl⟩
abbrev main_v106 : Ref sig .tc := ⟨.hbm, 136, rfl⟩
abbrev main_call7_cst : Ref sig .tc := ⟨.hbm, 137, rfl⟩
abbrev main_call7_v0 : Ref sig .tc := ⟨.hbm, 138, rfl⟩
abbrev main_v107 : Ref sig .tc := ⟨.hbm, 139, rfl⟩
abbrev main_v108 : Ref sig .tc := ⟨.hbm, 140, rfl⟩
abbrev main_v109 : Ref sig .tc := ⟨.hbm, 141, rfl⟩
abbrev main_v110 : Ref sig .tc := ⟨.hbm, 142, rfl⟩
abbrev main_v111 : Ref sig .tc := ⟨.hbm, 143, rfl⟩
abbrev main_v112 : Ref sig .tc := ⟨.hbm, 144, rfl⟩
abbrev main_v113 : Ref sig .tc := ⟨.hbm, 145, rfl⟩
abbrev main_v114 : Ref sig .tc := ⟨.hbm, 146, rfl⟩
abbrev main_v115 : Ref sig .tc := ⟨.hbm, 147, rfl⟩
abbrev main_v116 : Ref sig .tc := ⟨.hbm, 148, rfl⟩
abbrev main_v117 : Ref sig .tc := ⟨.hbm, 149, rfl⟩
abbrev main_v118 : Ref sig .tc := ⟨.hbm, 150, rfl⟩
abbrev main_v119 : Ref sig .tc := ⟨.hbm, 151, rfl⟩
abbrev main_v120 : Ref sig .tc := ⟨.hbm, 152, rfl⟩
abbrev main_v121 : Ref sig .tc := ⟨.hbm, 153, rfl⟩
abbrev main_v122 : Ref sig .tc := ⟨.hbm, 154, rfl⟩
abbrev main_v123 : Ref sig .tc := ⟨.hbm, 155, rfl⟩
abbrev main_call8_v0 : Ref sig .tc := ⟨.hbm, 156, rfl⟩
abbrev main_call8_cst : Ref sig .tc := ⟨.hbm, 157, rfl⟩
abbrev main_call8_v1 : Ref sig .tc := ⟨.hbm, 158, rfl⟩
abbrev main_call8_v2 : Ref sig .tc := ⟨.hbm, 159, rfl⟩
abbrev main_v124 : Ref sig .tc := ⟨.hbm, 160, rfl⟩
abbrev main_v125 : Ref sig .tc := ⟨.hbm, 161, rfl⟩
abbrev main_v126 : Ref sig .tc := ⟨.hbm, 162, rfl⟩
abbrev main_v127 : Ref sig .tc := ⟨.hbm, 163, rfl⟩
abbrev main_v128 : Ref sig .tc := ⟨.hbm, 164, rfl⟩
abbrev main_v129 : Ref sig .tc := ⟨.hbm, 165, rfl⟩
abbrev main_v130 : Ref sig .tc := ⟨.hbm, 166, rfl⟩
abbrev main_v131 : Ref sig .tc := ⟨.hbm, 167, rfl⟩
abbrev main_v132 : Ref sig .tc := ⟨.hbm, 168, rfl⟩
abbrev main_v133 : Ref sig .tc := ⟨.hbm, 169, rfl⟩
abbrev main_v134 : Ref sig .tc := ⟨.hbm, 170, rfl⟩
abbrev main_call9_cst : Ref sig .tc := ⟨.hbm, 171, rfl⟩
abbrev main_call9_v0 : Ref sig .tc := ⟨.hbm, 172, rfl⟩
abbrev main_v135 : Ref sig .tc := ⟨.hbm, 173, rfl⟩
abbrev main_v136 : Ref sig .tc := ⟨.hbm, 174, rfl⟩
abbrev main_v137 : Ref sig .tc := ⟨.hbm, 175, rfl⟩
abbrev main_v138 : Ref sig .tc := ⟨.hbm, 176, rfl⟩
abbrev main_v139 : Ref sig .tc := ⟨.hbm, 177, rfl⟩
abbrev main_v140 : Ref sig .tc := ⟨.hbm, 178, rfl⟩
abbrev main_v141 : Ref sig .tc := ⟨.hbm, 179, rfl⟩
abbrev main_v142 : Ref sig .tc := ⟨.hbm, 180, rfl⟩
abbrev main_v143 : Ref sig .tc := ⟨.hbm, 181, rfl⟩
abbrev main_v144 : Ref sig .tc := ⟨.hbm, 182, rfl⟩
abbrev main_v145 : Ref sig .tc := ⟨.hbm, 183, rfl⟩
abbrev main_v146 : Ref sig .tc := ⟨.hbm, 184, rfl⟩
abbrev main_v147 : Ref sig .tc := ⟨.hbm, 185, rfl⟩
abbrev main_v148 : Ref sig .tc := ⟨.hbm, 186, rfl⟩
abbrev main_v149 : Ref sig .tc := ⟨.hbm, 187, rfl⟩
abbrev main_v150 : Ref sig .tc := ⟨.hbm, 188, rfl⟩
abbrev main_v151 : Ref sig .tc := ⟨.hbm, 189, rfl⟩
abbrev main_call10_v0 : Ref sig .tc := ⟨.hbm, 190, rfl⟩
abbrev main_call10_cst : Ref sig .tc := ⟨.hbm, 191, rfl⟩
abbrev main_call10_v1 : Ref sig .tc := ⟨.hbm, 192, rfl⟩
abbrev main_call10_v2 : Ref sig .tc := ⟨.hbm, 193, rfl⟩
abbrev main_v152 : Ref sig .tc := ⟨.hbm, 194, rfl⟩
abbrev main_v153 : Ref sig .tc := ⟨.hbm, 195, rfl⟩
abbrev main_v154 : Ref sig .tc := ⟨.hbm, 196, rfl⟩
abbrev main_v155 : Ref sig .tc := ⟨.hbm, 197, rfl⟩
abbrev main_v156 : Ref sig .tc := ⟨.hbm, 198, rfl⟩
abbrev main_v157 : Ref sig .tc := ⟨.hbm, 199, rfl⟩
abbrev main_v158 : Ref sig .tc := ⟨.hbm, 200, rfl⟩
abbrev main_v159 : Ref sig .tc := ⟨.hbm, 201, rfl⟩
abbrev main_v160 : Ref sig .tc := ⟨.hbm, 202, rfl⟩
abbrev main_v161 : Ref sig .tc := ⟨.hbm, 203, rfl⟩
abbrev main_v162 : Ref sig .tc := ⟨.hbm, 204, rfl⟩
abbrev main_call11_cst : Ref sig .tc := ⟨.hbm, 205, rfl⟩
abbrev main_call11_v0 : Ref sig .tc := ⟨.hbm, 206, rfl⟩
abbrev main_v163 : Ref sig .tc := ⟨.hbm, 207, rfl⟩
abbrev main_v164 : Ref sig .tc := ⟨.hbm, 208, rfl⟩
abbrev main_v165 : Ref sig .tc := ⟨.hbm, 209, rfl⟩
abbrev main_v166 : Ref sig .tc := ⟨.hbm, 210, rfl⟩
abbrev main_v167 : Ref sig .tc := ⟨.hbm, 211, rfl⟩
abbrev main_v168 : Ref sig .tc := ⟨.hbm, 212, rfl⟩
abbrev main_v169 : Ref sig .tc := ⟨.hbm, 213, rfl⟩
abbrev main_v170 : Ref sig .tc := ⟨.hbm, 214, rfl⟩
abbrev main_v171 : Ref sig .tc := ⟨.hbm, 215, rfl⟩
abbrev main_v172 : Ref sig .tc := ⟨.hbm, 216, rfl⟩
abbrev main_v173 : Ref sig .tc := ⟨.hbm, 217, rfl⟩
abbrev main_v174 : Ref sig .tc := ⟨.hbm, 218, rfl⟩
abbrev main_v175 : Ref sig .tc := ⟨.hbm, 219, rfl⟩
abbrev main_v176 : Ref sig .tc := ⟨.hbm, 220, rfl⟩
abbrev main_v177 : Ref sig .tc := ⟨.hbm, 221, rfl⟩
abbrev main_v178 : Ref sig .tc := ⟨.hbm, 222, rfl⟩
abbrev main_v179 : Ref sig .tc := ⟨.hbm, 223, rfl⟩
abbrev main_call12_v0 : Ref sig .tc := ⟨.hbm, 224, rfl⟩
abbrev main_call12_cst : Ref sig .tc := ⟨.hbm, 225, rfl⟩
abbrev main_call12_v1 : Ref sig .tc := ⟨.hbm, 226, rfl⟩
abbrev main_call12_v2 : Ref sig .tc := ⟨.hbm, 227, rfl⟩
abbrev main_v180 : Ref sig .tc := ⟨.hbm, 228, rfl⟩
abbrev main_v181 : Ref sig .tc := ⟨.hbm, 229, rfl⟩
abbrev main_v182 : Ref sig .tc := ⟨.hbm, 230, rfl⟩
abbrev main_v183 : Ref sig .tc := ⟨.hbm, 231, rfl⟩
abbrev main_v184 : Ref sig .tc := ⟨.hbm, 232, rfl⟩
abbrev main_v185 : Ref sig .tc := ⟨.hbm, 233, rfl⟩
abbrev main_v186 : Ref sig .tc := ⟨.hbm, 234, rfl⟩
abbrev main_v187 : Ref sig .tc := ⟨.hbm, 235, rfl⟩
abbrev main_v188 : Ref sig .tc := ⟨.hbm, 236, rfl⟩
abbrev main_v189 : Ref sig .tc := ⟨.hbm, 237, rfl⟩
abbrev main_v190 : Ref sig .tc := ⟨.hbm, 238, rfl⟩
abbrev main_call13_cst : Ref sig .tc := ⟨.hbm, 239, rfl⟩
abbrev main_call13_v0 : Ref sig .tc := ⟨.hbm, 240, rfl⟩
abbrev main_v191 : Ref sig .tc := ⟨.hbm, 241, rfl⟩
abbrev main_v192 : Ref sig .tc := ⟨.hbm, 242, rfl⟩
abbrev main_v193 : Ref sig .tc := ⟨.hbm, 243, rfl⟩
abbrev main_v194 : Ref sig .tc := ⟨.hbm, 244, rfl⟩
abbrev main_v195 : Ref sig .tc := ⟨.hbm, 245, rfl⟩
abbrev main_v196 : Ref sig .tc := ⟨.hbm, 246, rfl⟩
abbrev main_v197 : Ref sig .tc := ⟨.hbm, 247, rfl⟩
abbrev main_v198 : Ref sig .tc := ⟨.hbm, 248, rfl⟩
abbrev main_v199 : Ref sig .tc := ⟨.hbm, 249, rfl⟩
abbrev main_v200 : Ref sig .tc := ⟨.hbm, 250, rfl⟩
abbrev main_v201 : Ref sig .tc := ⟨.hbm, 251, rfl⟩
abbrev main_v202 : Ref sig .tc := ⟨.hbm, 252, rfl⟩
abbrev main_v203 : Ref sig .tc := ⟨.hbm, 253, rfl⟩
abbrev main_v204 : Ref sig .tc := ⟨.hbm, 254, rfl⟩
abbrev main_v205 : Ref sig .tc := ⟨.hbm, 255, rfl⟩
abbrev main_v206 : Ref sig .tc := ⟨.hbm, 256, rfl⟩
abbrev main_v207 : Ref sig .tc := ⟨.hbm, 257, rfl⟩
abbrev main_call14_v0 : Ref sig .tc := ⟨.hbm, 258, rfl⟩
abbrev main_call14_cst : Ref sig .tc := ⟨.hbm, 259, rfl⟩
abbrev main_call14_v1 : Ref sig .tc := ⟨.hbm, 260, rfl⟩
abbrev main_call14_v2 : Ref sig .tc := ⟨.hbm, 261, rfl⟩
abbrev main_v208 : Ref sig .tc := ⟨.hbm, 262, rfl⟩
abbrev main_v209 : Ref sig .tc := ⟨.hbm, 263, rfl⟩
abbrev main_v210 : Ref sig .tc := ⟨.hbm, 264, rfl⟩
abbrev main_v211 : Ref sig .tc := ⟨.hbm, 265, rfl⟩
abbrev main_v212 : Ref sig .tc := ⟨.hbm, 266, rfl⟩
abbrev main_v213 : Ref sig .tc := ⟨.hbm, 267, rfl⟩
abbrev main_v214 : Ref sig .tc := ⟨.hbm, 268, rfl⟩
abbrev main_v215 : Ref sig .tc := ⟨.hbm, 269, rfl⟩
abbrev main_v216 : Ref sig .tc := ⟨.hbm, 270, rfl⟩
abbrev main_v217 : Ref sig .tc := ⟨.hbm, 271, rfl⟩
abbrev main_v218 : Ref sig .tc := ⟨.hbm, 272, rfl⟩
abbrev main_call15_cst : Ref sig .tc := ⟨.hbm, 273, rfl⟩
abbrev main_call15_v0 : Ref sig .tc := ⟨.hbm, 274, rfl⟩
abbrev main_v219 : Ref sig .tc := ⟨.hbm, 275, rfl⟩
abbrev main_v220 : Ref sig .tc := ⟨.hbm, 276, rfl⟩
abbrev main_v221 : Ref sig .tc := ⟨.hbm, 277, rfl⟩
abbrev main_v222 : Ref sig .tc := ⟨.hbm, 278, rfl⟩
abbrev main_v223 : Ref sig .tc := ⟨.hbm, 279, rfl⟩
abbrev main_v224 : Ref sig .tc := ⟨.hbm, 280, rfl⟩
abbrev main_v225 : Ref sig .tc := ⟨.hbm, 281, rfl⟩
abbrev main_v226 : Ref sig .tc := ⟨.hbm, 282, rfl⟩
abbrev main_v227 : Ref sig .tc := ⟨.hbm, 283, rfl⟩
abbrev main_v228 : Ref sig .tc := ⟨.hbm, 284, rfl⟩
abbrev main_v229 : Ref sig .tc := ⟨.hbm, 285, rfl⟩
abbrev main_v230 : Ref sig .tc := ⟨.hbm, 286, rfl⟩
abbrev main_v231 : Ref sig .tc := ⟨.hbm, 287, rfl⟩
abbrev main_v232 : Ref sig .tc := ⟨.hbm, 288, rfl⟩
abbrev main_v233 : Ref sig .tc := ⟨.hbm, 289, rfl⟩
abbrev main_v234 : Ref sig .tc := ⟨.hbm, 290, rfl⟩
abbrev main_v235 : Ref sig .tc := ⟨.hbm, 291, rfl⟩
abbrev main_call16_v0 : Ref sig .tc := ⟨.hbm, 292, rfl⟩
abbrev main_call16_cst : Ref sig .tc := ⟨.hbm, 293, rfl⟩
abbrev main_call16_v1 : Ref sig .tc := ⟨.hbm, 294, rfl⟩
abbrev main_call16_v2 : Ref sig .tc := ⟨.hbm, 295, rfl⟩
abbrev main_v236 : Ref sig .tc := ⟨.hbm, 296, rfl⟩
abbrev main_v237 : Ref sig .tc := ⟨.hbm, 297, rfl⟩
abbrev main_v238 : Ref sig .tc := ⟨.hbm, 298, rfl⟩
abbrev main_v239 : Ref sig .tc := ⟨.hbm, 299, rfl⟩
abbrev main_v240 : Ref sig .tc := ⟨.hbm, 300, rfl⟩
abbrev main_v241 : Ref sig .tc := ⟨.hbm, 301, rfl⟩
abbrev main_v242 : Ref sig .tc := ⟨.hbm, 302, rfl⟩
abbrev main_v243 : Ref sig .tc := ⟨.hbm, 303, rfl⟩
abbrev main_v244 : Ref sig .tc := ⟨.hbm, 304, rfl⟩
abbrev main_v245 : Ref sig .tc := ⟨.hbm, 305, rfl⟩
abbrev main_v246 : Ref sig .tc := ⟨.hbm, 306, rfl⟩
abbrev main_call17_cst : Ref sig .tc := ⟨.hbm, 307, rfl⟩
abbrev main_call17_v0 : Ref sig .tc := ⟨.hbm, 308, rfl⟩
abbrev main_v247 : Ref sig .tc := ⟨.hbm, 309, rfl⟩
abbrev main_v248 : Ref sig .tc := ⟨.hbm, 310, rfl⟩
abbrev main_v249 : Ref sig .tc := ⟨.hbm, 311, rfl⟩
abbrev main_v250 : Ref sig .tc := ⟨.hbm, 312, rfl⟩
abbrev main_v251 : Ref sig .tc := ⟨.hbm, 313, rfl⟩
abbrev main_v252 : Ref sig .tc := ⟨.hbm, 314, rfl⟩
abbrev main_v253 : Ref sig .tc := ⟨.hbm, 315, rfl⟩
abbrev main_v254 : Ref sig .tc := ⟨.hbm, 316, rfl⟩
abbrev main_v255 : Ref sig .tc := ⟨.hbm, 317, rfl⟩
abbrev main_v256 : Ref sig .tc := ⟨.hbm, 318, rfl⟩
abbrev main_v257 : Ref sig .tc := ⟨.hbm, 319, rfl⟩
abbrev main_v258 : Ref sig .tc := ⟨.hbm, 320, rfl⟩
abbrev main_v259 : Ref sig .tc := ⟨.hbm, 321, rfl⟩
abbrev main_v260 : Ref sig .tc := ⟨.hbm, 322, rfl⟩
abbrev main_v261 : Ref sig .tc := ⟨.hbm, 323, rfl⟩
abbrev main_v262 : Ref sig .tc := ⟨.hbm, 324, rfl⟩
abbrev main_v263 : Ref sig .tc := ⟨.hbm, 325, rfl⟩
abbrev main_call18_v0 : Ref sig .tc := ⟨.hbm, 326, rfl⟩
abbrev main_call18_cst : Ref sig .tc := ⟨.hbm, 327, rfl⟩
abbrev main_call18_v1 : Ref sig .tc := ⟨.hbm, 328, rfl⟩
abbrev main_call18_v2 : Ref sig .tc := ⟨.hbm, 329, rfl⟩
abbrev main_v264 : Ref sig .tc := ⟨.hbm, 330, rfl⟩
abbrev main_v265 : Ref sig .tc := ⟨.hbm, 331, rfl⟩
abbrev main_v266 : Ref sig .tc := ⟨.hbm, 332, rfl⟩
abbrev main_v267 : Ref sig .tc := ⟨.hbm, 333, rfl⟩
abbrev main_v268 : Ref sig .tc := ⟨.hbm, 334, rfl⟩
abbrev main_v269 : Ref sig .tc := ⟨.hbm, 335, rfl⟩
abbrev main_v270 : Ref sig .tc := ⟨.hbm, 336, rfl⟩
abbrev main_v271 : Ref sig .tc := ⟨.hbm, 337, rfl⟩
abbrev main_v272 : Ref sig .tc := ⟨.hbm, 338, rfl⟩
abbrev main_v273 : Ref sig .tc := ⟨.hbm, 339, rfl⟩
abbrev main_v274 : Ref sig .tc := ⟨.hbm, 340, rfl⟩
abbrev main_call19_cst : Ref sig .tc := ⟨.hbm, 341, rfl⟩
abbrev main_call19_v0 : Ref sig .tc := ⟨.hbm, 342, rfl⟩
abbrev main_v275 : Ref sig .tc := ⟨.hbm, 343, rfl⟩
abbrev main_v276 : Ref sig .tc := ⟨.hbm, 344, rfl⟩
abbrev main_v277 : Ref sig .tc := ⟨.hbm, 345, rfl⟩
abbrev main_v278 : Ref sig .tc := ⟨.hbm, 346, rfl⟩
abbrev main_v279 : Ref sig .tc := ⟨.hbm, 347, rfl⟩
abbrev main_v280 : Ref sig .tc := ⟨.hbm, 348, rfl⟩
abbrev main_v281 : Ref sig .tc := ⟨.hbm, 349, rfl⟩
abbrev main_v282 : Ref sig .tc := ⟨.hbm, 350, rfl⟩
abbrev main_v283 : Ref sig .tc := ⟨.hbm, 351, rfl⟩
abbrev main_v284 : Ref sig .tc := ⟨.hbm, 352, rfl⟩
abbrev main_v285 : Ref sig .tc := ⟨.hbm, 353, rfl⟩
abbrev main_v286 : Ref sig .tc := ⟨.hbm, 354, rfl⟩
abbrev main_v287 : Ref sig .tc := ⟨.hbm, 355, rfl⟩
abbrev main_v288 : Ref sig .tc := ⟨.hbm, 356, rfl⟩
abbrev main_v289 : Ref sig .tc := ⟨.hbm, 357, rfl⟩
abbrev main_v290 : Ref sig .tc := ⟨.hbm, 358, rfl⟩
abbrev main_v291 : Ref sig .tc := ⟨.hbm, 359, rfl⟩
abbrev main_call20_v0 : Ref sig .tc := ⟨.hbm, 360, rfl⟩
abbrev main_call20_cst : Ref sig .tc := ⟨.hbm, 361, rfl⟩
abbrev main_call20_v1 : Ref sig .tc := ⟨.hbm, 362, rfl⟩
abbrev main_call20_v2 : Ref sig .tc := ⟨.hbm, 363, rfl⟩
abbrev main_v292 : Ref sig .tc := ⟨.hbm, 364, rfl⟩
abbrev main_v293 : Ref sig .tc := ⟨.hbm, 365, rfl⟩
abbrev main_v294 : Ref sig .tc := ⟨.hbm, 366, rfl⟩
abbrev main_v295 : Ref sig .tc := ⟨.hbm, 367, rfl⟩
abbrev main_v296 : Ref sig .tc := ⟨.hbm, 368, rfl⟩
abbrev main_v297 : Ref sig .tc := ⟨.hbm, 369, rfl⟩
abbrev main_v298 : Ref sig .tc := ⟨.hbm, 370, rfl⟩
abbrev main_v299 : Ref sig .tc := ⟨.hbm, 371, rfl⟩
abbrev main_v300 : Ref sig .tc := ⟨.hbm, 372, rfl⟩
abbrev main_v301 : Ref sig .tc := ⟨.hbm, 373, rfl⟩
abbrev main_v302 : Ref sig .tc := ⟨.hbm, 374, rfl⟩
abbrev main_call21_cst : Ref sig .tc := ⟨.hbm, 375, rfl⟩
abbrev main_call21_v0 : Ref sig .tc := ⟨.hbm, 376, rfl⟩
abbrev main_v303 : Ref sig .tc := ⟨.hbm, 377, rfl⟩
abbrev main_v304 : Ref sig .tc := ⟨.hbm, 378, rfl⟩
abbrev main_v305 : Ref sig .tc := ⟨.hbm, 379, rfl⟩
abbrev main_v306 : Ref sig .tc := ⟨.hbm, 380, rfl⟩
abbrev main_v307 : Ref sig .tc := ⟨.hbm, 381, rfl⟩
abbrev main_v308 : Ref sig .tc := ⟨.hbm, 382, rfl⟩
abbrev main_v309 : Ref sig .tc := ⟨.hbm, 383, rfl⟩
abbrev main_v310 : Ref sig .tc := ⟨.hbm, 384, rfl⟩
abbrev main_v311 : Ref sig .tc := ⟨.hbm, 385, rfl⟩
abbrev main_v312 : Ref sig .tc := ⟨.hbm, 386, rfl⟩
abbrev main_v313 : Ref sig .tc := ⟨.hbm, 387, rfl⟩
abbrev main_v314 : Ref sig .tc := ⟨.hbm, 388, rfl⟩
abbrev main_v315 : Ref sig .tc := ⟨.hbm, 389, rfl⟩
abbrev main_v316 : Ref sig .tc := ⟨.hbm, 390, rfl⟩
abbrev main_v317 : Ref sig .tc := ⟨.hbm, 391, rfl⟩
abbrev main_v318 : Ref sig .tc := ⟨.hbm, 392, rfl⟩
abbrev main_v319 : Ref sig .tc := ⟨.hbm, 393, rfl⟩
abbrev main_call22_v0 : Ref sig .tc := ⟨.hbm, 394, rfl⟩
abbrev main_call22_cst : Ref sig .tc := ⟨.hbm, 395, rfl⟩
abbrev main_call22_v1 : Ref sig .tc := ⟨.hbm, 396, rfl⟩
abbrev main_call22_v2 : Ref sig .tc := ⟨.hbm, 397, rfl⟩
abbrev main_v320 : Ref sig .tc := ⟨.hbm, 398, rfl⟩
abbrev main_v321 : Ref sig .tc := ⟨.hbm, 399, rfl⟩
abbrev main_v322 : Ref sig .tc := ⟨.hbm, 400, rfl⟩
abbrev main_v323 : Ref sig .tc := ⟨.hbm, 401, rfl⟩
abbrev main_v324 : Ref sig .tc := ⟨.hbm, 402, rfl⟩
abbrev main_v325 : Ref sig .tc := ⟨.hbm, 403, rfl⟩
abbrev main_v326 : Ref sig .tc := ⟨.hbm, 404, rfl⟩
abbrev main_v327 : Ref sig .tc := ⟨.hbm, 405, rfl⟩
abbrev main_v328 : Ref sig .tc := ⟨.hbm, 406, rfl⟩
abbrev main_v329 : Ref sig .tc := ⟨.hbm, 407, rfl⟩
abbrev main_v330 : Ref sig .tc := ⟨.hbm, 408, rfl⟩
abbrev main_call23_cst : Ref sig .tc := ⟨.hbm, 409, rfl⟩
abbrev main_call23_v0 : Ref sig .tc := ⟨.hbm, 410, rfl⟩
abbrev main_v331 : Ref sig .tc := ⟨.hbm, 411, rfl⟩
abbrev main_v332 : Ref sig .tc := ⟨.hbm, 412, rfl⟩
abbrev main_v333 : Ref sig .tc := ⟨.hbm, 413, rfl⟩
abbrev main_v334 : Ref sig .tc := ⟨.hbm, 414, rfl⟩
abbrev main_v335 : Ref sig .tc := ⟨.hbm, 415, rfl⟩
abbrev main_v336 : Ref sig .tc := ⟨.hbm, 416, rfl⟩
abbrev main_v337 : Ref sig .tc := ⟨.hbm, 417, rfl⟩
abbrev main_v338 : Ref sig .tc := ⟨.hbm, 418, rfl⟩
abbrev main_v339 : Ref sig .tc := ⟨.hbm, 419, rfl⟩
abbrev main_v340 : Ref sig .tc := ⟨.hbm, 420, rfl⟩
abbrev main_v341 : Ref sig .tc := ⟨.hbm, 421, rfl⟩
abbrev main_v342 : Ref sig .tc := ⟨.hbm, 422, rfl⟩
abbrev main_v343 : Ref sig .tc := ⟨.hbm, 423, rfl⟩
abbrev main_v344 : Ref sig .tc := ⟨.hbm, 424, rfl⟩
abbrev main_v345 : Ref sig .tc := ⟨.hbm, 425, rfl⟩
abbrev main_v346 : Ref sig .tc := ⟨.hbm, 426, rfl⟩
abbrev main_v347 : Ref sig .tc := ⟨.hbm, 427, rfl⟩
abbrev main_call24_v0 : Ref sig .tc := ⟨.hbm, 428, rfl⟩
abbrev main_call24_cst : Ref sig .tc := ⟨.hbm, 429, rfl⟩
abbrev main_call24_v1 : Ref sig .tc := ⟨.hbm, 430, rfl⟩
abbrev main_call24_v2 : Ref sig .tc := ⟨.hbm, 431, rfl⟩
abbrev main_v348 : Ref sig .tc := ⟨.hbm, 432, rfl⟩
abbrev main_v349 : Ref sig .tc := ⟨.hbm, 433, rfl⟩
abbrev main_v350 : Ref sig .tc := ⟨.hbm, 434, rfl⟩
abbrev main_v351 : Ref sig .tc := ⟨.hbm, 435, rfl⟩
abbrev main_v352 : Ref sig .tc := ⟨.hbm, 436, rfl⟩
abbrev main_v353 : Ref sig .tc := ⟨.hbm, 437, rfl⟩
abbrev main_v354 : Ref sig .tc := ⟨.hbm, 438, rfl⟩
abbrev main_v355 : Ref sig .tc := ⟨.hbm, 439, rfl⟩
abbrev main_v356 : Ref sig .tc := ⟨.hbm, 440, rfl⟩
abbrev main_v357 : Ref sig .tc := ⟨.hbm, 441, rfl⟩
abbrev main_v358 : Ref sig .tc := ⟨.hbm, 442, rfl⟩
abbrev main_call25_cst : Ref sig .tc := ⟨.hbm, 443, rfl⟩
abbrev main_call25_v0 : Ref sig .tc := ⟨.hbm, 444, rfl⟩
abbrev main_v359 : Ref sig .tc := ⟨.hbm, 445, rfl⟩
abbrev main_v360 : Ref sig .tc := ⟨.hbm, 446, rfl⟩
abbrev main_v361 : Ref sig .tc := ⟨.hbm, 447, rfl⟩
abbrev main_v362 : Ref sig .tc := ⟨.hbm, 448, rfl⟩
abbrev main_v363 : Ref sig .tc := ⟨.hbm, 449, rfl⟩
abbrev main_v364 : Ref sig .tc := ⟨.hbm, 450, rfl⟩
abbrev main_v365 : Ref sig .tc := ⟨.hbm, 451, rfl⟩
abbrev main_v366 : Ref sig .tc := ⟨.hbm, 452, rfl⟩
abbrev main_v367 : Ref sig .tc := ⟨.hbm, 453, rfl⟩
abbrev main_v368 : Ref sig .tc := ⟨.hbm, 454, rfl⟩
abbrev main_v369 : Ref sig .tc := ⟨.hbm, 455, rfl⟩
abbrev main_v370 : Ref sig .tc := ⟨.hbm, 456, rfl⟩
abbrev main_v371 : Ref sig .tc := ⟨.hbm, 457, rfl⟩
abbrev main_v372 : Ref sig .tc := ⟨.hbm, 458, rfl⟩
abbrev main_v373 : Ref sig .tc := ⟨.hbm, 459, rfl⟩
abbrev main_v374 : Ref sig .tc := ⟨.hbm, 460, rfl⟩
abbrev main_v375 : Ref sig .tc := ⟨.hbm, 461, rfl⟩
abbrev main_call26_v0 : Ref sig .tc := ⟨.hbm, 462, rfl⟩
abbrev main_call26_cst : Ref sig .tc := ⟨.hbm, 463, rfl⟩
abbrev main_call26_v1 : Ref sig .tc := ⟨.hbm, 464, rfl⟩
abbrev main_call26_v2 : Ref sig .tc := ⟨.hbm, 465, rfl⟩
abbrev main_v376 : Ref sig .tc := ⟨.hbm, 466, rfl⟩
abbrev main_v377 : Ref sig .tc := ⟨.hbm, 467, rfl⟩
abbrev main_v378 : Ref sig .tc := ⟨.hbm, 468, rfl⟩
abbrev main_v379 : Ref sig .tc := ⟨.hbm, 469, rfl⟩
abbrev main_v380 : Ref sig .tc := ⟨.hbm, 470, rfl⟩
abbrev main_v381 : Ref sig .tc := ⟨.hbm, 471, rfl⟩
abbrev main_v382 : Ref sig .tc := ⟨.hbm, 472, rfl⟩
abbrev main_v383 : Ref sig .tc := ⟨.hbm, 473, rfl⟩
abbrev main_v384 : Ref sig .tc := ⟨.hbm, 474, rfl⟩
abbrev main_v385 : Ref sig .tc := ⟨.hbm, 475, rfl⟩
abbrev main_v386 : Ref sig .tc := ⟨.hbm, 476, rfl⟩
abbrev main_call27_cst : Ref sig .tc := ⟨.hbm, 477, rfl⟩
abbrev main_call27_v0 : Ref sig .tc := ⟨.hbm, 478, rfl⟩
abbrev main_v387 : Ref sig .tc := ⟨.hbm, 479, rfl⟩
abbrev main_v388 : Ref sig .tc := ⟨.hbm, 480, rfl⟩
abbrev main_v389 : Ref sig .tc := ⟨.hbm, 481, rfl⟩
abbrev main_v390 : Ref sig .tc := ⟨.hbm, 482, rfl⟩
abbrev main_v391 : Ref sig .tc := ⟨.hbm, 483, rfl⟩
abbrev main_v392 : Ref sig .tc := ⟨.hbm, 484, rfl⟩
abbrev main_v393 : Ref sig .tc := ⟨.hbm, 485, rfl⟩
abbrev main_v394 : Ref sig .tc := ⟨.hbm, 486, rfl⟩
abbrev main_v395 : Ref sig .tc := ⟨.hbm, 487, rfl⟩
abbrev main_v396 : Ref sig .tc := ⟨.hbm, 488, rfl⟩
abbrev main_v397 : Ref sig .tc := ⟨.hbm, 489, rfl⟩
abbrev main_v398 : Ref sig .tc := ⟨.hbm, 490, rfl⟩
abbrev main_v399 : Ref sig .tc := ⟨.hbm, 491, rfl⟩
abbrev main_v400 : Ref sig .tc := ⟨.hbm, 492, rfl⟩
abbrev main_v401 : Ref sig .tc := ⟨.hbm, 493, rfl⟩
abbrev main_v402 : Ref sig .tc := ⟨.hbm, 494, rfl⟩
abbrev main_v403 : Ref sig .tc := ⟨.hbm, 495, rfl⟩
abbrev main_call28_v0 : Ref sig .tc := ⟨.hbm, 496, rfl⟩
abbrev main_call28_cst : Ref sig .tc := ⟨.hbm, 497, rfl⟩
abbrev main_call28_v1 : Ref sig .tc := ⟨.hbm, 498, rfl⟩
abbrev main_call28_v2 : Ref sig .tc := ⟨.hbm, 499, rfl⟩
abbrev main_v404 : Ref sig .tc := ⟨.hbm, 500, rfl⟩
abbrev main_v405 : Ref sig .tc := ⟨.hbm, 501, rfl⟩
abbrev main_v406 : Ref sig .tc := ⟨.hbm, 502, rfl⟩
abbrev main_v407 : Ref sig .tc := ⟨.hbm, 503, rfl⟩
abbrev main_v408 : Ref sig .tc := ⟨.hbm, 504, rfl⟩
abbrev main_v409 : Ref sig .tc := ⟨.hbm, 505, rfl⟩
abbrev main_v410 : Ref sig .tc := ⟨.hbm, 506, rfl⟩
abbrev main_v411 : Ref sig .tc := ⟨.hbm, 507, rfl⟩
abbrev main_v412 : Ref sig .tc := ⟨.hbm, 508, rfl⟩
abbrev main_v413 : Ref sig .tc := ⟨.hbm, 509, rfl⟩
abbrev main_v414 : Ref sig .tc := ⟨.hbm, 510, rfl⟩
abbrev main_call29_cst : Ref sig .tc := ⟨.hbm, 511, rfl⟩
abbrev main_call29_v0 : Ref sig .tc := ⟨.hbm, 512, rfl⟩
abbrev main_v415 : Ref sig .tc := ⟨.hbm, 513, rfl⟩
abbrev main_v416 : Ref sig .tc := ⟨.hbm, 514, rfl⟩
abbrev main_v417 : Ref sig .tc := ⟨.hbm, 515, rfl⟩
abbrev main_v418 : Ref sig .tc := ⟨.hbm, 516, rfl⟩
abbrev main_v419 : Ref sig .tc := ⟨.hbm, 517, rfl⟩
abbrev main_v420 : Ref sig .tc := ⟨.hbm, 518, rfl⟩
abbrev main_v421 : Ref sig .tc := ⟨.hbm, 519, rfl⟩
abbrev main_v422 : Ref sig .tc := ⟨.hbm, 520, rfl⟩
abbrev main_v423 : Ref sig .tc := ⟨.hbm, 521, rfl⟩
abbrev main_v424 : Ref sig .tc := ⟨.hbm, 522, rfl⟩
abbrev main_v425 : Ref sig .tc := ⟨.hbm, 523, rfl⟩
abbrev main_v426 : Ref sig .tc := ⟨.hbm, 524, rfl⟩
abbrev main_v427 : Ref sig .tc := ⟨.hbm, 525, rfl⟩
abbrev main_v428 : Ref sig .tc := ⟨.hbm, 526, rfl⟩
abbrev main_v429 : Ref sig .tc := ⟨.hbm, 527, rfl⟩
abbrev main_v430 : Ref sig .tc := ⟨.hbm, 528, rfl⟩
abbrev main_v431 : Ref sig .tc := ⟨.hbm, 529, rfl⟩
abbrev main_call30_v0 : Ref sig .tc := ⟨.hbm, 530, rfl⟩
abbrev main_call30_cst : Ref sig .tc := ⟨.hbm, 531, rfl⟩
abbrev main_call30_v1 : Ref sig .tc := ⟨.hbm, 532, rfl⟩
abbrev main_call30_v2 : Ref sig .tc := ⟨.hbm, 533, rfl⟩
abbrev main_v432 : Ref sig .tc := ⟨.hbm, 534, rfl⟩
abbrev main_v433 : Ref sig .tc := ⟨.hbm, 535, rfl⟩
abbrev main_v434 : Ref sig .tc := ⟨.hbm, 536, rfl⟩
abbrev main_v435 : Ref sig .tc := ⟨.hbm, 537, rfl⟩
abbrev main_v436 : Ref sig .tc := ⟨.hbm, 538, rfl⟩
abbrev main_v437 : Ref sig .tc := ⟨.hbm, 539, rfl⟩
abbrev main_v438 : Ref sig .tc := ⟨.hbm, 540, rfl⟩
abbrev main_v439 : Ref sig .tc := ⟨.hbm, 541, rfl⟩
abbrev main_v440 : Ref sig .tc := ⟨.hbm, 542, rfl⟩
abbrev main_v441 : Ref sig .tc := ⟨.hbm, 543, rfl⟩
abbrev main_v442 : Ref sig .tc := ⟨.hbm, 544, rfl⟩
abbrev main_call31_cst : Ref sig .tc := ⟨.hbm, 545, rfl⟩
abbrev main_call31_v0 : Ref sig .tc := ⟨.hbm, 546, rfl⟩
abbrev main_v443 : Ref sig .tc := ⟨.hbm, 547, rfl⟩
abbrev main_v444 : Ref sig .tc := ⟨.hbm, 548, rfl⟩
abbrev main_v445 : Ref sig .tc := ⟨.hbm, 549, rfl⟩
abbrev main_v446 : Ref sig .tc := ⟨.hbm, 550, rfl⟩
abbrev main_v447 : Ref sig .tc := ⟨.hbm, 551, rfl⟩
abbrev main_v448 : Ref sig .tc := ⟨.hbm, 552, rfl⟩
abbrev main_v449 : Ref sig .tc := ⟨.hbm, 553, rfl⟩
abbrev main_v450 : Ref sig .tc := ⟨.hbm, 554, rfl⟩
abbrev main_v451 : Ref sig .tc := ⟨.hbm, 555, rfl⟩
abbrev main_v452 : Ref sig .tc := ⟨.hbm, 556, rfl⟩
abbrev main_v453 : Ref sig .tc := ⟨.hbm, 557, rfl⟩
abbrev main_v454 : Ref sig .tc := ⟨.hbm, 558, rfl⟩
abbrev main_v455 : Ref sig .tc := ⟨.hbm, 559, rfl⟩
abbrev main_v456 : Ref sig .tc := ⟨.hbm, 560, rfl⟩
abbrev main_v457 : Ref sig .tc := ⟨.hbm, 561, rfl⟩
abbrev main_v458 : Ref sig .tc := ⟨.hbm, 562, rfl⟩
abbrev main_v459 : Ref sig .tc := ⟨.hbm, 563, rfl⟩
abbrev main_call32_v0 : Ref sig .tc := ⟨.hbm, 564, rfl⟩
abbrev main_call32_cst : Ref sig .tc := ⟨.hbm, 565, rfl⟩
abbrev main_call32_v1 : Ref sig .tc := ⟨.hbm, 566, rfl⟩
abbrev main_call32_v2 : Ref sig .tc := ⟨.hbm, 567, rfl⟩
abbrev main_v460 : Ref sig .tc := ⟨.hbm, 568, rfl⟩
abbrev main_v461 : Ref sig .tc := ⟨.hbm, 569, rfl⟩
abbrev main_v462 : Ref sig .tc := ⟨.hbm, 570, rfl⟩
abbrev main_v463 : Ref sig .tc := ⟨.hbm, 571, rfl⟩
abbrev main_v464 : Ref sig .tc := ⟨.hbm, 572, rfl⟩
abbrev main_v465 : Ref sig .tc := ⟨.hbm, 573, rfl⟩
abbrev main_v466 : Ref sig .tc := ⟨.hbm, 574, rfl⟩
abbrev main_v467 : Ref sig .tc := ⟨.hbm, 575, rfl⟩
abbrev main_v468 : Ref sig .tc := ⟨.hbm, 576, rfl⟩
abbrev main_v469 : Ref sig .tc := ⟨.hbm, 577, rfl⟩
abbrev main_v470 : Ref sig .tc := ⟨.hbm, 578, rfl⟩
abbrev main_call33_cst : Ref sig .tc := ⟨.hbm, 579, rfl⟩
abbrev main_call33_v0 : Ref sig .tc := ⟨.hbm, 580, rfl⟩
abbrev main_v471 : Ref sig .tc := ⟨.hbm, 581, rfl⟩
abbrev main_v472 : Ref sig .tc := ⟨.hbm, 582, rfl⟩
abbrev main_v473 : Ref sig .tc := ⟨.hbm, 583, rfl⟩
abbrev main_v474 : Ref sig .tc := ⟨.hbm, 584, rfl⟩
abbrev main_v475 : Ref sig .tc := ⟨.hbm, 585, rfl⟩
abbrev main_v476 : Ref sig .tc := ⟨.hbm, 586, rfl⟩
abbrev main_v477 : Ref sig .tc := ⟨.hbm, 587, rfl⟩
abbrev main_v478 : Ref sig .tc := ⟨.hbm, 588, rfl⟩
abbrev main_v479 : Ref sig .tc := ⟨.hbm, 589, rfl⟩
abbrev main_v480 : Ref sig .tc := ⟨.hbm, 590, rfl⟩
abbrev main_v481 : Ref sig .tc := ⟨.hbm, 591, rfl⟩
abbrev main_v482 : Ref sig .tc := ⟨.hbm, 592, rfl⟩
abbrev main_v483 : Ref sig .tc := ⟨.hbm, 593, rfl⟩
abbrev main_v484 : Ref sig .tc := ⟨.hbm, 594, rfl⟩
abbrev main_v485 : Ref sig .tc := ⟨.hbm, 595, rfl⟩
abbrev main_v486 : Ref sig .tc := ⟨.hbm, 596, rfl⟩
abbrev main_v487 : Ref sig .tc := ⟨.hbm, 597, rfl⟩
abbrev main_call34_v0 : Ref sig .tc := ⟨.hbm, 598, rfl⟩
abbrev main_call34_cst : Ref sig .tc := ⟨.hbm, 599, rfl⟩
abbrev main_call34_v1 : Ref sig .tc := ⟨.hbm, 600, rfl⟩
abbrev main_call34_v2 : Ref sig .tc := ⟨.hbm, 601, rfl⟩
abbrev main_v488 : Ref sig .tc := ⟨.hbm, 602, rfl⟩
abbrev main_v489 : Ref sig .tc := ⟨.hbm, 603, rfl⟩
abbrev main_v490 : Ref sig .tc := ⟨.hbm, 604, rfl⟩
abbrev main_v491 : Ref sig .tc := ⟨.hbm, 605, rfl⟩
abbrev main_v492 : Ref sig .tc := ⟨.hbm, 606, rfl⟩
abbrev main_v493 : Ref sig .tc := ⟨.hbm, 607, rfl⟩
abbrev main_v494 : Ref sig .tc := ⟨.hbm, 608, rfl⟩
abbrev main_v495 : Ref sig .tc := ⟨.hbm, 609, rfl⟩
abbrev main_v496 : Ref sig .tc := ⟨.hbm, 610, rfl⟩
abbrev main_v497 : Ref sig .tc := ⟨.hbm, 611, rfl⟩
abbrev main_v498 : Ref sig .tc := ⟨.hbm, 612, rfl⟩
abbrev main_call35_cst : Ref sig .tc := ⟨.hbm, 613, rfl⟩
abbrev main_call35_v0 : Ref sig .tc := ⟨.hbm, 614, rfl⟩
abbrev main_v499 : Ref sig .tc := ⟨.hbm, 615, rfl⟩
abbrev main_v500 : Ref sig .tc := ⟨.hbm, 616, rfl⟩
abbrev main_v501 : Ref sig .tc := ⟨.hbm, 617, rfl⟩
abbrev main_v502 : Ref sig .tc := ⟨.hbm, 618, rfl⟩
abbrev main_v503 : Ref sig .tc := ⟨.hbm, 619, rfl⟩
abbrev main_v504 : Ref sig .tc := ⟨.hbm, 620, rfl⟩
abbrev main_v505 : Ref sig .tc := ⟨.hbm, 621, rfl⟩
abbrev main_v506 : Ref sig .tc := ⟨.hbm, 622, rfl⟩
abbrev main_v507 : Ref sig .tc := ⟨.hbm, 623, rfl⟩
abbrev main_v508 : Ref sig .tc := ⟨.hbm, 624, rfl⟩
abbrev main_v509 : Ref sig .tc := ⟨.hbm, 625, rfl⟩
abbrev main_v510 : Ref sig .tc := ⟨.hbm, 626, rfl⟩
abbrev main_v511 : Ref sig .tc := ⟨.hbm, 627, rfl⟩
abbrev main_v512 : Ref sig .tc := ⟨.hbm, 628, rfl⟩
abbrev main_v513 : Ref sig .tc := ⟨.hbm, 629, rfl⟩
abbrev main_v514 : Ref sig .tc := ⟨.hbm, 630, rfl⟩
abbrev main_v515 : Ref sig .tc := ⟨.hbm, 631, rfl⟩
abbrev main_call36_v0 : Ref sig .tc := ⟨.hbm, 632, rfl⟩
abbrev main_call36_cst : Ref sig .tc := ⟨.hbm, 633, rfl⟩
abbrev main_call36_v1 : Ref sig .tc := ⟨.hbm, 634, rfl⟩
abbrev main_call36_v2 : Ref sig .tc := ⟨.hbm, 635, rfl⟩
abbrev main_v516 : Ref sig .tc := ⟨.hbm, 636, rfl⟩
abbrev main_v517 : Ref sig .tc := ⟨.hbm, 637, rfl⟩
abbrev main_v518 : Ref sig .tc := ⟨.hbm, 638, rfl⟩
abbrev main_v519 : Ref sig .tc := ⟨.hbm, 639, rfl⟩
abbrev main_v520 : Ref sig .tc := ⟨.hbm, 640, rfl⟩
abbrev main_v521 : Ref sig .tc := ⟨.hbm, 641, rfl⟩
abbrev main_v522 : Ref sig .tc := ⟨.hbm, 642, rfl⟩
abbrev main_v523 : Ref sig .tc := ⟨.hbm, 643, rfl⟩
abbrev main_v524 : Ref sig .tc := ⟨.hbm, 644, rfl⟩
abbrev main_v525 : Ref sig .tc := ⟨.hbm, 645, rfl⟩
abbrev main_v526 : Ref sig .tc := ⟨.hbm, 646, rfl⟩
abbrev main_call37_cst : Ref sig .tc := ⟨.hbm, 647, rfl⟩
abbrev main_call37_v0 : Ref sig .tc := ⟨.hbm, 648, rfl⟩
abbrev main_v527 : Ref sig .tc := ⟨.hbm, 649, rfl⟩
abbrev main_v528 : Ref sig .tc := ⟨.hbm, 650, rfl⟩
abbrev main_v529 : Ref sig .tc := ⟨.hbm, 651, rfl⟩
abbrev main_v530 : Ref sig .tc := ⟨.hbm, 652, rfl⟩
abbrev main_v531 : Ref sig .tc := ⟨.hbm, 653, rfl⟩
abbrev main_v532 : Ref sig .tc := ⟨.hbm, 654, rfl⟩
abbrev main_v533 : Ref sig .tc := ⟨.hbm, 655, rfl⟩
abbrev main_v534 : Ref sig .tc := ⟨.hbm, 656, rfl⟩
abbrev main_v535 : Ref sig .tc := ⟨.hbm, 657, rfl⟩
abbrev main_v536 : Ref sig .tc := ⟨.hbm, 658, rfl⟩
abbrev main_v537 : Ref sig .tc := ⟨.hbm, 659, rfl⟩
abbrev main_v538 : Ref sig .tc := ⟨.hbm, 660, rfl⟩
abbrev main_v539 : Ref sig .tc := ⟨.hbm, 661, rfl⟩
abbrev main_v540 : Ref sig .tc := ⟨.hbm, 662, rfl⟩
abbrev main_v541 : Ref sig .tc := ⟨.hbm, 663, rfl⟩
abbrev main_v542 : Ref sig .tc := ⟨.hbm, 664, rfl⟩
abbrev main_v543 : Ref sig .tc := ⟨.hbm, 665, rfl⟩
abbrev main_call38_v0 : Ref sig .tc := ⟨.hbm, 666, rfl⟩
abbrev main_call38_cst : Ref sig .tc := ⟨.hbm, 667, rfl⟩
abbrev main_call38_v1 : Ref sig .tc := ⟨.hbm, 668, rfl⟩
abbrev main_call38_v2 : Ref sig .tc := ⟨.hbm, 669, rfl⟩
abbrev main_v544 : Ref sig .tc := ⟨.hbm, 670, rfl⟩
abbrev main_v545 : Ref sig .tc := ⟨.hbm, 671, rfl⟩
abbrev main_v546 : Ref sig .tc := ⟨.hbm, 672, rfl⟩
abbrev main_v547 : Ref sig .tc := ⟨.hbm, 673, rfl⟩
abbrev main_v548 : Ref sig .tc := ⟨.hbm, 674, rfl⟩
abbrev main_v549 : Ref sig .tc := ⟨.hbm, 675, rfl⟩
abbrev main_v550 : Ref sig .tc := ⟨.hbm, 676, rfl⟩
abbrev main_v551 : Ref sig .tc := ⟨.hbm, 677, rfl⟩
abbrev main_v552 : Ref sig .tc := ⟨.hbm, 678, rfl⟩
abbrev main_v553 : Ref sig .tc := ⟨.hbm, 679, rfl⟩
abbrev main_v554 : Ref sig .tc := ⟨.hbm, 680, rfl⟩
abbrev main_call39_cst : Ref sig .tc := ⟨.hbm, 681, rfl⟩
abbrev main_call39_v0 : Ref sig .tc := ⟨.hbm, 682, rfl⟩
abbrev main_v555 : Ref sig .tc := ⟨.hbm, 683, rfl⟩
abbrev main_v556 : Ref sig .tc := ⟨.hbm, 684, rfl⟩
abbrev main_v557 : Ref sig .tc := ⟨.hbm, 685, rfl⟩
abbrev main_v558 : Ref sig .tc := ⟨.hbm, 686, rfl⟩
abbrev main_v559 : Ref sig .tc := ⟨.hbm, 687, rfl⟩
abbrev main_v560 : Ref sig .tc := ⟨.hbm, 688, rfl⟩
abbrev main_v561 : Ref sig .tc := ⟨.hbm, 689, rfl⟩
abbrev main_v562 : Ref sig .tc := ⟨.hbm, 690, rfl⟩
abbrev main_v563 : Ref sig .tc := ⟨.hbm, 691, rfl⟩
abbrev main_v564 : Ref sig .tc := ⟨.hbm, 692, rfl⟩
abbrev main_v565 : Ref sig .tc := ⟨.hbm, 693, rfl⟩
abbrev main_v566 : Ref sig .tc := ⟨.hbm, 694, rfl⟩
abbrev main_v567 : Ref sig .tc := ⟨.hbm, 695, rfl⟩
abbrev main_v568 : Ref sig .tc := ⟨.hbm, 696, rfl⟩
abbrev main_v569 : Ref sig .tc := ⟨.hbm, 697, rfl⟩
abbrev main_v570 : Ref sig .tc := ⟨.hbm, 698, rfl⟩
abbrev main_v571 : Ref sig .tc := ⟨.hbm, 699, rfl⟩
abbrev main_call40_v0 : Ref sig .tc := ⟨.hbm, 700, rfl⟩
abbrev main_call40_cst : Ref sig .tc := ⟨.hbm, 701, rfl⟩
abbrev main_call40_v1 : Ref sig .tc := ⟨.hbm, 702, rfl⟩
abbrev main_call40_v2 : Ref sig .tc := ⟨.hbm, 703, rfl⟩
abbrev main_v572 : Ref sig .tc := ⟨.hbm, 704, rfl⟩
abbrev main_v573 : Ref sig .tc := ⟨.hbm, 705, rfl⟩
abbrev main_v574 : Ref sig .tc := ⟨.hbm, 706, rfl⟩
abbrev main_v575 : Ref sig .tc := ⟨.hbm, 707, rfl⟩
abbrev main_v576 : Ref sig .tc := ⟨.hbm, 708, rfl⟩
abbrev main_v577 : Ref sig .tc := ⟨.hbm, 709, rfl⟩
abbrev main_v578 : Ref sig .tc := ⟨.hbm, 710, rfl⟩
abbrev main_v579 : Ref sig .tc := ⟨.hbm, 711, rfl⟩
abbrev main_v580 : Ref sig .tc := ⟨.hbm, 712, rfl⟩
abbrev main_v581 : Ref sig .tc := ⟨.hbm, 713, rfl⟩
abbrev main_v582 : Ref sig .tc := ⟨.hbm, 714, rfl⟩
abbrev main_call41_cst : Ref sig .tc := ⟨.hbm, 715, rfl⟩
abbrev main_call41_v0 : Ref sig .tc := ⟨.hbm, 716, rfl⟩
abbrev main_v583 : Ref sig .tc := ⟨.hbm, 717, rfl⟩
abbrev main_v584 : Ref sig .tc := ⟨.hbm, 718, rfl⟩
abbrev main_v585 : Ref sig .tc := ⟨.hbm, 719, rfl⟩
abbrev main_v586 : Ref sig .tc := ⟨.hbm, 720, rfl⟩
abbrev main_v587 : Ref sig .tc := ⟨.hbm, 721, rfl⟩
abbrev main_v588 : Ref sig .tc := ⟨.hbm, 722, rfl⟩
abbrev main_v589 : Ref sig .tc := ⟨.hbm, 723, rfl⟩
abbrev main_v590 : Ref sig .tc := ⟨.hbm, 724, rfl⟩
abbrev main_v591 : Ref sig .tc := ⟨.hbm, 725, rfl⟩
abbrev main_v592 : Ref sig .tc := ⟨.hbm, 726, rfl⟩
abbrev main_v593 : Ref sig .tc := ⟨.hbm, 727, rfl⟩
abbrev main_v594 : Ref sig .tc := ⟨.hbm, 728, rfl⟩
abbrev main_v595 : Ref sig .tc := ⟨.hbm, 729, rfl⟩
abbrev main_v596 : Ref sig .tc := ⟨.hbm, 730, rfl⟩
abbrev main_v597 : Ref sig .tc := ⟨.hbm, 731, rfl⟩
abbrev main_v598 : Ref sig .tc := ⟨.hbm, 732, rfl⟩
abbrev main_v599 : Ref sig .tc := ⟨.hbm, 733, rfl⟩
abbrev main_call42_v0 : Ref sig .tc := ⟨.hbm, 734, rfl⟩
abbrev main_call42_cst : Ref sig .tc := ⟨.hbm, 735, rfl⟩
abbrev main_call42_v1 : Ref sig .tc := ⟨.hbm, 736, rfl⟩
abbrev main_call42_v2 : Ref sig .tc := ⟨.hbm, 737, rfl⟩
abbrev main_v600 : Ref sig .tc := ⟨.hbm, 738, rfl⟩
abbrev main_v601 : Ref sig .tc := ⟨.hbm, 739, rfl⟩
abbrev main_v602 : Ref sig .tc := ⟨.hbm, 740, rfl⟩
abbrev main_v603 : Ref sig .tc := ⟨.hbm, 741, rfl⟩
abbrev main_v604 : Ref sig .tc := ⟨.hbm, 742, rfl⟩
abbrev main_v605 : Ref sig .tc := ⟨.hbm, 743, rfl⟩
abbrev main_v606 : Ref sig .tc := ⟨.hbm, 744, rfl⟩
abbrev main_v607 : Ref sig .tc := ⟨.hbm, 745, rfl⟩
abbrev main_v608 : Ref sig .tc := ⟨.hbm, 746, rfl⟩
abbrev main_v609 : Ref sig .tc := ⟨.hbm, 747, rfl⟩
abbrev main_v610 : Ref sig .tc := ⟨.hbm, 748, rfl⟩
abbrev main_call43_cst : Ref sig .tc := ⟨.hbm, 749, rfl⟩
abbrev main_call43_v0 : Ref sig .tc := ⟨.hbm, 750, rfl⟩
abbrev main_v611 : Ref sig .tc := ⟨.hbm, 751, rfl⟩
abbrev main_v612 : Ref sig .tc := ⟨.hbm, 752, rfl⟩
abbrev main_v613 : Ref sig .tc := ⟨.hbm, 753, rfl⟩
abbrev main_v614 : Ref sig .tc := ⟨.hbm, 754, rfl⟩
abbrev main_v615 : Ref sig .tc := ⟨.hbm, 755, rfl⟩
abbrev main_v616 : Ref sig .tc := ⟨.hbm, 756, rfl⟩
abbrev main_v617 : Ref sig .tc := ⟨.hbm, 757, rfl⟩
abbrev main_v618 : Ref sig .tc := ⟨.hbm, 758, rfl⟩
abbrev main_v619 : Ref sig .tc := ⟨.hbm, 759, rfl⟩
abbrev main_v620 : Ref sig .tc := ⟨.hbm, 760, rfl⟩
abbrev main_v621 : Ref sig .tc := ⟨.hbm, 761, rfl⟩
abbrev main_v622 : Ref sig .tc := ⟨.hbm, 762, rfl⟩
abbrev main_v623 : Ref sig .tc := ⟨.hbm, 763, rfl⟩
abbrev main_v624 : Ref sig .tc := ⟨.hbm, 764, rfl⟩
abbrev main_v625 : Ref sig .tc := ⟨.hbm, 765, rfl⟩
abbrev main_v626 : Ref sig .tc := ⟨.hbm, 766, rfl⟩
abbrev main_v627 : Ref sig .tc := ⟨.hbm, 767, rfl⟩
abbrev main_call44_v0 : Ref sig .tc := ⟨.hbm, 768, rfl⟩
abbrev main_call44_cst : Ref sig .tc := ⟨.hbm, 769, rfl⟩
abbrev main_call44_v1 : Ref sig .tc := ⟨.hbm, 770, rfl⟩
abbrev main_call44_v2 : Ref sig .tc := ⟨.hbm, 771, rfl⟩
abbrev main_v628 : Ref sig .tc := ⟨.hbm, 772, rfl⟩
abbrev main_v629 : Ref sig .tc := ⟨.hbm, 773, rfl⟩
abbrev main_v630 : Ref sig .tc := ⟨.hbm, 774, rfl⟩
abbrev main_v631 : Ref sig .tc := ⟨.hbm, 775, rfl⟩
abbrev main_v632 : Ref sig .tc := ⟨.hbm, 776, rfl⟩
abbrev main_v633 : Ref sig .tc := ⟨.hbm, 777, rfl⟩
abbrev main_v634 : Ref sig .tc := ⟨.hbm, 778, rfl⟩
abbrev main_v635 : Ref sig .tc := ⟨.hbm, 779, rfl⟩
abbrev main_v636 : Ref sig .tc := ⟨.hbm, 780, rfl⟩
abbrev main_v637 : Ref sig .tc := ⟨.hbm, 781, rfl⟩
abbrev main_v638 : Ref sig .tc := ⟨.hbm, 782, rfl⟩
abbrev main_call45_cst : Ref sig .tc := ⟨.hbm, 783, rfl⟩
abbrev main_call45_v0 : Ref sig .tc := ⟨.hbm, 784, rfl⟩
abbrev main_v639 : Ref sig .tc := ⟨.hbm, 785, rfl⟩
abbrev main_v640 : Ref sig .tc := ⟨.hbm, 786, rfl⟩
abbrev main_v641 : Ref sig .tc := ⟨.hbm, 787, rfl⟩
abbrev main_v642 : Ref sig .tc := ⟨.hbm, 788, rfl⟩
abbrev main_v643 : Ref sig .tc := ⟨.hbm, 789, rfl⟩
abbrev main_v644 : Ref sig .tc := ⟨.hbm, 790, rfl⟩
abbrev main_v645 : Ref sig .tc := ⟨.hbm, 791, rfl⟩
abbrev main_v646 : Ref sig .tc := ⟨.hbm, 792, rfl⟩
abbrev main_v647 : Ref sig .tc := ⟨.hbm, 793, rfl⟩
abbrev main_v648 : Ref sig .tc := ⟨.hbm, 794, rfl⟩
abbrev main_v649 : Ref sig .tc := ⟨.hbm, 795, rfl⟩
abbrev main_v650 : Ref sig .tc := ⟨.hbm, 796, rfl⟩
abbrev main_v651 : Ref sig .tc := ⟨.hbm, 797, rfl⟩
abbrev main_v652 : Ref sig .tc := ⟨.hbm, 798, rfl⟩
abbrev main_v653 : Ref sig .tc := ⟨.hbm, 799, rfl⟩
abbrev main_v654 : Ref sig .tc := ⟨.hbm, 800, rfl⟩
abbrev main_v655 : Ref sig .tc := ⟨.hbm, 801, rfl⟩
abbrev main_call46_v0 : Ref sig .tc := ⟨.hbm, 802, rfl⟩
abbrev main_call46_cst : Ref sig .tc := ⟨.hbm, 803, rfl⟩
abbrev main_call46_v1 : Ref sig .tc := ⟨.hbm, 804, rfl⟩
abbrev main_call46_v2 : Ref sig .tc := ⟨.hbm, 805, rfl⟩
abbrev main_v656 : Ref sig .tc := ⟨.hbm, 806, rfl⟩
abbrev main_v657 : Ref sig .tc := ⟨.hbm, 807, rfl⟩
abbrev main_v658 : Ref sig .tc := ⟨.hbm, 808, rfl⟩
abbrev main_v659 : Ref sig .tc := ⟨.hbm, 809, rfl⟩
abbrev main_v660 : Ref sig .tc := ⟨.hbm, 810, rfl⟩
abbrev main_v661 : Ref sig .tc := ⟨.hbm, 811, rfl⟩
abbrev main_v662 : Ref sig .tc := ⟨.hbm, 812, rfl⟩
abbrev main_v663 : Ref sig .tc := ⟨.hbm, 813, rfl⟩
abbrev main_v664 : Ref sig .tc := ⟨.hbm, 814, rfl⟩
abbrev main_v665 : Ref sig .tc := ⟨.hbm, 815, rfl⟩
abbrev main_v666 : Ref sig .tc := ⟨.hbm, 816, rfl⟩
abbrev main_call47_cst : Ref sig .tc := ⟨.hbm, 817, rfl⟩
abbrev main_call47_v0 : Ref sig .tc := ⟨.hbm, 818, rfl⟩
abbrev main_v667 : Ref sig .tc := ⟨.hbm, 819, rfl⟩
abbrev main_v668 : Ref sig .tc := ⟨.hbm, 820, rfl⟩
abbrev main_v669 : Ref sig .tc := ⟨.hbm, 821, rfl⟩
abbrev main_v670 : Ref sig .tc := ⟨.hbm, 822, rfl⟩
abbrev main_v671 : Ref sig .tc := ⟨.hbm, 823, rfl⟩
abbrev main_v672 : Ref sig .tc := ⟨.hbm, 824, rfl⟩
abbrev main_v673 : Ref sig .tc := ⟨.hbm, 825, rfl⟩
abbrev main_v674 : Ref sig .tc := ⟨.hbm, 826, rfl⟩
abbrev main_v675 : Ref sig .tc := ⟨.hbm, 827, rfl⟩
abbrev main_v676 : Ref sig .tc := ⟨.hbm, 828, rfl⟩
abbrev main_v677 : Ref sig .tc := ⟨.hbm, 829, rfl⟩
abbrev main_v678 : Ref sig .tc := ⟨.hbm, 830, rfl⟩
abbrev main_v679 : Ref sig .tc := ⟨.hbm, 831, rfl⟩

abbrev nD : Nat := 1
abbrev τ : Topo := Topo.v7x

variable {F : FTy → Type} [FloatOps F]

class Facts₀ : Prop where
  shapeCasts_S262144x24x9_S262144x216 : S262144x24x9.ShapeCasts S262144x216
  shapeCasts_S262144x24x3_S262144x72 : S262144x24x3.ShapeCasts S262144x72
  concatenates_S262144x216_S262144x72_S262144x288_d1 : Shape.Concatenates [S262144x216, S262144x72] S262144x288 1
  transposes_S6x288_S288x6_1_0 : S6x288.Transposes [1, 0] S288x6
  bcast_S6_S1x6_1 : S6.BroadcastsInDim S1x6 (![1] : Fin 1 → Fin S1x6.rank)
  bcast_S1x6_S262144x6_0_1 : S1x6.BroadcastsInDim S262144x6 (![0, 1] : Fin 2 → Fin S262144x6.rank)
  slices_S262144x24x9_S262144x1x9_0_0_0 : S262144x24x9.Slices ![0, 0, 0] S262144x1x9
  shapeCasts_S262144x1x9_S262144x9 : S262144x1x9.ShapeCasts S262144x9
  slices_S262144x24x3_S262144x1x3_0_0_0 : S262144x24x3.Slices ![0, 0, 0] S262144x1x3
  shapeCasts_S262144x1x3_S262144x3 : S262144x1x3.ShapeCasts S262144x3
  reducesTo_S262144x3_S262144_d1 : S262144x3.ReducesTo [1] S262144
  h_S_ : 0 < S_.numel
  bcast_S262144_S262144x1_0 : S262144.BroadcastsInDim S262144x1 (![0] : Fin 1 → Fin S262144x1.rank)
  concatenates_S262144x9_S262144x3_S262144x1_S262144x6_S262144x19_d1 : Shape.Concatenates [S262144x9, S262144x3, S262144x1, S262144x6] S262144x19 1
  slices_S24x19x19_S1x19x19_0_0_0 : S24x19x19.Slices ![0, 0, 0] S1x19x19
  shapeCasts_S1x19x19_S19x19 : S1x19x19.ShapeCasts S19x19
  transposes_S19x19_S19x19_1_0 : S19x19.Transposes [1, 0] S19x19
  slices_S24x19_S1x19_0_0 : S24x19.Slices ![0, 0] S1x19
  shapeCasts_S1x19_S19 : S1x19.ShapeCasts S19
  bcast_S19_S1x19_1 : S19.BroadcastsInDim S1x19 (![1] : Fin 1 → Fin S1x19.rank)
  bcast_S1x19_S262144x19_0_1 : S1x19.BroadcastsInDim S262144x19 (![0, 1] : Fin 2 → Fin S262144x19.rank)
  bcast_S_S262144x19 : S_.BroadcastsInDim S262144x19 (![] : Fin 0 → Fin S262144x19.rank)
  slices_S24x6x19_S1x6x19_0_0_0 : S24x6x19.Slices ![0, 0, 0] S1x6x19
  shapeCasts_S1x6x19_S6x19 : S1x6x19.ShapeCasts S6x19
  transposes_S6x19_S19x6_1_0 : S6x19.Transposes [1, 0] S19x6
  slices_S24x6_S1x6_0_0 : S24x6.Slices ![0, 0] S1x6
  shapeCasts_S1x6_S6 : S1x6.ShapeCasts S6
  slices_S262144x24x9_S262144x1x9_0_1_0 : S262144x24x9.Slices ![0, 1, 0] S262144x1x9
  slices_S262144x24x3_S262144x1x3_0_1_0 : S262144x24x3.Slices ![0, 1, 0] S262144x1x3
  slices_S24x19x19_S1x19x19_1_0_0 : S24x19x19.Slices ![1, 0, 0] S1x19x19
  slices_S24x19_S1x19_1_0 : S24x19.Slices ![1, 0] S1x19
  slices_S24x6x19_S1x6x19_1_0_0 : S24x6x19.Slices ![1, 0, 0] S1x6x19
  slices_S24x6_S1x6_1_0 : S24x6.Slices ![1, 0] S1x6
  slices_S262144x24x9_S262144x1x9_0_2_0 : S262144x24x9.Slices ![0, 2, 0] S262144x1x9
  slices_S262144x24x3_S262144x1x3_0_2_0 : S262144x24x3.Slices ![0, 2, 0] S262144x1x3
  slices_S24x19x19_S1x19x19_2_0_0 : S24x19x19.Slices ![2, 0, 0] S1x19x19
  slices_S24x19_S1x19_2_0 : S24x19.Slices ![2, 0] S1x19
  slices_S24x6x19_S1x6x19_2_0_0 : S24x6x19.Slices ![2, 0, 0] S1x6x19
  slices_S24x6_S1x6_2_0 : S24x6.Slices ![2, 0] S1x6
  slices_S262144x24x9_S262144x1x9_0_3_0 : S262144x24x9.Slices ![0, 3, 0] S262144x1x9
  slices_S262144x24x3_S262144x1x3_0_3_0 : S262144x24x3.Slices ![0, 3, 0] S262144x1x3
  slices_S24x19x19_S1x19x19_3_0_0 : S24x19x19.Slices ![3, 0, 0] S1x19x19
  slices_S24x19_S1x19_3_0 : S24x19.Slices ![3, 0] S1x19
  slices_S24x6x19_S1x6x19_3_0_0 : S24x6x19.Slices ![3, 0, 0] S1x6x19
  slices_S24x6_S1x6_3_0 : S24x6.Slices ![3, 0] S1x6
  slices_S262144x24x9_S262144x1x9_0_4_0 : S262144x24x9.Slices ![0, 4, 0] S262144x1x9
  slices_S262144x24x3_S262144x1x3_0_4_0 : S262144x24x3.Slices ![0, 4, 0] S262144x1x3
  slices_S24x19x19_S1x19x19_4_0_0 : S24x19x19.Slices ![4, 0, 0] S1x19x19
  slices_S24x19_S1x19_4_0 : S24x19.Slices ![4, 0] S1x19
  slices_S24x6x19_S1x6x19_4_0_0 : S24x6x19.Slices ![4, 0, 0] S1x6x19
  slices_S24x6_S1x6_4_0 : S24x6.Slices ![4, 0] S1x6
  slices_S262144x24x9_S262144x1x9_0_5_0 : S262144x24x9.Slices ![0, 5, 0] S262144x1x9
  slices_S262144x24x3_S262144x1x3_0_5_0 : S262144x24x3.Slices ![0, 5, 0] S262144x1x3
  slices_S24x19x19_S1x19x19_5_0_0 : S24x19x19.Slices ![5, 0, 0] S1x19x19
  slices_S24x19_S1x19_5_0 : S24x19.Slices ![5, 0] S1x19
  slices_S24x6x19_S1x6x19_5_0_0 : S24x6x19.Slices ![5, 0, 0] S1x6x19
  slices_S24x6_S1x6_5_0 : S24x6.Slices ![5, 0] S1x6
  slices_S262144x24x9_S262144x1x9_0_6_0 : S262144x24x9.Slices ![0, 6, 0] S262144x1x9
  slices_S262144x24x3_S262144x1x3_0_6_0 : S262144x24x3.Slices ![0, 6, 0] S262144x1x3
  slices_S24x19x19_S1x19x19_6_0_0 : S24x19x19.Slices ![6, 0, 0] S1x19x19
  slices_S24x19_S1x19_6_0 : S24x19.Slices ![6, 0] S1x19
  slices_S24x6x19_S1x6x19_6_0_0 : S24x6x19.Slices ![6, 0, 0] S1x6x19
  slices_S24x6_S1x6_6_0 : S24x6.Slices ![6, 0] S1x6
  slices_S262144x24x9_S262144x1x9_0_7_0 : S262144x24x9.Slices ![0, 7, 0] S262144x1x9
  slices_S262144x24x3_S262144x1x3_0_7_0 : S262144x24x3.Slices ![0, 7, 0] S262144x1x3
  slices_S24x19x19_S1x19x19_7_0_0 : S24x19x19.Slices ![7, 0, 0] S1x19x19
  slices_S24x19_S1x19_7_0 : S24x19.Slices ![7, 0] S1x19
  slices_S24x6x19_S1x6x19_7_0_0 : S24x6x19.Slices ![7, 0, 0] S1x6x19
  slices_S24x6_S1x6_7_0 : S24x6.Slices ![7, 0] S1x6
  slices_S262144x24x9_S262144x1x9_0_8_0 : S262144x24x9.Slices ![0, 8, 0] S262144x1x9
  slices_S262144x24x3_S262144x1x3_0_8_0 : S262144x24x3.Slices ![0, 8, 0] S262144x1x3
  slices_S24x19x19_S1x19x19_8_0_0 : S24x19x19.Slices ![8, 0, 0] S1x19x19
  slices_S24x19_S1x19_8_0 : S24x19.Slices ![8, 0] S1x19
  slices_S24x6x19_S1x6x19_8_0_0 : S24x6x19.Slices ![8, 0, 0] S1x6x19
  slices_S24x6_S1x6_8_0 : S24x6.Slices ![8, 0] S1x6
  slices_S262144x24x9_S262144x1x9_0_9_0 : S262144x24x9.Slices ![0, 9, 0] S262144x1x9
  slices_S262144x24x3_S262144x1x3_0_9_0 : S262144x24x3.Slices ![0, 9, 0] S262144x1x3
  slices_S24x19x19_S1x19x19_9_0_0 : S24x19x19.Slices ![9, 0, 0] S1x19x19
  slices_S24x19_S1x19_9_0 : S24x19.Slices ![9, 0] S1x19
  slices_S24x6x19_S1x6x19_9_0_0 : S24x6x19.Slices ![9, 0, 0] S1x6x19
  slices_S24x6_S1x6_9_0 : S24x6.Slices ![9, 0] S1x6
  slices_S262144x24x9_S262144x1x9_0_10_0 : S262144x24x9.Slices ![0, 10, 0] S262144x1x9
  slices_S262144x24x3_S262144x1x3_0_10_0 : S262144x24x3.Slices ![0, 10, 0] S262144x1x3
  slices_S24x19x19_S1x19x19_10_0_0 : S24x19x19.Slices ![10, 0, 0] S1x19x19
  slices_S24x19_S1x19_10_0 : S24x19.Slices ![10, 0] S1x19
  slices_S24x6x19_S1x6x19_10_0_0 : S24x6x19.Slices ![10, 0, 0] S1x6x19
  slices_S24x6_S1x6_10_0 : S24x6.Slices ![10, 0] S1x6
  slices_S262144x24x9_S262144x1x9_0_11_0 : S262144x24x9.Slices ![0, 11, 0] S262144x1x9
  slices_S262144x24x3_S262144x1x3_0_11_0 : S262144x24x3.Slices ![0, 11, 0] S262144x1x3
  slices_S24x19x19_S1x19x19_11_0_0 : S24x19x19.Slices ![11, 0, 0] S1x19x19
  slices_S24x19_S1x19_11_0 : S24x19.Slices ![11, 0] S1x19
  slices_S24x6x19_S1x6x19_11_0_0 : S24x6x19.Slices ![11, 0, 0] S1x6x19
  slices_S24x6_S1x6_11_0 : S24x6.Slices ![11, 0] S1x6
  slices_S262144x24x9_S262144x1x9_0_12_0 : S262144x24x9.Slices ![0, 12, 0] S262144x1x9
  slices_S262144x24x3_S262144x1x3_0_12_0 : S262144x24x3.Slices ![0, 12, 0] S262144x1x3
  slices_S24x19x19_S1x19x19_12_0_0 : S24x19x19.Slices ![12, 0, 0] S1x19x19
  slices_S24x19_S1x19_12_0 : S24x19.Slices ![12, 0] S1x19
  slices_S24x6x19_S1x6x19_12_0_0 : S24x6x19.Slices ![12, 0, 0] S1x6x19
  slices_S24x6_S1x6_12_0 : S24x6.Slices ![12, 0] S1x6
  slices_S262144x24x9_S262144x1x9_0_13_0 : S262144x24x9.Slices ![0, 13, 0] S262144x1x9
  slices_S262144x24x3_S262144x1x3_0_13_0 : S262144x24x3.Slices ![0, 13, 0] S262144x1x3
  slices_S24x19x19_S1x19x19_13_0_0 : S24x19x19.Slices ![13, 0, 0] S1x19x19
  slices_S24x19_S1x19_13_0 : S24x19.Slices ![13, 0] S1x19
  slices_S24x6x19_S1x6x19_13_0_0 : S24x6x19.Slices ![13, 0, 0] S1x6x19
  slices_S24x6_S1x6_13_0 : S24x6.Slices ![13, 0] S1x6
  slices_S262144x24x9_S262144x1x9_0_14_0 : S262144x24x9.Slices ![0, 14, 0] S262144x1x9
  slices_S262144x24x3_S262144x1x3_0_14_0 : S262144x24x3.Slices ![0, 14, 0] S262144x1x3
  slices_S24x19x19_S1x19x19_14_0_0 : S24x19x19.Slices ![14, 0, 0] S1x19x19
  slices_S24x19_S1x19_14_0 : S24x19.Slices ![14, 0] S1x19
  slices_S24x6x19_S1x6x19_14_0_0 : S24x6x19.Slices ![14, 0, 0] S1x6x19
  slices_S24x6_S1x6_14_0 : S24x6.Slices ![14, 0] S1x6
  slices_S262144x24x9_S262144x1x9_0_15_0 : S262144x24x9.Slices ![0, 15, 0] S262144x1x9
  slices_S262144x24x3_S262144x1x3_0_15_0 : S262144x24x3.Slices ![0, 15, 0] S262144x1x3
  slices_S24x19x19_S1x19x19_15_0_0 : S24x19x19.Slices ![15, 0, 0] S1x19x19
  slices_S24x19_S1x19_15_0 : S24x19.Slices ![15, 0] S1x19
  slices_S24x6x19_S1x6x19_15_0_0 : S24x6x19.Slices ![15, 0, 0] S1x6x19
  slices_S24x6_S1x6_15_0 : S24x6.Slices ![15, 0] S1x6
  slices_S262144x24x9_S262144x1x9_0_16_0 : S262144x24x9.Slices ![0, 16, 0] S262144x1x9
  slices_S262144x24x3_S262144x1x3_0_16_0 : S262144x24x3.Slices ![0, 16, 0] S262144x1x3
  slices_S24x19x19_S1x19x19_16_0_0 : S24x19x19.Slices ![16, 0, 0] S1x19x19
  slices_S24x19_S1x19_16_0 : S24x19.Slices ![16, 0] S1x19
  slices_S24x6x19_S1x6x19_16_0_0 : S24x6x19.Slices ![16, 0, 0] S1x6x19
  slices_S24x6_S1x6_16_0 : S24x6.Slices ![16, 0] S1x6
  slices_S262144x24x9_S262144x1x9_0_17_0 : S262144x24x9.Slices ![0, 17, 0] S262144x1x9
  slices_S262144x24x3_S262144x1x3_0_17_0 : S262144x24x3.Slices ![0, 17, 0] S262144x1x3
  slices_S24x19x19_S1x19x19_17_0_0 : S24x19x19.Slices ![17, 0, 0] S1x19x19
  slices_S24x19_S1x19_17_0 : S24x19.Slices ![17, 0] S1x19
  slices_S24x6x19_S1x6x19_17_0_0 : S24x6x19.Slices ![17, 0, 0] S1x6x19
  slices_S24x6_S1x6_17_0 : S24x6.Slices ![17, 0] S1x6
  slices_S262144x24x9_S262144x1x9_0_18_0 : S262144x24x9.Slices ![0, 18, 0] S262144x1x9
  slices_S262144x24x3_S262144x1x3_0_18_0 : S262144x24x3.Slices ![0, 18, 0] S262144x1x3
  slices_S24x19x19_S1x19x19_18_0_0 : S24x19x19.Slices ![18, 0, 0] S1x19x19
  slices_S24x19_S1x19_18_0 : S24x19.Slices ![18, 0] S1x19
  slices_S24x6x19_S1x6x19_18_0_0 : S24x6x19.Slices ![18, 0, 0] S1x6x19
  slices_S24x6_S1x6_18_0 : S24x6.Slices ![18, 0] S1x6
  slices_S262144x24x9_S262144x1x9_0_19_0 : S262144x24x9.Slices ![0, 19, 0] S262144x1x9
  slices_S262144x24x3_S262144x1x3_0_19_0 : S262144x24x3.Slices ![0, 19, 0] S262144x1x3
  slices_S24x19x19_S1x19x19_19_0_0 : S24x19x19.Slices ![19, 0, 0] S1x19x19
  slices_S24x19_S1x19_19_0 : S24x19.Slices ![19, 0] S1x19
  slices_S24x6x19_S1x6x19_19_0_0 : S24x6x19.Slices ![19, 0, 0] S1x6x19
  slices_S24x6_S1x6_19_0 : S24x6.Slices ![19, 0] S1x6
  slices_S262144x24x9_S262144x1x9_0_20_0 : S262144x24x9.Slices ![0, 20, 0] S262144x1x9
  slices_S262144x24x3_S262144x1x3_0_20_0 : S262144x24x3.Slices ![0, 20, 0] S262144x1x3
  slices_S24x19x19_S1x19x19_20_0_0 : S24x19x19.Slices ![20, 0, 0] S1x19x19
  slices_S24x19_S1x19_20_0 : S24x19.Slices ![20, 0] S1x19
  slices_S24x6x19_S1x6x19_20_0_0 : S24x6x19.Slices ![20, 0, 0] S1x6x19
  slices_S24x6_S1x6_20_0 : S24x6.Slices ![20, 0] S1x6
  slices_S262144x24x9_S262144x1x9_0_21_0 : S262144x24x9.Slices ![0, 21, 0] S262144x1x9
  slices_S262144x24x3_S262144x1x3_0_21_0 : S262144x24x3.Slices ![0, 21, 0] S262144x1x3
  slices_S24x19x19_S1x19x19_21_0_0 : S24x19x19.Slices ![21, 0, 0] S1x19x19
  slices_S24x19_S1x19_21_0 : S24x19.Slices ![21, 0] S1x19
  slices_S24x6x19_S1x6x19_21_0_0 : S24x6x19.Slices ![21, 0, 0] S1x6x19
  slices_S24x6_S1x6_21_0 : S24x6.Slices ![21, 0] S1x6
  slices_S262144x24x9_S262144x1x9_0_22_0 : S262144x24x9.Slices ![0, 22, 0] S262144x1x9
  slices_S262144x24x3_S262144x1x3_0_22_0 : S262144x24x3.Slices ![0, 22, 0] S262144x1x3
  slices_S24x19x19_S1x19x19_22_0_0 : S24x19x19.Slices ![22, 0, 0] S1x19x19
  slices_S24x19_S1x19_22_0 : S24x19.Slices ![22, 0] S1x19
  slices_S24x6x19_S1x6x19_22_0_0 : S24x6x19.Slices ![22, 0, 0] S1x6x19
  slices_S24x6_S1x6_22_0 : S24x6.Slices ![22, 0] S1x6
  slices_S262144x24x9_S262144x1x9_0_23_0 : S262144x24x9.Slices ![0, 23, 0] S262144x1x9
  slices_S262144x24x3_S262144x1x3_0_23_0 : S262144x24x3.Slices ![0, 23, 0] S262144x1x3
  slices_S24x19x19_S1x19x19_23_0_0 : S24x19x19.Slices ![23, 0, 0] S1x19x19
  slices_S24x19_S1x19_23_0 : S24x19.Slices ![23, 0] S1x19
  slices_S24x6x19_S1x6x19_23_0_0 : S24x6x19.Slices ![23, 0, 0] S1x6x19
  slices_S24x6_S1x6_23_0 : S24x6.Slices ![23, 0] S1x6
  concatenates_S262144x6_S262144x6_S262144x6_S262144x6_S262144x6_S262144x6_S262144x6_S262144x6_S262144x6_S262144x6_S262144x6_S262144x6_S262144x6_S262144x6_S262144x6_S262144x6_S262144x96_d1 : Shape.Concatenates [S262144x6, S262144x6, S262144x6, S262144x6, S262144x6, S262144x6, S262144x6, S262144x6, S262144x6, S262144x6, S262144x6, S262144x6, S262144x6, S262144x6, S262144x6, S262144x6] S262144x96 1
  concatenates_S262144x6_S262144x6_S262144x6_S262144x6_S262144x6_S262144x6_S262144x6_S262144x6_S262144x48_d1 : Shape.Concatenates [S262144x6, S262144x6, S262144x6, S262144x6, S262144x6, S262144x6, S262144x6, S262144x6] S262144x48 1
  concatenates_S262144x96_S262144x48_S262144x144_d1 : Shape.Concatenates [S262144x96, S262144x48] S262144x144 1
  dot_S262144x288_S288x6_S262144x6_1_0_0_1_n_n_wf : DotDims.WF S262144x288 S288x6 S262144x6 [1] [0] [0] [1] [] []
  dot_S262144x19_S19x19_S262144x19_1_0_0_1_n_n_wf : DotDims.WF S262144x19 S19x19 S262144x19 [1] [0] [0] [1] [] []
  dot_S262144x19_S19x6_S262144x6_1_0_0_1_n_n_wf : DotDims.WF S262144x19 S19x6 S262144x6 [1] [0] [0] [1] [] []

variable [Facts₀]

def dot_S262144x288_S288x6_S262144x6_1_0_0_1_n_n : DotDims S262144x288 S288x6 S262144x6 where
  lhsContracting := [1]
  rhsContracting := [0]
  lhsNonContracting := [0]
  rhsNonContracting := [1]
  lhsBatch := []
  rhsBatch := []
  wf := dot_S262144x288_S288x6_S262144x6_1_0_0_1_n_n_wf
def dot_S262144x19_S19x19_S262144x19_1_0_0_1_n_n : DotDims S262144x19 S19x19 S262144x19 where
  lhsContracting := [1]
  rhsContracting := [0]
  lhsNonContracting := [0]
  rhsNonContracting := [1]
  lhsBatch := []
  rhsBatch := []
  wf := dot_S262144x19_S19x19_S262144x19_1_0_0_1_n_n_wf
def dot_S262144x19_S19x6_S262144x6_1_0_0_1_n_n : DotDims S262144x19 S19x6 S262144x6 where
  lhsContracting := [1]
  rhsContracting := [0]
  lhsNonContracting := [0]
  rhsNonContracting := [1]
  lhsBatch := []
  rhsBatch := []
  wf := dot_S262144x19_S19x6_S262144x6_1_0_0_1_n_n_wf

class Facts : Prop extends Facts₀ where

variable [Facts]
-- ==== Proof.Spec.lean ====
import Idealize.ShloMosaic.Lib.ValueIdx
import Idealize.ShloMosaic.PureOps.Ideal

noncomputable section

namespace Cert.Tree

open Idealize.ShloMosaic Idealize.ShloMosaic.ValueIdx

abbrev zeroW : EReal := Ideal.ofBits .f32 0x00000000#32

def inFeat (rot : Fin 9 → EReal) (jtr : Fin 3 → EReal) (bone : EReal) (feat : Fin 6 → EReal) : Fin 19 → EReal := fun k =>
  if h : k.val < 9 then rot ⟨k.val, h⟩
  else if h2 : k.val < 12 then jtr ⟨k.val - 9, by omega⟩
  else if k.val < 13 then bone
  else feat ⟨k.val - 13, by omega⟩

def boneLen (d : Fin 3 → EReal) : EReal := Ideal.sqrt (∑ a : Fin 3, d a * d a)

def layer1 (x : Fin 19 → EReal) (w1 : Fin 19 → Fin 19 → EReal) (b1 : Fin 19 → EReal) : Fin 19 → EReal := fun a =>
  max ((∑ k : Fin 19, x k * w1 a k) + b1 a) zeroW

def layer2 (h : Fin 19 → EReal) (w2 : Fin 6 → Fin 19 → EReal) (b2 : Fin 6 → EReal) : Fin 6 → EReal := fun q =>
  (∑ k : Fin 19, h k * w2 q k) + b2 q

def joint (rot : Fin 9 → EReal) (jtr d : Fin 3 → EReal) (feat : Fin 6 → EReal)
    (w1 : Fin 19 → Fin 19 → EReal) (b1 : Fin 19 → EReal) (w2 : Fin 6 → Fin 19 → EReal) (b2 : Fin 6 → EReal) : Fin 6 → EReal :=
  layer2 (layer1 (inFeat rot jtr (boneLen d) feat) w1 b1) w2 b2

section Row

variable (W0 : (⟨2, ![6, 288]⟩ : Shape).Idx → EReal) (B0 : (⟨1, ![6]⟩ : Shape).Idx → EReal)
  (W1 : (⟨3, ![24, 19, 19]⟩ : Shape).Idx → EReal) (B1 : (⟨2, ![24, 19]⟩ : Shape).Idx → EReal)
  (W2 : (⟨3, ![24, 6, 19]⟩ : Shape).Idx → EReal) (B2 : (⟨2, ![24, 6]⟩ : Shape).Idx → EReal)
  (xr : Fin 216 → EReal) (xj : Fin 72 → EReal)

def rowCat : Fin 288 → EReal := fun k =>
  if h : k.val < 216 then xr ⟨k.val, h⟩ else xj ⟨k.val - 216, by omega⟩

def glob : Fin 6 → EReal := fun q =>
  (∑ k : Fin 288, rowCat xr xj k * W0 (ix2 q k)) + B0 (ix1 q)

def rotOf (j : Fin 24) : Fin 9 → EReal := fun a => xr ⟨9 * j.val + a.val, by omega⟩

def jtrOf (j : Fin 24) : Fin 3 → EReal := fun a => xj ⟨3 * j.val + a.val, by omega⟩

def diffOf (j p : Fin 24) : Fin 3 → EReal := fun a => jtrOf xj j a - jtrOf xj p a

def jointAt (j : Fin 24) (d : Fin 3 → EReal) (feat : Fin 6 → EReal) : Fin 6 → EReal :=
  joint (rotOf xr j) (jtrOf xj j) d feat (fun a k => W1 (ix3 j a k)) (fun a => B1 (ix2 j a))
    (fun q k => W2 (ix3 j q k)) (fun q => B2 (ix2 j q))

def child (j p : Fin 24) (feat : Fin 6 → EReal) : Fin 6 → EReal :=
  jointAt W1 B1 W2 B2 xr xj j (diffOf xj j p) feat

def o0 : Fin 6 → EReal := jointAt W1 B1 W2 B2 xr xj 0 (jtrOf xj 0) (glob W0 B0 xr xj)
def o1 : Fin 6 → EReal := child W1 B1 W2 B2 xr xj 1 0 (o0 W0 B0 W1 B1 W2 B2 xr xj)
def o2 : Fin 6 → EReal := child W1 B1 W2 B2 xr xj 2 0 (o0 W0 B0 W1 B1 W2 B2 xr xj)
def o3 : Fin 6 → EReal := child W1 B1 W2 B2 xr xj 3 0 (o0 W0 B0 W1 B1 W2 B2 xr xj)
def o4 : Fin 6 → EReal := child W1 B1 W2 B2 xr xj 4 1 (o1 W0 B0 W1 B1 W2 B2 xr xj)
def o5 : Fin 6 → EReal := child W1 B1 W2 B2 xr xj 5 2 (o2 W0 B0 W1 B1 W2 B2 xr xj)
def o6 : Fin 6 → EReal := child W1 B1 W2 B2 xr xj 6 3 (o3 W0 B0 W1 B1 W2 B2 xr xj)
def o7 : Fin 6 → EReal := child W1 B1 W2 B2 xr xj 7 4 (o4 W0 B0 W1 B1 W2 B2 xr xj)
def o8 : Fin 6 → EReal := child W1 B1 W2 B2 xr xj 8 5 (o5 W0 B0 W1 B1 W2 B2 xr xj)
def o9 : Fin 6 → EReal := child W1 B1 W2 B2 xr xj 9 6 (o6 W0 B0 W1 B1 W2 B2 xr xj)
def o10 : Fin 6 → EReal := child W1 B1 W2 B2 xr xj 10 7 (o7 W0 B0 W1 B1 W2 B2 xr xj)
def o11 : Fin 6 → EReal := child W1 B1 W2 B2 xr xj 11 8 (o8 W0 B0 W1 B1 W2 B2 xr xj)
def o12 : Fin 6 → EReal := child W1 B1 W2 B2 xr xj 12 9 (o9 W0 B0 W1 B1 W2 B2 xr xj)
def o13 : Fin 6 → EReal := child W1 B1 W2 B2 xr xj 13 9 (o9 W0 B0 W1 B1 W2 B2 xr xj)
def o14 : Fin 6 → EReal := child W1 B1 W2 B2 xr xj 14 9 (o9 W0 B0 W1 B1 W2 B2 xr xj)
def o15 : Fin 6 → EReal := child W1 B1 W2 B2 xr xj 15 12 (o12 W0 B0 W1 B1 W2 B2 xr xj)
def o16 : Fin 6 → EReal := child W1 B1 W2 B2 xr xj 16 13 (o13 W0 B0 W1 B1 W2 B2 xr xj)
def o17 : Fin 6 → EReal := child W1 B1 W2 B2 xr xj 17 14 (o14 W0 B0 W1 B1 W2 B2 xr xj)
def o18 : Fin 6 → EReal := child W1 B1 W2 B2 xr xj 18 16 (o16 W0 B0 W1 B1 W2 B2 xr xj)
def o19 : Fin 6 → EReal := child W1 B1 W2 B2 xr xj 19 17 (o17 W0 B0 W1 B1 W2 B2 xr xj)
def o20 : Fin 6 → EReal := child W1 B1 W2 B2 xr xj 20 18 (o18 W0 B0 W1 B1 W2 B2 xr xj)
def o21 : Fin 6 → EReal := child W1 B1 W2 B2 xr xj 21 19 (o19 W0 B0 W1 B1 W2 B2 xr xj)
def o22 : Fin 6 → EReal := child W1 B1 W2 B2 xr xj 22 20 (o20 W0 B0 W1 B1 W2 B2 xr xj)
def o23 : Fin 6 → EReal := child W1 B1 W2 B2 xr xj 23 21 (o21 W0 B0 W1 B1 W2 B2 xr xj)

def outAt (j : Fin 24) : Fin 6 → EReal :=
  match j with
  | ⟨0, _⟩ => o0 W0 B0 W1 B1 W2 B2 xr xj | ⟨1, _⟩ => o1 W0 B0 W1 B1 W2 B2 xr xj | ⟨2, _⟩ => o2 W0 B0 W1 B1 W2 B2 xr xj
  | ⟨3, _⟩ => o3 W0 B0 W1 B1 W2 B2 xr xj | ⟨4, _⟩ => o4 W0 B0 W1 B1 W2 B2 xr xj | ⟨5, _⟩ => o5 W0 B0 W1 B1 W2 B2 xr xj
  | ⟨6, _⟩ => o6 W0 B0 W1 B1 W2 B2 xr xj | ⟨7, _⟩ => o7 W0 B0 W1 B1 W2 B2 xr xj | ⟨8, _⟩ => o8 W0 B0 W1 B1 W2 B2 xr xj
  | ⟨9, _⟩ => o9 W0 B0 W1 B1 W2 B2 xr xj | ⟨10, _⟩ => o10 W0 B0 W1 B1 W2 B2 xr xj | ⟨11, _⟩ => o11 W0 B0 W1 B1 W2 B2 xr xj
  | ⟨12, _⟩ => o12 W0 B0 W1 B1 W2 B2 xr xj | ⟨13, _⟩ => o13 W0 B0 W1 B1 W2 B2 xr xj | ⟨14, _⟩ => o14 W0 B0 W1 B1 W2 B2 xr xj
  | ⟨15, _⟩ => o15 W0 B0 W1 B1 W2 B2 xr xj | ⟨16, _⟩ => o16 W0 B0 W1 B1 W2 B2 xr xj | ⟨17, _⟩ => o17 W0 B0 W1 B1 W2 B2 xr xj
  | ⟨18, _⟩ => o18 W0 B0 W1 B1 W2 B2 xr xj | ⟨19, _⟩ => o19 W0 B0 W1 B1 W2 B2 xr xj | ⟨20, _⟩ => o20 W0 B0 W1 B1 W2 B2 xr xj
  | ⟨21, _⟩ => o21 W0 B0 W1 B1 W2 B2 xr xj | ⟨22, _⟩ => o22 W0 B0 W1 B1 W2 B2 xr xj | ⟨23, _⟩ => o23 W0 B0 W1 B1 W2 B2 xr xj
  | ⟨_ + 24, h⟩ => absurd h (by omega)

def rowOut : Fin 144 → EReal := fun k =>
  outAt W0 B0 W1 B1 W2 B2 xr xj ⟨k.val / 6, by omega⟩ ⟨k.val % 6, Nat.mod_lt _ (by decide)⟩

end Row

section Arrays

variable {M : Nat}
variable (W0 : (⟨2, ![6, 288]⟩ : Shape).Idx → EReal) (B0 : (⟨1, ![6]⟩ : Shape).Idx → EReal)
  (W1 : (⟨3, ![24, 19, 19]⟩ : Shape).Idx → EReal) (B1 : (⟨2, ![24, 19]⟩ : Shape).Idx → EReal)
  (W2 : (⟨3, ![24, 6, 19]⟩ : Shape).Idx → EReal) (B2 : (⟨2, ![24, 6]⟩ : Shape).Idx → EReal)

def rowOf {n : Nat} (X : (⟨2, ![M, n]⟩ : Shape).Idx → EReal) (r : Fin M) : Fin n → EReal := fun k => X (ix2 r k)

def blkJoint (j : Fin 24) (X0 : (⟨2, ![M, 216]⟩ : Shape).Idx → EReal) (X1 : (⟨2, ![M, 72]⟩ : Shape).Idx → EReal) :
    (⟨2, ![M, 6]⟩ : Shape).Idx → EReal := fun y =>
  outAt W0 B0 W1 B1 W2 B2 (rowOf X0 (y 0)) (rowOf X1 (y 0)) j (y 1)

def blkOut (X0 : (⟨2, ![M, 216]⟩ : Shape).Idx → EReal) (X1 : (⟨2, ![M, 72]⟩ : Shape).Idx → EReal) :
    (⟨2, ![M, 144]⟩ : Shape).Idx → EReal := fun y =>
  rowOut W0 B0 W1 B1 W2 B2 (rowOf X0 (y 0)) (rowOf X1 (y 0)) (y 1)

def flatRot (A0 : (⟨3, ![M, 24, 9]⟩ : Shape).Idx → EReal) : (⟨2, ![M, 216]⟩ : Shape).Idx → EReal := fun y =>
  A0 (ix3 (y 0) ⟨(y 1).val / 9, by have h : (y 1).val < 216 := (y 1).isLt; show (y 1).val / 9 < 24; omega⟩ ⟨(y 1).val % 9, Nat.mod_lt _ (by decide)⟩)

def flatJtr (A1 : (⟨3, ![M, 24, 3]⟩ : Shape).Idx → EReal) : (⟨2, ![M, 72]⟩ : Shape).Idx → EReal := fun y =>
  A1 (ix3 (y 0) ⟨(y 1).val / 3, by have h : (y 1).val < 72 := (y 1).isLt; show (y 1).val / 3 < 24; omega⟩ ⟨(y 1).val % 3, Nat.mod_lt _ (by decide)⟩)

def G (A0 : (⟨3, ![M, 24, 9]⟩ : Shape).Idx → EReal) (A1 : (⟨3, ![M, 24, 3]⟩ : Shape).Idx → EReal) :
    (⟨2, ![M, 144]⟩ : Shape).Idx → EReal :=
  blkOut W0 B0 W1 B1 W2 B2 (flatRot A0) (flatJtr A1)

end Arrays

end Cert.Tree

end
-- ==== Proof.KSpec.lean ====
import proofs.«142136_j58514634440790_1_alg».proof.Proof.Gen.KernelIdeal
import proofs.«142136_j58514634440790_1_alg».proof.Proof.Spec
import Idealize.ShloMosaic.Lib.Pipeline.FrameBody

noncomputable section

namespace Cert.KernelIdeal.KSpec

open Cert.KernelIdeal Cert.KernelIdeal.Gen Idealize.ShloMosaic

variable (x0 : Vec Ideal S4096x216 .f32) (x1 : Vec Ideal S4096x72 .f32) (x2 : Vec Ideal S6x288 .f32) (x3 : Vec Ideal S6 .f32)
  (x4 : Vec Ideal S24x19x19 .f32) (x5 : Vec Ideal S24x19 .f32) (x6 : Vec Ideal S24x6x19 .f32) (x7 : Vec Ideal S24x6 .f32)

abbrev jv (j : Fin 24) : Vec Ideal S4096x6 .f32 := Cert.Tree.blkJoint (M := 4096) x2 x3 x4 x5 x6 x7 j x0 x1

abbrev bv : Vec Ideal S4096x144 .f32 := Cert.Tree.blkOut (M := 4096) x2 x3 x4 x5 x6 x7 x0 x1

abbrev pc (o : Nat) (inb : ∀ a, (![0, o] : Fin 2 → Nat) a + S4096x6.size a ≤ S4096x144.size a) (j : Fin 24) :
    View.Piece (Elt Ideal) S4096x144 .f32 := ⟨Rect.unit (s := S4096x144) ![0, o] S4096x6.size inb, jv x0 x1 x2 x3 x4 x5 x6 x7 j⟩

def L1 : List (View.Piece (Elt Ideal) S4096x144 .f32) := [pc x0 x1 x2 x3 x4 x5 x6 x7 0 inb_S4096x144_S4096x6_0_0 0]
def L2 : List (View.Piece (Elt Ideal) S4096x144 .f32) := pc x0 x1 x2 x3 x4 x5 x6 x7 6 inb_S4096x144_S4096x6_0_6 1 :: L1 x0 x1 x2 x3 x4 x5 x6 x7
def L3 : List (View.Piece (Elt Ideal) S4096x144 .f32) := pc x0 x1 x2 x3 x4 x5 x6 x7 12 inb_S4096x144_S4096x6_0_12 2 :: L2 x0 x1 x2 x3 x4 x5 x6 x7
def L4 : List (View.Piece (Elt Ideal) S4096x144 .f32) := pc x0 x1 x2 x3 x4 x5 x6 x7 18 inb_S4096x144_S4096x6_0_18 3 :: L3 x0 x1 x2 x3 x4 x5 x6 x7
def L5 : List (View.Piece (Elt Ideal) S4096x144 .f32) := pc x0 x1 x2 x3 x4 x5 x6 x7 24 inb_S4096x144_S4096x6_0_24 4 :: L4 x0 x1 x2 x3 x4 x5 x6 x7
def L6 : List (View.Piece (Elt Ideal) S4096x144 .f32) := pc x0 x1 x2 x3 x4 x5 x6 x7 30 inb_S4096x144_S4096x6_0_30 5 :: L5 x0 x1 x2 x3 x4 x5 x6 x7
def L7 : List (View.Piece (Elt Ideal) S4096x144 .f32) := pc x0 x1 x2 x3 x4 x5 x6 x7 36 inb_S4096x144_S4096x6_0_36 6 :: L6 x0 x1 x2 x3 x4 x5 x6 x7
def L8 : List (View.Piece (Elt Ideal) S4096x144 .f32) := pc x0 x1 x2 x3 x4 x5 x6 x7 42 inb_S4096x144_S4096x6_0_42 7 :: L7 x0 x1 x2 x3 x4 x5 x6 x7
def L9 : List (View.Piece (Elt Ideal) S4096x144 .f32) := pc x0 x1 x2 x3 x4 x5 x6 x7 48 inb_S4096x144_S4096x6_0_48 8 :: L8 x0 x1 x2 x3 x4 x5 x6 x7
def L10 : List (View.Piece (Elt Ideal) S4096x144 .f32) := pc x0 x1 x2 x3 x4 x5 x6 x7 54 inb_S4096x144_S4096x6_0_54 9 :: L9 x0 x1 x2 x3 x4 x5 x6 x7
def L11 : List (View.Piece (Elt Ideal) S4096x144 .f32) := pc x0 x1 x2 x3 x4 x5 x6 x7 60 inb_S4096x144_S4096x6_0_60 10 :: L10 x0 x1 x2 x3 x4 x5 x6 x7
def L12 : List (View.Piece (Elt Ideal) S4096x144 .f32) := pc x0 x1 x2 x3 x4 x5 x6 x7 66 inb_S4096x144_S4096x6_0_66 11 :: L11 x0 x1 x2 x3 x4 x5 x6 x7
def L13 : List (View.Piece (Elt Ideal) S4096x144 .f32) := pc x0 x1 x2 x3 x4 x5 x6 x7 72 inb_S4096x144_S4096x6_0_72 12 :: L12 x0 x1 x2 x3 x4 x5 x6 x7
def L14 : List (View.Piece (Elt Ideal) S4096x144 .f32) := pc x0 x1 x2 x3 x4 x5 x6 x7 78 inb_S4096x144_S4096x6_0_78 13 :: L13 x0 x1 x2 x3 x4 x5 x6 x7
def L15 : List (View.Piece (Elt Ideal) S4096x144 .f32) := pc x0 x1 x2 x3 x4 x5 x6 x7 84 inb_S4096x144_S4096x6_0_84 14 :: L14 x0 x1 x2 x3 x4 x5 x6 x7
def L16 : List (View.Piece (Elt Ideal) S4096x144 .f32) := pc x0 x1 x2 x3 x4 x5 x6 x7 90 inb_S4096x144_S4096x6_0_90 15 :: L15 x0 x1 x2 x3 x4 x5 x6 x7
def L17 : List (View.Piece (Elt Ideal) S4096x144 .f32) := pc x0 x1 x2 x3 x4 x5 x6 x7 96 inb_S4096x144_S4096x6_0_96 16 :: L16 x0 x1 x2 x3 x4 x5 x6 x7
def L18 : List (View.Piece (Elt Ideal) S4096x144 .f32) := pc x0 x1 x2 x3 x4 x5 x6 x7 102 inb_S4096x144_S4096x6_0_102 17 :: L17 x0 x1 x2 x3 x4 x5 x6 x7
def L19 : List (View.Piece (Elt Ideal) S4096x144 .f32) := pc x0 x1 x2 x3 x4 x5 x6 x7 108 inb_S4096x144_S4096x6_0_108 18 :: L18 x0 x1 x2 x3 x4 x5 x6 x7
def L20 : List (View.Piece (Elt Ideal) S4096x144 .f32) := pc x0 x1 x2 x3 x4 x5 x6 x7 114 inb_S4096x144_S4096x6_0_114 19 :: L19 x0 x1 x2 x3 x4 x5 x6 x7
def L21 : List (View.Piece (Elt Ideal) S4096x144 .f32) := pc x0 x1 x2 x3 x4 x5 x6 x7 120 inb_S4096x144_S4096x6_0_120 20 :: L20 x0 x1 x2 x3 x4 x5 x6 x7
def L22 : List (View.Piece (Elt Ideal) S4096x144 .f32) := pc x0 x1 x2 x3 x4 x5 x6 x7 126 inb_S4096x144_S4096x6_0_126 21 :: L21 x0 x1 x2 x3 x4 x5 x6 x7
def L23 : List (View.Piece (Elt Ideal) S4096x144 .f32) := pc x0 x1 x2 x3 x4 x5 x6 x7 132 inb_S4096x144_S4096x6_0_132 22 :: L22 x0 x1 x2 x3 x4 x5 x6 x7
def L24 : List (View.Piece (Elt Ideal) S4096x144 .f32) := pc x0 x1 x2 x3 x4 x5 x6 x7 138 inb_S4096x144_S4096x6_0_138 23 :: L23 x0 x1 x2 x3 x4 x5 x6 x7

end Cert.KernelIdeal.KSpec

end
-- ==== Proof.KBlock.lean ====
import proofs.«142136_j58514634440790_1_alg».proof.Proof.Gen.KernelIdeal.Value
import proofs.«142136_j58514634440790_1_alg».proof.Proof.KSpec

set_option maxRecDepth 16384

noncomputable section

namespace Cert.KernelIdeal.KValue

open Cert.KernelIdeal Cert.KernelIdeal.Gen Idealize.ShloMosaic Idealize.ShloMosaic.TcCoe Idealize.SL.Sem
open Idealize.ShloMosaic.ValueIdx

abbrev PiecesSpec : Prop :=
  ∀ (c : Dev nD) (i : grid0.Coords) (arg1 : Memref sig .tc .vmem S4096x216 .f32) (harg1 : arg1.IsWhole) (arg2 : Memref sig .tc .vmem S4096x72 .f32) (harg2 : arg2.IsWhole) (arg3 : Memref sig .tc .vmem S6x288 .f32) (harg3 : arg3.IsWhole) (arg4 : Memref sig .tc .vmem S6 .f32) (harg4 : arg4.IsWhole) (arg5 : Memref sig .tc .vmem S24x19x19 .f32) (harg5 : arg5.IsWhole) (arg6 : Memref sig .tc .vmem S24x19 .f32) (harg6 : arg6.IsWhole) (arg7 : Memref sig .tc .vmem S24x6x19 .f32) (harg7 : arg7.IsWhole) (arg8 : Memref sig .tc .vmem S24x6 .f32) (harg8 : arg8.IsWhole) (arg9 : Memref sig .tc .vmem S4096x144 .f32) (harg9 : arg9.IsWhole)
    (x0 : Vec Ideal S4096x216 .f32) (x1 : Vec Ideal S4096x72 .f32) (x2 : Vec Ideal S6x288 .f32) (x3 : Vec Ideal S6 .f32) (x4 : Vec Ideal S24x19x19 .f32) (x5 : Vec Ideal S24x19 .f32) (x6 : Vec Ideal S24x6x19 .f32) (x7 : Vec Ideal S24x6 .f32),
    (kernelRun0_A (F := Ideal) c i arg1 harg1 arg2 harg2 arg3 harg3 arg4 harg4 arg5 harg5 arg6 harg6 arg7 harg7 arg8 harg8 arg9 harg9 x0 x1 x2 x3 x4 x5 x6 x7).1 = KSpec.L24 x0 x1 x2 x3 x4 x5 x6 x7

section Block

variable (x0 : Vec Ideal S4096x216 .f32) (x1 : Vec Ideal S4096x72 .f32) (x2 : Vec Ideal S6x288 .f32) (x3 : Vec Ideal S6 .f32) (x4 : Vec Ideal S24x19x19 .f32) (x5 : Vec Ideal S24x19 .f32) (x6 : Vec Ideal S24x6x19 .f32) (x7 : Vec Ideal S24x6 .f32)

theorem jv_eq_bv (j : Fin 24) (x : S4096x6.Idx) (y : S4096x144.Idx) (h0 : (y 0).val = (x 0).val)
    (h1 : (y 1).val = 6 * j.val + (x 1).val) :
    KSpec.jv x0 x1 x2 x3 x4 x5 x6 x7 j x = KSpec.bv x0 x1 x2 x3 x4 x5 x6 x7 y := by
  obtain ⟨r, q, rfl⟩ : ∃ (r : Fin 4096) (q : Fin 6), x = ix2 r q := ⟨x 0, x 1, eq_ix2 x⟩
  obtain ⟨r', k, rfl⟩ : ∃ (r' : Fin 4096) (k : Fin 144), y = ix2 r' k := ⟨y 0, y 1, eq_ix2 y⟩
  have hr : r' = r := Fin.ext h0
  subst hr
  have hk : k.val = 6 * j.val + q.val := h1
  show Cert.Tree.outAt x2 x3 x4 x5 x6 x7 (Cert.Tree.rowOf x0 r') (Cert.Tree.rowOf x1 r') j q
    = Cert.Tree.outAt x2 x3 x4 x5 x6 x7 (Cert.Tree.rowOf x0 r') (Cert.Tree.rowOf x1 r') ⟨k.val / 6, _⟩ ⟨k.val % 6, _⟩
  have hj : j = ⟨k.val / 6, by omega⟩ := Fin.ext (by show j.val = k.val / 6; omega)
  have hq : q = ⟨k.val % 6, Nat.mod_lt _ (by decide)⟩ := Fin.ext (by show q.val = k.val % 6; omega)
  rw [← hj, ← hq]

theorem pc_eq_bv (o : Nat) (inb) (j : Fin 24) (ho : o = 6 * j.val)
    (x : (KSpec.pc x0 x1 x2 x3 x4 x5 x6 x7 o inb j).1.shape.Idx) :
    (KSpec.pc x0 x1 x2 x3 x4 x5 x6 x7 o inb j).2 x = KSpec.bv x0 x1 x2 x3 x4 x5 x6 x7 ((KSpec.pc x0 x1 x2 x3 x4 x5 x6 x7 o inb j).1.emb x) := by
  refine jv_eq_bv x0 x1 x2 x3 x4 x5 x6 x7 j x _ ?_ ?_
  · show 0 + 1 * (x 0).val = (x 0).val
    omega
  · show o + 1 * (x 1).val = 6 * j.val + (x 1).val
    omega

theorem L24_pieces : ∀ p ∈ KSpec.L24 x0 x1 x2 x3 x4 x5 x6 x7, ∀ x : p.1.shape.Idx,
    p.2 x = KSpec.bv x0 x1 x2 x3 x4 x5 x6 x7 (p.1.emb x) := by
  simp only [KSpec.L24, KSpec.L23, KSpec.L22, KSpec.L21, KSpec.L20, KSpec.L19, KSpec.L18, KSpec.L17, KSpec.L16, KSpec.L15, KSpec.L14, KSpec.L13, KSpec.L12, KSpec.L11, KSpec.L10, KSpec.L9, KSpec.L8, KSpec.L7, KSpec.L6, KSpec.L5, KSpec.L4, KSpec.L3, KSpec.L2, KSpec.L1, List.forall_mem_cons, List.mem_singleton, forall_eq]
  refine ⟨?_, ?_, ?_, ?_, ?_, ?_, ?_, ?_, ?_, ?_, ?_, ?_, ?_, ?_, ?_, ?_, ?_, ?_, ?_, ?_, ?_, ?_, ?_, ?_⟩
  · exact pc_eq_bv x0 x1 x2 x3 x4 x5 x6 x7 138 _ 23 rfl
  · exact pc_eq_bv x0 x1 x2 x3 x4 x5 x6 x7 132 _ 22 rfl
  · exact pc_eq_bv x0 x1 x2 x3 x4 x5 x6 x7 126 _ 21 rfl
  · exact pc_eq_bv x0 x1 x2 x3 x4 x5 x6 x7 120 _ 20 rfl
  · exact pc_eq_bv x0 x1 x2 x3 x4 x5 x6 x7 114 _ 19 rfl
  · exact pc_eq_bv x0 x1 x2 x3 x4 x5 x6 x7 108 _ 18 rfl
  · exact pc_eq_bv x0 x1 x2 x3 x4 x5 x6 x7 102 _ 17 rfl
  · exact pc_eq_bv x0 x1 x2 x3 x4 x5 x6 x7 96 _ 16 rfl
  · exact pc_eq_bv x0 x1 x2 x3 x4 x5 x6 x7 90 _ 15 rfl
  · exact pc_eq_bv x0 x1 x2 x3 x4 x5 x6 x7 84 _ 14 rfl
  · exact pc_eq_bv x0 x1 x2 x3 x4 x5 x6 x7 78 _ 13 rfl
  · exact pc_eq_bv x0 x1 x2 x3 x4 x5 x6 x7 72 _ 12 rfl
  · exact pc_eq_bv x0 x1 x2 x3 x4 x5 x6 x7 66 _ 11 rfl
  · exact pc_eq_bv x0 x1 x2 x3 x4 x5 x6 x7 60 _ 10 rfl
  · exact pc_eq_bv x0 x1 x2 x3 x4 x5 x6 x7 54 _ 9 rfl
  · exact pc_eq_bv x0 x1 x2 x3 x4 x5 x6 x7 48 _ 8 rfl
  · exact pc_eq_bv x0 x1 x2 x3 x4 x5 x6 x7 42 _ 7 rfl
  · exact pc_eq_bv x0 x1 x2 x3 x4 x5 x6 x7 36 _ 6 rfl
  · exact pc_eq_bv x0 x1 x2 x3 x4 x5 x6 x7 30 _ 5 rfl
  · exact pc_eq_bv x0 x1 x2 x3 x4 x5 x6 x7 24 _ 4 rfl
  · exact pc_eq_bv x0 x1 x2 x3 x4 x5 x6 x7 18 _ 3 rfl
  · exact pc_eq_bv x0 x1 x2 x3 x4 x5 x6 x7 12 _ 2 rfl
  · exact pc_eq_bv x0 x1 x2 x3 x4 x5 x6 x7 6 _ 1 rfl
  · exact pc_eq_bv x0 x1 x2 x3 x4 x5 x6 x7 0 _ 0 rfl

end Block

theorem out0_eq (hp : PiecesSpec) (c : Dev nD) (i : grid0.Coords) (arg1 : Memref sig .tc .vmem S4096x216 .f32) (harg1 : arg1.IsWhole) (arg2 : Memref sig .tc .vmem S4096x72 .f32) (harg2 : arg2.IsWhole) (arg3 : Memref sig .tc .vmem S6x288 .f32) (harg3 : arg3.IsWhole) (arg4 : Memref sig .tc .vmem S6 .f32) (harg4 : arg4.IsWhole) (arg5 : Memref sig .tc .vmem S24x19x19 .f32) (harg5 : arg5.IsWhole) (arg6 : Memref sig .tc .vmem S24x19 .f32) (harg6 : arg6.IsWhole) (arg7 : Memref sig .tc .vmem S24x6x19 .f32) (harg7 : arg7.IsWhole) (arg8 : Memref sig .tc .vmem S24x6 .f32) (harg8 : arg8.IsWhole) (arg9 : Memref sig .tc .vmem S4096x144 .f32) (harg9 : arg9.IsWhole)
    (x0 : Vec Ideal S4096x216 .f32) (x1 : Vec Ideal S4096x72 .f32) (x2 : Vec Ideal S6x288 .f32) (x3 : Vec Ideal S6 .f32) (x4 : Vec Ideal S24x19x19 .f32) (x5 : Vec Ideal S24x19 .f32) (x6 : Vec Ideal S24x6x19 .f32) (x7 : Vec Ideal S24x6 .f32) :
    out0_A_8 (F := Ideal) c i arg1 harg1 arg2 harg2 arg3 harg3 arg4 harg4 arg5 harg5 arg6 harg6 arg7 harg7 arg8 harg8 arg9 harg9 x0 x1 x2 x3 x4 x5 x6 x7 = KSpec.bv x0 x1 x2 x3 x4 x5 x6 x7 := by
  unfold out0_A_8
  rw [View.read_writes_junk_eq_canon]
  funext y
  have hc := cover0_A_8 (F := Ideal) c i arg1 harg1 arg2 harg2 arg3 harg3 arg4 harg4 arg5 harg5 arg6 harg6 arg7 harg7 arg8 harg8 arg9 harg9 x0 x1 x2 x3 x4 x5 x6 x7 y
  rw [hp] at hc ⊢
  exact View.canon_apply_of_pieces (KSpec.bv x0 x1 x2 x3 x4 x5 x6 x7) _ (L24_pieces x0 x1 x2 x3 x4 x5 x6 x7) y hc

end Cert.KernelIdeal.KValue

end
-- ==== Proof.KFinal.lean ====
import proofs.«142136_j58514634440790_1_alg».proof.Proof.KBlock
import Idealize.ShloMosaic.Lib.StableHlo.Run

set_option maxRecDepth 16384

noncomputable section

namespace Cert.KernelIdeal.KValue

open Cert.KernelIdeal Cert.KernelIdeal.Gen Idealize.ShloMosaic Idealize.ShloMosaic.TcCoe Idealize.SL.Sem
open Idealize.ShloMosaic.ValueIdx

section Final

open Idealize.ShloMosaic.Pipeline (Dat)

variable (m : (ℓ : Loc nD τ sig) → Buf (Elt Ideal) ℓ)

theorem V0_eq (c : Dev nD) : (V m c main_v0 : S262144x216.Idx → EReal)
    = Cert.Tree.flatRot (M := 262144) (m ((c : Thread nD τ).loc main_arg0)) := by
  have e : (V m c main_v0 : S262144x216.Idx → EReal)
      = shapeCast S262144x216 (m ((c : Thread nD τ).loc main_arg0)) Gen.shapeCasts_S262144x24x9_S262144x216 := by
    dsimp only [Gen.V, Gen.hostOps0]; after_results; rfl
  rw [e]; funext y
  obtain ⟨R, k, rfl⟩ : ∃ (R : Fin 262144) (k : Fin 216), y = ix2 R k := ⟨y 0, y 1, eq_ix2 y⟩
  have hk : k.val < 216 := k.isLt
  show _ = m ((c : Thread nD τ).loc main_arg0) (ix3 R ⟨k.val / 9, by omega⟩ ⟨k.val % 9, Nat.mod_lt _ (by decide)⟩)
  refine shapeCast_apply (s := S262144x24x9) (t := S262144x216) _ _ _ _ ?_
  refine ((Shape.rowMajor_val_three (d := ![262144, 24, 9]) _).trans ?_).trans
    (Shape.rowMajor_val_two (d := ![262144, 216]) _).symm
  show (R.val * 24 + k.val / 9) * 9 + k.val % 9 = R.val * 216 + k.val
  omega

theorem V1_eq (c : Dev nD) : (V m c main_v1 : S262144x72.Idx → EReal)
    = Cert.Tree.flatJtr (M := 262144) (m ((c : Thread nD τ).loc main_arg1)) := by
  have e : (V m c main_v1 : S262144x72.Idx → EReal)
      = shapeCast S262144x72 (m ((c : Thread nD τ).loc main_arg1)) Gen.shapeCasts_S262144x24x3_S262144x72 := by
    dsimp only [Gen.V, Gen.hostOps0]; after_results; rfl
  rw [e]; funext y
  obtain ⟨R, k, rfl⟩ : ∃ (R : Fin 262144) (k : Fin 72), y = ix2 R k := ⟨y 0, y 1, eq_ix2 y⟩
  have hk : k.val < 72 := k.isLt
  show _ = m ((c : Thread nD τ).loc main_arg1) (ix3 R ⟨k.val / 3, by omega⟩ ⟨k.val % 3, Nat.mod_lt _ (by decide)⟩)
  refine shapeCast_apply (s := S262144x24x3) (t := S262144x72) _ _ _ _ ?_
  refine ((Shape.rowMajor_val_three (d := ![262144, 24, 3]) _).trans ?_).trans
    (Shape.rowMajor_val_two (d := ![262144, 72]) _).symm
  show (R.val * 24 + k.val / 3) * 3 + k.val % 3 = R.val * 72 + k.val
  omega

theorem idx_rows : ∀ t : Fin cfg0.N,
    win0_0.index t (0 : Fin 2) = t.val ∧ win0_0.index t (1 : Fin 2) = 0
    ∧ win0_1.index t (0 : Fin 2) = t.val ∧ win0_1.index t (1 : Fin 2) = 0
    ∧ win0_8.index t (0 : Fin 2) = t.val ∧ win0_8.index t (1 : Fin 2) = 0 :=
  (by decide +kernel : ∀ t : Fin grid0.N, _)

theorem idx_whole : ∀ t : Fin cfg0.N,
    (∀ a : Fin 2, win0_2.index t a = 0) ∧ (∀ a : Fin 1, win0_3.index t a = 0) ∧ (∀ a : Fin 3, win0_4.index t a = 0)
    ∧ (∀ a : Fin 2, win0_5.index t a = 0) ∧ (∀ a : Fin 3, win0_6.index t a = 0) ∧ (∀ a : Fin 2, win0_7.index t a = 0) :=
  (by decide +kernel : ∀ t : Fin grid0.N, _)

theorem iblk2_eq (c : Dev nD) (t : Fin cfg0.N) :
    (iblk m c 2 t : Vec Ideal S6x288 .f32) = m ((c : Thread nD τ).loc main_arg2) := by
  funext j
  unfold iblk
  rw [View.read_apply]
  show V m c main_arg2 _ = _
  rw [V_main_arg2]
  congr 1
  funext a
  apply Fin.ext
  show win0_2.index t a * S6x288.size a + 1 * (j a).val = (j a).val
  rw [(idx_whole t).1 a]
  omega

theorem iblk3_eq (c : Dev nD) (t : Fin cfg0.N) :
    (iblk m c 3 t : Vec Ideal S6 .f32) = m ((c : Thread nD τ).loc main_arg3) := by
  funext j
  unfold iblk
  rw [View.read_apply]
  show V m c main_arg3 _ = _
  rw [V_main_arg3]
  congr 1
  funext a
  apply Fin.ext
  show win0_3.index t a * S6.size a + 1 * (j a).val = (j a).val
  rw [(idx_whole t).2.1 a]
  omega

theorem iblk4_eq (c : Dev nD) (t : Fin cfg0.N) :
    (iblk m c 4 t : Vec Ideal S24x19x19 .f32) = m ((c : Thread nD τ).loc main_arg4) := by
  funext j
  unfold iblk
  rw [View.read_apply]
  show V m c main_arg4 _ = _
  rw [V_main_arg4]
  congr 1
  funext a
  apply Fin.ext
  show win0_4.index t a * S24x19x19.size a + 1 * (j a).val = (j a).val
  rw [(idx_whole t).2.2.1 a]
  omega

theorem iblk5_eq (c : Dev nD) (t : Fin cfg0.N) :
    (iblk m c 5 t : Vec Ideal S24x19 .f32) = m ((c : Thread nD τ).loc main_arg5) := by
  funext j
  unfold iblk
  rw [View.read_apply]
  show V m c main_arg5 _ = _
  rw [V_main_arg5]
  congr 1
  funext a
  apply Fin.ext
  show win0_5.index t a * S24x19.size a + 1 * (j a).val = (j a).val
  rw [(idx_whole t).2.2.2.1 a]
  omega

theorem iblk6_eq (c : Dev nD) (t : Fin cfg0.N) :
    (iblk m c 6 t : Vec Ideal S24x6x19 .f32) = m ((c : Thread nD τ).loc main_arg6) := by
  funext j
  unfold iblk
  rw [View.read_apply]
  show V m c main_arg6 _ = _
  rw [V_main_arg6]
  congr 1
  funext a
  apply Fin.ext
  show win0_6.index t a * S24x6x19.size a + 1 * (j a).val = (j a).val
  rw [(idx_whole t).2.2.2.2.1 a]
  omega

theorem iblk7_eq (c : Dev nD) (t : Fin cfg0.N) :
    (iblk m c 7 t : Vec Ideal S24x6 .f32) = m ((c : Thread nD τ).loc main_arg7) := by
  funext j
  unfold iblk
  rw [View.read_apply]
  show V m c main_arg7 _ = _
  rw [V_main_arg7]
  congr 1
  funext a
  apply Fin.ext
  show win0_7.index t a * S24x6.size a + 1 * (j a).val = (j a).val
  rw [(idx_whole t).2.2.2.2.2 a]
  omega

theorem iblk0_apply (c : Dev nD) (t : Fin cfg0.N) (r : Fin 4096) (k : Fin 216) :
    (iblk m c 0 t : Vec Ideal S4096x216 .f32) (ix2 r k)
      = Cert.Tree.flatRot (M := 262144) (m ((c : Thread nD τ).loc main_arg0))
          (ix2 ⟨4096 * t.val + r.val, by have := lt_of_lt_of_eq t.isLt N_0; omega⟩ k) := by
  unfold iblk
  rw [View.read_apply]
  show V m c main_v0 _ = _
  rw [V0_eq]
  congr 1
  funext a
  apply Fin.ext
  match a with
  | ⟨0, _⟩ => show win0_0.index t (0 : Fin 2) * 4096 + 1 * r.val = 4096 * t.val + r.val; rw [(idx_rows t).1]; omega
  | ⟨1, _⟩ => show win0_0.index t (1 : Fin 2) * 216 + 1 * k.val = k.val; rw [(idx_rows t).2.1]; omega

theorem iblk1_apply (c : Dev nD) (t : Fin cfg0.N) (r : Fin 4096) (k : Fin 72) :
    (iblk m c 1 t : Vec Ideal S4096x72 .f32) (ix2 r k)
      = Cert.Tree.flatJtr (M := 262144) (m ((c : Thread nD τ).loc main_arg1))
          (ix2 ⟨4096 * t.val + r.val, by have := lt_of_lt_of_eq t.isLt N_0; omega⟩ k) := by
  unfold iblk
  rw [View.read_apply]
  show V m c main_v1 _ = _
  rw [V1_eq]
  congr 1
  funext a
  apply Fin.ext
  match a with
  | ⟨0, _⟩ => show win0_1.index t (0 : Fin 2) * 4096 + 1 * r.val = 4096 * t.val + r.val; rw [(idx_rows t).2.2.1]; omega
  | ⟨1, _⟩ => show win0_1.index t (1 : Fin 2) * 72 + 1 * k.val = k.val; rw [(idx_rows t).2.2.2.1]; omega

theorem block_read (x0 : Vec Ideal S4096x216 .f32) (x1 : Vec Ideal S4096x72 .f32) (x2 : Vec Ideal S6x288 .f32)
    (x3 : Vec Ideal S6 .f32) (x4 : Vec Ideal S24x19x19 .f32) (x5 : Vec Ideal S24x19 .f32)
    (x6 : Vec Ideal S24x6x19 .f32) (x7 : Vec Ideal S24x6 .f32)
    (W0 : Vec Ideal S6x288 .f32) (B0 : Vec Ideal S6 .f32) (W1 : Vec Ideal S24x19x19 .f32) (B1 : Vec Ideal S24x19 .f32)
    (W2 : Vec Ideal S24x6x19 .f32) (B2 : Vec Ideal S24x6 .f32)
    (A0 : S262144x24x9.Idx → EReal) (A1 : S262144x24x3.Idx → EReal) (T : Nat) (hT : T < 64)
    (h0 : ∀ (r : Fin 4096) (k : Fin 216), x0 (ix2 r k)
      = Cert.Tree.flatRot (M := 262144) A0 (ix2 ⟨4096 * T + r.val, by omega⟩ k))
    (h1 : ∀ (r : Fin 4096) (k : Fin 72), x1 (ix2 r k)
      = Cert.Tree.flatJtr (M := 262144) A1 (ix2 ⟨4096 * T + r.val, by omega⟩ k))
    (h2 : x2 = W0) (h3 : x3 = B0) (h4 : x4 = W1) (h5 : x5 = B1) (h6 : x6 = W2) (h7 : x7 = B2)
    (j : S4096x144.Idx) (i : S262144x144.Idx) (hi0 : (i 0).val = 4096 * T + (j 0).val) (hi1 : (i 1).val = (j 1).val) :
    KSpec.bv x0 x1 x2 x3 x4 x5 x6 x7 j = Cert.Tree.G (M := 262144) W0 B0 W1 B1 W2 B2 A0 A1 i := by
  subst h2 h3 h4 h5 h6 h7
  obtain ⟨r, k, rfl⟩ : ∃ (r : Fin 4096) (k : Fin 144), j = ix2 r k := ⟨j 0, j 1, eq_ix2 j⟩
  have hb : 4096 * T + r.val < 262144 := by have := r.isLt; omega
  obtain ⟨R, k', rfl⟩ : ∃ (R : Fin 262144) (k' : Fin 144), i = ix2 R k' := ⟨i 0, i 1, eq_ix2 i⟩
  have hk : k' = k := Fin.ext hi1
  subst hk
  have hR : R = ⟨4096 * T + r.val, hb⟩ := Fin.ext hi0
  subst hR
  have e0 : Cert.Tree.rowOf (M := 4096) x0 r
      = Cert.Tree.rowOf (M := 262144) (Cert.Tree.flatRot A0) ⟨4096 * T + r.val, by omega⟩ := funext fun k => h0 r k
  have e1 : Cert.Tree.rowOf (M := 4096) x1 r
      = Cert.Tree.rowOf (M := 262144) (Cert.Tree.flatJtr A1) ⟨4096 * T + r.val, by omega⟩ := funext fun k => h1 r k
  show Cert.Tree.rowOut x2 x3 x4 x5 x6 x7 (Cert.Tree.rowOf (M := 4096) x0 r) (Cert.Tree.rowOf (M := 4096) x1 r) k'
    = Cert.Tree.rowOut x2 x3 x4 x5 x6 x7 (Cert.Tree.rowOf (M := 262144) (Cert.Tree.flatRot A0) _)
        (Cert.Tree.rowOf (M := 262144) (Cert.Tree.flatJtr A1) _) k'
  rw [e0, e1]

theorem flushed_eq (hp : PiecesSpec) (c : Dev nD) (t : Fin cfg0.N) :
    (dats (F := Ideal) m 0 c).flushed 8 t
      = ((cfg0.win 8).blk t).view.read (Elt Ideal) (Cert.Tree.G (M := 262144) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg0)) (m ((c : Thread nD τ).loc main_arg1))) := by
  rw [Value.flushed8_A, out0_eq hp]
  funext j
  rw [View.read_apply]
  have ht : t.val < 64 := lt_of_lt_of_eq t.isLt N_0
  refine block_read _ _ _ _ _ _ _ _ _ _ _ _ _ _ _ _ t.val ht (iblk0_apply m c t) (iblk1_apply m c t)
    (iblk2_eq m c t) (iblk3_eq m c t) (iblk4_eq m c t) (iblk5_eq m c t) (iblk6_eq m c t) (iblk7_eq m c t) _ _ ?_ ?_
  · show win0_8.index t (0 : Fin 2) * 4096 + 1 * (j 0).val = 4096 * t.val + (j 0).val
    rw [(idx_rows t).2.2.2.2.1]; omega
  · show win0_8.index t (1 : Fin 2) * 144 + 1 * (j 1).val = (j 1).val
    rw [(idx_rows t).2.2.2.2.2]; omega

theorem cover8 (c : Dev nD) (i : S262144x144.Idx) :
    ∃ t : Fin cfg0.N, (cfg0.win 8).flush t = true ∧ i ∈ ((cfg0.win 8).blk t).view.set := by
  have hi0 : (i 0).val < 262144 := (i 0).isLt
  have hi1 : (i 1).val < 144 := (i 1).isLt
  have hN : cfg0.N = 64 := N_0
  obtain ⟨t, ht⟩ : ∃ t : Fin cfg0.N, t.val = (i 0).val / 4096 := ⟨⟨(i 0).val / 4096, by rw [hN]; omega⟩, rfl⟩
  refine ⟨t, flush0_8 t, ?_⟩
  show i ∈ ((View.whole main_v2).slice (win0_8.rect t)).set
  rw [View.set_slice_whole, Rect.mem_set_unit]
  intro a
  match a with
  | ⟨0, _⟩ =>
    show win0_8.index t (0 : Fin 2) * 4096 ≤ (i 0).val ∧ (i 0).val < win0_8.index t (0 : Fin 2) * 4096 + 4096
    rw [(idx_rows t).2.2.2.2.1]
    omega
  | ⟨1, _⟩ =>
    show win0_8.index t (1 : Fin 2) * 144 ≤ (i 1).val ∧ (i 1).val < win0_8.index t (1 : Fin 2) * 144 + 144
    rw [(idx_rows t).2.2.2.2.2]
    omega

theorem final8 (hp : PiecesSpec) (m : (ℓ : Loc nD τ sig) → Buf (Elt Ideal) ℓ) (c : Dev nD) :
    (dats (F := Ideal) m 0 c).arrAt 8 cfg0.N = Cert.Tree.G (M := 262144) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg0)) (m ((c : Thread nD τ).loc main_arg1)) :=
  (dats (F := Ideal) m 0 c).arrAt_eq_of_cover 8 (Cert.Tree.G (M := 262144) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg0)) (m ((c : Thread nD τ).loc main_arg1)))
    (fun t _ => flushed_eq m hp c t) (cover8 c)

theorem run (hp : PiecesSpec) (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v2) = Cert.Tree.G (M := 262144) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨(h c).1.trans (final8 hp m c), (h c).2⟩) (Value.run_blocks m ρ)

end Final

end Cert.KernelIdeal.KValue

end
-- ==== Proof.LibPlainDot.lean ====
import Idealize.ShloMosaic.Lib.ValueIdx
import Idealize.ShloMosaic.PureOps.Ideal.Laws
import Idealize.ShloMosaic.Lib.ValueLayout

noncomputable section

namespace Cert.PlainDot

open Idealize.ShloMosaic Idealize.ShloMosaic.ValueIdx

variable {M K N : Nat}

theorem lhs_row (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

theorem lhs_inner (j : (⟨2, ![M, N]⟩ : Shape).Idx) (q : (DotDims.plain M K N).contr.Idx) :
    ((DotDims.plain M K N).lhsIdx j q 1).val = (q ⟨0, Nat.one_pos⟩).val :=
  (DotDims.plain M K N).lhsIdx_val_of_single rfl j q

theorem rhs_inner (j : (⟨2, ![M, N]⟩ : Shape).Idx) (q : (DotDims.plain M K N).contr.Idx) :
    ((DotDims.plain M K N).rhsIdx j q 0).val = (q ⟨0, Nat.one_pos⟩).val :=
  (DotDims.plain M K N).rhsIdx_val_of_single rfl j q

theorem rhs_col (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

theorem sum_contr (A : (⟨2, ![M, K]⟩ : Shape).Idx → EReal) (B : (⟨2, ![K, N]⟩ : Shape).Idx → EReal)
    (j : (⟨2, ![M, N]⟩ : Shape).Idx) :
    (∑ q : (DotDims.plain M K N).contr.Idx, A ((DotDims.plain M K N).lhsIdx j q) * B ((DotDims.plain M K N).rhsIdx j q))
      = ∑ k : Fin K, A (ix2 (j 0) k) * B (ix2 k (j 1)) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx j ((contrEquiv1 (DotDims.plain M K N) K rfl rfl).symm k) = ix2 (j 0) k :=
    funext fun a => Fin.ext (by
      match a with
      | ⟨0, _⟩ => exact lhs_row _ _
      | ⟨1, _⟩ => exact (lhs_inner _ _).trans hk)
  have er : (DotDims.plain M K N).rhsIdx j ((contrEquiv1 (DotDims.plain M K N) K rfl rfl).symm k) = ix2 k (j 1) :=
    funext fun a => Fin.ext (by
      match a with
      | ⟨0, _⟩ => exact (rhs_inner _ _).trans hk
      | ⟨1, _⟩ => exact rhs_col _ _)
  exact congrArg₂ (· * ·) (congrArg A el) (congrArg B er)

theorem matmul_zero_apply {φ₁ φ₂ : FTy} (prec : Option ContractPrecision)
    (A : FVec Ideal (⟨2, ![M, K]⟩ : Shape) φ₁) (B : FVec Ideal (⟨2, ![K, N]⟩ : Shape) φ₂) (j : (⟨2, ![M, N]⟩ : Shape).Idx) :
    FloatOps.matmul (DotDims.plain M K N) prec A B (constant (⟨2, ![M, N]⟩ : Shape) .f32 0x00000000#32) j
      = ∑ k : Fin K, A (ix2 (j 0) k) * B (ix2 k (j 1)) :=
  (Ideal.matmul_constant_zero_apply (DotDims.plain M K N) prec A B j).trans (sum_contr A B j)

theorem dotGeneral_apply {φ₁ φ₂ : FTy} (prec : Option ContractPrecision) (sched : HostSchedule)
    (A : FVec Ideal (⟨2, ![M, K]⟩ : Shape) φ₁) (B : FVec Ideal (⟨2, ![K, N]⟩ : Shape) φ₂) (j : (⟨2, ![M, N]⟩ : Shape).Idx) :
    FloatOps.dotGeneral (DotDims.plain M K N) prec sched A B j
      = ∑ k : Fin K, A (ix2 (j 0) k) * B (ix2 k (j 1)) :=
  (Ideal.dotGeneral_apply (DotDims.plain M K N) prec sched A B j).trans (sum_contr A B j)

def affine (A : (⟨2, ![M, K]⟩ : Shape).Idx → EReal) (B : (⟨2, ![K, N]⟩ : Shape).Idx → EReal)
    (b : (⟨2, ![1, N]⟩ : Shape).Idx → EReal) : (⟨2, ![M, N]⟩ : Shape).Idx → EReal :=
  fun j => (∑ k : Fin K, A (ix2 (j 0) k) * B (ix2 k (j 1))) + b (ix2 (0 : Fin 1) (j 1))

theorem matmul_add_row_eq {φ₁ φ₂ : FTy} (prec : Option ContractPrecision)
    (A : FVec Ideal (⟨2, ![M, K]⟩ : Shape) φ₁) (B : FVec Ideal (⟨2, ![K, N]⟩ : Shape) φ₂)
    (b : FVec Ideal (⟨2, ![1, N]⟩ : Shape) .f32) (h : (⟨2, ![1, N]⟩ : Shape).Broadcasts ⟨2, ![M, N]⟩) :
    addf (matmul (DotDims.plain M K N) prec A B (constant (⟨2, ![M, N]⟩ : Shape) .f32 0x00000000#32))
        (broadcastTo (⟨2, ![M, N]⟩ : Shape) b h) = affine A B b := by
  funext j
  obtain ⟨p, q, rfl⟩ : ∃ (p : Fin M) (q : Fin N), j = ix2 p q := ⟨j 0, j 1, eq_ix2 j⟩
  show FloatOps.matmul (DotDims.plain M K N) prec A B (constant (⟨2, ![M, N]⟩ : Shape) .f32 0x00000000#32) (ix2 p q)
      + broadcastTo (⟨2, ![M, N]⟩ : Shape) b h (ix2 p q) = _
  rw [matmul_zero_apply, broadcastTo_1b_ab_apply]
  rfl

def affineRelu (A : (⟨2, ![M, K]⟩ : Shape).Idx → EReal) (B : (⟨2, ![K, N]⟩ : Shape).Idx → EReal)
    (b : (⟨2, ![1, N]⟩ : Shape).Idx → EReal) : (⟨2, ![M, N]⟩ : Shape).Idx → EReal :=
  fun j => max (affine A B b j) (Ideal.ofBits .f32 0x00000000#32)

theorem matmul_add_row_max_eq {φ₁ φ₂ : FTy} (prec : Option ContractPrecision)
    (A : FVec Ideal (⟨2, ![M, K]⟩ : Shape) φ₁) (B : FVec Ideal (⟨2, ![K, N]⟩ : Shape) φ₂)
    (b : FVec Ideal (⟨2, ![1, N]⟩ : Shape) .f32) (h : (⟨2, ![1, N]⟩ : Shape).Broadcasts ⟨2, ![M, N]⟩) :
    maximumf (addf (matmul (DotDims.plain M K N) prec A B (constant (⟨2, ![M, N]⟩ : Shape) .f32 0x00000000#32))
        (broadcastTo (⟨2, ![M, N]⟩ : Shape) b h))
      (broadcast (⟨2, ![M, N]⟩ : Shape) (Scalar.ofBits (F := Ideal) .f32 0x00000000#32)) = affineRelu A B b := by
  rw [matmul_add_row_eq]
  rfl

end Cert.PlainDot

end
-- ==== Proof.KJoint.lean ====
import proofs.«142136_j58514634440790_1_alg».proof.Proof.Spec
import proofs.«142136_j58514634440790_1_alg».proof.Proof.LibPlainDot
import Idealize.ShloMosaic.Lib.ValueIdx
import Idealize.ShloMosaic.Lib.ValueLayout
import Idealize.ShloMosaic.PureOps.Ideal.Laws

noncomputable section

namespace Cert.Tree.KJoint

open Idealize.ShloMosaic Idealize.ShloMosaic.ValueIdx

variable {M : Nat}

theorem band_apply {n m : Nat} (c : Nat) (o : Fin 2 → ℕ) (ho : o = ![0, c]) (X : (⟨2, ![M, n]⟩ : Shape).Idx → EReal)
    (h : (⟨2, ![M, n]⟩ : Shape).Slices o ⟨2, ![M, m]⟩) (r : Fin M) (a : Fin m) (k : Fin n) (hk : k.val = c + a.val) :
    extractStridedSlice ⟨2, ![M, m]⟩ o X h (ix2 r a) = X (ix2 r k) := by
  subst ho
  exact slice2_axis1_apply c X h r a k hk

theorem cast_col_apply (x : (⟨1, ![M]⟩ : Shape).Idx → EReal) (h : (⟨1, ![M]⟩ : Shape).ShapeCasts ⟨2, ![M, 1]⟩)
    (r : Fin M) (u : Fin 1) : shapeCast ⟨2, ![M, 1]⟩ x h (ix2 r u) = x (ix1 r) :=
  shapeCast_apply x h _ _ (by
    have hu : u.val = 0 := by omega
    rw [Shape.rowMajor_val_two, Shape.rowMajor_val_one]
    show r.val = r.val * 1 + u.val
    rw [hu, Nat.mul_one, Nat.add_zero])

theorem cast_self_apply {n : Nat} (x : (⟨2, ![M, n]⟩ : Shape).Idx → EReal) (h : (⟨2, ![M, n]⟩ : Shape).ShapeCasts ⟨2, ![M, n]⟩)
    (j : (⟨2, ![M, n]⟩ : Shape).Idx) : shapeCast ⟨2, ![M, n]⟩ x h j = x j :=
  shapeCast_apply x h _ _ rfl

theorem bone_apply (d : FVec Ideal ⟨2, ![M, 3]⟩ .f32) (hred : (⟨2, ![M, 3]⟩ : Shape).Reduces [1] ⟨1, ![M]⟩)
    (hφ : FKind.Formats .f32) (hacc : (0x00000000#32 : BitVec 32) = FKind.add.neutral .f32 hφ)
    (hc : (⟨1, ![M]⟩ : Shape).ShapeCasts ⟨2, ![M, 1]⟩) (r : Fin M) (u : Fin 1) :
    sqrt (shapeCast ⟨2, ![M, 1]⟩ (multiReduction .add [1] ⟨1, ![M]⟩ (mulf d d) 0x00000000#32 hred hφ hacc) hc) (ix2 r u)
      = boneLen (fun a => d (ix2 r a)) := by
  show Ideal.sqrt (shapeCast ⟨2, ![M, 1]⟩ (multiReduction .add [1] ⟨1, ![M]⟩ (mulf d d) 0x00000000#32 hred hφ hacc) hc (ix2 r u)) = _
  rw [cast_col_apply, Ideal.multiReduction_add_single]
  unfold boneLen
  refine congrArg Ideal.sqrt (Finset.sum_congr rfl fun k _ => ?_)
  have e : hred.lift (ix1 r) k = ix2 r k := funext fun a => Fin.ext (by
    match a with
    | ⟨0, _⟩ => rfl
    | ⟨1, _⟩ => rfl)
  rw [e]
  rfl

theorem cat_apply (A : (⟨2, ![M, 9]⟩ : Shape).Idx → EReal) (B : (⟨2, ![M, 3]⟩ : Shape).Idx → EReal)
    (C : (⟨2, ![M, 1]⟩ : Shape).Idx → EReal) (D : (⟨2, ![M, 6]⟩ : Shape).Idx → EReal)
    (h : Shape.Concatenates [⟨2, ![M, 9]⟩, ⟨2, ![M, 3]⟩, ⟨2, ![M, 1]⟩, ⟨2, ![M, 6]⟩] ⟨2, ![M, 19]⟩ 1)
    (r : Fin M) (k : Fin 19) :
    concatenate ⟨2, ![M, 19]⟩ 1 [⟨⟨2, ![M, 9]⟩, A⟩, ⟨⟨2, ![M, 3]⟩, B⟩, ⟨⟨2, ![M, 1]⟩, C⟩, ⟨⟨2, ![M, 6]⟩, D⟩] h (ix2 r k)
      = inFeat (fun a => A (ix2 r a)) (fun a => B (ix2 r a)) (C (ix2 r (0 : Fin 1))) (fun a => D (ix2 r a)) k := by
  unfold inFeat
  have hk := k.isLt
  split
  · next h9 =>
    exact concatenate_apply_piece (t := ⟨2, ![M, 19]⟩) 1 [⟨⟨2, ![M, 9]⟩, A⟩, ⟨⟨2, ![M, 3]⟩, B⟩, ⟨⟨2, ![M, 1]⟩, C⟩, ⟨⟨2, ![M, 6]⟩, D⟩] h (ix2 r k) 0 (by show 0 < 4; omega) ⟨2, ![M, 9]⟩ A rfl rfl 0 rfl (ix2 r ⟨k.val, h9⟩)
      (fun b hb => by
        match b with
        | ⟨0, _⟩ => rfl
        | ⟨1, _⟩ => exact absurd rfl hb)
      (Nat.zero_add _)
  · next h9 =>
    split
    · next h12 =>
      exact concatenate_apply_piece (t := ⟨2, ![M, 19]⟩) 1 [⟨⟨2, ![M, 9]⟩, A⟩, ⟨⟨2, ![M, 3]⟩, B⟩, ⟨⟨2, ![M, 1]⟩, C⟩, ⟨⟨2, ![M, 6]⟩, D⟩] h (ix2 r k) 1 (by show 1 < 4; omega) ⟨2, ![M, 3]⟩ B rfl rfl 9 rfl (ix2 r ⟨k.val - 9, by omega⟩)
        (fun b hb => by
          match b with
          | ⟨0, _⟩ => rfl
          | ⟨1, _⟩ => exact absurd rfl hb)
        (by show 9 + (k.val - 9) = k.val; omega)
    · next h12 =>
      split
      · next h13 =>
        exact concatenate_apply_piece (t := ⟨2, ![M, 19]⟩) 1 [⟨⟨2, ![M, 9]⟩, A⟩, ⟨⟨2, ![M, 3]⟩, B⟩, ⟨⟨2, ![M, 1]⟩, C⟩, ⟨⟨2, ![M, 6]⟩, D⟩] h (ix2 r k) 2 (by show 2 < 4; omega) ⟨2, ![M, 1]⟩ C rfl rfl 12 rfl (ix2 r (0 : Fin 1))
          (fun b hb => by
            match b with
            | ⟨0, _⟩ => rfl
            | ⟨1, _⟩ => exact absurd rfl hb)
          (by show 12 + 0 = k.val; omega)
      · next h13 =>
        exact concatenate_apply_piece (t := ⟨2, ![M, 19]⟩) 1 [⟨⟨2, ![M, 9]⟩, A⟩, ⟨⟨2, ![M, 3]⟩, B⟩, ⟨⟨2, ![M, 1]⟩, C⟩, ⟨⟨2, ![M, 6]⟩, D⟩] h (ix2 r k) 3 (by show 3 < 4; omega) ⟨2, ![M, 6]⟩ D rfl rfl 13 rfl (ix2 r ⟨k.val - 13, by omega⟩)
          (fun b hb => by
            match b with
            | ⟨0, _⟩ => rfl
            | ⟨1, _⟩ => exact absurd rfl hb)
          (by show 13 + (k.val - 13) = k.val; omega)

theorem weight_apply {n : Nat} (j : Fin 24) (o : Fin 3 → ℕ) (ho : o = ![j.val, 0, 0])
    (W : (⟨3, ![24, n, 19]⟩ : Shape).Idx → EReal)
    (hs : (⟨3, ![24, n, 19]⟩ : Shape).Slices o ⟨3, ![1, n, 19]⟩)
    (hc : (⟨3, ![1, n, 19]⟩ : Shape).ShapeCasts ⟨2, ![n, 19]⟩)
    (ht : (⟨2, ![n, 19]⟩ : Shape).Transposes [1, 0] ⟨2, ![19, n]⟩) (k : Fin 19) (a : Fin n) :
    transpose ⟨2, ![19, n]⟩ [1, 0] (shapeCast ⟨2, ![n, 19]⟩ (extractStridedSlice ⟨3, ![1, n, 19]⟩ o W hs) hc) ht (ix2 k a)
      = W (ix3 j a k) := by
  subst ho
  rw [transpose_ix2_apply, shapeCast_1ab_ab_apply]
  exact extractStridedSlice_apply _ W hs _ _ (fun ax => by
    match ax with
    | ⟨0, _⟩ => exact (Nat.add_zero _).symm
    | ⟨1, _⟩ => exact (Nat.zero_add _).symm
    | ⟨2, _⟩ => exact (Nat.zero_add _).symm)

theorem bias_apply {n : Nat} (j : Fin 24) (o : Fin 2 → ℕ) (ho : o = ![j.val, 0])
    (B : (⟨2, ![24, n]⟩ : Shape).Idx → EReal)
    (hs : (⟨2, ![24, n]⟩ : Shape).Slices o ⟨2, ![1, n]⟩)
    (hc1 : (⟨2, ![1, n]⟩ : Shape).ShapeCasts ⟨1, ![n]⟩) (hc2 : (⟨1, ![n]⟩ : Shape).ShapeCasts ⟨2, ![1, n]⟩)
    (u : Fin 1) (a : Fin n) :
    shapeCast ⟨2, ![1, n]⟩ (shapeCast ⟨1, ![n]⟩ (extractStridedSlice ⟨2, ![1, n]⟩ o B hs) hc1) hc2 (ix2 u a)
      = B (ix2 j a) := by
  subst ho
  rw [shapeCast_a_1a_apply, shapeCast_1a_a_apply]
  exact slice2_axis0_apply j.val B hs (0 : Fin 1) a j (Nat.add_zero _).symm

theorem inFeat_congr {a a' : Fin 9 → EReal} {b b' : Fin 3 → EReal} {c c' : EReal} {d d' : Fin 6 → EReal}
    (h1 : a = a') (h2 : b = b') (h3 : c = c') (h4 : d = d') : inFeat a b c d = inFeat a' b' c' d' := by
  subst h1 h2 h3 h4; rfl

theorem layers_eq (X : FVec Ideal ⟨2, ![M, 19]⟩ .f32) (W1t : FVec Ideal ⟨2, ![19, 19]⟩ .bf16) (c1 : FVec Ideal ⟨2, ![1, 19]⟩ .f32)
    (W2t : FVec Ideal ⟨2, ![19, 6]⟩ .bf16) (c2 : FVec Ideal ⟨2, ![1, 6]⟩ .f32)
    (hb : FTy.bf16.bits < FTy.f32.bits)
    (br1 : (⟨2, ![1, 19]⟩ : Shape).Broadcasts ⟨2, ![M, 19]⟩) (br2 : (⟨2, ![1, 6]⟩ : Shape).Broadcasts ⟨2, ![M, 6]⟩)
    (x : Fin M → Fin 19 → EReal) (hx : ∀ r k, X (ix2 r k) = x r k)
    (w1 : Fin 19 → Fin 19 → EReal) (hw1 : ∀ a k, W1t (ix2 k a) = w1 a k)
    (b1 : Fin 19 → EReal) (hb1 : ∀ a, c1 (ix2 (0 : Fin 1) a) = b1 a)
    (w2 : Fin 6 → Fin 19 → EReal) (hw2 : ∀ q k, W2t (ix2 k q) = w2 q k)
    (b2 : Fin 6 → EReal) (hb2 : ∀ q, c2 (ix2 (0 : Fin 1) q) = b2 q) :
    addf (matmul (DotDims.plain M 19 6) none
        (truncf .bf16 (maximumf (addf (matmul (DotDims.plain M 19 19) none (truncf .bf16 X hb) W1t
              (constant (⟨2, ![M, 19]⟩ : Shape) .f32 0x00000000#32))
            (broadcastTo (⟨2, ![M, 19]⟩ : Shape) c1 br1))
          (broadcast (⟨2, ![M, 19]⟩ : Shape) (Scalar.ofBits (F := Ideal) .f32 0x00000000#32))) hb)
        W2t (constant (⟨2, ![M, 6]⟩ : Shape) .f32 0x00000000#32))
      (broadcastTo (⟨2, ![M, 6]⟩ : Shape) c2 br2)
      = fun y => layer2 (layer1 (x (y 0)) w1 b1) w2 b2 (y 1) := by
  rw [Cert.PlainDot.matmul_add_row_max_eq, Cert.PlainDot.matmul_add_row_eq]
  funext y
  obtain ⟨r, q, rfl⟩ : ∃ (r : Fin M) (q : Fin 6), y = ix2 r q := ⟨y 0, y 1, eq_ix2 y⟩
  show (∑ k : Fin 19, (max ((∑ k' : Fin 19, X (ix2 r k') * W1t (ix2 k' k)) + c1 (ix2 (0 : Fin 1) k)) zeroW) * W2t (ix2 k q))
      + c2 (ix2 (0 : Fin 1) q)
    = (∑ k : Fin 19, (max ((∑ k' : Fin 19, x r k' * w1 k k') + b1 k) zeroW) * w2 q k) + b2 q
  simp only [hx, hw1, hb1, hw2, hb2]

theorem child_eq (j p : Fin 24)
    (v1 : FVec Ideal ⟨2, ![M, 216]⟩ .f32) (v3 : FVec Ideal ⟨2, ![M, 72]⟩ .f32)
    (v8 : FVec Ideal ⟨3, ![24, 19, 19]⟩ .bf16) (v9 : FVec Ideal ⟨2, ![24, 19]⟩ .f32)
    (v11 : FVec Ideal ⟨3, ![24, 6, 19]⟩ .bf16) (v12 : FVec Ideal ⟨2, ![24, 6]⟩ .f32)
    (feat : FVec Ideal ⟨2, ![M, 6]⟩ .f32)
    (oR oJ oP : Fin 2 → ℕ) (hoR : oR = ![0, 9 * j.val]) (hoJ : oJ = ![0, 3 * j.val]) (hoP : oP = ![0, 3 * p.val])
    (oW1 oW2 : Fin 3 → ℕ) (hoW1 : oW1 = ![j.val, 0, 0]) (hoW2 : oW2 = ![j.val, 0, 0])
    (oB1 oB2 : Fin 2 → ℕ) (hoB1 : oB1 = ![j.val, 0]) (hoB2 : oB2 = ![j.val, 0])
    (sR : (⟨2, ![M, 216]⟩ : Shape).Slices oR ⟨2, ![M, 9]⟩)
    (sJ : (⟨2, ![M, 72]⟩ : Shape).Slices oJ ⟨2, ![M, 3]⟩)
    (sP : (⟨2, ![M, 72]⟩ : Shape).Slices oP ⟨2, ![M, 3]⟩)
    (hred : (⟨2, ![M, 3]⟩ : Shape).Reduces [1] ⟨1, ![M]⟩)
    (hφ : FKind.Formats .f32) (hacc : (0x00000000#32 : BitVec 32) = FKind.add.neutral .f32 hφ)
    (hcc : (⟨1, ![M]⟩ : Shape).ShapeCasts ⟨2, ![M, 1]⟩)
    (hc6 : (⟨2, ![M, 6]⟩ : Shape).ShapeCasts ⟨2, ![M, 6]⟩)
    (hcat : Shape.Concatenates [⟨2, ![M, 9]⟩, ⟨2, ![M, 3]⟩, ⟨2, ![M, 1]⟩, ⟨2, ![M, 6]⟩] ⟨2, ![M, 19]⟩ 1)
    (sW1 : (⟨3, ![24, 19, 19]⟩ : Shape).Slices oW1 ⟨3, ![1, 19, 19]⟩)
    (cW1 : (⟨3, ![1, 19, 19]⟩ : Shape).ShapeCasts ⟨2, ![19, 19]⟩)
    (sB1 : (⟨2, ![24, 19]⟩ : Shape).Slices oB1 ⟨2, ![1, 19]⟩)
    (cB1a : (⟨2, ![1, 19]⟩ : Shape).ShapeCasts ⟨1, ![19]⟩) (cB1b : (⟨1, ![19]⟩ : Shape).ShapeCasts ⟨2, ![1, 19]⟩)
    (hb : FTy.bf16.bits < FTy.f32.bits)
    (tW1 : (⟨2, ![19, 19]⟩ : Shape).Transposes [1, 0] ⟨2, ![19, 19]⟩)
    (br1 : (⟨2, ![1, 19]⟩ : Shape).Broadcasts ⟨2, ![M, 19]⟩)
    (sW2 : (⟨3, ![24, 6, 19]⟩ : Shape).Slices oW2 ⟨3, ![1, 6, 19]⟩)
    (cW2 : (⟨3, ![1, 6, 19]⟩ : Shape).ShapeCasts ⟨2, ![6, 19]⟩)
    (sB2 : (⟨2, ![24, 6]⟩ : Shape).Slices oB2 ⟨2, ![1, 6]⟩)
    (cB2a : (⟨2, ![1, 6]⟩ : Shape).ShapeCasts ⟨1, ![6]⟩) (cB2b : (⟨1, ![6]⟩ : Shape).ShapeCasts ⟨2, ![1, 6]⟩)
    (tW2 : (⟨2, ![6, 19]⟩ : Shape).Transposes [1, 0] ⟨2, ![19, 6]⟩)
    (br2 : (⟨2, ![1, 6]⟩ : Shape).Broadcasts ⟨2, ![M, 6]⟩) :
    addf (matmul (DotDims.plain M 19 6) none
        (truncf .bf16 (maximumf (addf (matmul (DotDims.plain M 19 19) none
              (truncf .bf16 (concatenate ⟨2, ![M, 19]⟩ 1
                  [⟨⟨2, ![M, 9]⟩, extractStridedSlice ⟨2, ![M, 9]⟩ oR v1 sR⟩,
                   ⟨⟨2, ![M, 3]⟩, extractStridedSlice ⟨2, ![M, 3]⟩ oJ v3 sJ⟩,
                   ⟨⟨2, ![M, 1]⟩, sqrt (shapeCast ⟨2, ![M, 1]⟩ (multiReduction .add [1] ⟨1, ![M]⟩
                      (mulf (subf (extractStridedSlice ⟨2, ![M, 3]⟩ oJ v3 sJ) (extractStridedSlice ⟨2, ![M, 3]⟩ oP v3 sP))
                            (subf (extractStridedSlice ⟨2, ![M, 3]⟩ oJ v3 sJ) (extractStridedSlice ⟨2, ![M, 3]⟩ oP v3 sP)))
                      0x00000000#32 hred hφ hacc) hcc)⟩,
                   ⟨⟨2, ![M, 6]⟩, shapeCast ⟨2, ![M, 6]⟩ feat hc6⟩] hcat) hb)
              (transpose ⟨2, ![19, 19]⟩ [1, 0] (shapeCast ⟨2, ![19, 19]⟩ (extractStridedSlice ⟨3, ![1, 19, 19]⟩ oW1 v8 sW1) cW1) tW1)
              (constant (⟨2, ![M, 19]⟩ : Shape) .f32 0x00000000#32))
            (broadcastTo (⟨2, ![M, 19]⟩ : Shape)
              (shapeCast ⟨2, ![1, 19]⟩ (shapeCast ⟨1, ![19]⟩ (extractStridedSlice ⟨2, ![1, 19]⟩ oB1 v9 sB1) cB1a) cB1b) br1))
          (broadcast (⟨2, ![M, 19]⟩ : Shape) (Scalar.ofBits (F := Ideal) .f32 0x00000000#32))) hb)
        (transpose ⟨2, ![19, 6]⟩ [1, 0] (shapeCast ⟨2, ![6, 19]⟩ (extractStridedSlice ⟨3, ![1, 6, 19]⟩ oW2 v11 sW2) cW2) tW2)
        (constant (⟨2, ![M, 6]⟩ : Shape) .f32 0x00000000#32))
      (broadcastTo (⟨2, ![M, 6]⟩ : Shape)
        (shapeCast ⟨2, ![1, 6]⟩ (shapeCast ⟨1, ![6]⟩ (extractStridedSlice ⟨2, ![1, 6]⟩ oB2 v12 sB2) cB2a) cB2b) br2)
      = fun y => child v8 v9 v11 v12 (rowOf v1 (y 0)) (rowOf v3 (y 0)) j p (rowOf feat (y 0)) (y 1) := by
  have hj := j.isLt
  have hp := p.isLt
  refine layers_eq _ _ _ _ _ hb br1 br2
    (fun r => inFeat (rotOf (rowOf v1 r) j) (jtrOf (rowOf v3 r) j) (boneLen (diffOf (rowOf v3 r) j p)) (rowOf feat r)) ?hx
    (fun a k => v8 (ix3 j a k)) (fun a k => weight_apply j oW1 hoW1 v8 sW1 cW1 tW1 k a)
    (fun a => v9 (ix2 j a)) (fun a => bias_apply j oB1 hoB1 v9 sB1 cB1a cB1b 0 a)
    (fun q k => v11 (ix3 j q k)) (fun q k => weight_apply j oW2 hoW2 v11 sW2 cW2 tW2 k q)
    (fun q => v12 (ix2 j q)) (fun q => bias_apply j oB2 hoB2 v12 sB2 cB2a cB2b 0 q)
  intro r k
  have eJ : ∀ a : Fin 3, extractStridedSlice ⟨2, ![M, 3]⟩ oJ v3 sJ (ix2 r a) = jtrOf (rowOf v3 r) j a := fun a =>
    band_apply (3 * j.val) oJ hoJ v3 sJ r a ⟨3 * j.val + a.val, by omega⟩ rfl
  have eP : ∀ a : Fin 3, extractStridedSlice ⟨2, ![M, 3]⟩ oP v3 sP (ix2 r a) = jtrOf (rowOf v3 r) p a := fun a =>
    band_apply (3 * p.val) oP hoP v3 sP r a ⟨3 * p.val + a.val, by omega⟩ rfl
  refine (cat_apply _ _ _ _ hcat r k).trans (congrFun (inFeat_congr ?_ ?_ ?_ ?_) k)
  · exact funext fun a => band_apply (9 * j.val) oR hoR v1 sR r a ⟨9 * j.val + a.val, by omega⟩ rfl
  · exact funext eJ
  · refine (bone_apply _ hred hφ hacc hcc r 0).trans (congrArg boneLen (funext fun a => ?_))
    show extractStridedSlice ⟨2, ![M, 3]⟩ oJ v3 sJ (ix2 r a) - extractStridedSlice ⟨2, ![M, 3]⟩ oP v3 sP (ix2 r a) = _
    rw [eJ, eP]
    rfl
  · exact funext fun a => cast_self_apply feat hc6 (ix2 r a)

end Cert.Tree.KJoint

end
-- ==== Proof.KP01.lean ====
import proofs.«142136_j58514634440790_1_alg».proof.Proof.Gen.KernelIdeal.Frame
import proofs.«142136_j58514634440790_1_alg».proof.Proof.KSpec
import proofs.«142136_j58514634440790_1_alg».proof.Proof.KJoint

noncomputable section

namespace Cert.KernelIdeal.KPieces

open Cert.KernelIdeal Cert.KernelIdeal.Gen Idealize.ShloMosaic Idealize.ShloMosaic.ValueIdx
open Cert.Tree Cert.Tree.KJoint

theorem dot19x19 : dot_S4096x19_S19x19_S4096x19_1_0_0_1_n_n = DotDims.plain 4096 19 19 := rfl
theorem dot19x6 : dot_S4096x19_S19x6_S4096x6_1_0_0_1_n_n = DotDims.plain 4096 19 6 := rfl
theorem dot288x6 : dot_S4096x288_S288x6_S4096x6_1_0_0_1_n_n = DotDims.plain 4096 288 6 := rfl

theorem load_whole {S : Shape} {e : EltTy} (arg : Memref sig .tc .vmem S e) (harg : arg.IsWhole) (off : Fin S.rank → Nat)
    (h0 : off = fun _ => 0) (inb : ∀ a, off a + S.size a ≤ S.size a) (x : Vec Ideal S e) :
    View.readAt (Elt Ideal) arg.view (Rect.unit (s := S) off S.size inb).toLoadRect (harg.unread x) = x := by
  rw [View.readAt_eq_ld, harg.read_unread]
  exact View.ld_unit_zero h0 inb x

theorem off2 : (![0, 0] : Fin 2 → Nat) = fun _ => 0 := by funext a; fin_cases a <;> rfl
theorem off3 : (![0, 0, 0] : Fin 3 → Nat) = fun _ => 0 := by funext a; fin_cases a <;> rfl
theorem off1 : (![0] : Fin 1 → Nat) = fun _ => 0 := by funext a; fin_cases a; rfl

section
variable (c : Dev nD) (arg1 : Memref sig .tc .vmem S4096x216 .f32) (harg1 : arg1.IsWhole) (arg2 : Memref sig .tc .vmem S4096x72 .f32) (harg2 : arg2.IsWhole) (arg3 : Memref sig .tc .vmem S6x288 .f32) (harg3 : arg3.IsWhole) (arg4 : Memref sig .tc .vmem S6 .f32) (harg4 : arg4.IsWhole) (arg5 : Memref sig .tc .vmem S24x19x19 .f32) (harg5 : arg5.IsWhole) (arg6 : Memref sig .tc .vmem S24x19 .f32) (harg6 : arg6.IsWhole) (arg7 : Memref sig .tc .vmem S24x6x19 .f32) (harg7 : arg7.IsWhole) (arg8 : Memref sig .tc .vmem S24x6 .f32) (harg8 : arg8.IsWhole) (arg9 : Memref sig .tc .vmem S4096x144 .f32)
  (x0 : Vec Ideal S4096x216 .f32) (x1 : Vec Ideal S4096x72 .f32) (x2 : Vec Ideal S6x288 .f32) (x3 : Vec Ideal S6 .f32) (x4 : Vec Ideal S24x19x19 .f32) (x5 : Vec Ideal S24x19 .f32) (x6 : Vec Ideal S24x6x19 .f32) (x7 : Vec Ideal S24x6 .f32)

theorem r_eq : kernelRun0_A.sl.r (F := Ideal) c arg1 harg1 x0 = x0 := by
  unfold kernelRun0_A.sl.r k0_pay1
  rw [load_whole arg1 harg1 _ off2]
  exact funext fun j => cast_self_apply (M := 4096) x0 _ j

theorem r1_eq : kernelRun0_A.sl.r_1 (F := Ideal) c arg2 harg2 x1 = x1 := by
  unfold kernelRun0_A.sl.r_1 k0_pay2
  rw [load_whole arg2 harg2 _ off2]
  exact funext fun j => cast_self_apply (M := 4096) x1 _ j

theorem r2_eq : kernelRun0_A.sl.r_2 (F := Ideal) c arg5 harg5 x4 = x4 := by
  unfold kernelRun0_A.sl.r_2 k0_pay3
  rw [load_whole arg5 harg5 _ off3]
  rfl

theorem r3_eq : kernelRun0_A.sl.r_3 (F := Ideal) c arg6 harg6 x5 = x5 := by
  unfold kernelRun0_A.sl.r_3
  exact load_whole arg6 harg6 _ off2 _ x5

theorem r4_eq : kernelRun0_A.sl.r_4 (F := Ideal) c arg7 harg7 x6 = x6 := by
  unfold kernelRun0_A.sl.r_4 k0_pay4
  rw [load_whole arg7 harg7 _ off3]
  rfl

theorem r5_eq : kernelRun0_A.sl.r_5 (F := Ideal) c arg8 harg8 x7 = x7 := by
  unfold kernelRun0_A.sl.r_5
  exact load_whole arg8 harg8 _ off2 _ x7

theorem cast_self_eq {α : Type} {M n : Nat} (x : (⟨2, ![M, n]⟩ : Shape).Idx → α) (h : (⟨2, ![M, n]⟩ : Shape).ShapeCasts ⟨2, ![M, n]⟩) :
    shapeCast ⟨2, ![M, n]⟩ x h = x := funext fun j => shapeCast_apply x h _ _ rfl

theorem H8_2_of (h : kernelRun0_A.sl.H8_1 (F := Ideal) c arg1 harg1 arg2 harg2 arg3 harg3 arg4 harg4 arg5 harg5 arg6 harg6 arg7 harg7 arg8 harg8 x0 x1 x2 x3 x4 x5 x6 x7 = KSpec.L1 x0 x1 x2 x3 x4 x5 x6 x7) :
    kernelRun0_A.sl.H8_2 (F := Ideal) c arg1 harg1 arg2 harg2 arg3 harg3 arg4 harg4 arg5 harg5 arg6 harg6 arg7 harg7 arg8 harg8 arg9 x0 x1 x2 x3 x4 x5 x6 x7 = KSpec.L2 x0 x1 x2 x3 x4 x5 x6 x7 := by
  unfold kernelRun0_A.sl.H8_2 KSpec.L2
  rw [h]
  refine congrArg (fun w => (⟨_, w⟩ : View.Piece (Elt Ideal) S4096x144 .f32) :: KSpec.L1 x0 x1 x2 x3 x4 x5 x6 x7) ?_
  have hv : kernelRun0_A.sl.v58 (F := Ideal) c arg1 harg1 arg2 harg2 arg3 harg3 arg4 harg4 arg5 harg5 arg6 harg6 arg7 harg7 arg8 harg8 arg9 x0 x1 x2 x3 x4 x5 x6 x7 = KSpec.jv x0 x1 x2 x3 x4 x5 x6 x7 0 := by
    unfold kernelRun0_A.sl.v58
    rw [h]
    exact View.readCov_cons_toLoadRect _ _ _ _
  rw [hv, r_eq, r1_eq, r2_eq, r3_eq, r4_eq, r5_eq]
  unfold k0_pay8
  simp only [dot19x19, dot19x6]
  exact child_eq (M := 4096) 1 0 x0 x1 x4 x5 x6 x7 (KSpec.jv x0 x1 x2 x3 x4 x5 x6 x7 0)
    ![0, 9] ![0, 3] ![0, 0] rfl rfl rfl ![1, 0, 0] ![1, 0, 0] rfl rfl ![1, 0] ![1, 0] rfl rfl
    _ _ _ _ _ _ _ _ _ _ _ _ _ _ _ _ _ _ _ _ _ _ _ _

end

end Cert.KernelIdeal.KPieces

end
-- ==== Proof.KRoot.lean ====
import proofs.«142136_j58514634440790_1_alg».proof.Proof.KJoint

noncomputable section

namespace Cert.Tree.KJoint

open Idealize.ShloMosaic Idealize.ShloMosaic.ValueIdx

variable {M : Nat}

theorem rowcat_apply (A : (⟨2, ![M, 216]⟩ : Shape).Idx → EReal) (B : (⟨2, ![M, 72]⟩ : Shape).Idx → EReal)
    (h : Shape.Concatenates [⟨2, ![M, 216]⟩, ⟨2, ![M, 72]⟩] ⟨2, ![M, 288]⟩ 1) (r : Fin M) (k : Fin 288) :
    concatenate ⟨2, ![M, 288]⟩ 1 [⟨⟨2, ![M, 216]⟩, A⟩, ⟨⟨2, ![M, 72]⟩, B⟩] h (ix2 r k) = rowCat (rowOf A r) (rowOf B r) k := by
  unfold rowCat
  have hk := k.isLt
  split
  · next h1 =>
    exact concatenate_pair_apply_left 1 A B h (ix2 r k) rfl (ix2 r ⟨k.val, h1⟩) (fun b => by
      match b with
      | ⟨0, _⟩ => rfl
      | ⟨1, _⟩ => rfl)
  · next h1 =>
    exact concatenate_pair_apply_right 1 A B h (ix2 r k) rfl rfl (ix2 r ⟨k.val - 216, by omega⟩)
      (fun b hb => by
        match b with
        | ⟨0, _⟩ => rfl
        | ⟨1, _⟩ => exact absurd rfl hb)
      (by show (k.val - 216) + 216 = k.val; omega)

theorem glob_apply (v1 : FVec Ideal ⟨2, ![M, 216]⟩ .f32) (v3 : FVec Ideal ⟨2, ![M, 72]⟩ .f32)
    (v4 : FVec Ideal ⟨2, ![6, 288]⟩ .f32) (v6 : FVec Ideal ⟨1, ![6]⟩ .f32)
    (hb : FTy.bf16.bits < FTy.f32.bits)
    (hcat2 : Shape.Concatenates [⟨2, ![M, 216]⟩, ⟨2, ![M, 72]⟩] ⟨2, ![M, 288]⟩ 1)
    (tW0 : (⟨2, ![6, 288]⟩ : Shape).Transposes [1, 0] ⟨2, ![288, 6]⟩)
    (c6 : (⟨1, ![6]⟩ : Shape).ShapeCasts ⟨2, ![1, 6]⟩)
    (br2 : (⟨2, ![1, 6]⟩ : Shape).Broadcasts ⟨2, ![M, 6]⟩) (r : Fin M) (q : Fin 6) :
    addf (matmul (DotDims.plain M 288 6) none
        (truncf .bf16 (concatenate ⟨2, ![M, 288]⟩ 1 [⟨⟨2, ![M, 216]⟩, v1⟩, ⟨⟨2, ![M, 72]⟩, v3⟩] hcat2) hb)
        (transpose ⟨2, ![288, 6]⟩ [1, 0] (truncf .bf16 v4 hb) tW0)
        (constant (⟨2, ![M, 6]⟩ : Shape) .f32 0x00000000#32))
      (broadcastTo (⟨2, ![M, 6]⟩ : Shape) (shapeCast ⟨2, ![1, 6]⟩ v6 c6) br2) (ix2 r q)
      = glob v4 v6 (rowOf v1 r) (rowOf v3 r) q := by
  rw [Cert.PlainDot.matmul_add_row_eq]
  show (∑ k : Fin 288, concatenate ⟨2, ![M, 288]⟩ 1 [⟨⟨2, ![M, 216]⟩, v1⟩, ⟨⟨2, ![M, 72]⟩, v3⟩] hcat2 (ix2 r k)
        * transpose ⟨2, ![288, 6]⟩ [1, 0] (truncf .bf16 v4 hb) tW0 (ix2 k q)) + shapeCast ⟨2, ![1, 6]⟩ v6 c6 (ix2 (0 : Fin 1) q)
    = (∑ k : Fin 288, rowCat (rowOf v1 r) (rowOf v3 r) k * v4 (ix2 q k)) + v6 (ix1 q)
  refine congrArg₂ (· + ·) (Finset.sum_congr rfl fun k _ => ?_) (shapeCast_a_1a_apply v6 c6 0 q)
  exact congrArg₂ (· * ·) (rowcat_apply v1 v3 hcat2 r k) (transpose_ix2_apply (truncf .bf16 v4 hb) tW0 k q)

theorem root_eq
    (v1 : FVec Ideal ⟨2, ![M, 216]⟩ .f32) (v3 : FVec Ideal ⟨2, ![M, 72]⟩ .f32)
    (v4 : FVec Ideal ⟨2, ![6, 288]⟩ .f32) (v6 : FVec Ideal ⟨1, ![6]⟩ .f32)
    (v8 : FVec Ideal ⟨3, ![24, 19, 19]⟩ .bf16) (v9 : FVec Ideal ⟨2, ![24, 19]⟩ .f32)
    (v11 : FVec Ideal ⟨3, ![24, 6, 19]⟩ .bf16) (v12 : FVec Ideal ⟨2, ![24, 6]⟩ .f32)
    (oR oJ : Fin 2 → ℕ) (hoR : oR = ![0, 0]) (hoJ : oJ = ![0, 0])
    (oW1 oW2 : Fin 3 → ℕ) (hoW1 : oW1 = ![0, 0, 0]) (hoW2 : oW2 = ![0, 0, 0])
    (oB1 oB2 : Fin 2 → ℕ) (hoB1 : oB1 = ![0, 0]) (hoB2 : oB2 = ![0, 0])
    (hb : FTy.bf16.bits < FTy.f32.bits)
    (hcat2 : Shape.Concatenates [⟨2, ![M, 216]⟩, ⟨2, ![M, 72]⟩] ⟨2, ![M, 288]⟩ 1)
    (tW0 : (⟨2, ![6, 288]⟩ : Shape).Transposes [1, 0] ⟨2, ![288, 6]⟩)
    (c6 : (⟨1, ![6]⟩ : Shape).ShapeCasts ⟨2, ![1, 6]⟩)
    (sR : (⟨2, ![M, 216]⟩ : Shape).Slices oR ⟨2, ![M, 9]⟩)
    (sJ : (⟨2, ![M, 72]⟩ : Shape).Slices oJ ⟨2, ![M, 3]⟩)
    (hred : (⟨2, ![M, 3]⟩ : Shape).Reduces [1] ⟨1, ![M]⟩)
    (hφ : FKind.Formats .f32) (hacc : (0x00000000#32 : BitVec 32) = FKind.add.neutral .f32 hφ)
    (hcc : (⟨1, ![M]⟩ : Shape).ShapeCasts ⟨2, ![M, 1]⟩)
    (hcat : Shape.Concatenates [⟨2, ![M, 9]⟩, ⟨2, ![M, 3]⟩, ⟨2, ![M, 1]⟩, ⟨2, ![M, 6]⟩] ⟨2, ![M, 19]⟩ 1)
    (sW1 : (⟨3, ![24, 19, 19]⟩ : Shape).Slices oW1 ⟨3, ![1, 19, 19]⟩)
    (cW1 : (⟨3, ![1, 19, 19]⟩ : Shape).ShapeCasts ⟨2, ![19, 19]⟩)
    (sB1 : (⟨2, ![24, 19]⟩ : Shape).Slices oB1 ⟨2, ![1, 19]⟩)
    (cB1a : (⟨2, ![1, 19]⟩ : Shape).ShapeCasts ⟨1, ![19]⟩) (cB1b : (⟨1, ![19]⟩ : Shape).ShapeCasts ⟨2, ![1, 19]⟩)
    (tW1 : (⟨2, ![19, 19]⟩ : Shape).Transposes [1, 0] ⟨2, ![19, 19]⟩)
    (br1 : (⟨2, ![1, 19]⟩ : Shape).Broadcasts ⟨2, ![M, 19]⟩)
    (sW2 : (⟨3, ![24, 6, 19]⟩ : Shape).Slices oW2 ⟨3, ![1, 6, 19]⟩)
    (cW2 : (⟨3, ![1, 6, 19]⟩ : Shape).ShapeCasts ⟨2, ![6, 19]⟩)
    (sB2 : (⟨2, ![24, 6]⟩ : Shape).Slices oB2 ⟨2, ![1, 6]⟩)
    (cB2a : (⟨2, ![1, 6]⟩ : Shape).ShapeCasts ⟨1, ![6]⟩) (cB2b : (⟨1, ![6]⟩ : Shape).ShapeCasts ⟨2, ![1, 6]⟩)
    (tW2 : (⟨2, ![6, 19]⟩ : Shape).Transposes [1, 0] ⟨2, ![19, 6]⟩)
    (br2 : (⟨2, ![1, 6]⟩ : Shape).Broadcasts ⟨2, ![M, 6]⟩) :
    addf (matmul (DotDims.plain M 19 6) none
        (truncf .bf16 (maximumf (addf (matmul (DotDims.plain M 19 19) none
              (truncf .bf16 (concatenate ⟨2, ![M, 19]⟩ 1
                  [⟨⟨2, ![M, 9]⟩, extractStridedSlice ⟨2, ![M, 9]⟩ oR v1 sR⟩,
                   ⟨⟨2, ![M, 3]⟩, extractStridedSlice ⟨2, ![M, 3]⟩ oJ v3 sJ⟩,
                   ⟨⟨2, ![M, 1]⟩, sqrt (shapeCast ⟨2, ![M, 1]⟩ (multiReduction .add [1] ⟨1, ![M]⟩
                      (mulf (extractStridedSlice ⟨2, ![M, 3]⟩ oJ v3 sJ) (extractStridedSlice ⟨2, ![M, 3]⟩ oJ v3 sJ))
                      0x00000000#32 hred hφ hacc) hcc)⟩,
                   ⟨⟨2, ![M, 6]⟩, addf (matmul (DotDims.plain M 288 6) none
                        (truncf .bf16 (concatenate ⟨2, ![M, 288]⟩ 1 [⟨⟨2, ![M, 216]⟩, v1⟩, ⟨⟨2, ![M, 72]⟩, v3⟩] hcat2) hb)
                        (transpose ⟨2, ![288, 6]⟩ [1, 0] (truncf .bf16 v4 hb) tW0)
                        (constant (⟨2, ![M, 6]⟩ : Shape) .f32 0x00000000#32))
                      (broadcastTo (⟨2, ![M, 6]⟩ : Shape) (shapeCast ⟨2, ![1, 6]⟩ v6 c6) br2)⟩] hcat) hb)
              (transpose ⟨2, ![19, 19]⟩ [1, 0] (shapeCast ⟨2, ![19, 19]⟩ (extractStridedSlice ⟨3, ![1, 19, 19]⟩ oW1 v8 sW1) cW1) tW1)
              (constant (⟨2, ![M, 19]⟩ : Shape) .f32 0x00000000#32))
            (broadcastTo (⟨2, ![M, 19]⟩ : Shape)
              (shapeCast ⟨2, ![1, 19]⟩ (shapeCast ⟨1, ![19]⟩ (extractStridedSlice ⟨2, ![1, 19]⟩ oB1 v9 sB1) cB1a) cB1b) br1))
          (broadcast (⟨2, ![M, 19]⟩ : Shape) (Scalar.ofBits (F := Ideal) .f32 0x00000000#32))) hb)
        (transpose ⟨2, ![19, 6]⟩ [1, 0] (shapeCast ⟨2, ![6, 19]⟩ (extractStridedSlice ⟨3, ![1, 6, 19]⟩ oW2 v11 sW2) cW2) tW2)
        (constant (⟨2, ![M, 6]⟩ : Shape) .f32 0x00000000#32))
      (broadcastTo (⟨2, ![M, 6]⟩ : Shape)
        (shapeCast ⟨2, ![1, 6]⟩ (shapeCast ⟨1, ![6]⟩ (extractStridedSlice ⟨2, ![1, 6]⟩ oB2 v12 sB2) cB2a) cB2b) br2)
      = fun y => o0 v4 v6 v8 v9 v11 v12 (rowOf v1 (y 0)) (rowOf v3 (y 0)) (y 1) := by
  refine layers_eq _ _ _ _ _ hb br1 br2
    (fun r => inFeat (rotOf (rowOf v1 r) 0) (jtrOf (rowOf v3 r) 0) (boneLen (jtrOf (rowOf v3 r) 0))
      (glob v4 v6 (rowOf v1 r) (rowOf v3 r))) ?hx
    (fun a k => v8 (ix3 (0 : Fin 24) a k)) (fun a k => weight_apply 0 oW1 hoW1 v8 sW1 cW1 tW1 k a)
    (fun a => v9 (ix2 (0 : Fin 24) a)) (fun a => bias_apply 0 oB1 hoB1 v9 sB1 cB1a cB1b 0 a)
    (fun q k => v11 (ix3 (0 : Fin 24) q k)) (fun q k => weight_apply 0 oW2 hoW2 v11 sW2 cW2 tW2 k q)
    (fun q => v12 (ix2 (0 : Fin 24) q)) (fun q => bias_apply 0 oB2 hoB2 v12 sB2 cB2a cB2b 0 q)
  intro r k
  have eJ : ∀ a : Fin 3, extractStridedSlice ⟨2, ![M, 3]⟩ oJ v3 sJ (ix2 r a) = jtrOf (rowOf v3 r) 0 a := fun a =>
    band_apply 0 oJ hoJ v3 sJ r a ⟨3 * (0 : Fin 24).val + a.val, by have := a.isLt; show 3 * 0 + a.val < 72; omega⟩
      (by show 3 * 0 + a.val = 0 + a.val; omega)
  refine (cat_apply _ _ _ _ hcat r k).trans (congrFun (inFeat_congr ?_ ?_ ?_ ?_) k)
  · exact funext fun a => band_apply 0 oR hoR v1 sR r a ⟨9 * (0 : Fin 24).val + a.val, by have := a.isLt; show 9 * 0 + a.val < 216; omega⟩
      (by show 9 * 0 + a.val = 0 + a.val; omega)
  · exact funext eJ
  · exact (bone_apply _ hred hφ hacc hcc r 0).trans (congrArg boneLen (funext eJ))
  · exact funext fun a => glob_apply v1 v3 v4 v6 hb hcat2 tW0 c6 br2 r a

end Cert.Tree.KJoint

end
-- ==== Proof.KP00.lean ====
import proofs.«142136_j58514634440790_1_alg».proof.Proof.KP01
import proofs.«142136_j58514634440790_1_alg».proof.Proof.KRoot

noncomputable section

namespace Cert.KernelIdeal.KPieces

open Cert.KernelIdeal Cert.KernelIdeal.Gen Idealize.ShloMosaic Idealize.ShloMosaic.ValueIdx
open Cert.Tree Cert.Tree.KJoint

section
variable (c : Dev nD) (arg1 : Memref sig .tc .vmem S4096x216 .f32) (harg1 : arg1.IsWhole) (arg2 : Memref sig .tc .vmem S4096x72 .f32) (harg2 : arg2.IsWhole) (arg3 : Memref sig .tc .vmem S6x288 .f32) (harg3 : arg3.IsWhole) (arg4 : Memref sig .tc .vmem S6 .f32) (harg4 : arg4.IsWhole) (arg5 : Memref sig .tc .vmem S24x19x19 .f32) (harg5 : arg5.IsWhole) (arg6 : Memref sig .tc .vmem S24x19 .f32) (harg6 : arg6.IsWhole) (arg7 : Memref sig .tc .vmem S24x6x19 .f32) (harg7 : arg7.IsWhole) (arg8 : Memref sig .tc .vmem S24x6 .f32) (harg8 : arg8.IsWhole)
  (x0 : Vec Ideal S4096x216 .f32) (x1 : Vec Ideal S4096x72 .f32) (x2 : Vec Ideal S6x288 .f32) (x3 : Vec Ideal S6 .f32) (x4 : Vec Ideal S24x19x19 .f32) (x5 : Vec Ideal S24x19 .f32) (x6 : Vec Ideal S24x6x19 .f32) (x7 : Vec Ideal S24x6 .f32)

theorem H8_1_eq : kernelRun0_A.sl.H8_1 (F := Ideal) c arg1 harg1 arg2 harg2 arg3 harg3 arg4 harg4 arg5 harg5 arg6 harg6 arg7 harg7 arg8 harg8 x0 x1 x2 x3 x4 x5 x6 x7 = KSpec.L1 x0 x1 x2 x3 x4 x5 x6 x7 := by
  unfold kernelRun0_A.sl.H8_1 KSpec.L1
  refine congrArg (fun w => [(⟨_, w⟩ : View.Piece (Elt Ideal) S4096x144 .f32)]) ?_
  rw [r4_eq, r5_eq]
  unfold kernelRun0_A.sl.r_6
  rw [load_whole arg1 harg1 _ off2, load_whole arg2 harg2 _ off2, load_whole arg3 harg3 _ off2, load_whole arg4 harg4 _ off1,
    load_whole arg5 harg5 _ off3, load_whole arg6 harg6 _ off2]
  unfold k0_pay7 k0_pay5 k0_pay6 k0_pay1 k0_pay2 k0_pay3
  simp only [dot19x19, dot19x6, dot288x6]
  refine (root_eq (M := 4096) _ _ x2 x3 _ x5 x6 x7 ![0, 0] ![0, 0] rfl rfl ![0, 0, 0] ![0, 0, 0] rfl rfl ![0, 0] ![0, 0] rfl rfl
    _ _ _ _ _ _ _ _ _ _ _ _ _ _ _ _ _ _ _ _ _ _ _ _ _).trans ?_
  simp only [cast_self_eq]
  rfl

end

end Cert.KernelIdeal.KPieces

end
-- ==== Proof.KP02.lean ====
/-
  The kernel's stores for joints 2 .. 8: each joint's six outputs land in its own six columns of the output block,
  on top of the earlier joints' stores.  A joint reads its parent's outputs back through the rectangle the parent's
  store wrote; the stores made since then lie in other columns, so the load reads the parent's payload.
-/
import proofs.«142136_j58514634440790_1_alg».proof.Proof.KP01

noncomputable section

namespace Cert.KernelIdeal.KPieces

open Cert.KernelIdeal Cert.KernelIdeal.Gen Idealize.ShloMosaic Idealize.ShloMosaic.ValueIdx
open Cert.Tree Cert.Tree.KJoint

/-- Two six-column bands of the output block, the second starting at least six columns before the first, are disjoint. -/
theorem disj (o o' : Nat) (inb : ∀ a, (![0, o] : Fin 2 → Nat) a + S4096x6.size a ≤ S4096x144.size a)
    (inb' : ∀ a, (![0, o'] : Fin 2 → Nat) a + S4096x6.size a ≤ S4096x144.size a) (h : o' + 6 ≤ o) :
    Disjoint (Rect.unit (s := S4096x144) ![0, o] S4096x6.size inb).set
      (Rect.unit (s := S4096x144) ![0, o'] S4096x6.size inb').toLoadRect.set :=
  Rect.unit_disjoint 1 (Or.inr h)

section
variable (c : Dev nD) (arg1 : Memref sig .tc .vmem S4096x216 .f32) (harg1 : arg1.IsWhole) (arg2 : Memref sig .tc .vmem S4096x72 .f32) (harg2 : arg2.IsWhole) (arg3 : Memref sig .tc .vmem S6x288 .f32) (harg3 : arg3.IsWhole) (arg4 : Memref sig .tc .vmem S6 .f32) (harg4 : arg4.IsWhole) (arg5 : Memref sig .tc .vmem S24x19x19 .f32) (harg5 : arg5.IsWhole) (arg6 : Memref sig .tc .vmem S24x19 .f32) (harg6 : arg6.IsWhole) (arg7 : Memref sig .tc .vmem S24x6x19 .f32) (harg7 : arg7.IsWhole) (arg8 : Memref sig .tc .vmem S24x6 .f32) (harg8 : arg8.IsWhole) (arg9 : Memref sig .tc .vmem S4096x144 .f32)
  (x0 : Vec Ideal S4096x216 .f32) (x1 : Vec Ideal S4096x72 .f32) (x2 : Vec Ideal S6x288 .f32) (x3 : Vec Ideal S6 .f32) (x4 : Vec Ideal S24x19x19 .f32) (x5 : Vec Ideal S24x19 .f32) (x6 : Vec Ideal S24x6x19 .f32) (x7 : Vec Ideal S24x6 .f32)

/-- After joint 2 (parent 0): its outputs in columns 12 .. 17. -/
theorem H8_3_of (h : kernelRun0_A.sl.H8_2 (F := Ideal) c arg1 harg1 arg2 harg2 arg3 harg3 arg4 harg4 arg5 harg5 arg6 harg6 arg7 harg7 arg8 harg8 arg9 x0 x1 x2 x3 x4 x5 x6 x7 = KSpec.L2 x0 x1 x2 x3 x4 x5 x6 x7) :
    kernelRun0_A.sl.H8_3 (F := Ideal) c arg1 harg1 arg2 harg2 arg3 harg3 arg4 harg4 arg5 harg5 arg6 harg6 arg7 harg7 arg8 harg8 arg9 x0 x1 x2 x3 x4 x5 x6 x7 = KSpec.L3 x0 x1 x2 x3 x4 x5 x6 x7 := by
  unfold kernelRun0_A.sl.H8_3 KSpec.L3
  rw [h]
  refine congrArg (fun w => (⟨_, w⟩ : View.Piece (Elt Ideal) S4096x144 .f32) :: KSpec.L2 x0 x1 x2 x3 x4 x5 x6 x7) ?_
  have hv : kernelRun0_A.sl.v92 (F := Ideal) c arg1 harg1 arg2 harg2 arg3 harg3 arg4 harg4 arg5 harg5 arg6 harg6 arg7 harg7 arg8 harg8 arg9 x0 x1 x2 x3 x4 x5 x6 x7 = KSpec.jv x0 x1 x2 x3 x4 x5 x6 x7 0 := by
    unfold kernelRun0_A.sl.v92
    rw [h]
    unfold KSpec.L2 KSpec.L1
    exact (View.readCov_cons_of_disjoint arg9.view (KSpec.pc x0 x1 x2 x3 x4 x5 x6 x7 6 inb_S4096x144_S4096x6_0_6 1) _
      (Rect.unit (s := S4096x144) ![0, 0] S4096x6.size inb_S4096x144_S4096x6_0_0).toLoadRect (disj 6 0 inb_S4096x144_S4096x6_0_6 inb_S4096x144_S4096x6_0_0 (by omega))).trans <|
      View.readCov_cons_toLoadRect _ _ _ _
  unfold kernelRun0_A.sl.r_7
  rw [hv, r_eq, r1_eq, r2_eq, r3_eq, r4_eq, r5_eq]
  unfold k0_pay10 k0_pay9
  simp only [dot19x19, dot19x6]
  exact child_eq (M := 4096) 2 0 x0 x1 x4 x5 x6 x7 (KSpec.jv x0 x1 x2 x3 x4 x5 x6 x7 0)
    ![0, 18] ![0, 6] ![0, 0] rfl rfl rfl ![2, 0, 0] ![2, 0, 0] rfl rfl ![2, 0] ![2, 0] rfl rfl
    _ _ _ _ _ _ _ _ _ _ _ _ _ _ _ _ _ _ _ _ _ _ _ _

/-- After joint 3 (parent 0): its outputs in columns 18 .. 23. -/
theorem H8_4_of (h : kernelRun0_A.sl.H8_3 (F := Ideal) c arg1 harg1 arg2 harg2 arg3 harg3 arg4 harg4 arg5 harg5 arg6 harg6 arg7 harg7 arg8 harg8 arg9 x0 x1 x2 x3 x4 x5 x6 x7 = KSpec.L3 x0 x1 x2 x3 x4 x5 x6 x7) :
    kernelRun0_A.sl.H8_4 (F := Ideal) c arg1 harg1 arg2 harg2 arg3 harg3 arg4 harg4 arg5 harg5 arg6 harg6 arg7 harg7 arg8 harg8 arg9 x0 x1 x2 x3 x4 x5 x6 x7 = KSpec.L4 x0 x1 x2 x3 x4 x5 x6 x7 := by
  unfold kernelRun0_A.sl.H8_4 KSpec.L4
  rw [h]
  refine congrArg (fun w => (⟨_, w⟩ : View.Piece (Elt Ideal) S4096x144 .f32) :: KSpec.L3 x0 x1 x2 x3 x4 x5 x6 x7) ?_
  have hv : kernelRun0_A.sl.v126 (F := Ideal) c arg1 harg1 arg2 harg2 arg3 harg3 arg4 harg4 arg5 harg5 arg6 harg6 arg7 harg7 arg8 harg8 arg9 x0 x1 x2 x3 x4 x5 x6 x7 = KSpec.jv x0 x1 x2 x3 x4 x5 x6 x7 0 := by
    unfold kernelRun0_A.sl.v126
    rw [h]
    unfold KSpec.L3 KSpec.L2 KSpec.L1
    exact (View.readCov_cons_of_disjoint arg9.view (KSpec.pc x0 x1 x2 x3 x4 x5 x6 x7 12 inb_S4096x144_S4096x6_0_12 2) _
      (Rect.unit (s := S4096x144) ![0, 0] S4096x6.size inb_S4096x144_S4096x6_0_0).toLoadRect (disj 12 0 inb_S4096x144_S4096x6_0_12 inb_S4096x144_S4096x6_0_0 (by omega))).trans <|
      (View.readCov_cons_of_disjoint arg9.view (KSpec.pc x0 x1 x2 x3 x4 x5 x6 x7 6 inb_S4096x144_S4096x6_0_6 1) _
      (Rect.unit (s := S4096x144) ![0, 0] S4096x6.size inb_S4096x144_S4096x6_0_0).toLoadRect (disj 6 0 inb_S4096x144_S4096x6_0_6 inb_S4096x144_S4096x6_0_0 (by omega))).trans <|
      View.readCov_cons_toLoadRect _ _ _ _
  unfold kernelRun0_A.sl.r_8 kernelRun0_A.sl.r_9 kernelRun0_A.sl.r_10
  rw [hv, r_eq, r1_eq, r2_eq, r3_eq, r4_eq, r5_eq]
  unfold k0_pay14 k0_pay11 k0_pay12 k0_pay13
  simp only [dot19x19, dot19x6]
  exact child_eq (M := 4096) 3 0 x0 x1 x4 x5 x6 x7 (KSpec.jv x0 x1 x2 x3 x4 x5 x6 x7 0)
    ![0, 27] ![0, 9] ![0, 0] rfl rfl rfl ![3, 0, 0] ![3, 0, 0] rfl rfl ![3, 0] ![3, 0] rfl rfl
    _ _ _ _ _ _ _ _ _ _ _ _ _ _ _ _ _ _ _ _ _ _ _ _

/-- After joint 4 (parent 1): its outputs in columns 24 .. 29. -/
theorem H8_5_of (h : kernelRun0_A.sl.H8_4 (F := Ideal) c arg1 harg1 arg2 harg2 arg3 harg3 arg4 harg4 arg5 harg5 arg6 harg6 arg7 harg7 arg8 harg8 arg9 x0 x1 x2 x3 x4 x5 x6 x7 = KSpec.L4 x0 x1 x2 x3 x4 x5 x6 x7) :
    kernelRun0_A.sl.H8_5 (F := Ideal) c arg1 harg1 arg2 harg2 arg3 harg3 arg4 harg4 arg5 harg5 arg6 harg6 arg7 harg7 arg8 harg8 arg9 x0 x1 x2 x3 x4 x5 x6 x7 = KSpec.L5 x0 x1 x2 x3 x4 x5 x6 x7 := by
  unfold kernelRun0_A.sl.H8_5 KSpec.L5
  rw [h]
  refine congrArg (fun w => (⟨_, w⟩ : View.Piece (Elt Ideal) S4096x144 .f32) :: KSpec.L4 x0 x1 x2 x3 x4 x5 x6 x7) ?_
  have hv : kernelRun0_A.sl.v160 (F := Ideal) c arg1 harg1 arg2 harg2 arg3 harg3 arg4 harg4 arg5 harg5 arg6 harg6 arg7 harg7 arg8 harg8 arg9 x0 x1 x2 x3 x4 x5 x6 x7 = KSpec.jv x0 x1 x2 x3 x4 x5 x6 x7 1 := by
    unfold kernelRun0_A.sl.v160
    rw [h]
    unfold KSpec.L4 KSpec.L3 KSpec.L2
    exact (View.readCov_cons_of_disjoint arg9.view (KSpec.pc x0 x1 x2 x3 x4 x5 x6 x7 18 inb_S4096x144_S4096x6_0_18 3) _
      (Rect.unit (s := S4096x144) ![0, 6] S4096x6.size inb_S4096x144_S4096x6_0_6).toLoadRect (disj 18 6 inb_S4096x144_S4096x6_0_18 inb_S4096x144_S4096x6_0_6 (by omega))).trans <|
      (View.readCov_cons_of_disjoint arg9.view (KSpec.pc x0 x1 x2 x3 x4 x5 x6 x7 12 inb_S4096x144_S4096x6_0_12 2) _
      (Rect.unit (s := S4096x144) ![0, 6] S4096x6.size inb_S4096x144_S4096x6_0_6).toLoadRect (disj 12 6 inb_S4096x144_S4096x6_0_12 inb_S4096x144_S4096x6_0_6 (by omega))).trans <|
      View.readCov_cons_toLoadRect _ _ _ _
  unfold kernelRun0_A.sl.r_11 kernelRun0_A.sl.r_12 kernelRun0_A.sl.r_13 kernelRun0_A.sl.cst_48
  rw [hv, r_eq, r1_eq, r2_eq, r3_eq, r4_eq, r5_eq]
  unfold k0_pay18 k0_pay15 k0_pay16 k0_pay17
  simp only [dot19x19, dot19x6]
  exact child_eq (M := 4096) 4 1 x0 x1 x4 x5 x6 x7 (KSpec.jv x0 x1 x2 x3 x4 x5 x6 x7 1)
    ![0, 36] ![0, 12] ![0, 3] rfl rfl rfl ![4, 0, 0] ![4, 0, 0] rfl rfl ![4, 0] ![4, 0] rfl rfl
    _ _ _ _ _ _ _ _ _ _ _ _ _ _ _ _ _ _ _ _ _ _ _ _

/-- After joint 5 (parent 2): its outputs in columns 30 .. 35. -/
theorem H8_6_of (h : kernelRun0_A.sl.H8_5 (F := Ideal) c arg1 harg1 arg2 harg2 arg3 harg3 arg4 harg4 arg5 harg5 arg6 harg6 arg7 harg7 arg8 harg8 arg9 x0 x1 x2 x3 x4 x5 x6 x7 = KSpec.L5 x0 x1 x2 x3 x4 x5 x6 x7) :
    kernelRun0_A.sl.H8_6 (F := Ideal) c arg1 harg1 arg2 harg2 arg3 harg3 arg4 harg4 arg5 harg5 arg6 harg6 arg7 harg7 arg8 harg8 arg9 x0 x1 x2 x3 x4 x5 x6 x7 = KSpec.L6 x0 x1 x2 x3 x4 x5 x6 x7 := by
  unfold kernelRun0_A.sl.H8_6 KSpec.L6
  rw [h]
  refine congrArg (fun w => (⟨_, w⟩ : View.Piece (Elt Ideal) S4096x144 .f32) :: KSpec.L5 x0 x1 x2 x3 x4 x5 x6 x7) ?_
  have hv : kernelRun0_A.sl.v194 (F := Ideal) c arg1 harg1 arg2 harg2 arg3 harg3 arg4 harg4 arg5 harg5 arg6 harg6 arg7 harg7 arg8 harg8 arg9 x0 x1 x2 x3 x4 x5 x6 x7 = KSpec.jv x0 x1 x2 x3 x4 x5 x6 x7 2 := by
    unfold kernelRun0_A.sl.v194
    rw [h]
    unfold KSpec.L5 KSpec.L4 KSpec.L3
    exact (View.readCov_cons_of_disjoint arg9.view (KSpec.pc x0 x1 x2 x3 x4 x5 x6 x7 24 inb_S4096x144_S4096x6_0_24 4) _
      (Rect.unit (s := S4096x144) ![0, 12] S4096x6.size inb_S4096x144_S4096x6_0_12).toLoadRect (disj 24 12 inb_S4096x144_S4096x6_0_24 inb_S4096x144_S4096x6_0_12 (by omega))).trans <|
      (View.readCov_cons_of_disjoint arg9.view (KSpec.pc x0 x1 x2 x3 x4 x5 x6 x7 18 inb_S4096x144_S4096x6_0_18 3) _
      (Rect.unit (s := S4096x144) ![0, 12] S4096x6.size inb_S4096x144_S4096x6_0_12).toLoadRect (disj 18 12 inb_S4096x144_S4096x6_0_18 inb_S4096x144_S4096x6_0_12 (by omega))).trans <|
      View.readCov_cons_toLoadRect _ _ _ _
  rw [hv, r_eq, r1_eq, r2_eq, r3_eq, r4_eq, r5_eq]
  unfold k0_pay19
  simp only [dot19x19, dot19x6]
  exact child_eq (M := 4096) 5 2 x0 x1 x4 x5 x6 x7 (KSpec.jv x0 x1 x2 x3 x4 x5 x6 x7 2)
    ![0, 45] ![0, 15] ![0, 6] rfl rfl rfl ![5, 0, 0] ![5, 0, 0] rfl rfl ![5, 0] ![5, 0] rfl rfl
    _ _ _ _ _ _ _ _ _ _ _ _ _ _ _ _ _ _ _ _ _ _ _ _

/-- After joint 6 (parent 3): its outputs in columns 36 .. 41. -/
theorem H8_7_of (h : kernelRun0_A.sl.H8_6 (F := Ideal) c arg1 harg1 arg2 harg2 arg3 harg3 arg4 harg4 arg5 harg5 arg6 harg6 arg7 harg7 arg8 harg8 arg9 x0 x1 x2 x3 x4 x5 x6 x7 = KSpec.L6 x0 x1 x2 x3 x4 x5 x6 x7) :
    kernelRun0_A.sl.H8_7 (F := Ideal) c arg1 harg1 arg2 harg2 arg3 harg3 arg4 harg4 arg5 harg5 arg6 harg6 arg7 harg7 arg8 harg8 arg9 x0 x1 x2 x3 x4 x5 x6 x7 = KSpec.L7 x0 x1 x2 x3 x4 x5 x6 x7 := by
  unfold kernelRun0_A.sl.H8_7 KSpec.L7
  rw [h]
  refine congrArg (fun w => (⟨_, w⟩ : View.Piece (Elt Ideal) S4096x144 .f32) :: KSpec.L6 x0 x1 x2 x3 x4 x5 x6 x7) ?_
  have hv : kernelRun0_A.sl.v228 (F := Ideal) c arg1 harg1 arg2 harg2 arg3 harg3 arg4 harg4 arg5 harg5 arg6 harg6 arg7 harg7 arg8 harg8 arg9 x0 x1 x2 x3 x4 x5 x6 x7 = KSpec.jv x0 x1 x2 x3 x4 x5 x6 x7 3 := by
    unfold kernelRun0_A.sl.v228
    rw [h]
    unfold KSpec.L6 KSpec.L5 KSpec.L4
    exact (View.readCov_cons_of_disjoint arg9.view (KSpec.pc x0 x1 x2 x3 x4 x5 x6 x7 30 inb_S4096x144_S4096x6_0_30 5) _
      (Rect.unit (s := S4096x144) ![0, 18] S4096x6.size inb_S4096x144_S4096x6_0_18).toLoadRect (disj 30 18 inb_S4096x144_S4096x6_0_30 inb_S4096x144_S4096x6_0_18 (by omega))).trans <|
      (View.readCov_cons_of_disjoint arg9.view (KSpec.pc x0 x1 x2 x3 x4 x5 x6 x7 24 inb_S4096x144_S4096x6_0_24 4) _
      (Rect.unit (s := S4096x144) ![0, 18] S4096x6.size inb_S4096x144_S4096x6_0_18).toLoadRect (disj 24 18 inb_S4096x144_S4096x6_0_24 inb_S4096x144_S4096x6_0_18 (by omega))).trans <|
      View.readCov_cons_toLoadRect _ _ _ _
  unfold kernelRun0_A.sl.r_14 kernelRun0_A.sl.r_15 kernelRun0_A.sl.r_16
  rw [hv, r_eq, r1_eq, r2_eq, r3_eq, r4_eq, r5_eq]
  unfold k0_pay23 k0_pay20 k0_pay22 k0_pay21
  simp only [dot19x19, dot19x6]
  exact child_eq (M := 4096) 6 3 x0 x1 x4 x5 x6 x7 (KSpec.jv x0 x1 x2 x3 x4 x5 x6 x7 3)
    ![0, 54] ![0, 18] ![0, 9] rfl rfl rfl ![6, 0, 0] ![6, 0, 0] rfl rfl ![6, 0] ![6, 0] rfl rfl
    _ _ _ _ _ _ _ _ _ _ _ _ _ _ _ _ _ _ _ _ _ _ _ _

/-- After joint 7 (parent 4): its outputs in columns 42 .. 47. -/
theorem H8_8_of (h : kernelRun0_A.sl.H8_7 (F := Ideal) c arg1 harg1 arg2 harg2 arg3 harg3 arg4 harg4 arg5 harg5 arg6 harg6 arg7 harg7 arg8 harg8 arg9 x0 x1 x2 x3 x4 x5 x6 x7 = KSpec.L7 x0 x1 x2 x3 x4 x5 x6 x7) :
    kernelRun0_A.sl.H8_8 (F := Ideal) c arg1 harg1 arg2 harg2 arg3 harg3 arg4 harg4 arg5 harg5 arg6 harg6 arg7 harg7 arg8 harg8 arg9 x0 x1 x2 x3 x4 x5 x6 x7 = KSpec.L8 x0 x1 x2 x3 x4 x5 x6 x7 := by
  unfold kernelRun0_A.sl.H8_8 KSpec.L8
  rw [h]
  refine congrArg (fun w => (⟨_, w⟩ : View.Piece (Elt Ideal) S4096x144 .f32) :: KSpec.L7 x0 x1 x2 x3 x4 x5 x6 x7) ?_
  have hv : kernelRun0_A.sl.v262 (F := Ideal) c arg1 harg1 arg2 harg2 arg3 harg3 arg4 harg4 arg5 harg5 arg6 harg6 arg7 harg7 arg8 harg8 arg9 x0 x1 x2 x3 x4 x5 x6 x7 = KSpec.jv x0 x1 x2 x3 x4 x5 x6 x7 4 := by
    unfold kernelRun0_A.sl.v262
    rw [h]
    unfold KSpec.L7 KSpec.L6 KSpec.L5
    exact (View.readCov_cons_of_disjoint arg9.view (KSpec.pc x0 x1 x2 x3 x4 x5 x6 x7 36 inb_S4096x144_S4096x6_0_36 6) _
      (Rect.unit (s := S4096x144) ![0, 24] S4096x6.size inb_S4096x144_S4096x6_0_24).toLoadRect (disj 36 24 inb_S4096x144_S4096x6_0_36 inb_S4096x144_S4096x6_0_24 (by omega))).trans <|
      (View.readCov_cons_of_disjoint arg9.view (KSpec.pc x0 x1 x2 x3 x4 x5 x6 x7 30 inb_S4096x144_S4096x6_0_30 5) _
      (Rect.unit (s := S4096x144) ![0, 24] S4096x6.size inb_S4096x144_S4096x6_0_24).toLoadRect (disj 30 24 inb_S4096x144_S4096x6_0_30 inb_S4096x144_S4096x6_0_24 (by omega))).trans <|
      View.readCov_cons_toLoadRect _ _ _ _
  unfold kernelRun0_A.sl.r_17 kernelRun0_A.sl.cst_68
  rw [hv, r_eq, r1_eq, r2_eq, r3_eq, r4_eq, r5_eq]
  unfold k0_pay25 k0_pay24
  simp only [dot19x19, dot19x6]
  exact child_eq (M := 4096) 7 4 x0 x1 x4 x5 x6 x7 (KSpec.jv x0 x1 x2 x3 x4 x5 x6 x7 4)
    ![0, 63] ![0, 21] ![0, 12] rfl rfl rfl ![7, 0, 0] ![7, 0, 0] rfl rfl ![7, 0] ![7, 0] rfl rfl
    _ _ _ _ _ _ _ _ _ _ _ _ _ _ _ _ _ _ _ _ _ _ _ _

/-- After joint 8 (parent 5): its outputs in columns 48 .. 53. -/
theorem H8_9_of (h : kernelRun0_A.sl.H8_8 (F := Ideal) c arg1 harg1 arg2 harg2 arg3 harg3 arg4 harg4 arg5 harg5 arg6 harg6 arg7 harg7 arg8 harg8 arg9 x0 x1 x2 x3 x4 x5 x6 x7 = KSpec.L8 x0 x1 x2 x3 x4 x5 x6 x7) :
    kernelRun0_A.sl.H8_9 (F := Ideal) c arg1 harg1 arg2 harg2 arg3 harg3 arg4 harg4 arg5 harg5 arg6 harg6 arg7 harg7 arg8 harg8 arg9 x0 x1 x2 x3 x4 x5 x6 x7 = KSpec.L9 x0 x1 x2 x3 x4 x5 x6 x7 := by
  unfold kernelRun0_A.sl.H8_9 KSpec.L9
  rw [h]
  refine congrArg (fun w => (⟨_, w⟩ : View.Piece (Elt Ideal) S4096x144 .f32) :: KSpec.L8 x0 x1 x2 x3 x4 x5 x6 x7) ?_
  have hv : kernelRun0_A.sl.v296 (F := Ideal) c arg1 harg1 arg2 harg2 arg3 harg3 arg4 harg4 arg5 harg5 arg6 harg6 arg7 harg7 arg8 harg8 arg9 x0 x1 x2 x3 x4 x5 x6 x7 = KSpec.jv x0 x1 x2 x3 x4 x5 x6 x7 5 := by
    unfold kernelRun0_A.sl.v296
    rw [h]
    unfold KSpec.L8 KSpec.L7 KSpec.L6
    exact (View.readCov_cons_of_disjoint arg9.view (KSpec.pc x0 x1 x2 x3 x4 x5 x6 x7 42 inb_S4096x144_S4096x6_0_42 7) _
      (Rect.unit (s := S4096x144) ![0, 30] S4096x6.size inb_S4096x144_S4096x6_0_30).toLoadRect (disj 42 30 inb_S4096x144_S4096x6_0_42 inb_S4096x144_S4096x6_0_30 (by omega))).trans <|
      (View.readCov_cons_of_disjoint arg9.view (KSpec.pc x0 x1 x2 x3 x4 x5 x6 x7 36 inb_S4096x144_S4096x6_0_36 6) _
      (Rect.unit (s := S4096x144) ![0, 30] S4096x6.size inb_S4096x144_S4096x6_0_30).toLoadRect (disj 36 30 inb_S4096x144_S4096x6_0_36 inb_S4096x144_S4096x6_0_30 (by omega))).trans <|
      View.readCov_cons_toLoadRect _ _ _ _
  rw [hv, r_eq, r1_eq, r2_eq, r3_eq, r4_eq, r5_eq]
  unfold k0_pay26
  simp only [dot19x19, dot19x6]
  exact child_eq (M := 4096) 8 5 x0 x1 x4 x5 x6 x7 (KSpec.jv x0 x1 x2 x3 x4 x5 x6 x7 5)
    ![0, 72] ![0, 24] ![0, 15] rfl rfl rfl ![8, 0, 0] ![8, 0, 0] rfl rfl ![8, 0] ![8, 0] rfl rfl
    _ _ _ _ _ _ _ _ _ _ _ _ _ _ _ _ _ _ _ _ _ _ _ _

end

end Cert.KernelIdeal.KPieces

end
-- ==== Proof.KP03.lean ====
/-
  The kernel's stores, one joint at a time: what joints 9 .. 15 leave in the output block.

  Each of these joints has a parent among the joints already stored.  The kernel reads the parent's six outputs back
  through the rectangle the parent's store wrote: the stores made since then fill other columns, so the read passes over
  them and finds the parent's payload.  With the block's own arrays for the laid-out entries and the tables of weights,
  the joint's inputs are exactly those of `Cert.Tree.child`, whether the kernel's term for the joint stands in one
  piece or is split into several named parts.
-/
import proofs.«142136_j58514634440790_1_alg».proof.Proof.KP01

noncomputable section

namespace Cert.KernelIdeal.KPieces

open Cert.KernelIdeal Cert.KernelIdeal.Gen Idealize.ShloMosaic Idealize.ShloMosaic.ValueIdx
open Cert.Tree Cert.Tree.KJoint

section
variable (c : Dev nD) (arg1 : Memref sig .tc .vmem S4096x216 .f32) (harg1 : arg1.IsWhole) (arg2 : Memref sig .tc .vmem S4096x72 .f32) (harg2 : arg2.IsWhole) (arg3 : Memref sig .tc .vmem S6x288 .f32) (harg3 : arg3.IsWhole) (arg4 : Memref sig .tc .vmem S6 .f32) (harg4 : arg4.IsWhole) (arg5 : Memref sig .tc .vmem S24x19x19 .f32) (harg5 : arg5.IsWhole) (arg6 : Memref sig .tc .vmem S24x19 .f32) (harg6 : arg6.IsWhole) (arg7 : Memref sig .tc .vmem S24x6x19 .f32) (harg7 : arg7.IsWhole) (arg8 : Memref sig .tc .vmem S24x6 .f32) (harg8 : arg8.IsWhole) (arg9 : Memref sig .tc .vmem S4096x144 .f32)
  (x0 : Vec Ideal S4096x216 .f32) (x1 : Vec Ideal S4096x72 .f32) (x2 : Vec Ideal S6x288 .f32) (x3 : Vec Ideal S6 .f32) (x4 : Vec Ideal S24x19x19 .f32) (x5 : Vec Ideal S24x19 .f32) (x6 : Vec Ideal S24x6x19 .f32) (x7 : Vec Ideal S24x6 .f32)

/-- Two bands of six columns of the output block, the first starting at or beyond the end of the second, do not meet. -/
theorem disj3 (o o' : Nat) (inb : ∀ a, (![0, o] : Fin 2 → Nat) a + S4096x6.size a ≤ S4096x144.size a)
    (inb' : ∀ a, (![0, o'] : Fin 2 → Nat) a + S4096x6.size a ≤ S4096x144.size a) (h : o' + 6 ≤ o) :
    Disjoint (Rect.unit (s := S4096x144) ![0, o] S4096x6.size inb).set
      (Rect.unit (s := S4096x144) ![0, o'] S4096x6.size inb').toLoadRect.set :=
  Rect.unit_disjoint (s := S4096x144) (1 : Fin 2) (Or.inr h)

/-- A read of one joint's band of columns passes over the store of a later joint's band. -/
theorem skip3 (o : Nat) (inb : ∀ a, (![0, o] : Fin 2 → Nat) a + S4096x6.size a ≤ S4096x144.size a) (j : Fin 24)
    (L : List (View.Piece (Elt Ideal) S4096x144 .f32)) (o' : Nat)
    (inb' : ∀ a, (![0, o'] : Fin 2 → Nat) a + S4096x6.size a ≤ S4096x144.size a) (h : o' + 6 ≤ o) :
    arg9.view.readCov (KSpec.pc x0 x1 x2 x3 x4 x5 x6 x7 o inb j :: L) (Rect.unit (s := S4096x144) ![0, o'] S4096x6.size inb').toLoadRect
      = arg9.view.readCov L (Rect.unit (s := S4096x144) ![0, o'] S4096x6.size inb').toLoadRect :=
  View.readCov_cons_of_disjoint arg9.view _ L _ (disj3 o o' inb inb' h)

/-- After joint 9: its outputs in columns 54 .. 59; its parent is joint 6. -/
theorem H8_10_of (h : kernelRun0_A.sl.H8_9 (F := Ideal) c arg1 harg1 arg2 harg2 arg3 harg3 arg4 harg4 arg5 harg5 arg6 harg6 arg7 harg7 arg8 harg8 arg9 x0 x1 x2 x3 x4 x5 x6 x7 = KSpec.L9 x0 x1 x2 x3 x4 x5 x6 x7) :
    kernelRun0_A.sl.H8_10 (F := Ideal) c arg1 harg1 arg2 harg2 arg3 harg3 arg4 harg4 arg5 harg5 arg6 harg6 arg7 harg7 arg8 harg8 arg9 x0 x1 x2 x3 x4 x5 x6 x7 = KSpec.L10 x0 x1 x2 x3 x4 x5 x6 x7 := by
  unfold kernelRun0_A.sl.H8_10 KSpec.L10
  rw [h]
  refine congrArg (fun w => (⟨_, w⟩ : View.Piece (Elt Ideal) S4096x144 .f32) :: KSpec.L9 x0 x1 x2 x3 x4 x5 x6 x7) ?_
  have hv : kernelRun0_A.sl.v330 (F := Ideal) c arg1 harg1 arg2 harg2 arg3 harg3 arg4 harg4 arg5 harg5 arg6 harg6 arg7 harg7 arg8 harg8 arg9 x0 x1 x2 x3 x4 x5 x6 x7 = KSpec.jv x0 x1 x2 x3 x4 x5 x6 x7 6 := by
    unfold kernelRun0_A.sl.v330
    rw [h]
    unfold KSpec.L9 KSpec.L8 KSpec.L7
    rw [skip3 arg9 x0 x1 x2 x3 x4 x5 x6 x7 48 _ 8 _ 36 _ (by decide)]
    rw [skip3 arg9 x0 x1 x2 x3 x4 x5 x6 x7 42 _ 7 _ 36 _ (by decide)]
    exact View.readCov_cons_toLoadRect _ _ _ _
  rw [hv, r_eq, r1_eq, r2_eq, r3_eq, r4_eq, r5_eq]
  unfold k0_pay27
  simp only [dot19x19, dot19x6]
  exact child_eq (M := 4096) 9 6 x0 x1 x4 x5 x6 x7 (KSpec.jv x0 x1 x2 x3 x4 x5 x6 x7 6)
    ![0, 81] ![0, 27] ![0, 18] rfl rfl rfl ![9, 0, 0] ![9, 0, 0] rfl rfl ![9, 0] ![9, 0] rfl rfl
    _ _ _ _ _ _ _ _ _ _ _ _ _ _ _ _ _ _ _ _ _ _ _ _

/-- After joint 10: its outputs in columns 60 .. 65; its parent is joint 7. -/
theorem H8_11_of (h : kernelRun0_A.sl.H8_10 (F := Ideal) c arg1 harg1 arg2 harg2 arg3 harg3 arg4 harg4 arg5 harg5 arg6 harg6 arg7 harg7 arg8 harg8 arg9 x0 x1 x2 x3 x4 x5 x6 x7 = KSpec.L10 x0 x1 x2 x3 x4 x5 x6 x7) :
    kernelRun0_A.sl.H8_11 (F := Ideal) c arg1 harg1 arg2 harg2 arg3 harg3 arg4 harg4 arg5 harg5 arg6 harg6 arg7 harg7 arg8 harg8 arg9 x0 x1 x2 x3 x4 x5 x6 x7 = KSpec.L11 x0 x1 x2 x3 x4 x5 x6 x7 := by
  unfold kernelRun0_A.sl.H8_11 KSpec.L11
  rw [h]
  refine congrArg (fun w => (⟨_, w⟩ : View.Piece (Elt Ideal) S4096x144 .f32) :: KSpec.L10 x0 x1 x2 x3 x4 x5 x6 x7) ?_
  have hv : kernelRun0_A.sl.v364 (F := Ideal) c arg1 harg1 arg2 harg2 arg3 harg3 arg4 harg4 arg5 harg5 arg6 harg6 arg7 harg7 arg8 harg8 arg9 x0 x1 x2 x3 x4 x5 x6 x7 = KSpec.jv x0 x1 x2 x3 x4 x5 x6 x7 7 := by
    unfold kernelRun0_A.sl.v364
    rw [h]
    unfold KSpec.L10 KSpec.L9 KSpec.L8
    rw [skip3 arg9 x0 x1 x2 x3 x4 x5 x6 x7 54 _ 9 _ 42 _ (by decide)]
    rw [skip3 arg9 x0 x1 x2 x3 x4 x5 x6 x7 48 _ 8 _ 42 _ (by decide)]
    exact View.readCov_cons_toLoadRect _ _ _ _
  unfold kernelRun0_A.sl.r_18 kernelRun0_A.sl.r_19 kernelRun0_A.sl.r_20
  rw [hv, r_eq, r1_eq, r2_eq, r3_eq, r4_eq, r5_eq]
  unfold k0_pay31 k0_pay28 k0_pay29 k0_pay30
  simp only [dot19x19, dot19x6]
  exact child_eq (M := 4096) 10 7 x0 x1 x4 x5 x6 x7 (KSpec.jv x0 x1 x2 x3 x4 x5 x6 x7 7)
    ![0, 90] ![0, 30] ![0, 21] rfl rfl rfl ![10, 0, 0] ![10, 0, 0] rfl rfl ![10, 0] ![10, 0] rfl rfl
    _ _ _ _ _ _ _ _ _ _ _ _ _ _ _ _ _ _ _ _ _ _ _ _

/-- After joint 11: its outputs in columns 66 .. 71; its parent is joint 8. -/
theorem H8_12_of (h : kernelRun0_A.sl.H8_11 (F := Ideal) c arg1 harg1 arg2 harg2 arg3 harg3 arg4 harg4 arg5 harg5 arg6 harg6 arg7 harg7 arg8 harg8 arg9 x0 x1 x2 x3 x4 x5 x6 x7 = KSpec.L11 x0 x1 x2 x3 x4 x5 x6 x7) :
    kernelRun0_A.sl.H8_12 (F := Ideal) c arg1 harg1 arg2 harg2 arg3 harg3 arg4 harg4 arg5 harg5 arg6 harg6 arg7 harg7 arg8 harg8 arg9 x0 x1 x2 x3 x4 x5 x6 x7 = KSpec.L12 x0 x1 x2 x3 x4 x5 x6 x7 := by
  unfold kernelRun0_A.sl.H8_12 KSpec.L12
  rw [h]
  refine congrArg (fun w => (⟨_, w⟩ : View.Piece (Elt Ideal) S4096x144 .f32) :: KSpec.L11 x0 x1 x2 x3 x4 x5 x6 x7) ?_
  have hv : kernelRun0_A.sl.v398 (F := Ideal) c arg1 harg1 arg2 harg2 arg3 harg3 arg4 harg4 arg5 harg5 arg6 harg6 arg7 harg7 arg8 harg8 arg9 x0 x1 x2 x3 x4 x5 x6 x7 = KSpec.jv x0 x1 x2 x3 x4 x5 x6 x7 8 := by
    unfold kernelRun0_A.sl.v398
    rw [h]
    unfold KSpec.L11 KSpec.L10 KSpec.L9
    rw [skip3 arg9 x0 x1 x2 x3 x4 x5 x6 x7 60 _ 10 _ 48 _ (by decide)]
    rw [skip3 arg9 x0 x1 x2 x3 x4 x5 x6 x7 54 _ 9 _ 48 _ (by decide)]
    exact View.readCov_cons_toLoadRect _ _ _ _
  unfold kernelRun0_A.sl.r_21 kernelRun0_A.sl.r_22 kernelRun0_A.sl.r_23
  rw [hv, r_eq, r1_eq, r2_eq, r3_eq, r4_eq, r5_eq]
  unfold k0_pay35 k0_pay32 k0_pay33 k0_pay34
  simp only [dot19x19, dot19x6]
  exact child_eq (M := 4096) 11 8 x0 x1 x4 x5 x6 x7 (KSpec.jv x0 x1 x2 x3 x4 x5 x6 x7 8)
    ![0, 99] ![0, 33] ![0, 24] rfl rfl rfl ![11, 0, 0] ![11, 0, 0] rfl rfl ![11, 0] ![11, 0] rfl rfl
    _ _ _ _ _ _ _ _ _ _ _ _ _ _ _ _ _ _ _ _ _ _ _ _

/-- After joint 12: its outputs in columns 72 .. 77; its parent is joint 9. -/
theorem H8_13_of (h : kernelRun0_A.sl.H8_12 (F := Ideal) c arg1 harg1 arg2 harg2 arg3 harg3 arg4 harg4 arg5 harg5 arg6 harg6 arg7 harg7 arg8 harg8 arg9 x0 x1 x2 x3 x4 x5 x6 x7 = KSpec.L12 x0 x1 x2 x3 x4 x5 x6 x7) :
    kernelRun0_A.sl.H8_13 (F := Ideal) c arg1 harg1 arg2 harg2 arg3 harg3 arg4 harg4 arg5 harg5 arg6 harg6 arg7 harg7 arg8 harg8 arg9 x0 x1 x2 x3 x4 x5 x6 x7 = KSpec.L13 x0 x1 x2 x3 x4 x5 x6 x7 := by
  unfold kernelRun0_A.sl.H8_13 KSpec.L13
  rw [h]
  refine congrArg (fun w => (⟨_, w⟩ : View.Piece (Elt Ideal) S4096x144 .f32) :: KSpec.L12 x0 x1 x2 x3 x4 x5 x6 x7) ?_
  have hv : kernelRun0_A.sl.v432 (F := Ideal) c arg1 harg1 arg2 harg2 arg3 harg3 arg4 harg4 arg5 harg5 arg6 harg6 arg7 harg7 arg8 harg8 arg9 x0 x1 x2 x3 x4 x5 x6 x7 = KSpec.jv x0 x1 x2 x3 x4 x5 x6 x7 9 := by
    unfold kernelRun0_A.sl.v432
    rw [h]
    unfold KSpec.L12 KSpec.L11 KSpec.L10
    rw [skip3 arg9 x0 x1 x2 x3 x4 x5 x6 x7 66 _ 11 _ 54 _ (by decide)]
    rw [skip3 arg9 x0 x1 x2 x3 x4 x5 x6 x7 60 _ 10 _ 54 _ (by decide)]
    exact View.readCov_cons_toLoadRect _ _ _ _
  rw [hv, r_eq, r1_eq, r2_eq, r3_eq, r4_eq, r5_eq]
  unfold k0_pay36
  simp only [dot19x19, dot19x6]
  exact child_eq (M := 4096) 12 9 x0 x1 x4 x5 x6 x7 (KSpec.jv x0 x1 x2 x3 x4 x5 x6 x7 9)
    ![0, 108] ![0, 36] ![0, 27] rfl rfl rfl ![12, 0, 0] ![12, 0, 0] rfl rfl ![12, 0] ![12, 0] rfl rfl
    _ _ _ _ _ _ _ _ _ _ _ _ _ _ _ _ _ _ _ _ _ _ _ _

/-- After joint 13: its outputs in columns 78 .. 83; its parent is joint 9. -/
theorem H8_14_of (h : kernelRun0_A.sl.H8_13 (F := Ideal) c arg1 harg1 arg2 harg2 arg3 harg3 arg4 harg4 arg5 harg5 arg6 harg6 arg7 harg7 arg8 harg8 arg9 x0 x1 x2 x3 x4 x5 x6 x7 = KSpec.L13 x0 x1 x2 x3 x4 x5 x6 x7) :
    kernelRun0_A.sl.H8_14 (F := Ideal) c arg1 harg1 arg2 harg2 arg3 harg3 arg4 harg4 arg5 harg5 arg6 harg6 arg7 harg7 arg8 harg8 arg9 x0 x1 x2 x3 x4 x5 x6 x7 = KSpec.L14 x0 x1 x2 x3 x4 x5 x6 x7 := by
  unfold kernelRun0_A.sl.H8_14 KSpec.L14
  rw [h]
  refine congrArg (fun w => (⟨_, w⟩ : View.Piece (Elt Ideal) S4096x144 .f32) :: KSpec.L13 x0 x1 x2 x3 x4 x5 x6 x7) ?_
  have hv : kernelRun0_A.sl.v466 (F := Ideal) c arg1 harg1 arg2 harg2 arg3 harg3 arg4 harg4 arg5 harg5 arg6 harg6 arg7 harg7 arg8 harg8 arg9 x0 x1 x2 x3 x4 x5 x6 x7 = KSpec.jv x0 x1 x2 x3 x4 x5 x6 x7 9 := by
    unfold kernelRun0_A.sl.v466
    rw [h]
    unfold KSpec.L13 KSpec.L12 KSpec.L11 KSpec.L10
    rw [skip3 arg9 x0 x1 x2 x3 x4 x5 x6 x7 72 _ 12 _ 54 _ (by decide)]
    rw [skip3 arg9 x0 x1 x2 x3 x4 x5 x6 x7 66 _ 11 _ 54 _ (by decide)]
    rw [skip3 arg9 x0 x1 x2 x3 x4 x5 x6 x7 60 _ 10 _ 54 _ (by decide)]
    exact View.readCov_cons_toLoadRect _ _ _ _
  unfold kernelRun0_A.sl.r_24 kernelRun0_A.sl.r_25 kernelRun0_A.sl.r_26
  rw [hv, r_eq, r1_eq, r2_eq, r3_eq, r4_eq, r5_eq]
  unfold k0_pay40 k0_pay37 k0_pay39 k0_pay38
  simp only [dot19x19, dot19x6]
  exact child_eq (M := 4096) 13 9 x0 x1 x4 x5 x6 x7 (KSpec.jv x0 x1 x2 x3 x4 x5 x6 x7 9)
    ![0, 117] ![0, 39] ![0, 27] rfl rfl rfl ![13, 0, 0] ![13, 0, 0] rfl rfl ![13, 0] ![13, 0] rfl rfl
    _ _ _ _ _ _ _ _ _ _ _ _ _ _ _ _ _ _ _ _ _ _ _ _

/-- After joint 14: its outputs in columns 84 .. 89; its parent is joint 9. -/
theorem H8_15_of (h : kernelRun0_A.sl.H8_14 (F := Ideal) c arg1 harg1 arg2 harg2 arg3 harg3 arg4 harg4 arg5 harg5 arg6 harg6 arg7 harg7 arg8 harg8 arg9 x0 x1 x2 x3 x4 x5 x6 x7 = KSpec.L14 x0 x1 x2 x3 x4 x5 x6 x7) :
    kernelRun0_A.sl.H8_15 (F := Ideal) c arg1 harg1 arg2 harg2 arg3 harg3 arg4 harg4 arg5 harg5 arg6 harg6 arg7 harg7 arg8 harg8 arg9 x0 x1 x2 x3 x4 x5 x6 x7 = KSpec.L15 x0 x1 x2 x3 x4 x5 x6 x7 := by
  unfold kernelRun0_A.sl.H8_15 KSpec.L15
  rw [h]
  refine congrArg (fun w => (⟨_, w⟩ : View.Piece (Elt Ideal) S4096x144 .f32) :: KSpec.L14 x0 x1 x2 x3 x4 x5 x6 x7) ?_
  have hv : kernelRun0_A.sl.v500 (F := Ideal) c arg1 harg1 arg2 harg2 arg3 harg3 arg4 harg4 arg5 harg5 arg6 harg6 arg7 harg7 arg8 harg8 arg9 x0 x1 x2 x3 x4 x5 x6 x7 = KSpec.jv x0 x1 x2 x3 x4 x5 x6 x7 9 := by
    unfold kernelRun0_A.sl.v500
    rw [h]
    unfold KSpec.L14 KSpec.L13 KSpec.L12 KSpec.L11 KSpec.L10
    rw [skip3 arg9 x0 x1 x2 x3 x4 x5 x6 x7 78 _ 13 _ 54 _ (by decide)]
    rw [skip3 arg9 x0 x1 x2 x3 x4 x5 x6 x7 72 _ 12 _ 54 _ (by decide)]
    rw [skip3 arg9 x0 x1 x2 x3 x4 x5 x6 x7 66 _ 11 _ 54 _ (by decide)]
    rw [skip3 arg9 x0 x1 x2 x3 x4 x5 x6 x7 60 _ 10 _ 54 _ (by decide)]
    exact View.readCov_cons_toLoadRect _ _ _ _
  unfold kernelRun0_A.sl.r_27
  rw [hv, r_eq, r1_eq, r2_eq, r3_eq, r4_eq, r5_eq]
  unfold k0_pay42 k0_pay41
  simp only [dot19x19, dot19x6]
  exact child_eq (M := 4096) 14 9 x0 x1 x4 x5 x6 x7 (KSpec.jv x0 x1 x2 x3 x4 x5 x6 x7 9)
    ![0, 126] ![0, 42] ![0, 27] rfl rfl rfl ![14, 0, 0] ![14, 0, 0] rfl rfl ![14, 0] ![14, 0] rfl rfl
    _ _ _ _ _ _ _ _ _ _ _ _ _ _ _ _ _ _ _ _ _ _ _ _

/-- After joint 15: its outputs in columns 90 .. 95; its parent is joint 12. -/
theorem H8_16_of (h : kernelRun0_A.sl.H8_15 (F := Ideal) c arg1 harg1 arg2 harg2 arg3 harg3 arg4 harg4 arg5 harg5 arg6 harg6 arg7 harg7 arg8 harg8 arg9 x0 x1 x2 x3 x4 x5 x6 x7 = KSpec.L15 x0 x1 x2 x3 x4 x5 x6 x7) :
    kernelRun0_A.sl.H8_16 (F := Ideal) c arg1 harg1 arg2 harg2 arg3 harg3 arg4 harg4 arg5 harg5 arg6 harg6 arg7 harg7 arg8 harg8 arg9 x0 x1 x2 x3 x4 x5 x6 x7 = KSpec.L16 x0 x1 x2 x3 x4 x5 x6 x7 := by
  unfold kernelRun0_A.sl.H8_16 KSpec.L16
  rw [h]
  refine congrArg (fun w => (⟨_, w⟩ : View.Piece (Elt Ideal) S4096x144 .f32) :: KSpec.L15 x0 x1 x2 x3 x4 x5 x6 x7) ?_
  have hv : kernelRun0_A.sl.v534 (F := Ideal) c arg1 harg1 arg2 harg2 arg3 harg3 arg4 harg4 arg5 harg5 arg6 harg6 arg7 harg7 arg8 harg8 arg9 x0 x1 x2 x3 x4 x5 x6 x7 = KSpec.jv x0 x1 x2 x3 x4 x5 x6 x7 12 := by
    unfold kernelRun0_A.sl.v534
    rw [h]
    unfold KSpec.L15 KSpec.L14 KSpec.L13
    rw [skip3 arg9 x0 x1 x2 x3 x4 x5 x6 x7 84 _ 14 _ 72 _ (by decide)]
    rw [skip3 arg9 x0 x1 x2 x3 x4 x5 x6 x7 78 _ 13 _ 72 _ (by decide)]
    exact View.readCov_cons_toLoadRect _ _ _ _
  unfold kernelRun0_A.sl.r_28
  rw [hv, r_eq, r1_eq, r2_eq, r3_eq, r4_eq, r5_eq]
  unfold k0_pay43
  simp only [dot19x19, dot19x6]
  exact child_eq (M := 4096) 15 12 x0 x1 x4 x5 x6 x7 (KSpec.jv x0 x1 x2 x3 x4 x5 x6 x7 12)
    ![0, 135] ![0, 45] ![0, 36] rfl rfl rfl ![15, 0, 0] ![15, 0, 0] rfl rfl ![15, 0] ![15, 0] rfl rfl
    _ _ _ _ _ _ _ _ _ _ _ _ _ _ _ _ _ _ _ _ _ _ _ _

end

end Cert.KernelIdeal.KPieces

end
-- ==== Proof.KP04.lean ====
/-
  The kernel's stores, one joint at a time: joints 16 .. 23, the last eight.

  Each of these joints has a parent whose six outputs were stored earlier in the same run of the body.  The kernel
  reads them back through the rectangle of columns 6 p .. 6 p + 5 that the parent's store wrote; the stores made
  since then fill other bands of columns, so the read passes over them and returns the parent's payload.  With the
  parent's outputs in hand the joint's value is `Cert.Tree.child` on each row, whichever way the program has cut the
  computation into pieces.
-/
import proofs.«142136_j58514634440790_1_alg».proof.Proof.KP01

noncomputable section

namespace Cert.KernelIdeal.KPieces

open Cert.KernelIdeal Cert.KernelIdeal.Gen Idealize.ShloMosaic Idealize.ShloMosaic.ValueIdx
open Cert.Tree Cert.Tree.KJoint

section
variable (c : Dev nD) (arg1 : Memref sig .tc .vmem S4096x216 .f32) (harg1 : arg1.IsWhole) (arg2 : Memref sig .tc .vmem S4096x72 .f32) (harg2 : arg2.IsWhole) (arg3 : Memref sig .tc .vmem S6x288 .f32) (harg3 : arg3.IsWhole) (arg4 : Memref sig .tc .vmem S6 .f32) (harg4 : arg4.IsWhole) (arg5 : Memref sig .tc .vmem S24x19x19 .f32) (harg5 : arg5.IsWhole) (arg6 : Memref sig .tc .vmem S24x19 .f32) (harg6 : arg6.IsWhole) (arg7 : Memref sig .tc .vmem S24x6x19 .f32) (harg7 : arg7.IsWhole) (arg8 : Memref sig .tc .vmem S24x6 .f32) (harg8 : arg8.IsWhole) (arg9 : Memref sig .tc .vmem S4096x144 .f32)
  (x0 : Vec Ideal S4096x216 .f32) (x1 : Vec Ideal S4096x72 .f32) (x2 : Vec Ideal S6x288 .f32) (x3 : Vec Ideal S6 .f32) (x4 : Vec Ideal S24x19x19 .f32) (x5 : Vec Ideal S24x19 .f32) (x6 : Vec Ideal S24x6x19 .f32) (x7 : Vec Ideal S24x6 .f32)

/-- After joint 16 (parent 13): its outputs in columns 96 .. 101. -/
theorem H8_17_of (h : kernelRun0_A.sl.H8_16 (F := Ideal) c arg1 harg1 arg2 harg2 arg3 harg3 arg4 harg4 arg5 harg5 arg6 harg6 arg7 harg7 arg8 harg8 arg9 x0 x1 x2 x3 x4 x5 x6 x7 = KSpec.L16 x0 x1 x2 x3 x4 x5 x6 x7) :
    kernelRun0_A.sl.H8_17 (F := Ideal) c arg1 harg1 arg2 harg2 arg3 harg3 arg4 harg4 arg5 harg5 arg6 harg6 arg7 harg7 arg8 harg8 arg9 x0 x1 x2 x3 x4 x5 x6 x7 = KSpec.L17 x0 x1 x2 x3 x4 x5 x6 x7 := by
  unfold kernelRun0_A.sl.H8_17 KSpec.L17
  rw [h]
  refine congrArg (fun w => (⟨_, w⟩ : View.Piece (Elt Ideal) S4096x144 .f32) :: KSpec.L16 x0 x1 x2 x3 x4 x5 x6 x7) ?_
  have hv : kernelRun0_A.sl.v568 (F := Ideal) c arg1 harg1 arg2 harg2 arg3 harg3 arg4 harg4 arg5 harg5 arg6 harg6 arg7 harg7 arg8 harg8 arg9 x0 x1 x2 x3 x4 x5 x6 x7 = KSpec.jv x0 x1 x2 x3 x4 x5 x6 x7 13 := by
    unfold kernelRun0_A.sl.v568
    rw [h]
    unfold KSpec.L16 KSpec.L15 KSpec.L14
    refine (View.readCov_cons_of_disjoint _ _ _ _ ?_).trans ?_
    · exact Rect.unit_disjoint (inb := inb_S4096x144_S4096x6_0_90) 1 (Or.inr (by decide))
    refine (View.readCov_cons_of_disjoint _ _ _ _ ?_).trans ?_
    · exact Rect.unit_disjoint (inb := inb_S4096x144_S4096x6_0_84) 1 (Or.inr (by decide))
    exact View.readCov_cons_toLoadRect _ _ _ _
  rw [hv, r_eq, r1_eq, r2_eq, r3_eq, r4_eq, r5_eq]
  unfold k0_pay44
  simp only [dot19x19, dot19x6]
  exact child_eq (M := 4096) 16 13 x0 x1 x4 x5 x6 x7 (KSpec.jv x0 x1 x2 x3 x4 x5 x6 x7 13)
    ![0, 144] ![0, 48] ![0, 39] rfl rfl rfl ![16, 0, 0] ![16, 0, 0] rfl rfl ![16, 0] ![16, 0] rfl rfl
    _ _ _ _ _ _ _ _ _ _ _ _ _ _ _ _ _ _ _ _ _ _ _ _

/-- After joint 17 (parent 14): its outputs in columns 102 .. 107. -/
theorem H8_18_of (h : kernelRun0_A.sl.H8_17 (F := Ideal) c arg1 harg1 arg2 harg2 arg3 harg3 arg4 harg4 arg5 harg5 arg6 harg6 arg7 harg7 arg8 harg8 arg9 x0 x1 x2 x3 x4 x5 x6 x7 = KSpec.L17 x0 x1 x2 x3 x4 x5 x6 x7) :
    kernelRun0_A.sl.H8_18 (F := Ideal) c arg1 harg1 arg2 harg2 arg3 harg3 arg4 harg4 arg5 harg5 arg6 harg6 arg7 harg7 arg8 harg8 arg9 x0 x1 x2 x3 x4 x5 x6 x7 = KSpec.L18 x0 x1 x2 x3 x4 x5 x6 x7 := by
  unfold kernelRun0_A.sl.H8_18 KSpec.L18
  rw [h]
  refine congrArg (fun w => (⟨_, w⟩ : View.Piece (Elt Ideal) S4096x144 .f32) :: KSpec.L17 x0 x1 x2 x3 x4 x5 x6 x7) ?_
  have hv : kernelRun0_A.sl.v602 (F := Ideal) c arg1 harg1 arg2 harg2 arg3 harg3 arg4 harg4 arg5 harg5 arg6 harg6 arg7 harg7 arg8 harg8 arg9 x0 x1 x2 x3 x4 x5 x6 x7 = KSpec.jv x0 x1 x2 x3 x4 x5 x6 x7 14 := by
    unfold kernelRun0_A.sl.v602
    rw [h]
    unfold KSpec.L17 KSpec.L16 KSpec.L15
    refine (View.readCov_cons_of_disjoint _ _ _ _ ?_).trans ?_
    · exact Rect.unit_disjoint (inb := inb_S4096x144_S4096x6_0_96) 1 (Or.inr (by decide))
    refine (View.readCov_cons_of_disjoint _ _ _ _ ?_).trans ?_
    · exact Rect.unit_disjoint (inb := inb_S4096x144_S4096x6_0_90) 1 (Or.inr (by decide))
    exact View.readCov_cons_toLoadRect _ _ _ _
  unfold kernelRun0_A.sl.r_29 kernelRun0_A.sl.r_30
  rw [hv, r_eq, r1_eq, r2_eq, r3_eq, r4_eq, r5_eq]
  unfold k0_pay47 k0_pay45 k0_pay46
  simp only [dot19x19, dot19x6]
  exact child_eq (M := 4096) 17 14 x0 x1 x4 x5 x6 x7 (KSpec.jv x0 x1 x2 x3 x4 x5 x6 x7 14)
    ![0, 153] ![0, 51] ![0, 42] rfl rfl rfl ![17, 0, 0] ![17, 0, 0] rfl rfl ![17, 0] ![17, 0] rfl rfl
    _ _ _ _ _ _ _ _ _ _ _ _ _ _ _ _ _ _ _ _ _ _ _ _

/-- After joint 18 (parent 16): its outputs in columns 108 .. 113. -/
theorem H8_19_of (h : kernelRun0_A.sl.H8_18 (F := Ideal) c arg1 harg1 arg2 harg2 arg3 harg3 arg4 harg4 arg5 harg5 arg6 harg6 arg7 harg7 arg8 harg8 arg9 x0 x1 x2 x3 x4 x5 x6 x7 = KSpec.L18 x0 x1 x2 x3 x4 x5 x6 x7) :
    kernelRun0_A.sl.H8_19 (F := Ideal) c arg1 harg1 arg2 harg2 arg3 harg3 arg4 harg4 arg5 harg5 arg6 harg6 arg7 harg7 arg8 harg8 arg9 x0 x1 x2 x3 x4 x5 x6 x7 = KSpec.L19 x0 x1 x2 x3 x4 x5 x6 x7 := by
  unfold kernelRun0_A.sl.H8_19 KSpec.L19
  rw [h]
  refine congrArg (fun w => (⟨_, w⟩ : View.Piece (Elt Ideal) S4096x144 .f32) :: KSpec.L18 x0 x1 x2 x3 x4 x5 x6 x7) ?_
  have hv : kernelRun0_A.sl.v636 (F := Ideal) c arg1 harg1 arg2 harg2 arg3 harg3 arg4 harg4 arg5 harg5 arg6 harg6 arg7 harg7 arg8 harg8 arg9 x0 x1 x2 x3 x4 x5 x6 x7 = KSpec.jv x0 x1 x2 x3 x4 x5 x6 x7 16 := by
    unfold kernelRun0_A.sl.v636
    rw [h]
    unfold KSpec.L18 KSpec.L17
    refine (View.readCov_cons_of_disjoint _ _ _ _ ?_).trans ?_
    · exact Rect.unit_disjoint (inb := inb_S4096x144_S4096x6_0_102) 1 (Or.inr (by decide))
    exact View.readCov_cons_toLoadRect _ _ _ _
  unfold kernelRun0_A.sl.r_31 kernelRun0_A.sl.r_32 kernelRun0_A.sl.r_33
  rw [hv, r_eq, r1_eq, r2_eq, r3_eq, r4_eq, r5_eq]
  unfold k0_pay51 k0_pay48 k0_pay49 k0_pay50
  simp only [dot19x19, dot19x6]
  exact child_eq (M := 4096) 18 16 x0 x1 x4 x5 x6 x7 (KSpec.jv x0 x1 x2 x3 x4 x5 x6 x7 16)
    ![0, 162] ![0, 54] ![0, 48] rfl rfl rfl ![18, 0, 0] ![18, 0, 0] rfl rfl ![18, 0] ![18, 0] rfl rfl
    _ _ _ _ _ _ _ _ _ _ _ _ _ _ _ _ _ _ _ _ _ _ _ _

/-- After joint 19 (parent 17): its outputs in columns 114 .. 119. -/
theorem H8_20_of (h : kernelRun0_A.sl.H8_19 (F := Ideal) c arg1 harg1 arg2 harg2 arg3 harg3 arg4 harg4 arg5 harg5 arg6 harg6 arg7 harg7 arg8 harg8 arg9 x0 x1 x2 x3 x4 x5 x6 x7 = KSpec.L19 x0 x1 x2 x3 x4 x5 x6 x7) :
    kernelRun0_A.sl.H8_20 (F := Ideal) c arg1 harg1 arg2 harg2 arg3 harg3 arg4 harg4 arg5 harg5 arg6 harg6 arg7 harg7 arg8 harg8 arg9 x0 x1 x2 x3 x4 x5 x6 x7 = KSpec.L20 x0 x1 x2 x3 x4 x5 x6 x7 := by
  unfold kernelRun0_A.sl.H8_20 KSpec.L20
  rw [h]
  refine congrArg (fun w => (⟨_, w⟩ : View.Piece (Elt Ideal) S4096x144 .f32) :: KSpec.L19 x0 x1 x2 x3 x4 x5 x6 x7) ?_
  have hv : kernelRun0_A.sl.v670 (F := Ideal) c arg1 harg1 arg2 harg2 arg3 harg3 arg4 harg4 arg5 harg5 arg6 harg6 arg7 harg7 arg8 harg8 arg9 x0 x1 x2 x3 x4 x5 x6 x7 = KSpec.jv x0 x1 x2 x3 x4 x5 x6 x7 17 := by
    unfold kernelRun0_A.sl.v670
    rw [h]
    unfold KSpec.L19 KSpec.L18
    refine (View.readCov_cons_of_disjoint _ _ _ _ ?_).trans ?_
    · exact Rect.unit_disjoint (inb := inb_S4096x144_S4096x6_0_108) 1 (Or.inr (by decide))
    exact View.readCov_cons_toLoadRect _ _ _ _
  rw [hv, r_eq, r1_eq, r2_eq, r3_eq, r4_eq, r5_eq]
  unfold k0_pay52
  simp only [dot19x19, dot19x6]
  exact child_eq (M := 4096) 19 17 x0 x1 x4 x5 x6 x7 (KSpec.jv x0 x1 x2 x3 x4 x5 x6 x7 17)
    ![0, 171] ![0, 57] ![0, 51] rfl rfl rfl ![19, 0, 0] ![19, 0, 0] rfl rfl ![19, 0] ![19, 0] rfl rfl
    _ _ _ _ _ _ _ _ _ _ _ _ _ _ _ _ _ _ _ _ _ _ _ _

/-- After joint 20 (parent 18): its outputs in columns 120 .. 125. -/
theorem H8_21_of (h : kernelRun0_A.sl.H8_20 (F := Ideal) c arg1 harg1 arg2 harg2 arg3 harg3 arg4 harg4 arg5 harg5 arg6 harg6 arg7 harg7 arg8 harg8 arg9 x0 x1 x2 x3 x4 x5 x6 x7 = KSpec.L20 x0 x1 x2 x3 x4 x5 x6 x7) :
    kernelRun0_A.sl.H8_21 (F := Ideal) c arg1 harg1 arg2 harg2 arg3 harg3 arg4 harg4 arg5 harg5 arg6 harg6 arg7 harg7 arg8 harg8 arg9 x0 x1 x2 x3 x4 x5 x6 x7 = KSpec.L21 x0 x1 x2 x3 x4 x5 x6 x7 := by
  unfold kernelRun0_A.sl.H8_21 KSpec.L21
  rw [h]
  refine congrArg (fun w => (⟨_, w⟩ : View.Piece (Elt Ideal) S4096x144 .f32) :: KSpec.L20 x0 x1 x2 x3 x4 x5 x6 x7) ?_
  have hv : kernelRun0_A.sl.v704 (F := Ideal) c arg1 harg1 arg2 harg2 arg3 harg3 arg4 harg4 arg5 harg5 arg6 harg6 arg7 harg7 arg8 harg8 arg9 x0 x1 x2 x3 x4 x5 x6 x7 = KSpec.jv x0 x1 x2 x3 x4 x5 x6 x7 18 := by
    unfold kernelRun0_A.sl.v704
    rw [h]
    unfold KSpec.L20 KSpec.L19
    refine (View.readCov_cons_of_disjoint _ _ _ _ ?_).trans ?_
    · exact Rect.unit_disjoint (inb := inb_S4096x144_S4096x6_0_114) 1 (Or.inr (by decide))
    exact View.readCov_cons_toLoadRect _ _ _ _
  unfold kernelRun0_A.sl.r_34 kernelRun0_A.sl.r_35 kernelRun0_A.sl.r_36
  rw [hv, r_eq, r1_eq, r2_eq, r3_eq, r4_eq, r5_eq]
  unfold k0_pay56 k0_pay53 k0_pay55 k0_pay54
  simp only [dot19x19, dot19x6]
  exact child_eq (M := 4096) 20 18 x0 x1 x4 x5 x6 x7 (KSpec.jv x0 x1 x2 x3 x4 x5 x6 x7 18)
    ![0, 180] ![0, 60] ![0, 54] rfl rfl rfl ![20, 0, 0] ![20, 0, 0] rfl rfl ![20, 0] ![20, 0] rfl rfl
    _ _ _ _ _ _ _ _ _ _ _ _ _ _ _ _ _ _ _ _ _ _ _ _

/-- After joint 21 (parent 19): its outputs in columns 126 .. 131. -/
theorem H8_22_of (h : kernelRun0_A.sl.H8_21 (F := Ideal) c arg1 harg1 arg2 harg2 arg3 harg3 arg4 harg4 arg5 harg5 arg6 harg6 arg7 harg7 arg8 harg8 arg9 x0 x1 x2 x3 x4 x5 x6 x7 = KSpec.L21 x0 x1 x2 x3 x4 x5 x6 x7) :
    kernelRun0_A.sl.H8_22 (F := Ideal) c arg1 harg1 arg2 harg2 arg3 harg3 arg4 harg4 arg5 harg5 arg6 harg6 arg7 harg7 arg8 harg8 arg9 x0 x1 x2 x3 x4 x5 x6 x7 = KSpec.L22 x0 x1 x2 x3 x4 x5 x6 x7 := by
  unfold kernelRun0_A.sl.H8_22 KSpec.L22
  rw [h]
  refine congrArg (fun w => (⟨_, w⟩ : View.Piece (Elt Ideal) S4096x144 .f32) :: KSpec.L21 x0 x1 x2 x3 x4 x5 x6 x7) ?_
  have hv : kernelRun0_A.sl.v738 (F := Ideal) c arg1 harg1 arg2 harg2 arg3 harg3 arg4 harg4 arg5 harg5 arg6 harg6 arg7 harg7 arg8 harg8 arg9 x0 x1 x2 x3 x4 x5 x6 x7 = KSpec.jv x0 x1 x2 x3 x4 x5 x6 x7 19 := by
    unfold kernelRun0_A.sl.v738
    rw [h]
    unfold KSpec.L21 KSpec.L20
    refine (View.readCov_cons_of_disjoint _ _ _ _ ?_).trans ?_
    · exact Rect.unit_disjoint (inb := inb_S4096x144_S4096x6_0_120) 1 (Or.inr (by decide))
    exact View.readCov_cons_toLoadRect _ _ _ _
  unfold kernelRun0_A.sl.r_37 kernelRun0_A.sl.r_38
  rw [hv, r_eq, r1_eq, r2_eq, r3_eq, r4_eq, r5_eq]
  unfold k0_pay59 k0_pay57 k0_pay58
  simp only [dot19x19, dot19x6]
  exact child_eq (M := 4096) 21 19 x0 x1 x4 x5 x6 x7 (KSpec.jv x0 x1 x2 x3 x4 x5 x6 x7 19)
    ![0, 189] ![0, 63] ![0, 57] rfl rfl rfl ![21, 0, 0] ![21, 0, 0] rfl rfl ![21, 0] ![21, 0] rfl rfl
    _ _ _ _ _ _ _ _ _ _ _ _ _ _ _ _ _ _ _ _ _ _ _ _

/-- After joint 22 (parent 20): its outputs in columns 132 .. 137. -/
theorem H8_23_of (h : kernelRun0_A.sl.H8_22 (F := Ideal) c arg1 harg1 arg2 harg2 arg3 harg3 arg4 harg4 arg5 harg5 arg6 harg6 arg7 harg7 arg8 harg8 arg9 x0 x1 x2 x3 x4 x5 x6 x7 = KSpec.L22 x0 x1 x2 x3 x4 x5 x6 x7) :
    kernelRun0_A.sl.H8_23 (F := Ideal) c arg1 harg1 arg2 harg2 arg3 harg3 arg4 harg4 arg5 harg5 arg6 harg6 arg7 harg7 arg8 harg8 arg9 x0 x1 x2 x3 x4 x5 x6 x7 = KSpec.L23 x0 x1 x2 x3 x4 x5 x6 x7 := by
  unfold kernelRun0_A.sl.H8_23 KSpec.L23
  rw [h]
  refine congrArg (fun w => (⟨_, w⟩ : View.Piece (Elt Ideal) S4096x144 .f32) :: KSpec.L22 x0 x1 x2 x3 x4 x5 x6 x7) ?_
  have hv : kernelRun0_A.sl.v772 (F := Ideal) c arg1 harg1 arg2 harg2 arg3 harg3 arg4 harg4 arg5 harg5 arg6 harg6 arg7 harg7 arg8 harg8 arg9 x0 x1 x2 x3 x4 x5 x6 x7 = KSpec.jv x0 x1 x2 x3 x4 x5 x6 x7 20 := by
    unfold kernelRun0_A.sl.v772
    rw [h]
    unfold KSpec.L22 KSpec.L21
    refine (View.readCov_cons_of_disjoint _ _ _ _ ?_).trans ?_
    · exact Rect.unit_disjoint (inb := inb_S4096x144_S4096x6_0_126) 1 (Or.inr (by decide))
    exact View.readCov_cons_toLoadRect _ _ _ _
  unfold kernelRun0_A.sl.r_39
  rw [hv, r_eq, r1_eq, r2_eq, r3_eq, r4_eq, r5_eq]
  unfold k0_pay60
  simp only [dot19x19, dot19x6]
  exact child_eq (M := 4096) 22 20 x0 x1 x4 x5 x6 x7 (KSpec.jv x0 x1 x2 x3 x4 x5 x6 x7 20)
    ![0, 198] ![0, 66] ![0, 60] rfl rfl rfl ![22, 0, 0] ![22, 0, 0] rfl rfl ![22, 0] ![22, 0] rfl rfl
    _ _ _ _ _ _ _ _ _ _ _ _ _ _ _ _ _ _ _ _ _ _ _ _

end

/-- After joint 23 (parent 21), the last: its outputs in columns 138 .. 143; this is everything the body stores. -/
theorem top_of (c : Dev nD) (i : grid0.Coords) (arg1 : Memref sig .tc .vmem S4096x216 .f32) (harg1 : arg1.IsWhole) (arg2 : Memref sig .tc .vmem S4096x72 .f32) (harg2 : arg2.IsWhole) (arg3 : Memref sig .tc .vmem S6x288 .f32) (harg3 : arg3.IsWhole) (arg4 : Memref sig .tc .vmem S6 .f32) (harg4 : arg4.IsWhole) (arg5 : Memref sig .tc .vmem S24x19x19 .f32) (harg5 : arg5.IsWhole) (arg6 : Memref sig .tc .vmem S24x19 .f32) (harg6 : arg6.IsWhole) (arg7 : Memref sig .tc .vmem S24x6x19 .f32) (harg7 : arg7.IsWhole) (arg8 : Memref sig .tc .vmem S24x6 .f32) (harg8 : arg8.IsWhole) (arg9 : Memref sig .tc .vmem S4096x144 .f32) (harg9 : arg9.IsWhole)
    (x0 : Vec Ideal S4096x216 .f32) (x1 : Vec Ideal S4096x72 .f32) (x2 : Vec Ideal S6x288 .f32) (x3 : Vec Ideal S6 .f32) (x4 : Vec Ideal S24x19x19 .f32) (x5 : Vec Ideal S24x19 .f32) (x6 : Vec Ideal S24x6x19 .f32) (x7 : Vec Ideal S24x6 .f32)
    (h : kernelRun0_A.sl.H8_23 (F := Ideal) c arg1 harg1 arg2 harg2 arg3 harg3 arg4 harg4 arg5 harg5 arg6 harg6 arg7 harg7 arg8 harg8 arg9 x0 x1 x2 x3 x4 x5 x6 x7 = KSpec.L23 x0 x1 x2 x3 x4 x5 x6 x7) :
    (kernelRun0_A (F := Ideal) c i arg1 harg1 arg2 harg2 arg3 harg3 arg4 harg4 arg5 harg5 arg6 harg6 arg7 harg7 arg8 harg8 arg9 harg9 x0 x1 x2 x3 x4 x5 x6 x7).1 = KSpec.L24 x0 x1 x2 x3 x4 x5 x6 x7 := by
  unfold kernelRun0_A KSpec.L24
  dsimp only
  rw [h]
  refine congrArg (fun w => (⟨_, w⟩ : View.Piece (Elt Ideal) S4096x144 .f32) :: KSpec.L23 x0 x1 x2 x3 x4 x5 x6 x7) ?_
  have hv : kernelRun0_A.sl.v806 (F := Ideal) c arg1 harg1 arg2 harg2 arg3 harg3 arg4 harg4 arg5 harg5 arg6 harg6 arg7 harg7 arg8 harg8 arg9 x0 x1 x2 x3 x4 x5 x6 x7 = KSpec.jv x0 x1 x2 x3 x4 x5 x6 x7 21 := by
    unfold kernelRun0_A.sl.v806
    rw [h]
    unfold KSpec.L23 KSpec.L22
    refine (View.readCov_cons_of_disjoint _ _ _ _ ?_).trans ?_
    · exact Rect.unit_disjoint (inb := inb_S4096x144_S4096x6_0_132) 1 (Or.inr (by decide))
    exact View.readCov_cons_toLoadRect _ _ _ _
  unfold kernelRun0_A.sl.r_40
  rw [hv, r_eq, r1_eq, r2_eq, r3_eq, r4_eq, r5_eq]
  unfold k0_pay61
  simp only [dot19x19, dot19x6]
  exact child_eq (M := 4096) 23 21 x0 x1 x4 x5 x6 x7 (KSpec.jv x0 x1 x2 x3 x4 x5 x6 x7 21)
    ![0, 207] ![0, 69] ![0, 63] rfl rfl rfl ![23, 0, 0] ![23, 0, 0] rfl rfl ![23, 0] ![23, 0] rfl rfl
    _ _ _ _ _ _ _ _ _ _ _ _ _ _ _ _ _ _ _ _ _ _ _ _

end Cert.KernelIdeal.KPieces

end
-- ==== Proof.KPieces.lean ====
import proofs.«142136_j58514634440790_1_alg».proof.Proof.KBlock
import proofs.«142136_j58514634440790_1_alg».proof.Proof.KP00
import proofs.«142136_j58514634440790_1_alg».proof.Proof.KP01
import proofs.«142136_j58514634440790_1_alg».proof.Proof.KP02
import proofs.«142136_j58514634440790_1_alg».proof.Proof.KP03
import proofs.«142136_j58514634440790_1_alg».proof.Proof.KP04

noncomputable section

namespace Cert.KernelIdeal.KPieces

open Cert.KernelIdeal Cert.KernelIdeal.Gen Idealize.ShloMosaic

theorem pieces_eq : Cert.KernelIdeal.KValue.PiecesSpec := by
  intro c i arg1 harg1 arg2 harg2 arg3 harg3 arg4 harg4 arg5 harg5 arg6 harg6 arg7 harg7 arg8 harg8 arg9 harg9 x0 x1 x2 x3 x4 x5 x6 x7
  have h1 := H8_1_eq c arg1 harg1 arg2 harg2 arg3 harg3 arg4 harg4 arg5 harg5 arg6 harg6 arg7 harg7 arg8 harg8 x0 x1 x2 x3 x4 x5 x6 x7
  have h2 := H8_2_of c arg1 harg1 arg2 harg2 arg3 harg3 arg4 harg4 arg5 harg5 arg6 harg6 arg7 harg7 arg8 harg8 arg9 x0 x1 x2 x3 x4 x5 x6 x7 h1
  have h3 := H8_3_of c arg1 harg1 arg2 harg2 arg3 harg3 arg4 harg4 arg5 harg5 arg6 harg6 arg7 harg7 arg8 harg8 arg9 x0 x1 x2 x3 x4 x5 x6 x7 h2
  have h4 := H8_4_of c arg1 harg1 arg2 harg2 arg3 harg3 arg4 harg4 arg5 harg5 arg6 harg6 arg7 harg7 arg8 harg8 arg9 x0 x1 x2 x3 x4 x5 x6 x7 h3
  have h5 := H8_5_of c arg1 harg1 arg2 harg2 arg3 harg3 arg4 harg4 arg5 harg5 arg6 harg6 arg7 harg7 arg8 harg8 arg9 x0 x1 x2 x3 x4 x5 x6 x7 h4
  have h6 := H8_6_of c arg1 harg1 arg2 harg2 arg3 harg3 arg4 harg4 arg5 harg5 arg6 harg6 arg7 harg7 arg8 harg8 arg9 x0 x1 x2 x3 x4 x5 x6 x7 h5
  have h7 := H8_7_of c arg1 harg1 arg2 harg2 arg3 harg3 arg4 harg4 arg5 harg5 arg6 harg6 arg7 harg7 arg8 harg8 arg9 x0 x1 x2 x3 x4 x5 x6 x7 h6
  have h8 := H8_8_of c arg1 harg1 arg2 harg2 arg3 harg3 arg4 harg4 arg5 harg5 arg6 harg6 arg7 harg7 arg8 harg8 arg9 x0 x1 x2 x3 x4 x5 x6 x7 h7
  have h9 := H8_9_of c arg1 harg1 arg2 harg2 arg3 harg3 arg4 harg4 arg5 harg5 arg6 harg6 arg7 harg7 arg8 harg8 arg9 x0 x1 x2 x3 x4 x5 x6 x7 h8
  have h10 := H8_10_of c arg1 harg1 arg2 harg2 arg3 harg3 arg4 harg4 arg5 harg5 arg6 harg6 arg7 harg7 arg8 harg8 arg9 x0 x1 x2 x3 x4 x5 x6 x7 h9
  have h11 := H8_11_of c arg1 harg1 arg2 harg2 arg3 harg3 arg4 harg4 arg5 harg5 arg6 harg6 arg7 harg7 arg8 harg8 arg9 x0 x1 x2 x3 x4 x5 x6 x7 h10
  have h12 := H8_12_of c arg1 harg1 arg2 harg2 arg3 harg3 arg4 harg4 arg5 harg5 arg6 harg6 arg7 harg7 arg8 harg8 arg9 x0 x1 x2 x3 x4 x5 x6 x7 h11
  have h13 := H8_13_of c arg1 harg1 arg2 harg2 arg3 harg3 arg4 harg4 arg5 harg5 arg6 harg6 arg7 harg7 arg8 harg8 arg9 x0 x1 x2 x3 x4 x5 x6 x7 h12
  have h14 := H8_14_of c arg1 harg1 arg2 harg2 arg3 harg3 arg4 harg4 arg5 harg5 arg6 harg6 arg7 harg7 arg8 harg8 arg9 x0 x1 x2 x3 x4 x5 x6 x7 h13
  have h15 := H8_15_of c arg1 harg1 arg2 harg2 arg3 harg3 arg4 harg4 arg5 harg5 arg6 harg6 arg7 harg7 arg8 harg8 arg9 x0 x1 x2 x3 x4 x5 x6 x7 h14
  have h16 := H8_16_of c arg1 harg1 arg2 harg2 arg3 harg3 arg4 harg4 arg5 harg5 arg6 harg6 arg7 harg7 arg8 harg8 arg9 x0 x1 x2 x3 x4 x5 x6 x7 h15
  have h17 := H8_17_of c arg1 harg1 arg2 harg2 arg3 harg3 arg4 harg4 arg5 harg5 arg6 harg6 arg7 harg7 arg8 harg8 arg9 x0 x1 x2 x3 x4 x5 x6 x7 h16
  have h18 := H8_18_of c arg1 harg1 arg2 harg2 arg3 harg3 arg4 harg4 arg5 harg5 arg6 harg6 arg7 harg7 arg8 harg8 arg9 x0 x1 x2 x3 x4 x5 x6 x7 h17
  have h19 := H8_19_of c arg1 harg1 arg2 harg2 arg3 harg3 arg4 harg4 arg5 harg5 arg6 harg6 arg7 harg7 arg8 harg8 arg9 x0 x1 x2 x3 x4 x5 x6 x7 h18
  have h20 := H8_20_of c arg1 harg1 arg2 harg2 arg3 harg3 arg4 harg4 arg5 harg5 arg6 harg6 arg7 harg7 arg8 harg8 arg9 x0 x1 x2 x3 x4 x5 x6 x7 h19
  have h21 := H8_21_of c arg1 harg1 arg2 harg2 arg3 harg3 arg4 harg4 arg5 harg5 arg6 harg6 arg7 harg7 arg8 harg8 arg9 x0 x1 x2 x3 x4 x5 x6 x7 h20
  have h22 := H8_22_of c arg1 harg1 arg2 harg2 arg3 harg3 arg4 harg4 arg5 harg5 arg6 harg6 arg7 harg7 arg8 harg8 arg9 x0 x1 x2 x3 x4 x5 x6 x7 h21
  have h23 := H8_23_of c arg1 harg1 arg2 harg2 arg3 harg3 arg4 harg4 arg5 harg5 arg6 harg6 arg7 harg7 arg8 harg8 arg9 x0 x1 x2 x3 x4 x5 x6 x7 h22
  exact top_of c i arg1 harg1 arg2 harg2 arg3 harg3 arg4 harg4 arg5 harg5 arg6 harg6 arg7 harg7 arg8 harg8 arg9 harg9 x0 x1 x2 x3 x4 x5 x6 x7 h23

end Cert.KernelIdeal.KPieces

end
-- ==== Proof.RJoint.lean ====
import Idealize.ShloMosaic.Lib.ValueIdx
import Idealize.ShloMosaic.Lib.ValueLayout
import Idealize.ShloMosaic.Lib.IdealHost
import Idealize.ShloMosaic.Lib.Pipeline.Value
import Idealize.ShloMosaic.PureOps.Ideal.Laws
import proofs.«142136_j58514634440790_1_alg».proof.Proof.Spec
import proofs.«142136_j58514634440790_1_alg».proof.Proof.LibPlainDot
import proofs.«142136_j58514634440790_1_alg».proof.Proof.KRoot

noncomputable section

namespace Cert.Tree.RJoint

open Idealize.ShloMosaic Idealize.ShloMosaic.ValueIdx

variable {M : Nat} {α : Type}

theorem jointSlice_apply {J n : Nat} (j : Fin J) (x : (⟨3, ![M, J, n]⟩ : Shape).Idx → α)
    (o : Fin 3 → ℕ) (ho : o = ![0, j.val, 0])
    (hs : (⟨3, ![M, J, n]⟩ : Shape).Slices o ⟨3, ![M, 1, n]⟩)
    (hc : (⟨3, ![M, 1, n]⟩ : Shape).ShapeCasts ⟨2, ![M, n]⟩) (r : Fin M) (a : Fin n) :
    shapeCast ⟨2, ![M, n]⟩ (extractStridedSlice ⟨3, ![M, 1, n]⟩ o x hs) hc (ix2 r a) = x (ix3 r j a) := by
  subst ho
  rw [shapeCast_apply _ hc (ix2 r a) (ix3 r (0 : Fin 1) a) (by
    rw [Shape.rowMajor_val_three, Shape.rowMajor_val_two]
    show (r.val * 1 + 0) * n + a.val = r.val * n + a.val
    rw [Nat.mul_one, Nat.add_zero])]
  exact slice3_axis1_apply j.val x hs r 0 a j (by simp)

theorem weightSlice_apply {J A B : Nat} (j : Fin J) (x : (⟨3, ![J, A, B]⟩ : Shape).Idx → α)
    (o : Fin 3 → ℕ) (ho : o = ![j.val, 0, 0])
    (hs : (⟨3, ![J, A, B]⟩ : Shape).Slices o ⟨3, ![1, A, B]⟩)
    (hc : (⟨3, ![1, A, B]⟩ : Shape).ShapeCasts ⟨2, ![A, B]⟩)
    (ht : (⟨2, ![A, B]⟩ : Shape).Transposes [1, 0] ⟨2, ![B, A]⟩) (b : Fin B) (a : Fin A) :
    transpose ⟨2, ![B, A]⟩ [1, 0] (shapeCast ⟨2, ![A, B]⟩ (extractStridedSlice ⟨3, ![1, A, B]⟩ o x hs) hc) ht (ix2 b a)
      = x (ix3 j a b) := by
  subst ho
  rw [transpose_ix2_apply, shapeCast_1ab_ab_apply]
  exact extractStridedSlice_apply _ x hs _ _ (fun ax => by
    match ax with
    | ⟨0, _⟩ => exact (Nat.add_zero _).symm
    | ⟨1, _⟩ => exact (Nat.zero_add _).symm
    | ⟨2, _⟩ => exact (Nat.zero_add _).symm)

theorem biasSlice_apply {J N : Nat} (j : Fin J) (x : (⟨2, ![J, N]⟩ : Shape).Idx → α)
    (o : Fin 2 → ℕ) (ho : o = ![j.val, 0])
    (hs : (⟨2, ![J, N]⟩ : Shape).Slices o ⟨2, ![1, N]⟩)
    (hc : (⟨2, ![1, N]⟩ : Shape).ShapeCasts ⟨1, ![N]⟩)
    (hb1 : (⟨1, ![N]⟩ : Shape).BroadcastsInDim ⟨2, ![1, N]⟩ ![1])
    (hb2 : (⟨2, ![1, N]⟩ : Shape).BroadcastsInDim ⟨2, ![M, N]⟩ ![0, 1]) (r : Fin M) (c : Fin N) :
    broadcastInDim ⟨2, ![M, N]⟩ ![0, 1] hb2 (broadcastInDim ⟨2, ![1, N]⟩ ![1] hb1
        (shapeCast ⟨1, ![N]⟩ (extractStridedSlice ⟨2, ![1, N]⟩ o x hs) hc)) (ix2 r c) = x (ix2 j c) := by
  subst ho
  have hN : ∀ v : Nat, v < N → v = if N = 1 then 0 else v := fun v hv => by split <;> omega
  rw [broadcastInDim_apply _ hb2 _ (ix2 r c) (ix2 (0 : Fin 1) c) (fun ax => by
    match ax with
    | ⟨0, _⟩ => rfl
    | ⟨1, _⟩ => exact hN c.val c.isLt)]
  rw [broadcastInDim_apply _ hb1 _ (ix2 (0 : Fin 1) c) (ix1 c) (fun ax => by
    match ax with
    | ⟨0, _⟩ => exact hN c.val c.isLt)]
  rw [shapeCast_1a_a_apply]
  exact extractStridedSlice_apply _ x hs _ _ (fun ax => by
    match ax with
    | ⟨0, _⟩ => exact (Nat.add_zero _).symm
    | ⟨1, _⟩ => exact (Nat.zero_add _).symm)

theorem rowBcast_apply {N : Nat} (v : (⟨1, ![N]⟩ : Shape).Idx → α)
    (hb1 : (⟨1, ![N]⟩ : Shape).BroadcastsInDim ⟨2, ![1, N]⟩ ![1])
    (hb2 : (⟨2, ![1, N]⟩ : Shape).BroadcastsInDim ⟨2, ![M, N]⟩ ![0, 1]) (r : Fin M) (c : Fin N) :
    broadcastInDim ⟨2, ![M, N]⟩ ![0, 1] hb2 (broadcastInDim ⟨2, ![1, N]⟩ ![1] hb1 v) (ix2 r c) = v (ix1 c) := by
  have hN : ∀ w : Nat, w < N → w = if N = 1 then 0 else w := fun w hw => by split <;> omega
  rw [broadcastInDim_apply _ hb2 _ (ix2 r c) (ix2 (0 : Fin 1) c) (fun ax => by
    match ax with
    | ⟨0, _⟩ => rfl
    | ⟨1, _⟩ => exact hN c.val c.isLt)]
  exact broadcastInDim_apply _ hb1 _ (ix2 (0 : Fin 1) c) (ix1 c) (fun ax => by
    match ax with
    | ⟨0, _⟩ => exact hN c.val c.isLt)

theorem norm_apply (D : FVec Ideal ⟨2, ![M, 3]⟩ .f32)
    (hr : (⟨2, ![M, 3]⟩ : Shape).ReducesTo [1] ⟨1, ![M]⟩) (h0 : 0 < (⟨0, ![]⟩ : Shape).numel)
    (hb : (⟨1, ![M]⟩ : Shape).BroadcastsInDim ⟨2, ![M, 1]⟩ ![0]) (r : Fin M) (c : Fin 1) :
    Host.sqrt (broadcastInDim ⟨2, ![M, 1]⟩ ![0] hb
      (Host.reduceAdd (mulf D D) (constant (F := Ideal) ⟨0, ![]⟩ .f32 0x00000000#32) hr h0)) (ix2 r c)
      = boneLen (fun a => D (ix2 r a)) := by
  show FloatOps.hostUnary .sqrt _ = _
  rw [Ideal.hostUnary_sqrt_def]
  unfold boneLen
  congr 1
  rw [broadcastInDim_apply _ hb _ (ix2 r c) (ix1 r) (fun ax => by
    match ax with
    | ⟨0, _⟩ => show r.val = if M = 1 then 0 else r.val; split <;> omega)]
  rw [hostReduceAdd_apply]
  have hR : (⟨2, ![M, 3]⟩ : Shape).Reduces [1] ⟨1, ![M]⟩ := ⟨hr.1, Nat.one_pos, hr.2⟩
  rw [Ideal.hostReduceAdd_single hr hR]
  show Ideal.ofBits .f32 0x00000000#32 + _ = _
  rw [Ideal.ofBits_zero_f32, zero_add]
  refine Finset.sum_congr rfl fun k _ => ?_
  have e : hR.lift (ix1 r) k = ix2 r k := funext fun a => Fin.ext (by
    match a with
    | ⟨0, _⟩ => rfl
    | ⟨1, _⟩ => rfl)
  show D (hR.lift (ix1 r) k) * D (hR.lift (ix1 r) k) = _
  rw [e]
  rfl

theorem zero_apply {T : Shape} (h : (⟨0, ![]⟩ : Shape).BroadcastsInDim T ![]) (i : T.Idx) :
    broadcastInDim T ![] h (constant (F := Ideal) ⟨0, ![]⟩ .f32 0x00000000#32) i = zeroW :=
  broadcastInDim_scalar_apply h _ i

theorem layer1_apply (j : Fin 24) (X : FVec Ideal ⟨2, ![M, 19]⟩ .f32)
    (x4 : FVec Ideal ⟨3, ![24, 19, 19]⟩ .f32) (x5 : FVec Ideal ⟨2, ![24, 19]⟩ .f32)
    (o4 : Fin 3 → ℕ) (ho4 : o4 = ![j.val, 0, 0]) (o5 : Fin 2 → ℕ) (ho5 : o5 = ![j.val, 0])
    (sl4 : (⟨3, ![24, 19, 19]⟩ : Shape).Slices o4 ⟨3, ![1, 19, 19]⟩)
    (sc4 : (⟨3, ![1, 19, 19]⟩ : Shape).ShapeCasts ⟨2, ![19, 19]⟩)
    (tr4 : (⟨2, ![19, 19]⟩ : Shape).Transposes [1, 0] ⟨2, ![19, 19]⟩)
    (sl5 : (⟨2, ![24, 19]⟩ : Shape).Slices o5 ⟨2, ![1, 19]⟩)
    (sc5 : (⟨2, ![1, 19]⟩ : Shape).ShapeCasts ⟨1, ![19]⟩)
    (bc5a : (⟨1, ![19]⟩ : Shape).BroadcastsInDim ⟨2, ![1, 19]⟩ ![1])
    (bc5b : (⟨2, ![1, 19]⟩ : Shape).BroadcastsInDim ⟨2, ![M, 19]⟩ ![0, 1])
    (bcz : (⟨0, ![]⟩ : Shape).BroadcastsInDim ⟨2, ![M, 19]⟩ ![]) (r : Fin M) (a : Fin 19) :
    maximumf (addf (Host.dotGeneral (DotDims.plain M 19 19) none X
          (transpose ⟨2, ![19, 19]⟩ [1, 0] (shapeCast ⟨2, ![19, 19]⟩ (extractStridedSlice ⟨3, ![1, 19, 19]⟩ o4 x4 sl4) sc4) tr4))
        (broadcastInDim ⟨2, ![M, 19]⟩ ![0, 1] bc5b (broadcastInDim ⟨2, ![1, 19]⟩ ![1] bc5a
          (shapeCast ⟨1, ![19]⟩ (extractStridedSlice ⟨2, ![1, 19]⟩ o5 x5 sl5) sc5))))
      (broadcastInDim ⟨2, ![M, 19]⟩ ![] bcz (constant (F := Ideal) ⟨0, ![]⟩ .f32 0x00000000#32)) (ix2 r a)
      = layer1 (fun k => X (ix2 r k)) (fun a k => x4 (ix3 j a k)) (fun a => x5 (ix2 j a)) a := by
  show max (FloatOps.dotGeneral (DotDims.plain M 19 19) none .single X _ (ix2 r a) + _) _ = _
  rw [Cert.PlainDot.dotGeneral_apply, zero_apply, biasSlice_apply j x5 o5 ho5]
  unfold layer1
  refine congrArg (fun s => max (s + x5 (ix2 j a)) zeroW) (Finset.sum_congr rfl fun k _ => ?_)
  exact congrArg (X (ix2 r k) * ·) (weightSlice_apply j x4 o4 ho4 sl4 sc4 tr4 k a)

theorem layer2_apply (j : Fin 24) (H : FVec Ideal ⟨2, ![M, 19]⟩ .f32)
    (x6 : FVec Ideal ⟨3, ![24, 6, 19]⟩ .f32) (x7 : FVec Ideal ⟨2, ![24, 6]⟩ .f32)
    (o6 : Fin 3 → ℕ) (ho6 : o6 = ![j.val, 0, 0]) (o7 : Fin 2 → ℕ) (ho7 : o7 = ![j.val, 0])
    (sl6 : (⟨3, ![24, 6, 19]⟩ : Shape).Slices o6 ⟨3, ![1, 6, 19]⟩)
    (sc6 : (⟨3, ![1, 6, 19]⟩ : Shape).ShapeCasts ⟨2, ![6, 19]⟩)
    (tr6 : (⟨2, ![6, 19]⟩ : Shape).Transposes [1, 0] ⟨2, ![19, 6]⟩)
    (sl7 : (⟨2, ![24, 6]⟩ : Shape).Slices o7 ⟨2, ![1, 6]⟩)
    (sc7 : (⟨2, ![1, 6]⟩ : Shape).ShapeCasts ⟨1, ![6]⟩)
    (bc7a : (⟨1, ![6]⟩ : Shape).BroadcastsInDim ⟨2, ![1, 6]⟩ ![1])
    (bc7b : (⟨2, ![1, 6]⟩ : Shape).BroadcastsInDim ⟨2, ![M, 6]⟩ ![0, 1]) (r : Fin M) (q : Fin 6) :
    addf (Host.dotGeneral (DotDims.plain M 19 6) none H
          (transpose ⟨2, ![19, 6]⟩ [1, 0] (shapeCast ⟨2, ![6, 19]⟩ (extractStridedSlice ⟨3, ![1, 6, 19]⟩ o6 x6 sl6) sc6) tr6))
        (broadcastInDim ⟨2, ![M, 6]⟩ ![0, 1] bc7b (broadcastInDim ⟨2, ![1, 6]⟩ ![1] bc7a
          (shapeCast ⟨1, ![6]⟩ (extractStridedSlice ⟨2, ![1, 6]⟩ o7 x7 sl7) sc7))) (ix2 r q)
      = layer2 (fun k => H (ix2 r k)) (fun q k => x6 (ix3 j q k)) (fun q => x7 (ix2 j q)) q := by
  show FloatOps.dotGeneral (DotDims.plain M 19 6) none .single H _ (ix2 r q) + _ = _
  rw [Cert.PlainDot.dotGeneral_apply, biasSlice_apply j x7 o7 ho7]
  unfold layer2
  refine congrArg (fun s => s + x7 (ix2 j q)) (Finset.sum_congr rfl fun k _ => ?_)
  exact congrArg (H (ix2 r k) * ·) (weightSlice_apply j x6 o6 ho6 sl6 sc6 tr6 k q)

theorem rotOf_row (x0 : (⟨3, ![M, 24, 9]⟩ : Shape).Idx → EReal) (r : Fin M) (j : Fin 24) (a : Fin 9) :
    rotOf (rowOf (flatRot x0) r) j a = x0 (ix3 r j a) := by
  have hj := j.isLt; have ha := a.isLt
  unfold rotOf rowOf flatRot
  exact congrArg x0 (funext fun c => Fin.ext (by
    match c with
    | ⟨0, _⟩ => rfl
    | ⟨1, _⟩ => show (9 * j.val + a.val) / 9 = j.val; omega
    | ⟨2, _⟩ => show (9 * j.val + a.val) % 9 = a.val; omega))

theorem jtrOf_row (x1 : (⟨3, ![M, 24, 3]⟩ : Shape).Idx → EReal) (r : Fin M) (j : Fin 24) (a : Fin 3) :
    jtrOf (rowOf (flatJtr x1) r) j a = x1 (ix3 r j a) := by
  have hj := j.isLt; have ha := a.isLt
  unfold jtrOf rowOf flatJtr
  exact congrArg x1 (funext fun c => Fin.ext (by
    match c with
    | ⟨0, _⟩ => rfl
    | ⟨1, _⟩ => show (3 * j.val + a.val) / 3 = j.val; omega
    | ⟨2, _⟩ => show (3 * j.val + a.val) % 3 = a.val; omega))

theorem rot_eq (j : Fin 24) (x0 : FVec Ideal ⟨3, ![M, 24, 9]⟩ .f32) (o : Fin 3 → ℕ) (ho : o = ![0, j.val, 0])
    (hs : (⟨3, ![M, 24, 9]⟩ : Shape).Slices o ⟨3, ![M, 1, 9]⟩)
    (hc : (⟨3, ![M, 1, 9]⟩ : Shape).ShapeCasts ⟨2, ![M, 9]⟩) :
    shapeCast ⟨2, ![M, 9]⟩ (extractStridedSlice ⟨3, ![M, 1, 9]⟩ o x0 hs) hc
      = fun i => rotOf (rowOf (flatRot x0) (i 0)) j (i 1) := by
  funext i
  obtain ⟨r, a, rfl⟩ : ∃ (r : Fin M) (a : Fin 9), i = ix2 r a := ⟨i 0, i 1, eq_ix2 i⟩
  rw [jointSlice_apply j x0 o ho]
  exact (rotOf_row x0 r j a).symm

theorem jtr_eq (j : Fin 24) (x1 : FVec Ideal ⟨3, ![M, 24, 3]⟩ .f32) (o : Fin 3 → ℕ) (ho : o = ![0, j.val, 0])
    (hs : (⟨3, ![M, 24, 3]⟩ : Shape).Slices o ⟨3, ![M, 1, 3]⟩)
    (hc : (⟨3, ![M, 1, 3]⟩ : Shape).ShapeCasts ⟨2, ![M, 3]⟩) :
    shapeCast ⟨2, ![M, 3]⟩ (extractStridedSlice ⟨3, ![M, 1, 3]⟩ o x1 hs) hc
      = fun i => jtrOf (rowOf (flatJtr x1) (i 0)) j (i 1) := by
  funext i
  obtain ⟨r, a, rfl⟩ : ∃ (r : Fin M) (a : Fin 3), i = ix2 r a := ⟨i 0, i 1, eq_ix2 i⟩
  rw [jointSlice_apply j x1 o ho]
  exact (jtrOf_row x1 r j a).symm

theorem bone_child_eq (j p : Fin 24) (x1 : FVec Ideal ⟨3, ![M, 24, 3]⟩ .f32)
    (oj op : Fin 3 → ℕ) (hoj : oj = ![0, j.val, 0]) (hop : op = ![0, p.val, 0])
    (hsj : (⟨3, ![M, 24, 3]⟩ : Shape).Slices oj ⟨3, ![M, 1, 3]⟩)
    (hsp : (⟨3, ![M, 24, 3]⟩ : Shape).Slices op ⟨3, ![M, 1, 3]⟩)
    (hc : (⟨3, ![M, 1, 3]⟩ : Shape).ShapeCasts ⟨2, ![M, 3]⟩)
    (hr : (⟨2, ![M, 3]⟩ : Shape).ReducesTo [1] ⟨1, ![M]⟩) (h0 : 0 < (⟨0, ![]⟩ : Shape).numel)
    (hb : (⟨1, ![M]⟩ : Shape).BroadcastsInDim ⟨2, ![M, 1]⟩ ![0]) :
    Host.sqrt (broadcastInDim ⟨2, ![M, 1]⟩ ![0] hb (Host.reduceAdd (mulf (subf (shapeCast ⟨2, ![M, 3]⟩ (extractStridedSlice ⟨3, ![M, 1, 3]⟩ oj x1 hsj) hc) (shapeCast ⟨2, ![M, 3]⟩ (extractStridedSlice ⟨3, ![M, 1, 3]⟩ op x1 hsp) hc)) (subf (shapeCast ⟨2, ![M, 3]⟩ (extractStridedSlice ⟨3, ![M, 1, 3]⟩ oj x1 hsj) hc) (shapeCast ⟨2, ![M, 3]⟩ (extractStridedSlice ⟨3, ![M, 1, 3]⟩ op x1 hsp) hc))) (constant (F := Ideal) ⟨0, ![]⟩ .f32 0x00000000#32) hr h0))
      = fun i => boneLen (diffOf (rowOf (flatJtr x1) (i 0)) j p) := by
  funext i
  obtain ⟨r, c, rfl⟩ : ∃ (r : Fin M) (c : Fin 1), i = ix2 r c := ⟨i 0, i 1, eq_ix2 i⟩
  rw [norm_apply]
  show _ = boneLen (diffOf (rowOf (flatJtr x1) r) j p)
  refine congrArg boneLen (funext fun a => ?_)
  show subf _ _ (ix2 r a) = _
  rw [subf_apply, jointSlice_apply j x1 oj hoj, jointSlice_apply p x1 op hop]
  unfold diffOf
  rw [jtrOf_row, jtrOf_row]

theorem bone_root_eq (x1 : FVec Ideal ⟨3, ![M, 24, 3]⟩ .f32)
    (oj : Fin 3 → ℕ) (hoj : oj = ![0, 0, 0])
    (hsj : (⟨3, ![M, 24, 3]⟩ : Shape).Slices oj ⟨3, ![M, 1, 3]⟩)
    (hc : (⟨3, ![M, 1, 3]⟩ : Shape).ShapeCasts ⟨2, ![M, 3]⟩)
    (hr : (⟨2, ![M, 3]⟩ : Shape).ReducesTo [1] ⟨1, ![M]⟩) (h0 : 0 < (⟨0, ![]⟩ : Shape).numel)
    (hb : (⟨1, ![M]⟩ : Shape).BroadcastsInDim ⟨2, ![M, 1]⟩ ![0]) :
    Host.sqrt (broadcastInDim ⟨2, ![M, 1]⟩ ![0] hb (Host.reduceAdd (mulf (shapeCast ⟨2, ![M, 3]⟩ (extractStridedSlice ⟨3, ![M, 1, 3]⟩ oj x1 hsj) hc) (shapeCast ⟨2, ![M, 3]⟩ (extractStridedSlice ⟨3, ![M, 1, 3]⟩ oj x1 hsj) hc)) (constant (F := Ideal) ⟨0, ![]⟩ .f32 0x00000000#32) hr h0))
      = fun i => boneLen (jtrOf (rowOf (flatJtr x1) (i 0)) 0) := by
  funext i
  obtain ⟨r, c, rfl⟩ : ∃ (r : Fin M) (c : Fin 1), i = ix2 r c := ⟨i 0, i 1, eq_ix2 i⟩
  rw [norm_apply]
  show _ = boneLen (jtrOf (rowOf (flatJtr x1) r) 0)
  refine congrArg boneLen (funext fun a => ?_)
  show (shapeCast ⟨2, ![M, 3]⟩ (extractStridedSlice ⟨3, ![M, 1, 3]⟩ oj x1 hsj) hc) (ix2 r a) = _
  rw [jointSlice_apply (0 : Fin 24) x1 oj hoj, jtrOf_row]

theorem mlp_eq (j : Fin 24) (a : FVec Ideal ⟨2, ![M, 9]⟩ .f32) (b : FVec Ideal ⟨2, ![M, 3]⟩ .f32)
    (cc : FVec Ideal ⟨2, ![M, 1]⟩ .f32) (feat : FVec Ideal ⟨2, ![M, 6]⟩ .f32)
    (x4 : FVec Ideal ⟨3, ![24, 19, 19]⟩ .f32) (x5 : FVec Ideal ⟨2, ![24, 19]⟩ .f32)
    (x6 : FVec Ideal ⟨3, ![24, 6, 19]⟩ .f32) (x7 : FVec Ideal ⟨2, ![24, 6]⟩ .f32)
    (o4 : Fin 3 → ℕ) (ho4 : o4 = ![j.val, 0, 0]) (o5 : Fin 2 → ℕ) (ho5 : o5 = ![j.val, 0])
    (o6 : Fin 3 → ℕ) (ho6 : o6 = ![j.val, 0, 0]) (o7 : Fin 2 → ℕ) (ho7 : o7 = ![j.val, 0])
    (hcat : Shape.Concatenates [⟨2, ![M, 9]⟩, ⟨2, ![M, 3]⟩, ⟨2, ![M, 1]⟩, ⟨2, ![M, 6]⟩] ⟨2, ![M, 19]⟩ 1)
    (sl4 : (⟨3, ![24, 19, 19]⟩ : Shape).Slices o4 ⟨3, ![1, 19, 19]⟩)
    (sc4 : (⟨3, ![1, 19, 19]⟩ : Shape).ShapeCasts ⟨2, ![19, 19]⟩)
    (tr4 : (⟨2, ![19, 19]⟩ : Shape).Transposes [1, 0] ⟨2, ![19, 19]⟩)
    (sl5 : (⟨2, ![24, 19]⟩ : Shape).Slices o5 ⟨2, ![1, 19]⟩)
    (sc5 : (⟨2, ![1, 19]⟩ : Shape).ShapeCasts ⟨1, ![19]⟩)
    (bc5a : (⟨1, ![19]⟩ : Shape).BroadcastsInDim ⟨2, ![1, 19]⟩ ![1])
    (bc5b : (⟨2, ![1, 19]⟩ : Shape).BroadcastsInDim ⟨2, ![M, 19]⟩ ![0, 1])
    (bcz : (⟨0, ![]⟩ : Shape).BroadcastsInDim ⟨2, ![M, 19]⟩ ![])
    (sl6 : (⟨3, ![24, 6, 19]⟩ : Shape).Slices o6 ⟨3, ![1, 6, 19]⟩)
    (sc6 : (⟨3, ![1, 6, 19]⟩ : Shape).ShapeCasts ⟨2, ![6, 19]⟩)
    (tr6 : (⟨2, ![6, 19]⟩ : Shape).Transposes [1, 0] ⟨2, ![19, 6]⟩)
    (sl7 : (⟨2, ![24, 6]⟩ : Shape).Slices o7 ⟨2, ![1, 6]⟩)
    (sc7 : (⟨2, ![1, 6]⟩ : Shape).ShapeCasts ⟨1, ![6]⟩)
    (bc7a : (⟨1, ![6]⟩ : Shape).BroadcastsInDim ⟨2, ![1, 6]⟩ ![1])
    (bc7b : (⟨2, ![1, 6]⟩ : Shape).BroadcastsInDim ⟨2, ![M, 6]⟩ ![0, 1]) :
    addf (Host.dotGeneral (DotDims.plain M 19 6) none
        (maximumf (addf (Host.dotGeneral (DotDims.plain M 19 19) none (concatenate ⟨2, ![M, 19]⟩ 1 [⟨⟨2, ![M, 9]⟩, a⟩, ⟨⟨2, ![M, 3]⟩, b⟩, ⟨⟨2, ![M, 1]⟩, cc⟩, ⟨⟨2, ![M, 6]⟩, feat⟩] hcat)
            (transpose ⟨2, ![19, 19]⟩ [1, 0] (shapeCast ⟨2, ![19, 19]⟩ (extractStridedSlice ⟨3, ![1, 19, 19]⟩ o4 x4 sl4) sc4) tr4))
          (broadcastInDim ⟨2, ![M, 19]⟩ ![0, 1] bc5b (broadcastInDim ⟨2, ![1, 19]⟩ ![1] bc5a (shapeCast ⟨1, ![19]⟩ (extractStridedSlice ⟨2, ![1, 19]⟩ o5 x5 sl5) sc5))))
          (broadcastInDim ⟨2, ![M, 19]⟩ ![] bcz (constant (F := Ideal) ⟨0, ![]⟩ .f32 0x00000000#32)))
        (transpose ⟨2, ![19, 6]⟩ [1, 0] (shapeCast ⟨2, ![6, 19]⟩ (extractStridedSlice ⟨3, ![1, 6, 19]⟩ o6 x6 sl6) sc6) tr6))
      (broadcastInDim ⟨2, ![M, 6]⟩ ![0, 1] bc7b (broadcastInDim ⟨2, ![1, 6]⟩ ![1] bc7a (shapeCast ⟨1, ![6]⟩ (extractStridedSlice ⟨2, ![1, 6]⟩ o7 x7 sl7) sc7)))
      = fun i => layer2 (layer1 (inFeat (rowOf a (i 0)) (rowOf b (i 0)) (cc (ix2 (i 0) 0)) (rowOf feat (i 0)))
          (fun u k => x4 (ix3 j u k)) (fun u => x5 (ix2 j u))) (fun q k => x6 (ix3 j q k)) (fun q => x7 (ix2 j q)) (i 1) := by
  funext i
  obtain ⟨r, q, rfl⟩ : ∃ (r : Fin M) (q : Fin 6), i = ix2 r q := ⟨i 0, i 1, eq_ix2 i⟩
  rw [layer2_apply j _ x6 x7 o6 ho6 o7 ho7]
  show _ = layer2 (layer1 (inFeat (rowOf a r) (rowOf b r) (cc (ix2 r 0)) (rowOf feat r)) (fun u k => x4 (ix3 j u k)) (fun u => x5 (ix2 j u))) (fun q k => x6 (ix3 j q k)) (fun q => x7 (ix2 j q)) q
  refine congrArg (fun f => layer2 f (fun q k => x6 (ix3 j q k)) (fun q => x7 (ix2 j q)) q) (funext fun u => ?_)
  rw [layer1_apply j _ x4 x5 o4 ho4 o5 ho5]
  refine congrArg (fun f => layer1 f (fun u k => x4 (ix3 j u k)) (fun u => x5 (ix2 j u)) u) (funext fun k => ?_)
  exact KJoint.cat_apply a b cc feat hcat r k

theorem flatRot_eq (x0 : FVec Ideal ⟨3, ![M, 24, 9]⟩ .f32)
    (h : (⟨3, ![M, 24, 9]⟩ : Shape).ShapeCasts ⟨2, ![M, 216]⟩) : shapeCast ⟨2, ![M, 216]⟩ x0 h = flatRot x0 := by
  funext y
  have h1 : (y 1).val < 216 := (y 1).isLt
  unfold flatRot
  refine shapeCast_apply x0 h y _ ?_
  rw [Shape.rowMajor_val_three, Shape.rowMajor_val_two]
  show ((y 0).val * 24 + (y 1).val / 9) * 9 + (y 1).val % 9 = (y 0).val * 216 + (y 1).val
  omega

theorem flatJtr_eq (x1 : FVec Ideal ⟨3, ![M, 24, 3]⟩ .f32)
    (h : (⟨3, ![M, 24, 3]⟩ : Shape).ShapeCasts ⟨2, ![M, 72]⟩) : shapeCast ⟨2, ![M, 72]⟩ x1 h = flatJtr x1 := by
  funext y
  have h1 : (y 1).val < 72 := (y 1).isLt
  unfold flatJtr
  refine shapeCast_apply x1 h y _ ?_
  rw [Shape.rowMajor_val_three, Shape.rowMajor_val_two]
  show ((y 0).val * 24 + (y 1).val / 3) * 3 + (y 1).val % 3 = (y 0).val * 72 + (y 1).val
  omega

theorem glob_eq (a : FVec Ideal ⟨2, ![M, 216]⟩ .f32) (b : FVec Ideal ⟨2, ![M, 72]⟩ .f32)
    (x2 : FVec Ideal ⟨2, ![6, 288]⟩ .f32) (x3 : FVec Ideal ⟨1, ![6]⟩ .f32)
    (hcat : Shape.Concatenates [⟨2, ![M, 216]⟩, ⟨2, ![M, 72]⟩] ⟨2, ![M, 288]⟩ 1)
    (ht : (⟨2, ![6, 288]⟩ : Shape).Transposes [1, 0] ⟨2, ![288, 6]⟩)
    (hb1 : (⟨1, ![6]⟩ : Shape).BroadcastsInDim ⟨2, ![1, 6]⟩ ![1])
    (hb2 : (⟨2, ![1, 6]⟩ : Shape).BroadcastsInDim ⟨2, ![M, 6]⟩ ![0, 1]) :
    addf (Host.dotGeneral (DotDims.plain M 288 6) none (concatenate ⟨2, ![M, 288]⟩ 1 [⟨⟨2, ![M, 216]⟩, a⟩, ⟨⟨2, ![M, 72]⟩, b⟩] hcat)
        (transpose ⟨2, ![288, 6]⟩ [1, 0] x2 ht))
      (broadcastInDim ⟨2, ![M, 6]⟩ ![0, 1] hb2 (broadcastInDim ⟨2, ![1, 6]⟩ ![1] hb1 x3))
      = fun i => glob x2 x3 (rowOf a (i 0)) (rowOf b (i 0)) (i 1) := by
  funext i
  obtain ⟨r, q, rfl⟩ : ∃ (r : Fin M) (q : Fin 6), i = ix2 r q := ⟨i 0, i 1, eq_ix2 i⟩
  show FloatOps.dotGeneral (DotDims.plain M 288 6) none .single _ _ (ix2 r q) + _ = _
  rw [Cert.PlainDot.dotGeneral_apply, rowBcast_apply]
  show _ = (∑ k : Fin 288, rowCat (rowOf a r) (rowOf b r) k * x2 (ix2 q k)) + x3 (ix1 q)
  refine congrArg (· + x3 (ix1 q)) (Finset.sum_congr rfl fun k _ => ?_)
  exact congrArg₂ (· * ·) (KJoint.rowcat_apply a b hcat r k) (transpose_ix2_apply x2 ht k q)

end Cert.Tree.RJoint

end
-- ==== Proof.RefV0.lean ====
import proofs.«142136_j58514634440790_1_alg».proof.Proof.RefS0
import proofs.«142136_j58514634440790_1_alg».proof.Proof.RJoint
import Idealize.ShloMosaic.Lib.StableHlo.Run

noncomputable section

namespace Cert.ReferenceIdeal.RunP

open Cert.ReferenceIdeal Cert.ReferenceIdeal.Gen Idealize.ShloMosaic Idealize.ShloMosaic.TcCoe Idealize.SL.Sem Idealize.ShloMosaic.StableHlo
open Cert.Tree

variable (V : Valuation τ sig (Elt Ideal)) (A0 : FVec Ideal S262144x24x9 .f32) (A1 : FVec Ideal S262144x24x3 .f32) (A2 : FVec Ideal S6x288 .f32) (A3 : FVec Ideal S6 .f32) (A4 : FVec Ideal S24x19x19 .f32) (A5 : FVec Ideal S24x19 .f32) (A6 : FVec Ideal S24x6x19 .f32) (A7 : FVec Ideal S24x6 .f32)

/-- The rotations laid end to end, row by row. -/
theorem J0a_flat0 (h0 : V (Proc.devRef .tc main_arg0) = A0) :
    after opsJ0a V (Proc.devRef .tc main_v0) = flatRot (M := 262144) A0 := by
  simp only [opsJ0a]
  after_results_simp
  rw [h0]
  exact RJoint.flatRot_eq (M := 262144) A0 _

/-- The translations laid end to end, row by row. -/
theorem J0a_flat1 (h1 : V (Proc.devRef .tc main_arg1) = A1) :
    after opsJ0a V (Proc.devRef .tc main_v1) = flatJtr (M := 262144) A1 := by
  simp only [opsJ0a]
  after_results_simp
  rw [h1]
  exact RJoint.flatJtr_eq (M := 262144) A1 _

/-- The linear map of the whole row that feeds the root. -/
theorem J0b_glob
    (hf0 : V (Proc.devRef .tc main_v0) = flatRot (M := 262144) A0) (hf1 : V (Proc.devRef .tc main_v1) = flatJtr (M := 262144) A1)
    (h2 : V (Proc.devRef .tc main_arg2) = A2) (h3 : V (Proc.devRef .tc main_arg3) = A3) :
    after opsJ0b V (Proc.devRef .tc main_v7) = fun i => glob A2 A3 (rowOf (flatRot (M := 262144) A0) (i 0)) (rowOf (flatJtr (M := 262144) A1) (i 0)) (i 1) := by
  simp only [opsJ0b]
  after_results_simp
  try dsimp only [Matrix.cons_val]
  rw [h2, h3]
  refine (RJoint.glob_eq (M := 262144) (V (Proc.devRef .tc main_v0)) (V (Proc.devRef .tc main_v1)) A2 A3 _ _ _ _).trans ?_
  rw [hf0, hf1]
  rfl

/-- The root's rotation entries. -/
theorem J0b_rot (h0 : V (Proc.devRef .tc main_arg0) = A0) :
    after opsJ0b V (Proc.devRef .tc main_v9) = fun i => rotOf (rowOf (flatRot (M := 262144) A0) (i 0)) 0 (i 1) := by
  simp only [opsJ0b]
  after_results_simp
  rw [h0]
  exact RJoint.rot_eq (M := 262144) 0 A0 _ rfl _ _

/-- The root's translation entries. -/
theorem J0b_jtr (h1 : V (Proc.devRef .tc main_arg1) = A1) :
    after opsJ0b V (Proc.devRef .tc main_v11) = fun i => jtrOf (rowOf (flatJtr (M := 262144) A1) (i 0)) 0 (i 1) := by
  simp only [opsJ0b]
  after_results_simp
  rw [h1]
  exact RJoint.jtr_eq (M := 262144) 0 A1 _ rfl _ _

/-- The root's bone length: the length of its own translation. -/
theorem J0b_bone (h1 : V (Proc.devRef .tc main_arg1) = A1) :
    after opsJ0b V (Proc.devRef .tc main_v12) = fun i => boneLen (jtrOf (rowOf (flatJtr (M := 262144) A1) (i 0)) 0) := by
  simp only [opsJ0b]
  after_results_simp
  try simp only [TRef.ofBuf, TRef.toBuf, cast_eq]
  rw [h1]
  exact RJoint.bone_root_eq (M := 262144) A1 _ rfl _ _ _ _ _

/-- The root's outputs. -/
theorem J0c_out
    (ha : V (Proc.devRef .tc main_v9) = fun i => rotOf (rowOf (flatRot (M := 262144) A0) (i 0)) 0 (i 1)) (hb : V (Proc.devRef .tc main_v11) = fun i => jtrOf (rowOf (flatJtr (M := 262144) A1) (i 0)) 0 (i 1))
    (hc : V (Proc.devRef .tc main_v12) = fun i => boneLen (jtrOf (rowOf (flatJtr (M := 262144) A1) (i 0)) 0))
    (hd : V (Proc.devRef .tc main_v7) = fun i => glob A2 A3 (rowOf (flatRot (M := 262144) A0) (i 0)) (rowOf (flatJtr (M := 262144) A1) (i 0)) (i 1))
    (h4 : V (Proc.devRef .tc main_arg4) = A4) (h5 : V (Proc.devRef .tc main_arg5) = A5) (h6 : V (Proc.devRef .tc main_arg6) = A6) (h7 : V (Proc.devRef .tc main_arg7) = A7) :
    after opsJ0c V (Proc.devRef .tc main_v32) = blkJoint (M := 262144) A2 A3 A4 A5 A6 A7 0 (flatRot A0) (flatJtr A1) := by
  simp only [opsJ0c]
  after_results_simp
  try dsimp only [Matrix.cons_val]
  try simp only [TRef.ofBuf, TRef.toBuf, cast_eq]
  rw [h4, h5, h6, h7]
  refine (RJoint.mlp_eq (M := 262144) 0 (V (Proc.devRef .tc main_v9)) (V (Proc.devRef .tc main_v11)) (V (Proc.devRef .tc main_v12)) (V (Proc.devRef .tc main_v7)) A4 A5 A6 A7 _ rfl _ rfl _ rfl _ rfl _ _ _ _ _ _ _ _ _ _ _ _ _ _ _ _).trans ?_
  rw [ha, hb, hc, hd]
  rfl

/-- Joint 1's rotation entries, as its first stretch leaves them. -/
theorem J1a_rot (h0 : V (Proc.devRef .tc main_arg0) = A0) :
    after opsJ1a V (Proc.devRef .tc main_v34) = fun i => rotOf (rowOf (flatRot (M := 262144) A0) (i 0)) 1 (i 1) := by
  simp only [opsJ1a]
  after_results_simp
  rw [h0]
  exact RJoint.rot_eq (M := 262144) 1 A0 _ rfl _ _

/-- Joint 1's translation entries. -/
theorem J1a_jtr (h1 : V (Proc.devRef .tc main_arg1) = A1) :
    after opsJ1a V (Proc.devRef .tc main_v36) = fun i => jtrOf (rowOf (flatJtr (M := 262144) A1) (i 0)) 1 (i 1) := by
  simp only [opsJ1a]
  after_results_simp
  rw [h1]
  exact RJoint.jtr_eq (M := 262144) 1 A1 _ rfl _ _

/-- Joint 1's bone length: the length of its translation minus joint 0's. -/
theorem J1a_bone (h1 : V (Proc.devRef .tc main_arg1) = A1) :
    after opsJ1a V (Proc.devRef .tc main_v40) = fun i => boneLen (diffOf (rowOf (flatJtr (M := 262144) A1) (i 0)) 1 0) := by
  simp only [opsJ1a]
  after_results_simp
  try simp only [TRef.ofBuf, TRef.toBuf, cast_eq]
  rw [h1]
  exact RJoint.bone_child_eq (M := 262144) 1 0 A1 _ _ rfl rfl _ _ _ _ _ _

/-- Joint 1's outputs: the two layers on its nineteen inputs. -/
theorem J1b_out
    (ha : V (Proc.devRef .tc main_v34) = fun i => rotOf (rowOf (flatRot (M := 262144) A0) (i 0)) 1 (i 1)) (hb : V (Proc.devRef .tc main_v36) = fun i => jtrOf (rowOf (flatJtr (M := 262144) A1) (i 0)) 1 (i 1))
    (hc : V (Proc.devRef .tc main_v40) = fun i => boneLen (diffOf (rowOf (flatJtr (M := 262144) A1) (i 0)) 1 0))
    (hd : V (Proc.devRef .tc main_v32) = blkJoint (M := 262144) A2 A3 A4 A5 A6 A7 0 (flatRot A0) (flatJtr A1))
    (h4 : V (Proc.devRef .tc main_arg4) = A4) (h5 : V (Proc.devRef .tc main_arg5) = A5) (h6 : V (Proc.devRef .tc main_arg6) = A6) (h7 : V (Proc.devRef .tc main_arg7) = A7) :
    after opsJ1b V (Proc.devRef .tc main_v60) = blkJoint (M := 262144) A2 A3 A4 A5 A6 A7 1 (flatRot A0) (flatJtr A1) := by
  simp only [opsJ1b]
  after_results_simp
  try dsimp only [Matrix.cons_val]
  try simp only [TRef.ofBuf, TRef.toBuf, cast_eq]
  rw [h4, h5, h6, h7]
  refine (RJoint.mlp_eq (M := 262144) 1 (V (Proc.devRef .tc main_v34)) (V (Proc.devRef .tc main_v36)) (V (Proc.devRef .tc main_v40)) (V (Proc.devRef .tc main_v32)) A4 A5 A6 A7 _ rfl _ rfl _ rfl _ rfl _ _ _ _ _ _ _ _ _ _ _ _ _ _ _ _).trans ?_
  rw [ha, hb, hc, hd]
  rfl

/-- Joint 2's rotation entries, as its first stretch leaves them. -/
theorem J2a_rot (h0 : V (Proc.devRef .tc main_arg0) = A0) :
    after opsJ2a V (Proc.devRef .tc main_v62) = fun i => rotOf (rowOf (flatRot (M := 262144) A0) (i 0)) 2 (i 1) := by
  simp only [opsJ2a]
  after_results_simp
  rw [h0]
  exact RJoint.rot_eq (M := 262144) 2 A0 _ rfl _ _

/-- Joint 2's translation entries. -/
theorem J2a_jtr (h1 : V (Proc.devRef .tc main_arg1) = A1) :
    after opsJ2a V (Proc.devRef .tc main_v64) = fun i => jtrOf (rowOf (flatJtr (M := 262144) A1) (i 0)) 2 (i 1) := by
  simp only [opsJ2a]
  after_results_simp
  rw [h1]
  exact RJoint.jtr_eq (M := 262144) 2 A1 _ rfl _ _

/-- Joint 2's bone length: the length of its translation minus joint 0's. -/
theorem J2a_bone (h1 : V (Proc.devRef .tc main_arg1) = A1) :
    after opsJ2a V (Proc.devRef .tc main_v68) = fun i => boneLen (diffOf (rowOf (flatJtr (M := 262144) A1) (i 0)) 2 0) := by
  simp only [opsJ2a]
  after_results_simp
  try simp only [TRef.ofBuf, TRef.toBuf, cast_eq]
  rw [h1]
  exact RJoint.bone_child_eq (M := 262144) 2 0 A1 _ _ rfl rfl _ _ _ _ _ _

/-- Joint 2's outputs: the two layers on its nineteen inputs. -/
theorem J2b_out
    (ha : V (Proc.devRef .tc main_v62) = fun i => rotOf (rowOf (flatRot (M := 262144) A0) (i 0)) 2 (i 1)) (hb : V (Proc.devRef .tc main_v64) = fun i => jtrOf (rowOf (flatJtr (M := 262144) A1) (i 0)) 2 (i 1))
    (hc : V (Proc.devRef .tc main_v68) = fun i => boneLen (diffOf (rowOf (flatJtr (M := 262144) A1) (i 0)) 2 0))
    (hd : V (Proc.devRef .tc main_v32) = blkJoint (M := 262144) A2 A3 A4 A5 A6 A7 0 (flatRot A0) (flatJtr A1))
    (h4 : V (Proc.devRef .tc main_arg4) = A4) (h5 : V (Proc.devRef .tc main_arg5) = A5) (h6 : V (Proc.devRef .tc main_arg6) = A6) (h7 : V (Proc.devRef .tc main_arg7) = A7) :
    after opsJ2b V (Proc.devRef .tc main_v88) = blkJoint (M := 262144) A2 A3 A4 A5 A6 A7 2 (flatRot A0) (flatJtr A1) := by
  simp only [opsJ2b]
  after_results_simp
  try dsimp only [Matrix.cons_val]
  try simp only [TRef.ofBuf, TRef.toBuf, cast_eq]
  rw [h4, h5, h6, h7]
  refine (RJoint.mlp_eq (M := 262144) 2 (V (Proc.devRef .tc main_v62)) (V (Proc.devRef .tc main_v64)) (V (Proc.devRef .tc main_v68)) (V (Proc.devRef .tc main_v32)) A4 A5 A6 A7 _ rfl _ rfl _ rfl _ rfl _ _ _ _ _ _ _ _ _ _ _ _ _ _ _ _).trans ?_
  rw [ha, hb, hc, hd]
  rfl

end Cert.ReferenceIdeal.RunP

end
-- ==== Proof.RefV1.lean ====
import proofs.«142136_j58514634440790_1_alg».proof.Proof.RefS1
import proofs.«142136_j58514634440790_1_alg».proof.Proof.RJoint
import Idealize.ShloMosaic.Lib.StableHlo.Run

noncomputable section

namespace Cert.ReferenceIdeal.RunP

open Cert.ReferenceIdeal Cert.ReferenceIdeal.Gen Idealize.ShloMosaic Idealize.ShloMosaic.TcCoe Idealize.SL.Sem Idealize.ShloMosaic.StableHlo
open Cert.Tree

variable (V : Valuation τ sig (Elt Ideal)) (A0 : FVec Ideal S262144x24x9 .f32) (A1 : FVec Ideal S262144x24x3 .f32) (A2 : FVec Ideal S6x288 .f32) (A3 : FVec Ideal S6 .f32) (A4 : FVec Ideal S24x19x19 .f32) (A5 : FVec Ideal S24x19 .f32) (A6 : FVec Ideal S24x6x19 .f32) (A7 : FVec Ideal S24x6 .f32)

/-- Joint 3's rotation entries, as its first stretch leaves them. -/
theorem J3a_rot (h0 : V (Proc.devRef .tc main_arg0) = A0) :
    after opsJ3a V (Proc.devRef .tc main_v90) = fun i => rotOf (rowOf (flatRot (M := 262144) A0) (i 0)) 3 (i 1) := by
  simp only [opsJ3a]
  after_results_simp
  rw [h0]
  exact RJoint.rot_eq (M := 262144) 3 A0 _ rfl _ _

/-- Joint 3's translation entries. -/
theorem J3a_jtr (h1 : V (Proc.devRef .tc main_arg1) = A1) :
    after opsJ3a V (Proc.devRef .tc main_v92) = fun i => jtrOf (rowOf (flatJtr (M := 262144) A1) (i 0)) 3 (i 1) := by
  simp only [opsJ3a]
  after_results_simp
  rw [h1]
  exact RJoint.jtr_eq (M := 262144) 3 A1 _ rfl _ _

/-- Joint 3's bone length: the length of its translation minus joint 0's. -/
theorem J3a_bone (h1 : V (Proc.devRef .tc main_arg1) = A1) :
    after opsJ3a V (Proc.devRef .tc main_v96) = fun i => boneLen (diffOf (rowOf (flatJtr (M := 262144) A1) (i 0)) 3 0) := by
  simp only [opsJ3a]
  after_results_simp
  try simp only [TRef.ofBuf, TRef.toBuf, cast_eq]
  rw [h1]
  exact RJoint.bone_child_eq (M := 262144) 3 0 A1 _ _ rfl rfl _ _ _ _ _ _

/-- Joint 3's outputs: the two layers on its nineteen inputs. -/
theorem J3b_out
    (ha : V (Proc.devRef .tc main_v90) = fun i => rotOf (rowOf (flatRot (M := 262144) A0) (i 0)) 3 (i 1)) (hb : V (Proc.devRef .tc main_v92) = fun i => jtrOf (rowOf (flatJtr (M := 262144) A1) (i 0)) 3 (i 1))
    (hc : V (Proc.devRef .tc main_v96) = fun i => boneLen (diffOf (rowOf (flatJtr (M := 262144) A1) (i 0)) 3 0))
    (hd : V (Proc.devRef .tc main_v32) = blkJoint (M := 262144) A2 A3 A4 A5 A6 A7 0 (flatRot A0) (flatJtr A1))
    (h4 : V (Proc.devRef .tc main_arg4) = A4) (h5 : V (Proc.devRef .tc main_arg5) = A5) (h6 : V (Proc.devRef .tc main_arg6) = A6) (h7 : V (Proc.devRef .tc main_arg7) = A7) :
    after opsJ3b V (Proc.devRef .tc main_v116) = blkJoint (M := 262144) A2 A3 A4 A5 A6 A7 3 (flatRot A0) (flatJtr A1) := by
  simp only [opsJ3b]
  after_results_simp
  try dsimp only [Matrix.cons_val]
  try simp only [TRef.ofBuf, TRef.toBuf, cast_eq]
  rw [h4, h5, h6, h7]
  refine (RJoint.mlp_eq (M := 262144) 3 (V (Proc.devRef .tc main_v90)) (V (Proc.devRef .tc main_v92)) (V (Proc.devRef .tc main_v96)) (V (Proc.devRef .tc main_v32)) A4 A5 A6 A7 _ rfl _ rfl _ rfl _ rfl _ _ _ _ _ _ _ _ _ _ _ _ _ _ _ _).trans ?_
  rw [ha, hb, hc, hd]
  rfl

/-- Joint 4's rotation entries, as its first stretch leaves them. -/
theorem J4a_rot (h0 : V (Proc.devRef .tc main_arg0) = A0) :
    after opsJ4a V (Proc.devRef .tc main_v118) = fun i => rotOf (rowOf (flatRot (M := 262144) A0) (i 0)) 4 (i 1) := by
  simp only [opsJ4a]
  after_results_simp
  rw [h0]
  exact RJoint.rot_eq (M := 262144) 4 A0 _ rfl _ _

/-- Joint 4's translation entries. -/
theorem J4a_jtr (h1 : V (Proc.devRef .tc main_arg1) = A1) :
    after opsJ4a V (Proc.devRef .tc main_v120) = fun i => jtrOf (rowOf (flatJtr (M := 262144) A1) (i 0)) 4 (i 1) := by
  simp only [opsJ4a]
  after_results_simp
  rw [h1]
  exact RJoint.jtr_eq (M := 262144) 4 A1 _ rfl _ _

/-- Joint 4's bone length: the length of its translation minus joint 1's. -/
theorem J4a_bone (h1 : V (Proc.devRef .tc main_arg1) = A1) :
    after opsJ4a V (Proc.devRef .tc main_v124) = fun i => boneLen (diffOf (rowOf (flatJtr (M := 262144) A1) (i 0)) 4 1) := by
  simp only [opsJ4a]
  after_results_simp
  try simp only [TRef.ofBuf, TRef.toBuf, cast_eq]
  rw [h1]
  exact RJoint.bone_child_eq (M := 262144) 4 1 A1 _ _ rfl rfl _ _ _ _ _ _

/-- Joint 4's outputs: the two layers on its nineteen inputs. -/
theorem J4b_out
    (ha : V (Proc.devRef .tc main_v118) = fun i => rotOf (rowOf (flatRot (M := 262144) A0) (i 0)) 4 (i 1)) (hb : V (Proc.devRef .tc main_v120) = fun i => jtrOf (rowOf (flatJtr (M := 262144) A1) (i 0)) 4 (i 1))
    (hc : V (Proc.devRef .tc main_v124) = fun i => boneLen (diffOf (rowOf (flatJtr (M := 262144) A1) (i 0)) 4 1))
    (hd : V (Proc.devRef .tc main_v60) = blkJoint (M := 262144) A2 A3 A4 A5 A6 A7 1 (flatRot A0) (flatJtr A1))
    (h4 : V (Proc.devRef .tc main_arg4) = A4) (h5 : V (Proc.devRef .tc main_arg5) = A5) (h6 : V (Proc.devRef .tc main_arg6) = A6) (h7 : V (Proc.devRef .tc main_arg7) = A7) :
    after opsJ4b V (Proc.devRef .tc main_v144) = blkJoint (M := 262144) A2 A3 A4 A5 A6 A7 4 (flatRot A0) (flatJtr A1) := by
  simp only [opsJ4b]
  after_results_simp
  try dsimp only [Matrix.cons_val]
  try simp only [TRef.ofBuf, TRef.toBuf, cast_eq]
  rw [h4, h5, h6, h7]
  refine (RJoint.mlp_eq (M := 262144) 4 (V (Proc.devRef .tc main_v118)) (V (Proc.devRef .tc main_v120)) (V (Proc.devRef .tc main_v124)) (V (Proc.devRef .tc main_v60)) A4 A5 A6 A7 _ rfl _ rfl _ rfl _ rfl _ _ _ _ _ _ _ _ _ _ _ _ _ _ _ _).trans ?_
  rw [ha, hb, hc, hd]
  rfl

/-- Joint 5's rotation entries, as its first stretch leaves them. -/
theorem J5a_rot (h0 : V (Proc.devRef .tc main_arg0) = A0) :
    after opsJ5a V (Proc.devRef .tc main_v146) = fun i => rotOf (rowOf (flatRot (M := 262144) A0) (i 0)) 5 (i 1) := by
  simp only [opsJ5a]
  after_results_simp
  rw [h0]
  exact RJoint.rot_eq (M := 262144) 5 A0 _ rfl _ _

/-- Joint 5's translation entries. -/
theorem J5a_jtr (h1 : V (Proc.devRef .tc main_arg1) = A1) :
    after opsJ5a V (Proc.devRef .tc main_v148) = fun i => jtrOf (rowOf (flatJtr (M := 262144) A1) (i 0)) 5 (i 1) := by
  simp only [opsJ5a]
  after_results_simp
  rw [h1]
  exact RJoint.jtr_eq (M := 262144) 5 A1 _ rfl _ _

/-- Joint 5's bone length: the length of its translation minus joint 2's. -/
theorem J5a_bone (h1 : V (Proc.devRef .tc main_arg1) = A1) :
    after opsJ5a V (Proc.devRef .tc main_v152) = fun i => boneLen (diffOf (rowOf (flatJtr (M := 262144) A1) (i 0)) 5 2) := by
  simp only [opsJ5a]
  after_results_simp
  try simp only [TRef.ofBuf, TRef.toBuf, cast_eq]
  rw [h1]
  exact RJoint.bone_child_eq (M := 262144) 5 2 A1 _ _ rfl rfl _ _ _ _ _ _

/-- Joint 5's outputs: the two layers on its nineteen inputs. -/
theorem J5b_out
    (ha : V (Proc.devRef .tc main_v146) = fun i => rotOf (rowOf (flatRot (M := 262144) A0) (i 0)) 5 (i 1)) (hb : V (Proc.devRef .tc main_v148) = fun i => jtrOf (rowOf (flatJtr (M := 262144) A1) (i 0)) 5 (i 1))
    (hc : V (Proc.devRef .tc main_v152) = fun i => boneLen (diffOf (rowOf (flatJtr (M := 262144) A1) (i 0)) 5 2))
    (hd : V (Proc.devRef .tc main_v88) = blkJoint (M := 262144) A2 A3 A4 A5 A6 A7 2 (flatRot A0) (flatJtr A1))
    (h4 : V (Proc.devRef .tc main_arg4) = A4) (h5 : V (Proc.devRef .tc main_arg5) = A5) (h6 : V (Proc.devRef .tc main_arg6) = A6) (h7 : V (Proc.devRef .tc main_arg7) = A7) :
    after opsJ5b V (Proc.devRef .tc main_v172) = blkJoint (M := 262144) A2 A3 A4 A5 A6 A7 5 (flatRot A0) (flatJtr A1) := by
  simp only [opsJ5b]
  after_results_simp
  try dsimp only [Matrix.cons_val]
  try simp only [TRef.ofBuf, TRef.toBuf, cast_eq]
  rw [h4, h5, h6, h7]
  refine (RJoint.mlp_eq (M := 262144) 5 (V (Proc.devRef .tc main_v146)) (V (Proc.devRef .tc main_v148)) (V (Proc.devRef .tc main_v152)) (V (Proc.devRef .tc main_v88)) A4 A5 A6 A7 _ rfl _ rfl _ rfl _ rfl _ _ _ _ _ _ _ _ _ _ _ _ _ _ _ _).trans ?_
  rw [ha, hb, hc, hd]
  rfl

end Cert.ReferenceIdeal.RunP

end
-- ==== Proof.RefV2.lean ====
import proofs.«142136_j58514634440790_1_alg».proof.Proof.RefS2
import proofs.«142136_j58514634440790_1_alg».proof.Proof.RJoint
import Idealize.ShloMosaic.Lib.StableHlo.Run

noncomputable section

namespace Cert.ReferenceIdeal.RunP

open Cert.ReferenceIdeal Cert.ReferenceIdeal.Gen Idealize.ShloMosaic Idealize.ShloMosaic.TcCoe Idealize.SL.Sem Idealize.ShloMosaic.StableHlo
open Cert.Tree

variable (V : Valuation τ sig (Elt Ideal)) (A0 : FVec Ideal S262144x24x9 .f32) (A1 : FVec Ideal S262144x24x3 .f32) (A2 : FVec Ideal S6x288 .f32) (A3 : FVec Ideal S6 .f32) (A4 : FVec Ideal S24x19x19 .f32) (A5 : FVec Ideal S24x19 .f32) (A6 : FVec Ideal S24x6x19 .f32) (A7 : FVec Ideal S24x6 .f32)

/-- Joint 6's rotation entries, as its first stretch leaves them. -/
theorem J6a_rot (h0 : V (Proc.devRef .tc main_arg0) = A0) :
    after opsJ6a V (Proc.devRef .tc main_v174) = fun i => rotOf (rowOf (flatRot (M := 262144) A0) (i 0)) 6 (i 1) := by
  simp only [opsJ6a]
  after_results_simp
  rw [h0]
  exact RJoint.rot_eq (M := 262144) 6 A0 _ rfl _ _

/-- Joint 6's translation entries. -/
theorem J6a_jtr (h1 : V (Proc.devRef .tc main_arg1) = A1) :
    after opsJ6a V (Proc.devRef .tc main_v176) = fun i => jtrOf (rowOf (flatJtr (M := 262144) A1) (i 0)) 6 (i 1) := by
  simp only [opsJ6a]
  after_results_simp
  rw [h1]
  exact RJoint.jtr_eq (M := 262144) 6 A1 _ rfl _ _

/-- Joint 6's bone length: the length of its translation minus joint 3's. -/
theorem J6a_bone (h1 : V (Proc.devRef .tc main_arg1) = A1) :
    after opsJ6a V (Proc.devRef .tc main_v180) = fun i => boneLen (diffOf (rowOf (flatJtr (M := 262144) A1) (i 0)) 6 3) := by
  simp only [opsJ6a]
  after_results_simp
  try simp only [TRef.ofBuf, TRef.toBuf, cast_eq]
  rw [h1]
  exact RJoint.bone_child_eq (M := 262144) 6 3 A1 _ _ rfl rfl _ _ _ _ _ _

/-- Joint 6's outputs: the two layers on its nineteen inputs. -/
theorem J6b_out
    (ha : V (Proc.devRef .tc main_v174) = fun i => rotOf (rowOf (flatRot (M := 262144) A0) (i 0)) 6 (i 1)) (hb : V (Proc.devRef .tc main_v176) = fun i => jtrOf (rowOf (flatJtr (M := 262144) A1) (i 0)) 6 (i 1))
    (hc : V (Proc.devRef .tc main_v180) = fun i => boneLen (diffOf (rowOf (flatJtr (M := 262144) A1) (i 0)) 6 3))
    (hd : V (Proc.devRef .tc main_v116) = blkJoint (M := 262144) A2 A3 A4 A5 A6 A7 3 (flatRot A0) (flatJtr A1))
    (h4 : V (Proc.devRef .tc main_arg4) = A4) (h5 : V (Proc.devRef .tc main_arg5) = A5) (h6 : V (Proc.devRef .tc main_arg6) = A6) (h7 : V (Proc.devRef .tc main_arg7) = A7) :
    after opsJ6b V (Proc.devRef .tc main_v200) = blkJoint (M := 262144) A2 A3 A4 A5 A6 A7 6 (flatRot A0) (flatJtr A1) := by
  simp only [opsJ6b]
  after_results_simp
  try dsimp only [Matrix.cons_val]
  try simp only [TRef.ofBuf, TRef.toBuf, cast_eq]
  rw [h4, h5, h6, h7]
  refine (RJoint.mlp_eq (M := 262144) 6 (V (Proc.devRef .tc main_v174)) (V (Proc.devRef .tc main_v176)) (V (Proc.devRef .tc main_v180)) (V (Proc.devRef .tc main_v116)) A4 A5 A6 A7 _ rfl _ rfl _ rfl _ rfl _ _ _ _ _ _ _ _ _ _ _ _ _ _ _ _).trans ?_
  rw [ha, hb, hc, hd]
  rfl

/-- Joint 7's rotation entries, as its first stretch leaves them. -/
theorem J7a_rot (h0 : V (Proc.devRef .tc main_arg0) = A0) :
    after opsJ7a V (Proc.devRef .tc main_v202) = fun i => rotOf (rowOf (flatRot (M := 262144) A0) (i 0)) 7 (i 1) := by
  simp only [opsJ7a]
  after_results_simp
  rw [h0]
  exact RJoint.rot_eq (M := 262144) 7 A0 _ rfl _ _

/-- Joint 7's translation entries. -/
theorem J7a_jtr (h1 : V (Proc.devRef .tc main_arg1) = A1) :
    after opsJ7a V (Proc.devRef .tc main_v204) = fun i => jtrOf (rowOf (flatJtr (M := 262144) A1) (i 0)) 7 (i 1) := by
  simp only [opsJ7a]
  after_results_simp
  rw [h1]
  exact RJoint.jtr_eq (M := 262144) 7 A1 _ rfl _ _

/-- Joint 7's bone length: the length of its translation minus joint 4's. -/
theorem J7a_bone (h1 : V (Proc.devRef .tc main_arg1) = A1) :
    after opsJ7a V (Proc.devRef .tc main_v208) = fun i => boneLen (diffOf (rowOf (flatJtr (M := 262144) A1) (i 0)) 7 4) := by
  simp only [opsJ7a]
  after_results_simp
  try simp only [TRef.ofBuf, TRef.toBuf, cast_eq]
  rw [h1]
  exact RJoint.bone_child_eq (M := 262144) 7 4 A1 _ _ rfl rfl _ _ _ _ _ _

/-- Joint 7's outputs: the two layers on its nineteen inputs. -/
theorem J7b_out
    (ha : V (Proc.devRef .tc main_v202) = fun i => rotOf (rowOf (flatRot (M := 262144) A0) (i 0)) 7 (i 1)) (hb : V (Proc.devRef .tc main_v204) = fun i => jtrOf (rowOf (flatJtr (M := 262144) A1) (i 0)) 7 (i 1))
    (hc : V (Proc.devRef .tc main_v208) = fun i => boneLen (diffOf (rowOf (flatJtr (M := 262144) A1) (i 0)) 7 4))
    (hd : V (Proc.devRef .tc main_v144) = blkJoint (M := 262144) A2 A3 A4 A5 A6 A7 4 (flatRot A0) (flatJtr A1))
    (h4 : V (Proc.devRef .tc main_arg4) = A4) (h5 : V (Proc.devRef .tc main_arg5) = A5) (h6 : V (Proc.devRef .tc main_arg6) = A6) (h7 : V (Proc.devRef .tc main_arg7) = A7) :
    after opsJ7b V (Proc.devRef .tc main_v228) = blkJoint (M := 262144) A2 A3 A4 A5 A6 A7 7 (flatRot A0) (flatJtr A1) := by
  simp only [opsJ7b]
  after_results_simp
  try dsimp only [Matrix.cons_val]
  try simp only [TRef.ofBuf, TRef.toBuf, cast_eq]
  rw [h4, h5, h6, h7]
  refine (RJoint.mlp_eq (M := 262144) 7 (V (Proc.devRef .tc main_v202)) (V (Proc.devRef .tc main_v204)) (V (Proc.devRef .tc main_v208)) (V (Proc.devRef .tc main_v144)) A4 A5 A6 A7 _ rfl _ rfl _ rfl _ rfl _ _ _ _ _ _ _ _ _ _ _ _ _ _ _ _).trans ?_
  rw [ha, hb, hc, hd]
  rfl

/-- Joint 8's rotation entries, as its first stretch leaves them. -/
theorem J8a_rot (h0 : V (Proc.devRef .tc main_arg0) = A0) :
    after opsJ8a V (Proc.devRef .tc main_v230) = fun i => rotOf (rowOf (flatRot (M := 262144) A0) (i 0)) 8 (i 1) := by
  simp only [opsJ8a]
  after_results_simp
  rw [h0]
  exact RJoint.rot_eq (M := 262144) 8 A0 _ rfl _ _

/-- Joint 8's translation entries. -/
theorem J8a_jtr (h1 : V (Proc.devRef .tc main_arg1) = A1) :
    after opsJ8a V (Proc.devRef .tc main_v232) = fun i => jtrOf (rowOf (flatJtr (M := 262144) A1) (i 0)) 8 (i 1) := by
  simp only [opsJ8a]
  after_results_simp
  rw [h1]
  exact RJoint.jtr_eq (M := 262144) 8 A1 _ rfl _ _

/-- Joint 8's bone length: the length of its translation minus joint 5's. -/
theorem J8a_bone (h1 : V (Proc.devRef .tc main_arg1) = A1) :
    after opsJ8a V (Proc.devRef .tc main_v236) = fun i => boneLen (diffOf (rowOf (flatJtr (M := 262144) A1) (i 0)) 8 5) := by
  simp only [opsJ8a]
  after_results_simp
  try simp only [TRef.ofBuf, TRef.toBuf, cast_eq]
  rw [h1]
  exact RJoint.bone_child_eq (M := 262144) 8 5 A1 _ _ rfl rfl _ _ _ _ _ _

/-- Joint 8's outputs: the two layers on its nineteen inputs. -/
theorem J8b_out
    (ha : V (Proc.devRef .tc main_v230) = fun i => rotOf (rowOf (flatRot (M := 262144) A0) (i 0)) 8 (i 1)) (hb : V (Proc.devRef .tc main_v232) = fun i => jtrOf (rowOf (flatJtr (M := 262144) A1) (i 0)) 8 (i 1))
    (hc : V (Proc.devRef .tc main_v236) = fun i => boneLen (diffOf (rowOf (flatJtr (M := 262144) A1) (i 0)) 8 5))
    (hd : V (Proc.devRef .tc main_v172) = blkJoint (M := 262144) A2 A3 A4 A5 A6 A7 5 (flatRot A0) (flatJtr A1))
    (h4 : V (Proc.devRef .tc main_arg4) = A4) (h5 : V (Proc.devRef .tc main_arg5) = A5) (h6 : V (Proc.devRef .tc main_arg6) = A6) (h7 : V (Proc.devRef .tc main_arg7) = A7) :
    after opsJ8b V (Proc.devRef .tc main_v256) = blkJoint (M := 262144) A2 A3 A4 A5 A6 A7 8 (flatRot A0) (flatJtr A1) := by
  simp only [opsJ8b]
  after_results_simp
  try dsimp only [Matrix.cons_val]
  try simp only [TRef.ofBuf, TRef.toBuf, cast_eq]
  rw [h4, h5, h6, h7]
  refine (RJoint.mlp_eq (M := 262144) 8 (V (Proc.devRef .tc main_v230)) (V (Proc.devRef .tc main_v232)) (V (Proc.devRef .tc main_v236)) (V (Proc.devRef .tc main_v172)) A4 A5 A6 A7 _ rfl _ rfl _ rfl _ rfl _ _ _ _ _ _ _ _ _ _ _ _ _ _ _ _).trans ?_
  rw [ha, hb, hc, hd]
  rfl

end Cert.ReferenceIdeal.RunP

end
-- ==== Proof.RefV3.lean ====
import proofs.«142136_j58514634440790_1_alg».proof.Proof.RefS3
import proofs.«142136_j58514634440790_1_alg».proof.Proof.RJoint
import Idealize.ShloMosaic.Lib.StableHlo.Run

noncomputable section

namespace Cert.ReferenceIdeal.RunP

open Cert.ReferenceIdeal Cert.ReferenceIdeal.Gen Idealize.ShloMosaic Idealize.ShloMosaic.TcCoe Idealize.SL.Sem Idealize.ShloMosaic.StableHlo
open Cert.Tree

variable (V : Valuation τ sig (Elt Ideal)) (A0 : FVec Ideal S262144x24x9 .f32) (A1 : FVec Ideal S262144x24x3 .f32) (A2 : FVec Ideal S6x288 .f32) (A3 : FVec Ideal S6 .f32) (A4 : FVec Ideal S24x19x19 .f32) (A5 : FVec Ideal S24x19 .f32) (A6 : FVec Ideal S24x6x19 .f32) (A7 : FVec Ideal S24x6 .f32)

/-- Joint 9's rotation entries, as its first stretch leaves them. -/
theorem J9a_rot (h0 : V (Proc.devRef .tc main_arg0) = A0) :
    after opsJ9a V (Proc.devRef .tc main_v258) = fun i => rotOf (rowOf (flatRot (M := 262144) A0) (i 0)) 9 (i 1) := by
  simp only [opsJ9a]
  after_results_simp
  rw [h0]
  exact RJoint.rot_eq (M := 262144) 9 A0 _ rfl _ _

/-- Joint 9's translation entries. -/
theorem J9a_jtr (h1 : V (Proc.devRef .tc main_arg1) = A1) :
    after opsJ9a V (Proc.devRef .tc main_v260) = fun i => jtrOf (rowOf (flatJtr (M := 262144) A1) (i 0)) 9 (i 1) := by
  simp only [opsJ9a]
  after_results_simp
  rw [h1]
  exact RJoint.jtr_eq (M := 262144) 9 A1 _ rfl _ _

/-- Joint 9's bone length: the length of its translation minus joint 6's. -/
theorem J9a_bone (h1 : V (Proc.devRef .tc main_arg1) = A1) :
    after opsJ9a V (Proc.devRef .tc main_v264) = fun i => boneLen (diffOf (rowOf (flatJtr (M := 262144) A1) (i 0)) 9 6) := by
  simp only [opsJ9a]
  after_results_simp
  try simp only [TRef.ofBuf, TRef.toBuf, cast_eq]
  rw [h1]
  exact RJoint.bone_child_eq (M := 262144) 9 6 A1 _ _ rfl rfl _ _ _ _ _ _

/-- Joint 9's outputs: the two layers on its nineteen inputs. -/
theorem J9b_out
    (ha : V (Proc.devRef .tc main_v258) = fun i => rotOf (rowOf (flatRot (M := 262144) A0) (i 0)) 9 (i 1)) (hb : V (Proc.devRef .tc main_v260) = fun i => jtrOf (rowOf (flatJtr (M := 262144) A1) (i 0)) 9 (i 1))
    (hc : V (Proc.devRef .tc main_v264) = fun i => boneLen (diffOf (rowOf (flatJtr (M := 262144) A1) (i 0)) 9 6))
    (hd : V (Proc.devRef .tc main_v200) = blkJoint (M := 262144) A2 A3 A4 A5 A6 A7 6 (flatRot A0) (flatJtr A1))
    (h4 : V (Proc.devRef .tc main_arg4) = A4) (h5 : V (Proc.devRef .tc main_arg5) = A5) (h6 : V (Proc.devRef .tc main_arg6) = A6) (h7 : V (Proc.devRef .tc main_arg7) = A7) :
    after opsJ9b V (Proc.devRef .tc main_v284) = blkJoint (M := 262144) A2 A3 A4 A5 A6 A7 9 (flatRot A0) (flatJtr A1) := by
  simp only [opsJ9b]
  after_results_simp
  try dsimp only [Matrix.cons_val]
  try simp only [TRef.ofBuf, TRef.toBuf, cast_eq]
  rw [h4, h5, h6, h7]
  refine (RJoint.mlp_eq (M := 262144) 9 (V (Proc.devRef .tc main_v258)) (V (Proc.devRef .tc main_v260)) (V (Proc.devRef .tc main_v264)) (V (Proc.devRef .tc main_v200)) A4 A5 A6 A7 _ rfl _ rfl _ rfl _ rfl _ _ _ _ _ _ _ _ _ _ _ _ _ _ _ _).trans ?_
  rw [ha, hb, hc, hd]
  rfl

/-- Joint 10's rotation entries, as its first stretch leaves them. -/
theorem J10a_rot (h0 : V (Proc.devRef .tc main_arg0) = A0) :
    after opsJ10a V (Proc.devRef .tc main_v286) = fun i => rotOf (rowOf (flatRot (M := 262144) A0) (i 0)) 10 (i 1) := by
  simp only [opsJ10a]
  after_results_simp
  rw [h0]
  exact RJoint.rot_eq (M := 262144) 10 A0 _ rfl _ _

/-- Joint 10's translation entries. -/
theorem J10a_jtr (h1 : V (Proc.devRef .tc main_arg1) = A1) :
    after opsJ10a V (Proc.devRef .tc main_v288) = fun i => jtrOf (rowOf (flatJtr (M := 262144) A1) (i 0)) 10 (i 1) := by
  simp only [opsJ10a]
  after_results_simp
  rw [h1]
  exact RJoint.jtr_eq (M := 262144) 10 A1 _ rfl _ _

/-- Joint 10's bone length: the length of its translation minus joint 7's. -/
theorem J10a_bone (h1 : V (Proc.devRef .tc main_arg1) = A1) :
    after opsJ10a V (Proc.devRef .tc main_v292) = fun i => boneLen (diffOf (rowOf (flatJtr (M := 262144) A1) (i 0)) 10 7) := by
  simp only [opsJ10a]
  after_results_simp
  try simp only [TRef.ofBuf, TRef.toBuf, cast_eq]
  rw [h1]
  exact RJoint.bone_child_eq (M := 262144) 10 7 A1 _ _ rfl rfl _ _ _ _ _ _

/-- Joint 10's outputs: the two layers on its nineteen inputs. -/
theorem J10b_out
    (ha : V (Proc.devRef .tc main_v286) = fun i => rotOf (rowOf (flatRot (M := 262144) A0) (i 0)) 10 (i 1)) (hb : V (Proc.devRef .tc main_v288) = fun i => jtrOf (rowOf (flatJtr (M := 262144) A1) (i 0)) 10 (i 1))
    (hc : V (Proc.devRef .tc main_v292) = fun i => boneLen (diffOf (rowOf (flatJtr (M := 262144) A1) (i 0)) 10 7))
    (hd : V (Proc.devRef .tc main_v228) = blkJoint (M := 262144) A2 A3 A4 A5 A6 A7 7 (flatRot A0) (flatJtr A1))
    (h4 : V (Proc.devRef .tc main_arg4) = A4) (h5 : V (Proc.devRef .tc main_arg5) = A5) (h6 : V (Proc.devRef .tc main_arg6) = A6) (h7 : V (Proc.devRef .tc main_arg7) = A7) :
    after opsJ10b V (Proc.devRef .tc main_v312) = blkJoint (M := 262144) A2 A3 A4 A5 A6 A7 10 (flatRot A0) (flatJtr A1) := by
  simp only [opsJ10b]
  after_results_simp
  try dsimp only [Matrix.cons_val]
  try simp only [TRef.ofBuf, TRef.toBuf, cast_eq]
  rw [h4, h5, h6, h7]
  refine (RJoint.mlp_eq (M := 262144) 10 (V (Proc.devRef .tc main_v286)) (V (Proc.devRef .tc main_v288)) (V (Proc.devRef .tc main_v292)) (V (Proc.devRef .tc main_v228)) A4 A5 A6 A7 _ rfl _ rfl _ rfl _ rfl _ _ _ _ _ _ _ _ _ _ _ _ _ _ _ _).trans ?_
  rw [ha, hb, hc, hd]
  rfl

/-- Joint 11's rotation entries, as its first stretch leaves them. -/
theorem J11a_rot (h0 : V (Proc.devRef .tc main_arg0) = A0) :
    after opsJ11a V (Proc.devRef .tc main_v314) = fun i => rotOf (rowOf (flatRot (M := 262144) A0) (i 0)) 11 (i 1) := by
  simp only [opsJ11a]
  after_results_simp
  rw [h0]
  exact RJoint.rot_eq (M := 262144) 11 A0 _ rfl _ _

/-- Joint 11's translation entries. -/
theorem J11a_jtr (h1 : V (Proc.devRef .tc main_arg1) = A1) :
    after opsJ11a V (Proc.devRef .tc main_v316) = fun i => jtrOf (rowOf (flatJtr (M := 262144) A1) (i 0)) 11 (i 1) := by
  simp only [opsJ11a]
  after_results_simp
  rw [h1]
  exact RJoint.jtr_eq (M := 262144) 11 A1 _ rfl _ _

/-- Joint 11's bone length: the length of its translation minus joint 8's. -/
theorem J11a_bone (h1 : V (Proc.devRef .tc main_arg1) = A1) :
    after opsJ11a V (Proc.devRef .tc main_v320) = fun i => boneLen (diffOf (rowOf (flatJtr (M := 262144) A1) (i 0)) 11 8) := by
  simp only [opsJ11a]
  after_results_simp
  try simp only [TRef.ofBuf, TRef.toBuf, cast_eq]
  rw [h1]
  exact RJoint.bone_child_eq (M := 262144) 11 8 A1 _ _ rfl rfl _ _ _ _ _ _

/-- Joint 11's outputs: the two layers on its nineteen inputs. -/
theorem J11b_out
    (ha : V (Proc.devRef .tc main_v314) = fun i => rotOf (rowOf (flatRot (M := 262144) A0) (i 0)) 11 (i 1)) (hb : V (Proc.devRef .tc main_v316) = fun i => jtrOf (rowOf (flatJtr (M := 262144) A1) (i 0)) 11 (i 1))
    (hc : V (Proc.devRef .tc main_v320) = fun i => boneLen (diffOf (rowOf (flatJtr (M := 262144) A1) (i 0)) 11 8))
    (hd : V (Proc.devRef .tc main_v256) = blkJoint (M := 262144) A2 A3 A4 A5 A6 A7 8 (flatRot A0) (flatJtr A1))
    (h4 : V (Proc.devRef .tc main_arg4) = A4) (h5 : V (Proc.devRef .tc main_arg5) = A5) (h6 : V (Proc.devRef .tc main_arg6) = A6) (h7 : V (Proc.devRef .tc main_arg7) = A7) :
    after opsJ11b V (Proc.devRef .tc main_v340) = blkJoint (M := 262144) A2 A3 A4 A5 A6 A7 11 (flatRot A0) (flatJtr A1) := by
  simp only [opsJ11b]
  after_results_simp
  try dsimp only [Matrix.cons_val]
  try simp only [TRef.ofBuf, TRef.toBuf, cast_eq]
  rw [h4, h5, h6, h7]
  refine (RJoint.mlp_eq (M := 262144) 11 (V (Proc.devRef .tc main_v314)) (V (Proc.devRef .tc main_v316)) (V (Proc.devRef .tc main_v320)) (V (Proc.devRef .tc main_v256)) A4 A5 A6 A7 _ rfl _ rfl _ rfl _ rfl _ _ _ _ _ _ _ _ _ _ _ _ _ _ _ _).trans ?_
  rw [ha, hb, hc, hd]
  rfl

end Cert.ReferenceIdeal.RunP

end
-- ==== Proof.RefV4.lean ====
import proofs.«142136_j58514634440790_1_alg».proof.Proof.RefS4
import proofs.«142136_j58514634440790_1_alg».proof.Proof.RJoint
import Idealize.ShloMosaic.Lib.StableHlo.Run

noncomputable section

namespace Cert.ReferenceIdeal.RunP

open Cert.ReferenceIdeal Cert.ReferenceIdeal.Gen Idealize.ShloMosaic Idealize.ShloMosaic.TcCoe Idealize.SL.Sem Idealize.ShloMosaic.StableHlo
open Cert.Tree

variable (V : Valuation τ sig (Elt Ideal)) (A0 : FVec Ideal S262144x24x9 .f32) (A1 : FVec Ideal S262144x24x3 .f32) (A2 : FVec Ideal S6x288 .f32) (A3 : FVec Ideal S6 .f32) (A4 : FVec Ideal S24x19x19 .f32) (A5 : FVec Ideal S24x19 .f32) (A6 : FVec Ideal S24x6x19 .f32) (A7 : FVec Ideal S24x6 .f32)

/-- Joint 12's rotation entries, as its first stretch leaves them. -/
theorem J12a_rot (h0 : V (Proc.devRef .tc main_arg0) = A0) :
    after opsJ12a V (Proc.devRef .tc main_v342) = fun i => rotOf (rowOf (flatRot (M := 262144) A0) (i 0)) 12 (i 1) := by
  simp only [opsJ12a]
  after_results_simp
  rw [h0]
  exact RJoint.rot_eq (M := 262144) 12 A0 _ rfl _ _

/-- Joint 12's translation entries. -/
theorem J12a_jtr (h1 : V (Proc.devRef .tc main_arg1) = A1) :
    after opsJ12a V (Proc.devRef .tc main_v344) = fun i => jtrOf (rowOf (flatJtr (M := 262144) A1) (i 0)) 12 (i 1) := by
  simp only [opsJ12a]
  after_results_simp
  rw [h1]
  exact RJoint.jtr_eq (M := 262144) 12 A1 _ rfl _ _

/-- Joint 12's bone length: the length of its translation minus joint 9's. -/
theorem J12a_bone (h1 : V (Proc.devRef .tc main_arg1) = A1) :
    after opsJ12a V (Proc.devRef .tc main_v348) = fun i => boneLen (diffOf (rowOf (flatJtr (M := 262144) A1) (i 0)) 12 9) := by
  simp only [opsJ12a]
  after_results_simp
  try simp only [TRef.ofBuf, TRef.toBuf, cast_eq]
  rw [h1]
  exact RJoint.bone_child_eq (M := 262144) 12 9 A1 _ _ rfl rfl _ _ _ _ _ _

/-- Joint 12's outputs: the two layers on its nineteen inputs. -/
theorem J12b_out
    (ha : V (Proc.devRef .tc main_v342) = fun i => rotOf (rowOf (flatRot (M := 262144) A0) (i 0)) 12 (i 1)) (hb : V (Proc.devRef .tc main_v344) = fun i => jtrOf (rowOf (flatJtr (M := 262144) A1) (i 0)) 12 (i 1))
    (hc : V (Proc.devRef .tc main_v348) = fun i => boneLen (diffOf (rowOf (flatJtr (M := 262144) A1) (i 0)) 12 9))
    (hd : V (Proc.devRef .tc main_v284) = blkJoint (M := 262144) A2 A3 A4 A5 A6 A7 9 (flatRot A0) (flatJtr A1))
    (h4 : V (Proc.devRef .tc main_arg4) = A4) (h5 : V (Proc.devRef .tc main_arg5) = A5) (h6 : V (Proc.devRef .tc main_arg6) = A6) (h7 : V (Proc.devRef .tc main_arg7) = A7) :
    after opsJ12b V (Proc.devRef .tc main_v368) = blkJoint (M := 262144) A2 A3 A4 A5 A6 A7 12 (flatRot A0) (flatJtr A1) := by
  simp only [opsJ12b]
  after_results_simp
  try dsimp only [Matrix.cons_val]
  try simp only [TRef.ofBuf, TRef.toBuf, cast_eq]
  rw [h4, h5, h6, h7]
  refine (RJoint.mlp_eq (M := 262144) 12 (V (Proc.devRef .tc main_v342)) (V (Proc.devRef .tc main_v344)) (V (Proc.devRef .tc main_v348)) (V (Proc.devRef .tc main_v284)) A4 A5 A6 A7 _ rfl _ rfl _ rfl _ rfl _ _ _ _ _ _ _ _ _ _ _ _ _ _ _ _).trans ?_
  rw [ha, hb, hc, hd]
  rfl

/-- Joint 13's rotation entries, as its first stretch leaves them. -/
theorem J13a_rot (h0 : V (Proc.devRef .tc main_arg0) = A0) :
    after opsJ13a V (Proc.devRef .tc main_v370) = fun i => rotOf (rowOf (flatRot (M := 262144) A0) (i 0)) 13 (i 1) := by
  simp only [opsJ13a]
  after_results_simp
  rw [h0]
  exact RJoint.rot_eq (M := 262144) 13 A0 _ rfl _ _

/-- Joint 13's translation entries. -/
theorem J13a_jtr (h1 : V (Proc.devRef .tc main_arg1) = A1) :
    after opsJ13a V (Proc.devRef .tc main_v372) = fun i => jtrOf (rowOf (flatJtr (M := 262144) A1) (i 0)) 13 (i 1) := by
  simp only [opsJ13a]
  after_results_simp
  rw [h1]
  exact RJoint.jtr_eq (M := 262144) 13 A1 _ rfl _ _

/-- Joint 13's bone length: the length of its translation minus joint 9's. -/
theorem J13a_bone (h1 : V (Proc.devRef .tc main_arg1) = A1) :
    after opsJ13a V (Proc.devRef .tc main_v376) = fun i => boneLen (diffOf (rowOf (flatJtr (M := 262144) A1) (i 0)) 13 9) := by
  simp only [opsJ13a]
  after_results_simp
  try simp only [TRef.ofBuf, TRef.toBuf, cast_eq]
  rw [h1]
  exact RJoint.bone_child_eq (M := 262144) 13 9 A1 _ _ rfl rfl _ _ _ _ _ _

/-- Joint 13's outputs: the two layers on its nineteen inputs. -/
theorem J13b_out
    (ha : V (Proc.devRef .tc main_v370) = fun i => rotOf (rowOf (flatRot (M := 262144) A0) (i 0)) 13 (i 1)) (hb : V (Proc.devRef .tc main_v372) = fun i => jtrOf (rowOf (flatJtr (M := 262144) A1) (i 0)) 13 (i 1))
    (hc : V (Proc.devRef .tc main_v376) = fun i => boneLen (diffOf (rowOf (flatJtr (M := 262144) A1) (i 0)) 13 9))
    (hd : V (Proc.devRef .tc main_v284) = blkJoint (M := 262144) A2 A3 A4 A5 A6 A7 9 (flatRot A0) (flatJtr A1))
    (h4 : V (Proc.devRef .tc main_arg4) = A4) (h5 : V (Proc.devRef .tc main_arg5) = A5) (h6 : V (Proc.devRef .tc main_arg6) = A6) (h7 : V (Proc.devRef .tc main_arg7) = A7) :
    after opsJ13b V (Proc.devRef .tc main_v396) = blkJoint (M := 262144) A2 A3 A4 A5 A6 A7 13 (flatRot A0) (flatJtr A1) := by
  simp only [opsJ13b]
  after_results_simp
  try dsimp only [Matrix.cons_val]
  try simp only [TRef.ofBuf, TRef.toBuf, cast_eq]
  rw [h4, h5, h6, h7]
  refine (RJoint.mlp_eq (M := 262144) 13 (V (Proc.devRef .tc main_v370)) (V (Proc.devRef .tc main_v372)) (V (Proc.devRef .tc main_v376)) (V (Proc.devRef .tc main_v284)) A4 A5 A6 A7 _ rfl _ rfl _ rfl _ rfl _ _ _ _ _ _ _ _ _ _ _ _ _ _ _ _).trans ?_
  rw [ha, hb, hc, hd]
  rfl

/-- Joint 14's rotation entries, as its first stretch leaves them. -/
theorem J14a_rot (h0 : V (Proc.devRef .tc main_arg0) = A0) :
    after opsJ14a V (Proc.devRef .tc main_v398) = fun i => rotOf (rowOf (flatRot (M := 262144) A0) (i 0)) 14 (i 1) := by
  simp only [opsJ14a]
  after_results_simp
  rw [h0]
  exact RJoint.rot_eq (M := 262144) 14 A0 _ rfl _ _

/-- Joint 14's translation entries. -/
theorem J14a_jtr (h1 : V (Proc.devRef .tc main_arg1) = A1) :
    after opsJ14a V (Proc.devRef .tc main_v400) = fun i => jtrOf (rowOf (flatJtr (M := 262144) A1) (i 0)) 14 (i 1) := by
  simp only [opsJ14a]
  after_results_simp
  rw [h1]
  exact RJoint.jtr_eq (M := 262144) 14 A1 _ rfl _ _

/-- Joint 14's bone length: the length of its translation minus joint 9's. -/
theorem J14a_bone (h1 : V (Proc.devRef .tc main_arg1) = A1) :
    after opsJ14a V (Proc.devRef .tc main_v404) = fun i => boneLen (diffOf (rowOf (flatJtr (M := 262144) A1) (i 0)) 14 9) := by
  simp only [opsJ14a]
  after_results_simp
  try simp only [TRef.ofBuf, TRef.toBuf, cast_eq]
  rw [h1]
  exact RJoint.bone_child_eq (M := 262144) 14 9 A1 _ _ rfl rfl _ _ _ _ _ _

/-- Joint 14's outputs: the two layers on its nineteen inputs. -/
theorem J14b_out
    (ha : V (Proc.devRef .tc main_v398) = fun i => rotOf (rowOf (flatRot (M := 262144) A0) (i 0)) 14 (i 1)) (hb : V (Proc.devRef .tc main_v400) = fun i => jtrOf (rowOf (flatJtr (M := 262144) A1) (i 0)) 14 (i 1))
    (hc : V (Proc.devRef .tc main_v404) = fun i => boneLen (diffOf (rowOf (flatJtr (M := 262144) A1) (i 0)) 14 9))
    (hd : V (Proc.devRef .tc main_v284) = blkJoint (M := 262144) A2 A3 A4 A5 A6 A7 9 (flatRot A0) (flatJtr A1))
    (h4 : V (Proc.devRef .tc main_arg4) = A4) (h5 : V (Proc.devRef .tc main_arg5) = A5) (h6 : V (Proc.devRef .tc main_arg6) = A6) (h7 : V (Proc.devRef .tc main_arg7) = A7) :
    after opsJ14b V (Proc.devRef .tc main_v424) = blkJoint (M := 262144) A2 A3 A4 A5 A6 A7 14 (flatRot A0) (flatJtr A1) := by
  simp only [opsJ14b]
  after_results_simp
  try dsimp only [Matrix.cons_val]
  try simp only [TRef.ofBuf, TRef.toBuf, cast_eq]
  rw [h4, h5, h6, h7]
  refine (RJoint.mlp_eq (M := 262144) 14 (V (Proc.devRef .tc main_v398)) (V (Proc.devRef .tc main_v400)) (V (Proc.devRef .tc main_v404)) (V (Proc.devRef .tc main_v284)) A4 A5 A6 A7 _ rfl _ rfl _ rfl _ rfl _ _ _ _ _ _ _ _ _ _ _ _ _ _ _ _).trans ?_
  rw [ha, hb, hc, hd]
  rfl

end Cert.ReferenceIdeal.RunP

end
-- ==== Proof.RefV5.lean ====
import proofs.«142136_j58514634440790_1_alg».proof.Proof.RefS5
import proofs.«142136_j58514634440790_1_alg».proof.Proof.RJoint
import Idealize.ShloMosaic.Lib.StableHlo.Run

noncomputable section

namespace Cert.ReferenceIdeal.RunP

open Cert.ReferenceIdeal Cert.ReferenceIdeal.Gen Idealize.ShloMosaic Idealize.ShloMosaic.TcCoe Idealize.SL.Sem Idealize.ShloMosaic.StableHlo
open Cert.Tree

variable (V : Valuation τ sig (Elt Ideal)) (A0 : FVec Ideal S262144x24x9 .f32) (A1 : FVec Ideal S262144x24x3 .f32) (A2 : FVec Ideal S6x288 .f32) (A3 : FVec Ideal S6 .f32) (A4 : FVec Ideal S24x19x19 .f32) (A5 : FVec Ideal S24x19 .f32) (A6 : FVec Ideal S24x6x19 .f32) (A7 : FVec Ideal S24x6 .f32)

/-- Joint 15's rotation entries, as its first stretch leaves them. -/
theorem J15a_rot (h0 : V (Proc.devRef .tc main_arg0) = A0) :
    after opsJ15a V (Proc.devRef .tc main_v426) = fun i => rotOf (rowOf (flatRot (M := 262144) A0) (i 0)) 15 (i 1) := by
  simp only [opsJ15a]
  after_results_simp
  rw [h0]
  exact RJoint.rot_eq (M := 262144) 15 A0 _ rfl _ _

/-- Joint 15's translation entries. -/
theorem J15a_jtr (h1 : V (Proc.devRef .tc main_arg1) = A1) :
    after opsJ15a V (Proc.devRef .tc main_v428) = fun i => jtrOf (rowOf (flatJtr (M := 262144) A1) (i 0)) 15 (i 1) := by
  simp only [opsJ15a]
  after_results_simp
  rw [h1]
  exact RJoint.jtr_eq (M := 262144) 15 A1 _ rfl _ _

/-- Joint 15's bone length: the length of its translation minus joint 12's. -/
theorem J15a_bone (h1 : V (Proc.devRef .tc main_arg1) = A1) :
    after opsJ15a V (Proc.devRef .tc main_v432) = fun i => boneLen (diffOf (rowOf (flatJtr (M := 262144) A1) (i 0)) 15 12) := by
  simp only [opsJ15a]
  after_results_simp
  try simp only [TRef.ofBuf, TRef.toBuf, cast_eq]
  rw [h1]
  exact RJoint.bone_child_eq (M := 262144) 15 12 A1 _ _ rfl rfl _ _ _ _ _ _

/-- Joint 15's outputs: the two layers on its nineteen inputs. -/
theorem J15b_out
    (ha : V (Proc.devRef .tc main_v426) = fun i => rotOf (rowOf (flatRot (M := 262144) A0) (i 0)) 15 (i 1)) (hb : V (Proc.devRef .tc main_v428) = fun i => jtrOf (rowOf (flatJtr (M := 262144) A1) (i 0)) 15 (i 1))
    (hc : V (Proc.devRef .tc main_v432) = fun i => boneLen (diffOf (rowOf (flatJtr (M := 262144) A1) (i 0)) 15 12))
    (hd : V (Proc.devRef .tc main_v368) = blkJoint (M := 262144) A2 A3 A4 A5 A6 A7 12 (flatRot A0) (flatJtr A1))
    (h4 : V (Proc.devRef .tc main_arg4) = A4) (h5 : V (Proc.devRef .tc main_arg5) = A5) (h6 : V (Proc.devRef .tc main_arg6) = A6) (h7 : V (Proc.devRef .tc main_arg7) = A7) :
    after opsJ15b V (Proc.devRef .tc main_v452) = blkJoint (M := 262144) A2 A3 A4 A5 A6 A7 15 (flatRot A0) (flatJtr A1) := by
  simp only [opsJ15b]
  after_results_simp
  try dsimp only [Matrix.cons_val]
  try simp only [TRef.ofBuf, TRef.toBuf, cast_eq]
  rw [h4, h5, h6, h7]
  refine (RJoint.mlp_eq (M := 262144) 15 (V (Proc.devRef .tc main_v426)) (V (Proc.devRef .tc main_v428)) (V (Proc.devRef .tc main_v432)) (V (Proc.devRef .tc main_v368)) A4 A5 A6 A7 _ rfl _ rfl _ rfl _ rfl _ _ _ _ _ _ _ _ _ _ _ _ _ _ _ _).trans ?_
  rw [ha, hb, hc, hd]
  rfl

/-- Joint 16's rotation entries, as its first stretch leaves them. -/
theorem J16a_rot (h0 : V (Proc.devRef .tc main_arg0) = A0) :
    after opsJ16a V (Proc.devRef .tc main_v454) = fun i => rotOf (rowOf (flatRot (M := 262144) A0) (i 0)) 16 (i 1) := by
  simp only [opsJ16a]
  after_results_simp
  rw [h0]
  exact RJoint.rot_eq (M := 262144) 16 A0 _ rfl _ _

/-- Joint 16's translation entries. -/
theorem J16a_jtr (h1 : V (Proc.devRef .tc main_arg1) = A1) :
    after opsJ16a V (Proc.devRef .tc main_v456) = fun i => jtrOf (rowOf (flatJtr (M := 262144) A1) (i 0)) 16 (i 1) := by
  simp only [opsJ16a]
  after_results_simp
  rw [h1]
  exact RJoint.jtr_eq (M := 262144) 16 A1 _ rfl _ _

/-- Joint 16's bone length: the length of its translation minus joint 13's. -/
theorem J16a_bone (h1 : V (Proc.devRef .tc main_arg1) = A1) :
    after opsJ16a V (Proc.devRef .tc main_v460) = fun i => boneLen (diffOf (rowOf (flatJtr (M := 262144) A1) (i 0)) 16 13) := by
  simp only [opsJ16a]
  after_results_simp
  try simp only [TRef.ofBuf, TRef.toBuf, cast_eq]
  rw [h1]
  exact RJoint.bone_child_eq (M := 262144) 16 13 A1 _ _ rfl rfl _ _ _ _ _ _

/-- Joint 16's outputs: the two layers on its nineteen inputs. -/
theorem J16b_out
    (ha : V (Proc.devRef .tc main_v454) = fun i => rotOf (rowOf (flatRot (M := 262144) A0) (i 0)) 16 (i 1)) (hb : V (Proc.devRef .tc main_v456) = fun i => jtrOf (rowOf (flatJtr (M := 262144) A1) (i 0)) 16 (i 1))
    (hc : V (Proc.devRef .tc main_v460) = fun i => boneLen (diffOf (rowOf (flatJtr (M := 262144) A1) (i 0)) 16 13))
    (hd : V (Proc.devRef .tc main_v396) = blkJoint (M := 262144) A2 A3 A4 A5 A6 A7 13 (flatRot A0) (flatJtr A1))
    (h4 : V (Proc.devRef .tc main_arg4) = A4) (h5 : V (Proc.devRef .tc main_arg5) = A5) (h6 : V (Proc.devRef .tc main_arg6) = A6) (h7 : V (Proc.devRef .tc main_arg7) = A7) :
    after opsJ16b V (Proc.devRef .tc main_v480) = blkJoint (M := 262144) A2 A3 A4 A5 A6 A7 16 (flatRot A0) (flatJtr A1) := by
  simp only [opsJ16b]
  after_results_simp
  try dsimp only [Matrix.cons_val]
  try simp only [TRef.ofBuf, TRef.toBuf, cast_eq]
  rw [h4, h5, h6, h7]
  refine (RJoint.mlp_eq (M := 262144) 16 (V (Proc.devRef .tc main_v454)) (V (Proc.devRef .tc main_v456)) (V (Proc.devRef .tc main_v460)) (V (Proc.devRef .tc main_v396)) A4 A5 A6 A7 _ rfl _ rfl _ rfl _ rfl _ _ _ _ _ _ _ _ _ _ _ _ _ _ _ _).trans ?_
  rw [ha, hb, hc, hd]
  rfl

/-- Joint 17's rotation entries, as its first stretch leaves them. -/
theorem J17a_rot (h0 : V (Proc.devRef .tc main_arg0) = A0) :
    after opsJ17a V (Proc.devRef .tc main_v482) = fun i => rotOf (rowOf (flatRot (M := 262144) A0) (i 0)) 17 (i 1) := by
  simp only [opsJ17a]
  after_results_simp
  rw [h0]
  exact RJoint.rot_eq (M := 262144) 17 A0 _ rfl _ _

/-- Joint 17's translation entries. -/
theorem J17a_jtr (h1 : V (Proc.devRef .tc main_arg1) = A1) :
    after opsJ17a V (Proc.devRef .tc main_v484) = fun i => jtrOf (rowOf (flatJtr (M := 262144) A1) (i 0)) 17 (i 1) := by
  simp only [opsJ17a]
  after_results_simp
  rw [h1]
  exact RJoint.jtr_eq (M := 262144) 17 A1 _ rfl _ _

/-- Joint 17's bone length: the length of its translation minus joint 14's. -/
theorem J17a_bone (h1 : V (Proc.devRef .tc main_arg1) = A1) :
    after opsJ17a V (Proc.devRef .tc main_v488) = fun i => boneLen (diffOf (rowOf (flatJtr (M := 262144) A1) (i 0)) 17 14) := by
  simp only [opsJ17a]
  after_results_simp
  try simp only [TRef.ofBuf, TRef.toBuf, cast_eq]
  rw [h1]
  exact RJoint.bone_child_eq (M := 262144) 17 14 A1 _ _ rfl rfl _ _ _ _ _ _

/-- Joint 17's outputs: the two layers on its nineteen inputs. -/
theorem J17b_out
    (ha : V (Proc.devRef .tc main_v482) = fun i => rotOf (rowOf (flatRot (M := 262144) A0) (i 0)) 17 (i 1)) (hb : V (Proc.devRef .tc main_v484) = fun i => jtrOf (rowOf (flatJtr (M := 262144) A1) (i 0)) 17 (i 1))
    (hc : V (Proc.devRef .tc main_v488) = fun i => boneLen (diffOf (rowOf (flatJtr (M := 262144) A1) (i 0)) 17 14))
    (hd : V (Proc.devRef .tc main_v424) = blkJoint (M := 262144) A2 A3 A4 A5 A6 A7 14 (flatRot A0) (flatJtr A1))
    (h4 : V (Proc.devRef .tc main_arg4) = A4) (h5 : V (Proc.devRef .tc main_arg5) = A5) (h6 : V (Proc.devRef .tc main_arg6) = A6) (h7 : V (Proc.devRef .tc main_arg7) = A7) :
    after opsJ17b V (Proc.devRef .tc main_v508) = blkJoint (M := 262144) A2 A3 A4 A5 A6 A7 17 (flatRot A0) (flatJtr A1) := by
  simp only [opsJ17b]
  after_results_simp
  try dsimp only [Matrix.cons_val]
  try simp only [TRef.ofBuf, TRef.toBuf, cast_eq]
  rw [h4, h5, h6, h7]
  refine (RJoint.mlp_eq (M := 262144) 17 (V (Proc.devRef .tc main_v482)) (V (Proc.devRef .tc main_v484)) (V (Proc.devRef .tc main_v488)) (V (Proc.devRef .tc main_v424)) A4 A5 A6 A7 _ rfl _ rfl _ rfl _ rfl _ _ _ _ _ _ _ _ _ _ _ _ _ _ _ _).trans ?_
  rw [ha, hb, hc, hd]
  rfl

end Cert.ReferenceIdeal.RunP

end
-- ==== Proof.RefV6.lean ====
import proofs.«142136_j58514634440790_1_alg».proof.Proof.RefS6
import proofs.«142136_j58514634440790_1_alg».proof.Proof.RJoint
import Idealize.ShloMosaic.Lib.StableHlo.Run

noncomputable section

namespace Cert.ReferenceIdeal.RunP

open Cert.ReferenceIdeal Cert.ReferenceIdeal.Gen Idealize.ShloMosaic Idealize.ShloMosaic.TcCoe Idealize.SL.Sem Idealize.ShloMosaic.StableHlo
open Cert.Tree

variable (V : Valuation τ sig (Elt Ideal)) (A0 : FVec Ideal S262144x24x9 .f32) (A1 : FVec Ideal S262144x24x3 .f32) (A2 : FVec Ideal S6x288 .f32) (A3 : FVec Ideal S6 .f32) (A4 : FVec Ideal S24x19x19 .f32) (A5 : FVec Ideal S24x19 .f32) (A6 : FVec Ideal S24x6x19 .f32) (A7 : FVec Ideal S24x6 .f32)

/-- Joint 18's rotation entries, as its first stretch leaves them. -/
theorem J18a_rot (h0 : V (Proc.devRef .tc main_arg0) = A0) :
    after opsJ18a V (Proc.devRef .tc main_v510) = fun i => rotOf (rowOf (flatRot (M := 262144) A0) (i 0)) 18 (i 1) := by
  simp only [opsJ18a]
  after_results_simp
  rw [h0]
  exact RJoint.rot_eq (M := 262144) 18 A0 _ rfl _ _

/-- Joint 18's translation entries. -/
theorem J18a_jtr (h1 : V (Proc.devRef .tc main_arg1) = A1) :
    after opsJ18a V (Proc.devRef .tc main_v512) = fun i => jtrOf (rowOf (flatJtr (M := 262144) A1) (i 0)) 18 (i 1) := by
  simp only [opsJ18a]
  after_results_simp
  rw [h1]
  exact RJoint.jtr_eq (M := 262144) 18 A1 _ rfl _ _

/-- Joint 18's bone length: the length of its translation minus joint 16's. -/
theorem J18a_bone (h1 : V (Proc.devRef .tc main_arg1) = A1) :
    after opsJ18a V (Proc.devRef .tc main_v516) = fun i => boneLen (diffOf (rowOf (flatJtr (M := 262144) A1) (i 0)) 18 16) := by
  simp only [opsJ18a]
  after_results_simp
  try simp only [TRef.ofBuf, TRef.toBuf, cast_eq]
  rw [h1]
  exact RJoint.bone_child_eq (M := 262144) 18 16 A1 _ _ rfl rfl _ _ _ _ _ _

/-- Joint 18's outputs: the two layers on its nineteen inputs. -/
theorem J18b_out
    (ha : V (Proc.devRef .tc main_v510) = fun i => rotOf (rowOf (flatRot (M := 262144) A0) (i 0)) 18 (i 1)) (hb : V (Proc.devRef .tc main_v512) = fun i => jtrOf (rowOf (flatJtr (M := 262144) A1) (i 0)) 18 (i 1))
    (hc : V (Proc.devRef .tc main_v516) = fun i => boneLen (diffOf (rowOf (flatJtr (M := 262144) A1) (i 0)) 18 16))
    (hd : V (Proc.devRef .tc main_v480) = blkJoint (M := 262144) A2 A3 A4 A5 A6 A7 16 (flatRot A0) (flatJtr A1))
    (h4 : V (Proc.devRef .tc main_arg4) = A4) (h5 : V (Proc.devRef .tc main_arg5) = A5) (h6 : V (Proc.devRef .tc main_arg6) = A6) (h7 : V (Proc.devRef .tc main_arg7) = A7) :
    after opsJ18b V (Proc.devRef .tc main_v536) = blkJoint (M := 262144) A2 A3 A4 A5 A6 A7 18 (flatRot A0) (flatJtr A1) := by
  simp only [opsJ18b]
  after_results_simp
  try dsimp only [Matrix.cons_val]
  try simp only [TRef.ofBuf, TRef.toBuf, cast_eq]
  rw [h4, h5, h6, h7]
  refine (RJoint.mlp_eq (M := 262144) 18 (V (Proc.devRef .tc main_v510)) (V (Proc.devRef .tc main_v512)) (V (Proc.devRef .tc main_v516)) (V (Proc.devRef .tc main_v480)) A4 A5 A6 A7 _ rfl _ rfl _ rfl _ rfl _ _ _ _ _ _ _ _ _ _ _ _ _ _ _ _).trans ?_
  rw [ha, hb, hc, hd]
  rfl

/-- Joint 19's rotation entries, as its first stretch leaves them. -/
theorem J19a_rot (h0 : V (Proc.devRef .tc main_arg0) = A0) :
    after opsJ19a V (Proc.devRef .tc main_v538) = fun i => rotOf (rowOf (flatRot (M := 262144) A0) (i 0)) 19 (i 1) := by
  simp only [opsJ19a]
  after_results_simp
  rw [h0]
  exact RJoint.rot_eq (M := 262144) 19 A0 _ rfl _ _

/-- Joint 19's translation entries. -/
theorem J19a_jtr (h1 : V (Proc.devRef .tc main_arg1) = A1) :
    after opsJ19a V (Proc.devRef .tc main_v540) = fun i => jtrOf (rowOf (flatJtr (M := 262144) A1) (i 0)) 19 (i 1) := by
  simp only [opsJ19a]
  after_results_simp
  rw [h1]
  exact RJoint.jtr_eq (M := 262144) 19 A1 _ rfl _ _

/-- Joint 19's bone length: the length of its translation minus joint 17's. -/
theorem J19a_bone (h1 : V (Proc.devRef .tc main_arg1) = A1) :
    after opsJ19a V (Proc.devRef .tc main_v544) = fun i => boneLen (diffOf (rowOf (flatJtr (M := 262144) A1) (i 0)) 19 17) := by
  simp only [opsJ19a]
  after_results_simp
  try simp only [TRef.ofBuf, TRef.toBuf, cast_eq]
  rw [h1]
  exact RJoint.bone_child_eq (M := 262144) 19 17 A1 _ _ rfl rfl _ _ _ _ _ _

/-- Joint 19's outputs: the two layers on its nineteen inputs. -/
theorem J19b_out
    (ha : V (Proc.devRef .tc main_v538) = fun i => rotOf (rowOf (flatRot (M := 262144) A0) (i 0)) 19 (i 1)) (hb : V (Proc.devRef .tc main_v540) = fun i => jtrOf (rowOf (flatJtr (M := 262144) A1) (i 0)) 19 (i 1))
    (hc : V (Proc.devRef .tc main_v544) = fun i => boneLen (diffOf (rowOf (flatJtr (M := 262144) A1) (i 0)) 19 17))
    (hd : V (Proc.devRef .tc main_v508) = blkJoint (M := 262144) A2 A3 A4 A5 A6 A7 17 (flatRot A0) (flatJtr A1))
    (h4 : V (Proc.devRef .tc main_arg4) = A4) (h5 : V (Proc.devRef .tc main_arg5) = A5) (h6 : V (Proc.devRef .tc main_arg6) = A6) (h7 : V (Proc.devRef .tc main_arg7) = A7) :
    after opsJ19b V (Proc.devRef .tc main_v564) = blkJoint (M := 262144) A2 A3 A4 A5 A6 A7 19 (flatRot A0) (flatJtr A1) := by
  simp only [opsJ19b]
  after_results_simp
  try dsimp only [Matrix.cons_val]
  try simp only [TRef.ofBuf, TRef.toBuf, cast_eq]
  rw [h4, h5, h6, h7]
  refine (RJoint.mlp_eq (M := 262144) 19 (V (Proc.devRef .tc main_v538)) (V (Proc.devRef .tc main_v540)) (V (Proc.devRef .tc main_v544)) (V (Proc.devRef .tc main_v508)) A4 A5 A6 A7 _ rfl _ rfl _ rfl _ rfl _ _ _ _ _ _ _ _ _ _ _ _ _ _ _ _).trans ?_
  rw [ha, hb, hc, hd]
  rfl

/-- Joint 20's rotation entries, as its first stretch leaves them. -/
theorem J20a_rot (h0 : V (Proc.devRef .tc main_arg0) = A0) :
    after opsJ20a V (Proc.devRef .tc main_v566) = fun i => rotOf (rowOf (flatRot (M := 262144) A0) (i 0)) 20 (i 1) := by
  simp only [opsJ20a]
  after_results_simp
  rw [h0]
  exact RJoint.rot_eq (M := 262144) 20 A0 _ rfl _ _

/-- Joint 20's translation entries. -/
theorem J20a_jtr (h1 : V (Proc.devRef .tc main_arg1) = A1) :
    after opsJ20a V (Proc.devRef .tc main_v568) = fun i => jtrOf (rowOf (flatJtr (M := 262144) A1) (i 0)) 20 (i 1) := by
  simp only [opsJ20a]
  after_results_simp
  rw [h1]
  exact RJoint.jtr_eq (M := 262144) 20 A1 _ rfl _ _

/-- Joint 20's bone length: the length of its translation minus joint 18's. -/
theorem J20a_bone (h1 : V (Proc.devRef .tc main_arg1) = A1) :
    after opsJ20a V (Proc.devRef .tc main_v572) = fun i => boneLen (diffOf (rowOf (flatJtr (M := 262144) A1) (i 0)) 20 18) := by
  simp only [opsJ20a]
  after_results_simp
  try simp only [TRef.ofBuf, TRef.toBuf, cast_eq]
  rw [h1]
  exact RJoint.bone_child_eq (M := 262144) 20 18 A1 _ _ rfl rfl _ _ _ _ _ _

/-- Joint 20's outputs: the two layers on its nineteen inputs. -/
theorem J20b_out
    (ha : V (Proc.devRef .tc main_v566) = fun i => rotOf (rowOf (flatRot (M := 262144) A0) (i 0)) 20 (i 1)) (hb : V (Proc.devRef .tc main_v568) = fun i => jtrOf (rowOf (flatJtr (M := 262144) A1) (i 0)) 20 (i 1))
    (hc : V (Proc.devRef .tc main_v572) = fun i => boneLen (diffOf (rowOf (flatJtr (M := 262144) A1) (i 0)) 20 18))
    (hd : V (Proc.devRef .tc main_v536) = blkJoint (M := 262144) A2 A3 A4 A5 A6 A7 18 (flatRot A0) (flatJtr A1))
    (h4 : V (Proc.devRef .tc main_arg4) = A4) (h5 : V (Proc.devRef .tc main_arg5) = A5) (h6 : V (Proc.devRef .tc main_arg6) = A6) (h7 : V (Proc.devRef .tc main_arg7) = A7) :
    after opsJ20b V (Proc.devRef .tc main_v592) = blkJoint (M := 262144) A2 A3 A4 A5 A6 A7 20 (flatRot A0) (flatJtr A1) := by
  simp only [opsJ20b]
  after_results_simp
  try dsimp only [Matrix.cons_val]
  try simp only [TRef.ofBuf, TRef.toBuf, cast_eq]
  rw [h4, h5, h6, h7]
  refine (RJoint.mlp_eq (M := 262144) 20 (V (Proc.devRef .tc main_v566)) (V (Proc.devRef .tc main_v568)) (V (Proc.devRef .tc main_v572)) (V (Proc.devRef .tc main_v536)) A4 A5 A6 A7 _ rfl _ rfl _ rfl _ rfl _ _ _ _ _ _ _ _ _ _ _ _ _ _ _ _).trans ?_
  rw [ha, hb, hc, hd]
  rfl

end Cert.ReferenceIdeal.RunP

end
-- ==== Proof.RefV7.lean ====
import proofs.«142136_j58514634440790_1_alg».proof.Proof.RefS7
import proofs.«142136_j58514634440790_1_alg».proof.Proof.RJoint
import Idealize.ShloMosaic.Lib.StableHlo.Run

noncomputable section

namespace Cert.ReferenceIdeal.RunP

open Cert.ReferenceIdeal Cert.ReferenceIdeal.Gen Idealize.ShloMosaic Idealize.ShloMosaic.TcCoe Idealize.SL.Sem Idealize.ShloMosaic.StableHlo
open Cert.Tree

variable (V : Valuation τ sig (Elt Ideal)) (A0 : FVec Ideal S262144x24x9 .f32) (A1 : FVec Ideal S262144x24x3 .f32) (A2 : FVec Ideal S6x288 .f32) (A3 : FVec Ideal S6 .f32) (A4 : FVec Ideal S24x19x19 .f32) (A5 : FVec Ideal S24x19 .f32) (A6 : FVec Ideal S24x6x19 .f32) (A7 : FVec Ideal S24x6 .f32)

/-- Joint 21's rotation entries, as its first stretch leaves them. -/
theorem J21a_rot (h0 : V (Proc.devRef .tc main_arg0) = A0) :
    after opsJ21a V (Proc.devRef .tc main_v594) = fun i => rotOf (rowOf (flatRot (M := 262144) A0) (i 0)) 21 (i 1) := by
  simp only [opsJ21a]
  after_results_simp
  rw [h0]
  exact RJoint.rot_eq (M := 262144) 21 A0 _ rfl _ _

/-- Joint 21's translation entries. -/
theorem J21a_jtr (h1 : V (Proc.devRef .tc main_arg1) = A1) :
    after opsJ21a V (Proc.devRef .tc main_v596) = fun i => jtrOf (rowOf (flatJtr (M := 262144) A1) (i 0)) 21 (i 1) := by
  simp only [opsJ21a]
  after_results_simp
  rw [h1]
  exact RJoint.jtr_eq (M := 262144) 21 A1 _ rfl _ _

/-- Joint 21's bone length: the length of its translation minus joint 19's. -/
theorem J21a_bone (h1 : V (Proc.devRef .tc main_arg1) = A1) :
    after opsJ21a V (Proc.devRef .tc main_v600) = fun i => boneLen (diffOf (rowOf (flatJtr (M := 262144) A1) (i 0)) 21 19) := by
  simp only [opsJ21a]
  after_results_simp
  try simp only [TRef.ofBuf, TRef.toBuf, cast_eq]
  rw [h1]
  exact RJoint.bone_child_eq (M := 262144) 21 19 A1 _ _ rfl rfl _ _ _ _ _ _

/-- Joint 21's outputs: the two layers on its nineteen inputs. -/
theorem J21b_out
    (ha : V (Proc.devRef .tc main_v594) = fun i => rotOf (rowOf (flatRot (M := 262144) A0) (i 0)) 21 (i 1)) (hb : V (Proc.devRef .tc main_v596) = fun i => jtrOf (rowOf (flatJtr (M := 262144) A1) (i 0)) 21 (i 1))
    (hc : V (Proc.devRef .tc main_v600) = fun i => boneLen (diffOf (rowOf (flatJtr (M := 262144) A1) (i 0)) 21 19))
    (hd : V (Proc.devRef .tc main_v564) = blkJoint (M := 262144) A2 A3 A4 A5 A6 A7 19 (flatRot A0) (flatJtr A1))
    (h4 : V (Proc.devRef .tc main_arg4) = A4) (h5 : V (Proc.devRef .tc main_arg5) = A5) (h6 : V (Proc.devRef .tc main_arg6) = A6) (h7 : V (Proc.devRef .tc main_arg7) = A7) :
    after opsJ21b V (Proc.devRef .tc main_v620) = blkJoint (M := 262144) A2 A3 A4 A5 A6 A7 21 (flatRot A0) (flatJtr A1) := by
  simp only [opsJ21b]
  after_results_simp
  try dsimp only [Matrix.cons_val]
  try simp only [TRef.ofBuf, TRef.toBuf, cast_eq]
  rw [h4, h5, h6, h7]
  refine (RJoint.mlp_eq (M := 262144) 21 (V (Proc.devRef .tc main_v594)) (V (Proc.devRef .tc main_v596)) (V (Proc.devRef .tc main_v600)) (V (Proc.devRef .tc main_v564)) A4 A5 A6 A7 _ rfl _ rfl _ rfl _ rfl _ _ _ _ _ _ _ _ _ _ _ _ _ _ _ _).trans ?_
  rw [ha, hb, hc, hd]
  rfl

/-- Joint 22's rotation entries, as its first stretch leaves them. -/
theorem J22a_rot (h0 : V (Proc.devRef .tc main_arg0) = A0) :
    after opsJ22a V (Proc.devRef .tc main_v622) = fun i => rotOf (rowOf (flatRot (M := 262144) A0) (i 0)) 22 (i 1) := by
  simp only [opsJ22a]
  after_results_simp
  rw [h0]
  exact RJoint.rot_eq (M := 262144) 22 A0 _ rfl _ _

/-- Joint 22's translation entries. -/
theorem J22a_jtr (h1 : V (Proc.devRef .tc main_arg1) = A1) :
    after opsJ22a V (Proc.devRef .tc main_v624) = fun i => jtrOf (rowOf (flatJtr (M := 262144) A1) (i 0)) 22 (i 1) := by
  simp only [opsJ22a]
  after_results_simp
  rw [h1]
  exact RJoint.jtr_eq (M := 262144) 22 A1 _ rfl _ _

/-- Joint 22's bone length: the length of its translation minus joint 20's. -/
theorem J22a_bone (h1 : V (Proc.devRef .tc main_arg1) = A1) :
    after opsJ22a V (Proc.devRef .tc main_v628) = fun i => boneLen (diffOf (rowOf (flatJtr (M := 262144) A1) (i 0)) 22 20) := by
  simp only [opsJ22a]
  after_results_simp
  try simp only [TRef.ofBuf, TRef.toBuf, cast_eq]
  rw [h1]
  exact RJoint.bone_child_eq (M := 262144) 22 20 A1 _ _ rfl rfl _ _ _ _ _ _

/-- Joint 22's outputs: the two layers on its nineteen inputs. -/
theorem J22b_out
    (ha : V (Proc.devRef .tc main_v622) = fun i => rotOf (rowOf (flatRot (M := 262144) A0) (i 0)) 22 (i 1)) (hb : V (Proc.devRef .tc main_v624) = fun i => jtrOf (rowOf (flatJtr (M := 262144) A1) (i 0)) 22 (i 1))
    (hc : V (Proc.devRef .tc main_v628) = fun i => boneLen (diffOf (rowOf (flatJtr (M := 262144) A1) (i 0)) 22 20))
    (hd : V (Proc.devRef .tc main_v592) = blkJoint (M := 262144) A2 A3 A4 A5 A6 A7 20 (flatRot A0) (flatJtr A1))
    (h4 : V (Proc.devRef .tc main_arg4) = A4) (h5 : V (Proc.devRef .tc main_arg5) = A5) (h6 : V (Proc.devRef .tc main_arg6) = A6) (h7 : V (Proc.devRef .tc main_arg7) = A7) :
    after opsJ22b V (Proc.devRef .tc main_v648) = blkJoint (M := 262144) A2 A3 A4 A5 A6 A7 22 (flatRot A0) (flatJtr A1) := by
  simp only [opsJ22b]
  after_results_simp
  try dsimp only [Matrix.cons_val]
  try simp only [TRef.ofBuf, TRef.toBuf, cast_eq]
  rw [h4, h5, h6, h7]
  refine (RJoint.mlp_eq (M := 262144) 22 (V (Proc.devRef .tc main_v622)) (V (Proc.devRef .tc main_v624)) (V (Proc.devRef .tc main_v628)) (V (Proc.devRef .tc main_v592)) A4 A5 A6 A7 _ rfl _ rfl _ rfl _ rfl _ _ _ _ _ _ _ _ _ _ _ _ _ _ _ _).trans ?_
  rw [ha, hb, hc, hd]
  rfl

/-- Joint 23's rotation entries, as its first stretch leaves them. -/
theorem J23a_rot (h0 : V (Proc.devRef .tc main_arg0) = A0) :
    after opsJ23a V (Proc.devRef .tc main_v650) = fun i => rotOf (rowOf (flatRot (M := 262144) A0) (i 0)) 23 (i 1) := by
  simp only [opsJ23a]
  after_results_simp
  rw [h0]
  exact RJoint.rot_eq (M := 262144) 23 A0 _ rfl _ _

/-- Joint 23's translation entries. -/
theorem J23a_jtr (h1 : V (Proc.devRef .tc main_arg1) = A1) :
    after opsJ23a V (Proc.devRef .tc main_v652) = fun i => jtrOf (rowOf (flatJtr (M := 262144) A1) (i 0)) 23 (i 1) := by
  simp only [opsJ23a]
  after_results_simp
  rw [h1]
  exact RJoint.jtr_eq (M := 262144) 23 A1 _ rfl _ _

/-- Joint 23's bone length: the length of its translation minus joint 21's. -/
theorem J23a_bone (h1 : V (Proc.devRef .tc main_arg1) = A1) :
    after opsJ23a V (Proc.devRef .tc main_v656) = fun i => boneLen (diffOf (rowOf (flatJtr (M := 262144) A1) (i 0)) 23 21) := by
  simp only [opsJ23a]
  after_results_simp
  try simp only [TRef.ofBuf, TRef.toBuf, cast_eq]
  rw [h1]
  exact RJoint.bone_child_eq (M := 262144) 23 21 A1 _ _ rfl rfl _ _ _ _ _ _

/-- Joint 23's outputs: the two layers on its nineteen inputs. -/
theorem J23b_out
    (ha : V (Proc.devRef .tc main_v650) = fun i => rotOf (rowOf (flatRot (M := 262144) A0) (i 0)) 23 (i 1)) (hb : V (Proc.devRef .tc main_v652) = fun i => jtrOf (rowOf (flatJtr (M := 262144) A1) (i 0)) 23 (i 1))
    (hc : V (Proc.devRef .tc main_v656) = fun i => boneLen (diffOf (rowOf (flatJtr (M := 262144) A1) (i 0)) 23 21))
    (hd : V (Proc.devRef .tc main_v620) = blkJoint (M := 262144) A2 A3 A4 A5 A6 A7 21 (flatRot A0) (flatJtr A1))
    (h4 : V (Proc.devRef .tc main_arg4) = A4) (h5 : V (Proc.devRef .tc main_arg5) = A5) (h6 : V (Proc.devRef .tc main_arg6) = A6) (h7 : V (Proc.devRef .tc main_arg7) = A7) :
    after opsJ23b V (Proc.devRef .tc main_v676) = blkJoint (M := 262144) A2 A3 A4 A5 A6 A7 23 (flatRot A0) (flatJtr A1) := by
  simp only [opsJ23b]
  after_results_simp
  try dsimp only [Matrix.cons_val]
  try simp only [TRef.ofBuf, TRef.toBuf, cast_eq]
  rw [h4, h5, h6, h7]
  refine (RJoint.mlp_eq (M := 262144) 23 (V (Proc.devRef .tc main_v650)) (V (Proc.devRef .tc main_v652)) (V (Proc.devRef .tc main_v656)) (V (Proc.devRef .tc main_v620)) A4 A5 A6 A7 _ rfl _ rfl _ rfl _ rfl _ _ _ _ _ _ _ _ _ _ _ _ _ _ _ _).trans ?_
  rw [ha, hb, hc, hd]
  rfl

end Cert.ReferenceIdeal.RunP

end
-- ==== Proof.LibStretch.lean ====
import Idealize.ShloMosaic.Lib.StableHlo.RunLoop
import Mathlib.Data.List.Forall2

namespace Idealize.ShloMosaic.StableHlo

variable {τ : Topo} {sig : RefSig} {Val : EltTy → Type}

/-- Stretch by stretch, a list that holds every reference the stretch writes. -/
abbrev Writes (Ss : List (List (HloOp τ sig Val))) (Ws : List (List (Ref sig .tc))) : Prop :=
  List.Forall₂ (fun S W => S.Forall fun op => op.writes ⊆ (W.map (Proc.devRef (τ := τ) .tc)).toFinset) Ss Ws

/-- A one-reference write set lies in the write list that holds the reference. -/
theorem mem_writes {W : List (Ref sig .tc)} {y : Ref sig .tc} (h : y ∈ W) :
    ({Proc.devRef (τ := τ) .tc y} : Finset (DevRef τ sig)) ⊆ (W.map (Proc.devRef .tc)).toFinset :=
  Finset.singleton_subset_iff.mpr (List.mem_toFinset.mpr (List.mem_map_of_mem h))

theorem not_mem_flatten_drop {α : Type} {Ws : List (List α)} {x : α} (hx : x ∉ Ws.flatten) (s : ℕ) :
    x ∉ (Ws.drop s).flatten := fun h =>
  let ⟨W, hW, hxW⟩ := List.mem_flatten.mp h
  hx (List.mem_flatten.mpr ⟨W, List.mem_of_mem_drop hW, hxW⟩)

theorem after_flatten_take_drop (Ss : List (List (HloOp τ sig Val))) (s : ℕ) (V : Valuation τ sig Val) :
    after Ss.flatten V = after (Ss.drop s).flatten (after (Ss.take s).flatten V) := by
  conv_lhs => rw [← List.take_append_drop s Ss, List.flatten_append, after_append]

variable {Ss : List (List (HloOp τ sig Val))} {Ws : List (List (Ref sig .tc))}

/-- A reference no stretch writes keeps its contents through all of them. -/
theorem Writes.keep (h : Writes Ss Ws) (V : Valuation τ sig Val) {r : Ref sig .tc} (hr : r ∉ Ws.flatten) :
    after Ss.flatten V (Proc.devRef .tc r) = V (Proc.devRef .tc r) := by
  induction h generalizing V with
  | nil => rfl
  | cons hS _ ih =>
    rw [List.flatten_cons, List.mem_append, not_or] at hr
    rw [List.flatten_cons, after_append, ih _ hr.2, after_of_writes_sub _ V hS hr.1]

/-- Before stretch `s`, a reference that no stretch from `s` on writes already holds what the whole line leaves in it. -/
theorem Writes.pre (h : Writes Ss Ws) (V : Valuation τ sig Val) (s : ℕ) {x : Ref sig .tc}
    (hx : x ∉ (Ws.drop s).flatten) {v} (hv : after Ss.flatten V (Proc.devRef .tc x) = v) :
    after (Ss.take s).flatten V (Proc.devRef .tc x) = v := by
  rw [← hv, after_flatten_take_drop Ss s V, Writes.keep (List.forall₂_drop s h) _ hx]

/-- A reference no stretch writes holds its first contents before every stretch. -/
theorem Writes.arg (h : Writes Ss Ws) (V : Valuation τ sig Val) (s : ℕ) {x : Ref sig .tc} (hx : x ∉ Ws.flatten) {v}
    (hv : V (Proc.devRef .tc x) = v) : after (Ss.take s).flatten V (Proc.devRef .tc x) = v :=
  Writes.pre h V s (not_mem_flatten_drop hx s) ((Writes.keep h V hx).trans hv)

/-- What stretch `s` leaves in a reference no later stretch writes is what the whole line leaves in it. -/
theorem Writes.out (h : Writes Ss Ws) (V : Valuation τ sig Val) (s : ℕ) {S : List (HloOp τ sig Val)}
    (hs : Ss[s]? = some S) {y : Ref sig .tc} (hy : y ∉ (Ws.drop (s + 1)).flatten) {v}
    (hv : after S (after (Ss.take s).flatten V) (Proc.devRef .tc y) = v) :
    after Ss.flatten V (Proc.devRef .tc y) = v := by
  rw [after_flatten_take_drop Ss (s + 1) V, Writes.keep (List.forall₂_drop (s + 1) h) _ hy, List.take_succ, hs,
    Option.toList_some, List.flatten_append, List.flatten_cons, List.flatten_nil, List.append_nil, after_append]
  exact hv

/-- Both at once: what stretch `s` leaves in a reference no later stretch writes is what stretch `s + 1` finds in it. -/
theorem Writes.next (h : Writes Ss Ws) (V : Valuation τ sig Val) (s : ℕ) {S : List (HloOp τ sig Val)}
    (hs : Ss[s]? = some S) {y : Ref sig .tc} (hy : y ∉ (Ws.drop (s + 1)).flatten) {v}
    (hv : after S (after (Ss.take s).flatten V) (Proc.devRef .tc y) = v) :
    after (Ss.take (s + 1)).flatten V (Proc.devRef .tc y) = v :=
  Writes.pre h V (s + 1) hy (Writes.out h V s hs hy hv)

end Idealize.ShloMosaic.StableHlo
-- ==== Proof.RefRun.lean ====
import proofs.«142136_j58514634440790_1_alg».proof.Proof.RefS0
import proofs.«142136_j58514634440790_1_alg».proof.Proof.RefS1
import proofs.«142136_j58514634440790_1_alg».proof.Proof.RefS2
import proofs.«142136_j58514634440790_1_alg».proof.Proof.RefS3
import proofs.«142136_j58514634440790_1_alg».proof.Proof.RefS4
import proofs.«142136_j58514634440790_1_alg».proof.Proof.RefS5
import proofs.«142136_j58514634440790_1_alg».proof.Proof.RefS6
import proofs.«142136_j58514634440790_1_alg».proof.Proof.RefS7
import proofs.«142136_j58514634440790_1_alg».proof.Proof.LibStretch

noncomputable section

namespace Cert.ReferenceIdeal.RunP

open Cert.ReferenceIdeal Cert.ReferenceIdeal.Gen Idealize.ShloMosaic Idealize.ShloMosaic.TcCoe Idealize.SL.Sem Idealize.ShloMosaic.StableHlo

variable {F : FTy → Type} [FloatOps F]

/-- @main's operations cut into stretches: one up to each joint's nineteen inputs, one from there on. -/
abbrev Ss : List (List (HloOp τ sig (Elt F))) :=
  [opsJ0a, opsJ0b, opsJ0c, opsJ1a, opsJ1b, opsJ2a, opsJ2b, opsJ3a, opsJ3b, opsJ4a, opsJ4b, opsJ5a, opsJ5b, opsJ6a, opsJ6b, opsJ7a, opsJ7b, opsJ8a,
  opsJ8b, opsJ9a, opsJ9b, opsJ10a, opsJ10b, opsJ11a, opsJ11b, opsJ12a, opsJ12b, opsJ13a, opsJ13b, opsJ14a, opsJ14b, opsJ15a, opsJ15b, opsJ16a,
  opsJ16b, opsJ17a, opsJ17b, opsJ18a, opsJ18b, opsJ19a, opsJ19b, opsJ20a, opsJ20b, opsJ21a, opsJ21b, opsJ22a, opsJ22b, opsJ23a, opsJ23b, opsE1, opsE2,
  opsE3]

abbrev Ws : List (List (Ref sig .tc)) :=
  [WJ0a, WJ0b, WJ0c, WJ1a, WJ1b, WJ2a, WJ2b, WJ3a, WJ3b, WJ4a, WJ4b, WJ5a, WJ5b, WJ6a, WJ6b, WJ7a, WJ7b, WJ8a, WJ8b, WJ9a, WJ9b, WJ10a, WJ10b, WJ11a,
  WJ11b, WJ12a, WJ12b, WJ13a, WJ13b, WJ14a, WJ14b, WJ15a, WJ15b, WJ16a, WJ16b, WJ17a, WJ17b, WJ18a, WJ18b, WJ19a, WJ19b, WJ20a, WJ20b, WJ21a, WJ21b,
  WJ22a, WJ22b, WJ23a, WJ23b, WE1, WE2, WE3]

abbrev ops : List (HloOp τ sig (Elt F)) := Ss.flatten

/-- Operation by operation, the one reference it writes is in its stretch's list. -/
theorem writes : Writes (Ss (F := F)) Ws := by
  repeat' apply List.Forall₂.cons
  all_goals first
    | exact .nil
    | exact List.forall_iff_forall_mem.mpr fun _ h => by
        (repeat (cases h with | head => exact mem_writes (by decide) | tail _ h => ?_)); exact nomatch h

theorem plain : Plain (Ss (F := F)) :=
  .cons opsJ0a_sub <| .cons opsJ0b_sub <| .cons opsJ0c_sub <| .cons opsJ1a_sub <| .cons opsJ1b_sub <| .cons opsJ2a_sub <| .cons opsJ2b_sub <|
  .cons opsJ3a_sub <| .cons opsJ3b_sub <| .cons opsJ4a_sub <| .cons opsJ4b_sub <| .cons opsJ5a_sub <| .cons opsJ5b_sub <| .cons opsJ6a_sub <|
  .cons opsJ6b_sub <| .cons opsJ7a_sub <| .cons opsJ7b_sub <| .cons opsJ8a_sub <| .cons opsJ8b_sub <| .cons opsJ9a_sub <| .cons opsJ9b_sub <|
  .cons opsJ10a_sub <| .cons opsJ10b_sub <| .cons opsJ11a_sub <| .cons opsJ11b_sub <| .cons opsJ12a_sub <| .cons opsJ12b_sub <| .cons opsJ13a_sub <|
  .cons opsJ13b_sub <| .cons opsJ14a_sub <| .cons opsJ14b_sub <| .cons opsJ15a_sub <| .cons opsJ15b_sub <| .cons opsJ16a_sub <| .cons opsJ16b_sub <|
  .cons opsJ17a_sub <| .cons opsJ17b_sub <| .cons opsJ18a_sub <| .cons opsJ18b_sub <| .cons opsJ19a_sub <| .cons opsJ19b_sub <| .cons opsJ20a_sub <|
  .cons opsJ20b_sub <| .cons opsJ21a_sub <| .cons opsJ21b_sub <| .cons opsJ22a_sub <| .cons opsJ22b_sub <| .cons opsJ23a_sub <| .cons opsJ23b_sub <|
  .cons opsE1_sub <| .cons opsE2_sub <| .cons opsE3_sub <| .nil

set_option maxRecDepth 8192 in
set_option maxHeartbeats 4000000 in
/-- Each printed window of @main is a run of consecutive operations of the line. -/
theorem part0 (c : Dev nD) : main_part0 (F := F) c = seq (ops.take 72) := rfl
set_option maxRecDepth 8192 in
set_option maxHeartbeats 4000000 in
theorem part1 (c : Dev nD) : main_part1 (F := F) c = seq ((ops.drop 72).take 72) := rfl
set_option maxRecDepth 8192 in
set_option maxHeartbeats 4000000 in
theorem part2 (c : Dev nD) : main_part2 (F := F) c = seq (((ops.drop 72).drop 72).take 72) := rfl
set_option maxRecDepth 8192 in
set_option maxHeartbeats 4000000 in
theorem part3 (c : Dev nD) : main_part3 (F := F) c = seq ((((ops.drop 72).drop 72).drop 72).take 76) := rfl
set_option maxRecDepth 8192 in
set_option maxHeartbeats 4000000 in
theorem part4 (c : Dev nD) : main_part4 (F := F) c = seq (((((ops.drop 72).drop 72).drop 72).drop 76).take 72) := rfl
set_option maxRecDepth 8192 in
set_option maxHeartbeats 4000000 in
theorem part5 (c : Dev nD) : main_part5 (F := F) c = seq ((((((ops.drop 72).drop 72).drop 72).drop 76).drop 72).take 74) := rfl
set_option maxRecDepth 8192 in
set_option maxHeartbeats 4000000 in
theorem part6 (c : Dev nD) : main_part6 (F := F) c = seq (((((((ops.drop 72).drop 72).drop 72).drop 76).drop 72).drop 74).take 72) := rfl
set_option maxRecDepth 8192 in
set_option maxHeartbeats 4000000 in
theorem part7 (c : Dev nD) : main_part7 (F := F) c = seq ((((((((ops.drop 72).drop 72).drop 72).drop 76).drop 72).drop 74).drop 72).take 72) := rfl
set_option maxRecDepth 8192 in
set_option maxHeartbeats 4000000 in
theorem part8 (c : Dev nD) : main_part8 (F := F) c = seq (((((((((ops.drop 72).drop 72).drop 72).drop 76).drop 72).drop 74).drop 72).drop 72).take 72) := rfl
set_option maxRecDepth 8192 in
set_option maxHeartbeats 4000000 in
theorem part9 (c : Dev nD) : main_part9 (F := F) c = seq ((((((((((ops.drop 72).drop 72).drop 72).drop 76).drop 72).drop 74).drop 72).drop 72).drop 72).take 72) := rfl
set_option maxRecDepth 8192 in
set_option maxHeartbeats 4000000 in
theorem part10 (c : Dev nD) : main_part10 (F := F) c = seq (((((((((((ops.drop 72).drop 72).drop 72).drop 76).drop 72).drop 74).drop 72).drop 72).drop 72).drop 72).take 76) := rfl
set_option maxRecDepth 8192 in
set_option maxHeartbeats 4000000 in
theorem part11 (c : Dev nD) : main_part11 (F := F) c = seq (((((((((((ops.drop 72).drop 72).drop 72).drop 76).drop 72).drop 74).drop 72).drop 72).drop 72).drop 72).drop 76) := rfl

theorem main_eq (c : Dev nD) : main (F := F) c = seq ops := by
  conv_rhs => rw [← List.take_append_drop 72 ops,
    ← List.take_append_drop 72 (ops.drop 72),
    ← List.take_append_drop 72 ((ops.drop 72).drop 72),
    ← List.take_append_drop 76 (((ops.drop 72).drop 72).drop 72),
    ← List.take_append_drop 72 ((((ops.drop 72).drop 72).drop 72).drop 76),
    ← List.take_append_drop 74 (((((ops.drop 72).drop 72).drop 72).drop 76).drop 72),
    ← List.take_append_drop 72 ((((((ops.drop 72).drop 72).drop 72).drop 76).drop 72).drop 74),
    ← List.take_append_drop 72 (((((((ops.drop 72).drop 72).drop 72).drop 76).drop 72).drop 74).drop 72),
    ← List.take_append_drop 72 ((((((((ops.drop 72).drop 72).drop 72).drop 76).drop 72).drop 74).drop 72).drop 72),
    ← List.take_append_drop 72 (((((((((ops.drop 72).drop 72).drop 72).drop 76).drop 72).drop 74).drop 72).drop 72).drop 72),
    ← List.take_append_drop 76 ((((((((((ops.drop 72).drop 72).drop 72).drop 76).drop 72).drop 74).drop 72).drop 72).drop 72).drop 72)]
  simp only [seq_append, ← part0 c, ← part1 c, ← part2 c, ← part3 c, ← part4 c, ← part5 c, ← part6 c, ← part7 c, ← part8 c, ← part9 c, ← part10 c, ← part11 c]
  rfl

theorem scopedRefs_eq : (Finset.univ.filter fun b : Ref sig .tc => b.isScoped) = ∅ := by decide
theorem scopedSems_eq : (Finset.univ.filter fun sm : SemLoc sig => sm.isScoped .tc) = ∅ := by decide

/-- Every weakly fair execution of @main terminates, each buffer at the fold of the operations over its first contents. -/
theorem run0 (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc), r.2.mem ((d.tc : Thread nD τ).loc b) = after ops (launchContents m d) (Proc.devRef .tc b) :=
  run_seq scopedRefs_eq scopedSems_eq defs main (fun _ => ops) main_eq
    (fun _ => List.forall_iff_forall_mem.mpr fun op h => let ⟨S, hS, ho⟩ := List.mem_flatten.mp h; (plain S hS).1 op ho) m ρ
    (fun _ op h => let ⟨S, hS, ho⟩ := List.mem_flatten.mp h; (plain S hS).2 op ho)

end Cert.ReferenceIdeal.RunP

end
-- ==== Proof.RFinal.lean ====
import Idealize.ShloMosaic.Lib.ValueIdx
import Idealize.ShloMosaic.Lib.Pipeline.Value
import Idealize.ShloMosaic.PureOps.Ideal
import proofs.«142136_j58514634440790_1_alg».proof.Proof.Spec

noncomputable section

namespace Cert.Tree.RFinal

open Idealize.ShloMosaic Idealize.ShloMosaic.ValueIdx

theorem cat6_apply {M N L : Nat} (xs : List ((s : Shape) × (s.Idx → EReal)))
    (f : Fin N → ((⟨2, ![M, 6]⟩ : Shape).Idx → EReal))
    (hxs : xs = List.ofFn fun n : Fin N => (⟨⟨2, ![M, 6]⟩, f n⟩ : (s : Shape) × (s.Idx → EReal)))
    (h : Shape.Concatenates (xs.map (·.1)) ⟨2, ![M, L]⟩ 1) (r : Fin M) (k : Fin L)
    (n : Fin N) (hn : k.val / 6 = n.val) (q : Fin 6) (hq : q.val = k.val % 6) :
    concatenate ⟨2, ![M, L]⟩ 1 xs h (ix2 r k) = f n (ix2 r q) := by
  subst hxs
  refine concatenate_ofFn_apply (t := ⟨2, ![M, L]⟩) (s₁ := ⟨2, ![M, 6]⟩) 1 f h rfl 6 rfl (ix2 r k) n hn (ix2 r q) hq ?_
  intro b hb
  match b with
  | ⟨0, _⟩ => rfl
  | ⟨1, _⟩ => exact absurd rfl hb

theorem cat24_eq {M : Nat} (W0 : (⟨2, ![6, 288]⟩ : Shape).Idx → EReal) (B0 : (⟨1, ![6]⟩ : Shape).Idx → EReal)
    (W1 : (⟨3, ![24, 19, 19]⟩ : Shape).Idx → EReal) (B1 : (⟨2, ![24, 19]⟩ : Shape).Idx → EReal)
    (W2 : (⟨3, ![24, 6, 19]⟩ : Shape).Idx → EReal) (B2 : (⟨2, ![24, 6]⟩ : Shape).Idx → EReal)
    (X0 : (⟨2, ![M, 216]⟩ : Shape).Idx → EReal) (X1 : (⟨2, ![M, 72]⟩ : Shape).Idx → EReal)
    (p0 p1 p2 p3 p4 p5 p6 p7 p8 p9 p10 p11 p12 p13 p14 p15 p16 p17 p18 p19 p20 p21 p22 p23 :
      (⟨2, ![M, 6]⟩ : Shape).Idx → EReal)
    (c96 : (⟨2, ![M, 96]⟩ : Shape).Idx → EReal) (c48 : (⟨2, ![M, 48]⟩ : Shape).Idx → EReal)
    (h96 : Shape.Concatenates [⟨2, ![M, 6]⟩, ⟨2, ![M, 6]⟩, ⟨2, ![M, 6]⟩, ⟨2, ![M, 6]⟩, ⟨2, ![M, 6]⟩, ⟨2, ![M, 6]⟩, ⟨2, ![M, 6]⟩, ⟨2, ![M, 6]⟩, ⟨2, ![M, 6]⟩, ⟨2, ![M, 6]⟩, ⟨2, ![M, 6]⟩, ⟨2, ![M, 6]⟩, ⟨2, ![M, 6]⟩, ⟨2, ![M, 6]⟩, ⟨2, ![M, 6]⟩, ⟨2, ![M, 6]⟩] ⟨2, ![M, 96]⟩ 1)
    (h48 : Shape.Concatenates [⟨2, ![M, 6]⟩, ⟨2, ![M, 6]⟩, ⟨2, ![M, 6]⟩, ⟨2, ![M, 6]⟩, ⟨2, ![M, 6]⟩, ⟨2, ![M, 6]⟩, ⟨2, ![M, 6]⟩, ⟨2, ![M, 6]⟩] ⟨2, ![M, 48]⟩ 1)
    (h144 : Shape.Concatenates [⟨2, ![M, 96]⟩, ⟨2, ![M, 48]⟩] ⟨2, ![M, 144]⟩ 1)
    (e96 : c96 = concatenate ⟨2, ![M, 96]⟩ 1 [⟨⟨2, ![M, 6]⟩, p0⟩, ⟨⟨2, ![M, 6]⟩, p1⟩, ⟨⟨2, ![M, 6]⟩, p2⟩, ⟨⟨2, ![M, 6]⟩, p3⟩, ⟨⟨2, ![M, 6]⟩, p4⟩, ⟨⟨2, ![M, 6]⟩, p5⟩, ⟨⟨2, ![M, 6]⟩, p6⟩, ⟨⟨2, ![M, 6]⟩, p7⟩, ⟨⟨2, ![M, 6]⟩, p8⟩, ⟨⟨2, ![M, 6]⟩, p9⟩, ⟨⟨2, ![M, 6]⟩, p10⟩, ⟨⟨2, ![M, 6]⟩, p11⟩, ⟨⟨2, ![M, 6]⟩, p12⟩, ⟨⟨2, ![M, 6]⟩, p13⟩, ⟨⟨2, ![M, 6]⟩, p14⟩, ⟨⟨2, ![M, 6]⟩, p15⟩] h96)
    (e48 : c48 = concatenate ⟨2, ![M, 48]⟩ 1 [⟨⟨2, ![M, 6]⟩, p16⟩, ⟨⟨2, ![M, 6]⟩, p17⟩, ⟨⟨2, ![M, 6]⟩, p18⟩, ⟨⟨2, ![M, 6]⟩, p19⟩, ⟨⟨2, ![M, 6]⟩, p20⟩, ⟨⟨2, ![M, 6]⟩, p21⟩, ⟨⟨2, ![M, 6]⟩, p22⟩, ⟨⟨2, ![M, 6]⟩, p23⟩] h48)
    (hp0 : p0 = Cert.Tree.blkJoint W0 B0 W1 B1 W2 B2 0 X0 X1) (hp1 : p1 = Cert.Tree.blkJoint W0 B0 W1 B1 W2 B2 1 X0 X1)
    (hp2 : p2 = Cert.Tree.blkJoint W0 B0 W1 B1 W2 B2 2 X0 X1) (hp3 : p3 = Cert.Tree.blkJoint W0 B0 W1 B1 W2 B2 3 X0 X1)
    (hp4 : p4 = Cert.Tree.blkJoint W0 B0 W1 B1 W2 B2 4 X0 X1) (hp5 : p5 = Cert.Tree.blkJoint W0 B0 W1 B1 W2 B2 5 X0 X1)
    (hp6 : p6 = Cert.Tree.blkJoint W0 B0 W1 B1 W2 B2 6 X0 X1) (hp7 : p7 = Cert.Tree.blkJoint W0 B0 W1 B1 W2 B2 7 X0 X1)
    (hp8 : p8 = Cert.Tree.blkJoint W0 B0 W1 B1 W2 B2 8 X0 X1) (hp9 : p9 = Cert.Tree.blkJoint W0 B0 W1 B1 W2 B2 9 X0 X1)
    (hp10 : p10 = Cert.Tree.blkJoint W0 B0 W1 B1 W2 B2 10 X0 X1) (hp11 : p11 = Cert.Tree.blkJoint W0 B0 W1 B1 W2 B2 11 X0 X1)
    (hp12 : p12 = Cert.Tree.blkJoint W0 B0 W1 B1 W2 B2 12 X0 X1) (hp13 : p13 = Cert.Tree.blkJoint W0 B0 W1 B1 W2 B2 13 X0 X1)
    (hp14 : p14 = Cert.Tree.blkJoint W0 B0 W1 B1 W2 B2 14 X0 X1) (hp15 : p15 = Cert.Tree.blkJoint W0 B0 W1 B1 W2 B2 15 X0 X1)
    (hp16 : p16 = Cert.Tree.blkJoint W0 B0 W1 B1 W2 B2 16 X0 X1) (hp17 : p17 = Cert.Tree.blkJoint W0 B0 W1 B1 W2 B2 17 X0 X1)
    (hp18 : p18 = Cert.Tree.blkJoint W0 B0 W1 B1 W2 B2 18 X0 X1) (hp19 : p19 = Cert.Tree.blkJoint W0 B0 W1 B1 W2 B2 19 X0 X1)
    (hp20 : p20 = Cert.Tree.blkJoint W0 B0 W1 B1 W2 B2 20 X0 X1) (hp21 : p21 = Cert.Tree.blkJoint W0 B0 W1 B1 W2 B2 21 X0 X1)
    (hp22 : p22 = Cert.Tree.blkJoint W0 B0 W1 B1 W2 B2 22 X0 X1) (hp23 : p23 = Cert.Tree.blkJoint W0 B0 W1 B1 W2 B2 23 X0 X1) :
    concatenate ⟨2, ![M, 144]⟩ 1 [⟨⟨2, ![M, 96]⟩, c96⟩, ⟨⟨2, ![M, 48]⟩, c48⟩] h144
      = Cert.Tree.blkOut W0 B0 W1 B1 W2 B2 X0 X1 := by
  subst e96 e48

  have e16 : ([⟨⟨2, ![M, 6]⟩, p0⟩, ⟨⟨2, ![M, 6]⟩, p1⟩, ⟨⟨2, ![M, 6]⟩, p2⟩, ⟨⟨2, ![M, 6]⟩, p3⟩, ⟨⟨2, ![M, 6]⟩, p4⟩, ⟨⟨2, ![M, 6]⟩, p5⟩, ⟨⟨2, ![M, 6]⟩, p6⟩, ⟨⟨2, ![M, 6]⟩, p7⟩, ⟨⟨2, ![M, 6]⟩, p8⟩, ⟨⟨2, ![M, 6]⟩, p9⟩, ⟨⟨2, ![M, 6]⟩, p10⟩, ⟨⟨2, ![M, 6]⟩, p11⟩, ⟨⟨2, ![M, 6]⟩, p12⟩, ⟨⟨2, ![M, 6]⟩, p13⟩, ⟨⟨2, ![M, 6]⟩, p14⟩, ⟨⟨2, ![M, 6]⟩, p15⟩] : List ((s : Shape) × (s.Idx → EReal)))
      = List.ofFn fun n : Fin 16 =>
          (⟨⟨2, ![M, 6]⟩, Cert.Tree.blkJoint W0 B0 W1 B1 W2 B2 ⟨n.val, by omega⟩ X0 X1⟩ : (s : Shape) × (s.Idx → EReal)) := by
    rw [hp0, hp1, hp2, hp3, hp4, hp5, hp6, hp7, hp8, hp9, hp10, hp11, hp12, hp13, hp14, hp15]; rfl
  have e8 : ([⟨⟨2, ![M, 6]⟩, p16⟩, ⟨⟨2, ![M, 6]⟩, p17⟩, ⟨⟨2, ![M, 6]⟩, p18⟩, ⟨⟨2, ![M, 6]⟩, p19⟩, ⟨⟨2, ![M, 6]⟩, p20⟩, ⟨⟨2, ![M, 6]⟩, p21⟩, ⟨⟨2, ![M, 6]⟩, p22⟩, ⟨⟨2, ![M, 6]⟩, p23⟩] : List ((s : Shape) × (s.Idx → EReal)))
      = List.ofFn fun n : Fin 8 =>
          (⟨⟨2, ![M, 6]⟩, Cert.Tree.blkJoint W0 B0 W1 B1 W2 B2 ⟨n.val + 16, by omega⟩ X0 X1⟩ : (s : Shape) × (s.Idx → EReal)) := by
    rw [hp16, hp17, hp18, hp19, hp20, hp21, hp22, hp23]; rfl
  funext y
  obtain ⟨r, k, rfl⟩ : ∃ (r : Fin M) (k : Fin 144), y = ix2 r k := ⟨y 0, y 1, eq_ix2 y⟩
  have hk : k.val < 144 := k.isLt
  by_cases hlt : k.val < 96
  ·
    rw [concatenate_pair_apply_left (t := ⟨2, ![M, 144]⟩) (s₁ := ⟨2, ![M, 96]⟩) (s₂ := ⟨2, ![M, 48]⟩) 1 _ _ h144
      (ix2 r k) rfl (ix2 r (⟨k.val, hlt⟩ : Fin 96)) (by intro b; match b with | ⟨0, _⟩ => rfl | ⟨1, _⟩ => rfl)]
    rw [cat6_apply _ _ e16 h96 r (⟨k.val, hlt⟩ : Fin 96) ⟨k.val / 6, by omega⟩ rfl ⟨k.val % 6, Nat.mod_lt _ (by decide)⟩ rfl]
    rfl
  ·
    have hge : 96 ≤ k.val := Nat.not_lt.mp hlt
    rw [concatenate_pair_apply_right (t := ⟨2, ![M, 144]⟩) (s₁ := ⟨2, ![M, 96]⟩) (s₂ := ⟨2, ![M, 48]⟩) 1 _ _ h144
      (ix2 r k) rfl rfl (ix2 r (⟨k.val - 96, by omega⟩ : Fin 48))
      (by intro b hb; match b with | ⟨0, _⟩ => rfl | ⟨1, _⟩ => exact absurd rfl hb)
      (by show k.val - 96 + 96 = k.val; omega)]
    rw [cat6_apply _ _ e8 h48 r (⟨k.val - 96, by omega⟩ : Fin 48) ⟨(k.val - 96) / 6, by omega⟩ rfl
      ⟨(k.val - 96) % 6, Nat.mod_lt _ (by decide)⟩ rfl]
    show Cert.Tree.outAt W0 B0 W1 B1 W2 B2 (Cert.Tree.rowOf X0 r) (Cert.Tree.rowOf X1 r) ⟨(k.val - 96) / 6 + 16, _⟩ ⟨(k.val - 96) % 6, _⟩
      = Cert.Tree.outAt W0 B0 W1 B1 W2 B2 (Cert.Tree.rowOf X0 r) (Cert.Tree.rowOf X1 r) ⟨k.val / 6, _⟩ ⟨k.val % 6, _⟩
    congr 1
    · exact Fin.ext (by show (k.val - 96) / 6 + 16 = k.val / 6; omega)
    · exact Fin.ext (by show (k.val - 96) % 6 = k.val % 6; omega)

end Cert.Tree.RFinal

end
-- ==== Proof.RefEnd.lean ====
import proofs.«142136_j58514634440790_1_alg».proof.Proof.RefV0
import proofs.«142136_j58514634440790_1_alg».proof.Proof.RefV1
import proofs.«142136_j58514634440790_1_alg».proof.Proof.RefV2
import proofs.«142136_j58514634440790_1_alg».proof.Proof.RefV3
import proofs.«142136_j58514634440790_1_alg».proof.Proof.RefV4
import proofs.«142136_j58514634440790_1_alg».proof.Proof.RefV5
import proofs.«142136_j58514634440790_1_alg».proof.Proof.RefV6
import proofs.«142136_j58514634440790_1_alg».proof.Proof.RefV7
import proofs.«142136_j58514634440790_1_alg».proof.Proof.RefRun
import proofs.«142136_j58514634440790_1_alg».proof.Proof.RFinal

noncomputable section

namespace Cert.ReferenceIdeal.RunP

open Cert.ReferenceIdeal Cert.ReferenceIdeal.Gen Idealize.ShloMosaic Idealize.ShloMosaic.TcCoe Idealize.SL.Sem Idealize.ShloMosaic.StableHlo
open Cert.Tree

theorem E1_val (V : Valuation τ sig (Elt Ideal)) : after opsE1 V (Proc.devRef .tc main_v677) = concatenate S262144x96 1 [⟨S262144x6, V (Proc.devRef .tc main_v32)⟩, ⟨S262144x6, V (Proc.devRef .tc main_v60)⟩, ⟨S262144x6, V (Proc.devRef .tc main_v88)⟩, ⟨S262144x6, V (Proc.devRef .tc main_v116)⟩, ⟨S262144x6, V (Proc.devRef .tc main_v144)⟩, ⟨S262144x6, V (Proc.devRef .tc main_v172)⟩, ⟨S262144x6, V (Proc.devRef .tc main_v200)⟩, ⟨S262144x6, V (Proc.devRef .tc main_v228)⟩, ⟨S262144x6, V (Proc.devRef .tc main_v256)⟩, ⟨S262144x6, V (Proc.devRef .tc main_v284)⟩, ⟨S262144x6, V (Proc.devRef .tc main_v312)⟩, ⟨S262144x6, V (Proc.devRef .tc main_v340)⟩, ⟨S262144x6, V (Proc.devRef .tc main_v368)⟩, ⟨S262144x6, V (Proc.devRef .tc main_v396)⟩, ⟨S262144x6, V (Proc.devRef .tc main_v424)⟩, ⟨S262144x6, V (Proc.devRef .tc main_v452)⟩] concatenates_S262144x6_S262144x6_S262144x6_S262144x6_S262144x6_S262144x6_S262144x6_S262144x6_S262144x6_S262144x6_S262144x6_S262144x6_S262144x6_S262144x6_S262144x6_S262144x6_S262144x96_d1 := by
  simp only [opsE1]
  after_results_simp
  try dsimp only [Matrix.cons_val]
  try rfl

theorem E2_val (V : Valuation τ sig (Elt Ideal)) : after opsE2 V (Proc.devRef .tc main_v678) = concatenate S262144x48 1 [⟨S262144x6, V (Proc.devRef .tc main_v480)⟩, ⟨S262144x6, V (Proc.devRef .tc main_v508)⟩, ⟨S262144x6, V (Proc.devRef .tc main_v536)⟩, ⟨S262144x6, V (Proc.devRef .tc main_v564)⟩, ⟨S262144x6, V (Proc.devRef .tc main_v592)⟩, ⟨S262144x6, V (Proc.devRef .tc main_v620)⟩, ⟨S262144x6, V (Proc.devRef .tc main_v648)⟩, ⟨S262144x6, V (Proc.devRef .tc main_v676)⟩] concatenates_S262144x6_S262144x6_S262144x6_S262144x6_S262144x6_S262144x6_S262144x6_S262144x6_S262144x48_d1 := by
  simp only [opsE2]
  after_results_simp
  try dsimp only [Matrix.cons_val]
  try rfl

theorem E3_val (V : Valuation τ sig (Elt Ideal)) : after opsE3 V (Proc.devRef .tc main_v679) = concatenate S262144x144 1 [⟨S262144x96, V (Proc.devRef .tc main_v677)⟩, ⟨S262144x48, V (Proc.devRef .tc main_v678)⟩] concatenates_S262144x96_S262144x48_S262144x144_d1 := by
  simp only [opsE3]
  after_results_simp
  try rfl

theorem nw0 : main_arg0 ∉ Ws.flatten := by decide
theorem nw1 : main_arg1 ∉ Ws.flatten := by decide
theorem nw2 : main_arg2 ∉ Ws.flatten := by decide
theorem nw3 : main_arg3 ∉ Ws.flatten := by decide
theorem nw4 : main_arg4 ∉ Ws.flatten := by decide
theorem nw5 : main_arg5 ∉ Ws.flatten := by decide
theorem nw6 : main_arg6 ∉ Ws.flatten := by decide
theorem nw7 : main_arg7 ∉ Ws.flatten := by decide

theorem wI : Writes (Ss (F := Ideal)) Ws := writes

/-- Single assignment: every joint's outputs, and with them the result, are the row-wise tree of the arguments. -/
theorem result (V0 : Valuation τ sig (Elt Ideal)) (A0 : FVec Ideal S262144x24x9 .f32) (A1 : FVec Ideal S262144x24x3 .f32) (A2 : FVec Ideal S6x288 .f32) (A3 : FVec Ideal S6 .f32) (A4 : FVec Ideal S24x19x19 .f32) (A5 : FVec Ideal S24x19 .f32) (A6 : FVec Ideal S24x6x19 .f32) (A7 : FVec Ideal S24x6 .f32)
    (g0 : V0 (Proc.devRef .tc main_arg0) = A0) (g1 : V0 (Proc.devRef .tc main_arg1) = A1) (g2 : V0 (Proc.devRef .tc main_arg2) = A2) (g3 : V0 (Proc.devRef .tc main_arg3) = A3) (g4 : V0 (Proc.devRef .tc main_arg4) = A4) (g5 : V0 (Proc.devRef .tc main_arg5) = A5) (g6 : V0 (Proc.devRef .tc main_arg6) = A6) (g7 : V0 (Proc.devRef .tc main_arg7) = A7) :
    after ops V0 (Proc.devRef .tc main_v679) = Cert.Tree.G (M := 262144) A2 A3 A4 A5 A6 A7 A0 A1 := by
  have a0 := fun s => Writes.arg wI V0 s nw0 g0
  have a1 := fun s => Writes.arg wI V0 s nw1 g1
  have a2 := fun s => Writes.arg wI V0 s nw2 g2
  have a3 := fun s => Writes.arg wI V0 s nw3 g3
  have a4 := fun s => Writes.arg wI V0 s nw4 g4
  have a5 := fun s => Writes.arg wI V0 s nw5 g5
  have a6 := fun s => Writes.arg wI V0 s nw6 g6
  have a7 := fun s => Writes.arg wI V0 s nw7 g7
  have o0 := Writes.out wI V0 2 rfl (by decide) (J0c_out _ A0 A1 A2 A3 A4 A5 A6 A7
    (Writes.next wI V0 1 rfl (by decide) (J0b_rot _ A0 (a0 1))) (Writes.next wI V0 1 rfl (by decide) (J0b_jtr _ A1 (a1 1))) (Writes.next wI V0 1 rfl (by decide) (J0b_bone _ A1 (a1 1)))
    (Writes.next wI V0 1 rfl (by decide) (J0b_glob _ A0 A1 A2 A3 (Writes.next wI V0 0 rfl (by decide) (J0a_flat0 _ A0 (a0 0))) (Writes.next wI V0 0 rfl (by decide) (J0a_flat1 _ A1 (a1 0))) (a2 1) (a3 1)))
    (a4 2) (a5 2) (a6 2) (a7 2))
  have o1 := Writes.out wI V0 4 rfl (by decide) (J1b_out _ A0 A1 A2 A3 A4 A5 A6 A7
    (Writes.next wI V0 3 rfl (by decide) (J1a_rot _ A0 (a0 3))) (Writes.next wI V0 3 rfl (by decide) (J1a_jtr _ A1 (a1 3))) (Writes.next wI V0 3 rfl (by decide) (J1a_bone _ A1 (a1 3)))
    (Writes.pre wI V0 4 (by decide) o0) (a4 4) (a5 4) (a6 4) (a7 4))
  have o2 := Writes.out wI V0 6 rfl (by decide) (J2b_out _ A0 A1 A2 A3 A4 A5 A6 A7
    (Writes.next wI V0 5 rfl (by decide) (J2a_rot _ A0 (a0 5))) (Writes.next wI V0 5 rfl (by decide) (J2a_jtr _ A1 (a1 5))) (Writes.next wI V0 5 rfl (by decide) (J2a_bone _ A1 (a1 5)))
    (Writes.pre wI V0 6 (by decide) o0) (a4 6) (a5 6) (a6 6) (a7 6))
  have o3 := Writes.out wI V0 8 rfl (by decide) (J3b_out _ A0 A1 A2 A3 A4 A5 A6 A7
    (Writes.next wI V0 7 rfl (by decide) (J3a_rot _ A0 (a0 7))) (Writes.next wI V0 7 rfl (by decide) (J3a_jtr _ A1 (a1 7))) (Writes.next wI V0 7 rfl (by decide) (J3a_bone _ A1 (a1 7)))
    (Writes.pre wI V0 8 (by decide) o0) (a4 8) (a5 8) (a6 8) (a7 8))
  have o4 := Writes.out wI V0 10 rfl (by decide) (J4b_out _ A0 A1 A2 A3 A4 A5 A6 A7
    (Writes.next wI V0 9 rfl (by decide) (J4a_rot _ A0 (a0 9))) (Writes.next wI V0 9 rfl (by decide) (J4a_jtr _ A1 (a1 9))) (Writes.next wI V0 9 rfl (by decide) (J4a_bone _ A1 (a1 9)))
    (Writes.pre wI V0 10 (by decide) o1) (a4 10) (a5 10) (a6 10) (a7 10))
  have o5 := Writes.out wI V0 12 rfl (by decide) (J5b_out _ A0 A1 A2 A3 A4 A5 A6 A7
    (Writes.next wI V0 11 rfl (by decide) (J5a_rot _ A0 (a0 11))) (Writes.next wI V0 11 rfl (by decide) (J5a_jtr _ A1 (a1 11))) (Writes.next wI V0 11 rfl (by decide) (J5a_bone _ A1 (a1 11)))
    (Writes.pre wI V0 12 (by decide) o2) (a4 12) (a5 12) (a6 12) (a7 12))
  have o6 := Writes.out wI V0 14 rfl (by decide) (J6b_out _ A0 A1 A2 A3 A4 A5 A6 A7
    (Writes.next wI V0 13 rfl (by decide) (J6a_rot _ A0 (a0 13))) (Writes.next wI V0 13 rfl (by decide) (J6a_jtr _ A1 (a1 13))) (Writes.next wI V0 13 rfl (by decide) (J6a_bone _ A1 (a1 13)))
    (Writes.pre wI V0 14 (by decide) o3) (a4 14) (a5 14) (a6 14) (a7 14))
  have o7 := Writes.out wI V0 16 rfl (by decide) (J7b_out _ A0 A1 A2 A3 A4 A5 A6 A7
    (Writes.next wI V0 15 rfl (by decide) (J7a_rot _ A0 (a0 15))) (Writes.next wI V0 15 rfl (by decide) (J7a_jtr _ A1 (a1 15))) (Writes.next wI V0 15 rfl (by decide) (J7a_bone _ A1 (a1 15)))
    (Writes.pre wI V0 16 (by decide) o4) (a4 16) (a5 16) (a6 16) (a7 16))
  have o8 := Writes.out wI V0 18 rfl (by decide) (J8b_out _ A0 A1 A2 A3 A4 A5 A6 A7
    (Writes.next wI V0 17 rfl (by decide) (J8a_rot _ A0 (a0 17))) (Writes.next wI V0 17 rfl (by decide) (J8a_jtr _ A1 (a1 17))) (Writes.next wI V0 17 rfl (by decide) (J8a_bone _ A1 (a1 17)))
    (Writes.pre wI V0 18 (by decide) o5) (a4 18) (a5 18) (a6 18) (a7 18))
  have o9 := Writes.out wI V0 20 rfl (by decide) (J9b_out _ A0 A1 A2 A3 A4 A5 A6 A7
    (Writes.next wI V0 19 rfl (by decide) (J9a_rot _ A0 (a0 19))) (Writes.next wI V0 19 rfl (by decide) (J9a_jtr _ A1 (a1 19))) (Writes.next wI V0 19 rfl (by decide) (J9a_bone _ A1 (a1 19)))
    (Writes.pre wI V0 20 (by decide) o6) (a4 20) (a5 20) (a6 20) (a7 20))
  have o10 := Writes.out wI V0 22 rfl (by decide) (J10b_out _ A0 A1 A2 A3 A4 A5 A6 A7
    (Writes.next wI V0 21 rfl (by decide) (J10a_rot _ A0 (a0 21))) (Writes.next wI V0 21 rfl (by decide) (J10a_jtr _ A1 (a1 21))) (Writes.next wI V0 21 rfl (by decide) (J10a_bone _ A1 (a1 21)))
    (Writes.pre wI V0 22 (by decide) o7) (a4 22) (a5 22) (a6 22) (a7 22))
  have o11 := Writes.out wI V0 24 rfl (by decide) (J11b_out _ A0 A1 A2 A3 A4 A5 A6 A7
    (Writes.next wI V0 23 rfl (by decide) (J11a_rot _ A0 (a0 23))) (Writes.next wI V0 23 rfl (by decide) (J11a_jtr _ A1 (a1 23))) (Writes.next wI V0 23 rfl (by decide) (J11a_bone _ A1 (a1 23)))
    (Writes.pre wI V0 24 (by decide) o8) (a4 24) (a5 24) (a6 24) (a7 24))
  have o12 := Writes.out wI V0 26 rfl (by decide) (J12b_out _ A0 A1 A2 A3 A4 A5 A6 A7
    (Writes.next wI V0 25 rfl (by decide) (J12a_rot _ A0 (a0 25))) (Writes.next wI V0 25 rfl (by decide) (J12a_jtr _ A1 (a1 25))) (Writes.next wI V0 25 rfl (by decide) (J12a_bone _ A1 (a1 25)))
    (Writes.pre wI V0 26 (by decide) o9) (a4 26) (a5 26) (a6 26) (a7 26))
  have o13 := Writes.out wI V0 28 rfl (by decide) (J13b_out _ A0 A1 A2 A3 A4 A5 A6 A7
    (Writes.next wI V0 27 rfl (by decide) (J13a_rot _ A0 (a0 27))) (Writes.next wI V0 27 rfl (by decide) (J13a_jtr _ A1 (a1 27))) (Writes.next wI V0 27 rfl (by decide) (J13a_bone _ A1 (a1 27)))
    (Writes.pre wI V0 28 (by decide) o9) (a4 28) (a5 28) (a6 28) (a7 28))
  have o14 := Writes.out wI V0 30 rfl (by decide) (J14b_out _ A0 A1 A2 A3 A4 A5 A6 A7
    (Writes.next wI V0 29 rfl (by decide) (J14a_rot _ A0 (a0 29))) (Writes.next wI V0 29 rfl (by decide) (J14a_jtr _ A1 (a1 29))) (Writes.next wI V0 29 rfl (by decide) (J14a_bone _ A1 (a1 29)))
    (Writes.pre wI V0 30 (by decide) o9) (a4 30) (a5 30) (a6 30) (a7 30))
  have o15 := Writes.out wI V0 32 rfl (by decide) (J15b_out _ A0 A1 A2 A3 A4 A5 A6 A7
    (Writes.next wI V0 31 rfl (by decide) (J15a_rot _ A0 (a0 31))) (Writes.next wI V0 31 rfl (by decide) (J15a_jtr _ A1 (a1 31))) (Writes.next wI V0 31 rfl (by decide) (J15a_bone _ A1 (a1 31)))
    (Writes.pre wI V0 32 (by decide) o12) (a4 32) (a5 32) (a6 32) (a7 32))
  have o16 := Writes.out wI V0 34 rfl (by decide) (J16b_out _ A0 A1 A2 A3 A4 A5 A6 A7
    (Writes.next wI V0 33 rfl (by decide) (J16a_rot _ A0 (a0 33))) (Writes.next wI V0 33 rfl (by decide) (J16a_jtr _ A1 (a1 33))) (Writes.next wI V0 33 rfl (by decide) (J16a_bone _ A1 (a1 33)))
    (Writes.pre wI V0 34 (by decide) o13) (a4 34) (a5 34) (a6 34) (a7 34))
  have o17 := Writes.out wI V0 36 rfl (by decide) (J17b_out _ A0 A1 A2 A3 A4 A5 A6 A7
    (Writes.next wI V0 35 rfl (by decide) (J17a_rot _ A0 (a0 35))) (Writes.next wI V0 35 rfl (by decide) (J17a_jtr _ A1 (a1 35))) (Writes.next wI V0 35 rfl (by decide) (J17a_bone _ A1 (a1 35)))
    (Writes.pre wI V0 36 (by decide) o14) (a4 36) (a5 36) (a6 36) (a7 36))
  have o18 := Writes.out wI V0 38 rfl (by decide) (J18b_out _ A0 A1 A2 A3 A4 A5 A6 A7
    (Writes.next wI V0 37 rfl (by decide) (J18a_rot _ A0 (a0 37))) (Writes.next wI V0 37 rfl (by decide) (J18a_jtr _ A1 (a1 37))) (Writes.next wI V0 37 rfl (by decide) (J18a_bone _ A1 (a1 37)))
    (Writes.pre wI V0 38 (by decide) o16) (a4 38) (a5 38) (a6 38) (a7 38))
  have o19 := Writes.out wI V0 40 rfl (by decide) (J19b_out _ A0 A1 A2 A3 A4 A5 A6 A7
    (Writes.next wI V0 39 rfl (by decide) (J19a_rot _ A0 (a0 39))) (Writes.next wI V0 39 rfl (by decide) (J19a_jtr _ A1 (a1 39))) (Writes.next wI V0 39 rfl (by decide) (J19a_bone _ A1 (a1 39)))
    (Writes.pre wI V0 40 (by decide) o17) (a4 40) (a5 40) (a6 40) (a7 40))
  have o20 := Writes.out wI V0 42 rfl (by decide) (J20b_out _ A0 A1 A2 A3 A4 A5 A6 A7
    (Writes.next wI V0 41 rfl (by decide) (J20a_rot _ A0 (a0 41))) (Writes.next wI V0 41 rfl (by decide) (J20a_jtr _ A1 (a1 41))) (Writes.next wI V0 41 rfl (by decide) (J20a_bone _ A1 (a1 41)))
    (Writes.pre wI V0 42 (by decide) o18) (a4 42) (a5 42) (a6 42) (a7 42))
  have o21 := Writes.out wI V0 44 rfl (by decide) (J21b_out _ A0 A1 A2 A3 A4 A5 A6 A7
    (Writes.next wI V0 43 rfl (by decide) (J21a_rot _ A0 (a0 43))) (Writes.next wI V0 43 rfl (by decide) (J21a_jtr _ A1 (a1 43))) (Writes.next wI V0 43 rfl (by decide) (J21a_bone _ A1 (a1 43)))
    (Writes.pre wI V0 44 (by decide) o19) (a4 44) (a5 44) (a6 44) (a7 44))
  have o22 := Writes.out wI V0 46 rfl (by decide) (J22b_out _ A0 A1 A2 A3 A4 A5 A6 A7
    (Writes.next wI V0 45 rfl (by decide) (J22a_rot _ A0 (a0 45))) (Writes.next wI V0 45 rfl (by decide) (J22a_jtr _ A1 (a1 45))) (Writes.next wI V0 45 rfl (by decide) (J22a_bone _ A1 (a1 45)))
    (Writes.pre wI V0 46 (by decide) o20) (a4 46) (a5 46) (a6 46) (a7 46))
  have o23 := Writes.out wI V0 48 rfl (by decide) (J23b_out _ A0 A1 A2 A3 A4 A5 A6 A7
    (Writes.next wI V0 47 rfl (by decide) (J23a_rot _ A0 (a0 47))) (Writes.next wI V0 47 rfl (by decide) (J23a_jtr _ A1 (a1 47))) (Writes.next wI V0 47 rfl (by decide) (J23a_bone _ A1 (a1 47)))
    (Writes.pre wI V0 48 (by decide) o21) (a4 48) (a5 48) (a6 48) (a7 48))
  refine Writes.out wI V0 51 rfl (by decide) ((E3_val _).trans ?_)
  exact Cert.Tree.RFinal.cat24_eq (M := 262144) A2 A3 A4 A5 A6 A7 (flatRot A0) (flatJtr A1) _ _ _ _ _ _ _ _ _ _ _ _ _ _ _ _ _ _ _ _ _ _ _ _ _ _ _ _ _
    (Writes.pre wI V0 51 (by decide) (Writes.out wI V0 49 rfl (by decide) (E1_val _))) (Writes.next wI V0 50 rfl (by decide) (E2_val _))
    (Writes.pre wI V0 49 (by decide) o0) (Writes.pre wI V0 49 (by decide) o1) (Writes.pre wI V0 49 (by decide) o2) (Writes.pre wI V0 49 (by decide) o3) (Writes.pre wI V0 49 (by decide) o4) (Writes.pre wI V0 49 (by decide) o5) (Writes.pre wI V0 49 (by decide) o6) (Writes.pre wI V0 49 (by decide) o7) (Writes.pre wI V0 49 (by decide) o8) (Writes.pre wI V0 49 (by decide) o9) (Writes.pre wI V0 49 (by decide) o10) (Writes.pre wI V0 49 (by decide) o11) (Writes.pre wI V0 49 (by decide) o12) (Writes.pre wI V0 49 (by decide) o13) (Writes.pre wI V0 49 (by decide) o14) (Writes.pre wI V0 49 (by decide) o15)
    (Writes.pre wI V0 50 (by decide) o16) (Writes.pre wI V0 50 (by decide) o17) (Writes.pre wI V0 50 (by decide) o18) (Writes.pre wI V0 50 (by decide) o19) (Writes.pre wI V0 50 (by decide) o20) (Writes.pre wI V0 50 (by decide) o21) (Writes.pre wI V0 50 (by decide) o22) (Writes.pre wI V0 50 (by decide) o23)

/-- Every weakly fair execution of the reference terminates with the result at the row-wise tree of the arguments, and the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v679) = Cert.Tree.G (M := 262144) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => by
    have k := fun (b : Ref sig .tc) (hb : b ∉ Ws.flatten) => (h c b).trans (Writes.keep wI (launchContents m c) hb)
    exact ⟨(h c main_v679).trans (result (launchContents m c) _ _ _ _ _ _ _ _ rfl rfl rfl rfl rfl rfl rfl rfl), k _ nw0, k _ nw1, k _ nw2, k _ nw3, k _ nw4, k _ nw5, k _ nw6, k _ nw7⟩)
    (run0 (F := Ideal) m ρ)

end Cert.ReferenceIdeal.RunP

end
-- ==== Proof.lean ====
import proofs.«142136_j58514634440790_1_alg».proof.Defs
import proofs.«142136_j58514634440790_1_alg».proof.Proof.Gen.Kernel
import proofs.«142136_j58514634440790_1_alg».proof.Proof.Gen.Kernel.Skeleton
import proofs.«142136_j58514634440790_1_alg».proof.Proof.Gen.Kernel.Launch
import proofs.«142136_j58514634440790_1_alg».proof.Proof.Gen.Kernel.Points
import proofs.«142136_j58514634440790_1_alg».proof.Proof.Gen.Kernel.Frame
import proofs.«142136_j58514634440790_1_alg».proof.Proof.Gen.KernelIdeal
import proofs.«142136_j58514634440790_1_alg».proof.Proof.Gen.KernelIdeal.Skeleton
import proofs.«142136_j58514634440790_1_alg».proof.Proof.Gen.KernelIdeal.Launch
import proofs.«142136_j58514634440790_1_alg».proof.Proof.Gen.KernelIdeal.Points
import proofs.«142136_j58514634440790_1_alg».proof.Proof.Gen.KernelIdeal.Frame
import proofs.«142136_j58514634440790_1_alg».proof.Proof.Gen.ReferenceIdeal
import proofs.«142136_j58514634440790_1_alg».proof.Proof.Gen.Pre_finite_inputs
import proofs.«142136_j58514634440790_1_alg».proof.Proof.Gen.KernelIdeal.Value
import proofs.«142136_j58514634440790_1_alg».proof.Proof.KFinal
import proofs.«142136_j58514634440790_1_alg».proof.Proof.KPieces
import proofs.«142136_j58514634440790_1_alg».proof.Proof.RefEnd
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.RunP.run m ρ)

theorem algebraic : Cert.algebraic_KernelIdeal_ReferenceIdeal := by
  intro m ρ m' ρ' _ hagree
  refine ⟨_, Cert.KernelIdeal.KValue.run Cert.KernelIdeal.KPieces.pieces_eq m ρ, ?_⟩
  refine (θ_run Cert.ReferenceIdeal.defs _ _).mono (fun _ h c => ⟨(h c).1.trans ?_, (h c).2⟩)
    (Cert.ReferenceIdeal.RunP.run m' ρ')
  obtain ⟨e0, e1, e2, e3, e4, e5, e6, e7⟩ := hagree c
  rw [e0, e1, e2, e3, e4, e5, e6, e7]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
